-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S1600000 : Shape := ⟨1, ![1600000]⟩
abbrev S8x64 : Shape := ⟨2, ![8, 64]⟩
abbrev S128x1 : Shape := ⟨2, ![128, 1]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S128x1 : S_.BroadcastsInDim S128x1 (![] : Fin 0 → Fin S128x1.rank)
  reducesTo_S128x1_S_d0_1 : S128x1.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part7 {F : FTy → Type} [FloatOps F] (main_v115 : IVec S_ 1) (main_v117 : IVec S2x1600000 1) (main_c_47 : IVec S_ 1) : IVec S_ 1 :=
  let main_v118 : IVec S_ 1 := (fun x v => Host.reduce IntOp.andi x v reducesTo_S2x1600000_S_d0_1 h_S_) main_v117 main_c_47
  let main_v119 : IVec S_ 1 := andi main_v115 main_v118
  main_v119

def fn_part6 {F : FTy → Type} [FloatOps F] (main_arg1 : IVec S2x1600000 32) (main_arg3 : IVec S2x1600000 32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_c_40 : IVec S_ 32 := constantI S_ 32 0#32
  let main_v104 : IVec S2x1600000 32 := broadcastInDim S2x1600000 ![] bcast_S_S2x1600000 main_c_40
  let main_v105 : IVec S2x1600000 1 := cmpi .sge main_arg1 main_v104
  let main_c_41 : IVec S_ 1 := constantI S_ 1 1#1
  let main_v106 : IVec S_ 1 := (fun x v => Host.reduce IntOp.andi x v reducesTo_S2x1600000_S_d0_1 h_S_) main_v105 main_c_41
  let main_v107 : IVec S_ 1 := andi main_v103 main_v106
  let main_c_42 : IVec S_ 32 := constantI S_ 32 100000#32
  let main_v108 : IVec S2x1600000 32 := broadcastInDim S2x1600000 ![] bcast_S_S2x1600000 main_c_42
  let main_v109 : IVec S2x1600000 1 := cmpi .slt main_arg1 main_v108
  let main_c_43 : IVec S_ 1 := constantI S_ 1 1#1
  let main_v110 : IVec S_ 1 := (fun x v => Host.reduce IntOp.andi x v reducesTo_S2x1600000_S_d0_1 h_S_) main_v109 main_c_43
  let main_v111 : IVec S_ 1 := andi main_v107 main_v110
  let main_c_44 : IVec S_ 32 := constantI S_ 32 0#32
  let main_v112 : IVec S2x1600000 32 := broadcastInDim S2x1600000 ![] bcast_S_S2x1600000 main_c_44
  let main_v113 : IVec S2x1600000 1 := cmpi .sge main_arg3 main_v112
  let main_c_45 : IVec S_ 1 := constantI S_ 1 1#1
  let main_v114 : IVec S_ 1 := (fun x v => Host.reduce IntOp.andi x v reducesTo_S2x1600000_S_d0_1 h_S_) main_v113 main_c_45
  let main_v115 : IVec S_ 1 := andi main_v111 main_v114
  let main_c_46 : IVec S_ 32 := constantI S_ 32 100000#32
  let main_v116 : IVec S2x1600000 32 := broadcastInDim S2x1600000 ![] bcast_S_S2x1600000 main_c_46
  let main_v117 : IVec S2x1600000 1 := cmpi .slt main_arg3 main_v116
  let main_c_47 : IVec S_ 1 := constantI S_ 1 1#1
  fn_part7 (F := F) main_v115 main_v117 main_c_47

def fn_part5 {F : FTy → Type} [FloatOps F] (main_arg1 : IVec S2x1600000 32) (main_arg3 : IVec S2x1600000 32) (main_arg21 : FVec F S32 .f32) (main_arg22 : FVec F S32x1 .f32) (main_arg23 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg22
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg23
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg1 main_arg3 main_v98 main_v101 main_c_39

def fn_part4 {F : FTy → Type} [FloatOps F] (main_arg1 : IVec S2x1600000 32) (main_arg3 : IVec S2x1600000 32) (main_arg17 : FVec F S128x1 .f32) (main_arg18 : FVec F S64 .f32) (main_arg19 : FVec F S64 .f32) (main_arg20 : FVec F S64x32 .f32) (main_arg21 : FVec F S32 .f32) (main_arg22 : FVec F S32x1 .f32) (main_arg23 : FVec F S1 .f32) (main_v63 : IVec S_ 1) (main_v67 : IVec S_ 1) : IVec S_ 1 :=
  let main_v68 : IVec S_ 1 := andi main_v63 main_v67
  let main_v69 : FVec F S128x1 .f32 := Host.absf main_arg17
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg20
  let main_cst_32 : FVec F S_ .f32 := constant S_ .f32 0x7F800000#32
  fn_part5 (F := F) main_arg1 main_arg3 main_arg21 main_arg22 main_arg23 main_v83 main_v84 main_cst_32

def fn_part3 {F : FTy → Type} [FloatOps F] (main_arg1 : IVec S2x1600000 32) (main_arg3 : IVec S2x1600000 32) (main_arg14 : FVec F S64 .f32) (main_arg15 : FVec F S64 .f32) (main_arg16 : FVec F S64x64 .f32) (main_arg17 : FVec F S128x1 .f32) (main_arg18 : FVec F S64 .f32) (main_arg19 : FVec F S64 .f32) (main_arg20 : FVec F S64x32 .f32) (main_arg21 : FVec F S32 .f32) (main_arg22 : FVec F S32x1 .f32) (main_arg23 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg16
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg3 main_arg17 main_arg18 main_arg19 main_arg20 main_arg21 main_arg22 main_arg23 main_v63 main_v67

def fn_part2 {F : FTy → Type} [FloatOps F] (main_arg1 : IVec S2x1600000 32) (main_arg3 : IVec S2x1600000 32) (main_arg10 : FVec F S64 .f32) (main_arg11 : FVec F S64 .f32) (main_arg12 : FVec F S8x64 .f32) (main_arg13 : FVec F S128x1 .f32) (main_arg14 : FVec F S64 .f32) (main_arg15 : FVec F S64 .f32) (main_arg16 : FVec F S64x64 .f32) (main_arg17 : FVec F S128x1 .f32) (main_arg18 : FVec F S64 .f32) (main_arg19 : FVec F S64 .f32) (main_arg20 : FVec F S64x32 .f32) (main_arg21 : FVec F S32 .f32) (main_arg22 : FVec F S32x1 .f32) (main_arg23 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S8x64 .f32 := Host.absf main_arg12
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg1 main_arg3 main_arg14 main_arg15 main_arg16 main_arg17 main_arg18 main_arg19 main_arg20 main_arg21 main_arg22 main_arg23 main_v48 main_v49 main_v50

def fn_part1 {F : FTy → Type} [FloatOps F] (main_arg1 : IVec S2x1600000 32) (main_arg3 : IVec S2x1600000 32) (main_arg7 : FVec F S64 .f32) (main_arg8 : FVec F S64x64 .f32) (main_arg9 : FVec F S128x1 .f32) (main_arg10 : FVec F S64 .f32) (main_arg11 : FVec F S64 .f32) (main_arg12 : FVec F S8x64 .f32) (main_arg13 : FVec F S128x1 .f32) (main_arg14 : FVec F S64 .f32) (main_arg15 : FVec F S64 .f32) (main_arg16 : FVec F S64x64 .f32) (main_arg17 : FVec F S128x1 .f32) (main_arg18 : FVec F S64 .f32) (main_arg19 : FVec F S64 .f32) (main_arg20 : FVec F S64x32 .f32) (main_arg21 : FVec F S32 .f32) (main_arg22 : FVec F S32x1 .f32) (main_arg23 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128x1 .f32 := Host.absf main_arg9
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg3 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x8 .f32) (main_arg1 : IVec S2x1600000 32) (main_arg2 : IVec S1600000 32) (main_arg3 : IVec S2x1600000 32) (main_arg4 : FVec F S8x64 .f32) (main_arg5 : FVec F S128x1 .f32) (main_arg6 : FVec F S64 .f32) (main_arg7 : FVec F S64 .f32) (main_arg8 : FVec F S64x64 .f32) (main_arg9 : FVec F S128x1 .f32) (main_arg10 : FVec F S64 .f32) (main_arg11 : FVec F S64 .f32) (main_arg12 : FVec F S8x64 .f32) (main_arg13 : FVec F S128x1 .f32) (main_arg14 : FVec F S64 .f32) (main_arg15 : FVec F S64 .f32) (main_arg16 : FVec F S64x64 .f32) (main_arg17 : FVec F S128x1 .f32) (main_arg18 : FVec F S64 .f32) (main_arg19 : FVec F S64 .f32) (main_arg20 : FVec F S64x32 .f32) (main_arg21 : FVec F S32 .f32) (main_arg22 : FVec F S32x1 .f32) (main_arg23 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg4
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S128x1 .f32 := Host.absf main_arg5
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg3 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x8 : Shape := ⟨2, ![100000, 8]⟩
abbrev S2x1600000 : Shape := ⟨2, ![2, 1600000]⟩
abbrev S1600000 : Shape := ⟨1, ![1600000]⟩
abbrev S8x64 : Shape := ⟨2, ![8, 64]⟩
abbrev S128x1 : Shape := ⟨2, ![128, 1]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S1x64 : Shape := ⟨2, ![1, 64]⟩
abbrev S100000x64 : Shape := ⟨2, ![100000, 64]⟩
abbrev S10000x8 : Shape := ⟨2, ![10000, 8]⟩
abbrev S10000x64 : Shape := ⟨2, ![10000, 64]⟩
abbrev S1600000x1 : Shape := ⟨2, ![1600000, 1]⟩
abbrev S1x1 : Shape := ⟨2, ![1, 1]⟩
abbrev S1600000x64 : Shape := ⟨2, ![1600000, 64]⟩
abbrev S8000x64 : Shape := ⟨2, ![8000, 64]⟩
abbrev S8000x1 : Shape := ⟨2, ![8000, 1]⟩
abbrev S8000 : Shape := ⟨1, ![8000]⟩
abbrev S2 : Shape := ⟨1, ![2]⟩
abbrev S1x2 : Shape := ⟨2, ![1, 2]⟩
abbrev S10000 : Shape := ⟨1, ![10000]⟩
abbrev S10000x1 : Shape := ⟨2, ![10000, 1]⟩
abbrev S1x32 : Shape := ⟨2, ![1, 32]⟩
abbrev S100000x32 : Shape := ⟨2, ![100000, 32]⟩
abbrev S10000x32 : Shape := ⟨2, ![10000, 32]⟩
abbrev S100000x1 : Shape := ⟨2, ![100000, 1]⟩

abbrev nBuf : Space → Nat
  | .hbm => 329
  | .vmem => 116
  | .smem => 0
  | _ => 0

abbrev hbmTy0_0 (i : Nat) : BufTy := match i % 128 with
  | 0 => ⟨S100000x8, .f32⟩
  | 1 => ⟨S2x1600000, .i32⟩
  | 2 => ⟨S1600000, .i32⟩
  | 3 => ⟨S2x1600000, .i32⟩
  | 4 => ⟨S8x64, .f32⟩
  | 5 => ⟨S128x1, .f32⟩
  | 6 => ⟨S64, .f32⟩
  | 7 => ⟨S64, .f32⟩
  | 8 => ⟨S64x64, .f32⟩
  | 9 => ⟨S128x1, .f32⟩
  | 10 => ⟨S64, .f32⟩
  | 11 => ⟨S64, .f32⟩
  | 12 => ⟨S8x64, .f32⟩
  | 13 => ⟨S128x1, .f32⟩
  | 14 => ⟨S64, .f32⟩
  | 15 => ⟨S64, .f32⟩
  | 16 => ⟨S64x64, .f32⟩
  | 17 => ⟨S128x1, .f32⟩
  | 18 => ⟨S64, .f32⟩
  | 19 => ⟨S64, .f32⟩
  | 20 => ⟨S64x32, .f32⟩
  | 21 => ⟨S32, .f32⟩
  | 22 => ⟨S32x1, .f32⟩
  | 23 => ⟨S1, .f32⟩
  | 24 => ⟨S1x1600000, .i32⟩
  | 25 => ⟨S1600000, .i32⟩
  | 26 => ⟨S1x1600000, .i32⟩
  | 27 => ⟨S1600000, .i32⟩
  | 28 => ⟨S1x1600000, .i32⟩
  | 29 => ⟨S1600000, .i32⟩
  | 30 => ⟨S1x1600000, .i32⟩
  | 31 => ⟨S1600000, .i32⟩
  | 32 => ⟨S_, .f32⟩
  | 33 => ⟨S64, .f32⟩
  | 34 => ⟨S1x64, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1, .i32⟩
  | 45 => ⟨S_, .i32⟩
  | 46 => ⟨S1600000x1, .i32⟩
  | 47 => ⟨S1600000x1, .i1⟩
  | 48 => ⟨S1x1, .i32⟩
  | 49 => ⟨S1600000x1, .i32⟩
  | 50 => ⟨S1600000x1, .i1⟩
  | 51 => ⟨S1600000x1, .i1⟩
  | 52 => ⟨S_, .i1⟩
  | 53 => ⟨S1600000, .i1⟩
  | 54 => ⟨S1600000x64, .f32⟩
  | 55 => ⟨S1600000x64, .i1⟩
  | 56 => ⟨S_, .f32⟩
  | 57 => ⟨S1600000x64, .f32⟩
  | 58 => ⟨S1600000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1, .i32⟩
  | 68 => ⟨S_, .i32⟩
  | 69 => ⟨S1600000x1, .i32⟩
  | 70 => ⟨S1600000x1, .i1⟩
  | 71 => ⟨S1x1, .i32⟩
  | 72 => ⟨S1600000x1, .i32⟩
  | 73 => ⟨S1600000x1, .i1⟩
  | 74 => ⟨S1600000x1, .i1⟩
  | 75 => ⟨S_, .i1⟩
  | 76 => ⟨S1600000, .i1⟩
  | 77 => ⟨S1600000x64, .f32⟩
  | 78 => ⟨S1600000x64, .i1⟩
  | 79 => ⟨S_, .f32⟩
  | 80 => ⟨S1600000x64, .f32⟩
  | 81 => ⟨S1600000x64, .f32⟩
  | 82 => ⟨S_, .f32⟩
  | 83 => ⟨S_, .f32⟩
  | 84 => ⟨S1x1, .f32⟩
  | 85 => ⟨S1600000x1, .f32⟩
  | 86 => ⟨S_, .f32⟩
  | 87 => ⟨S_, .f32⟩
  | 88 => ⟨S1600000x1, .f32⟩
  | 89 => ⟨S1600000x1, .f32⟩
  | 90 => ⟨S1600000x1, .f32⟩
  | 91 => ⟨S_, .f32⟩
  | 92 => ⟨S_, .f32⟩
  | 93 => ⟨S1, .f32⟩
  | 94 => ⟨S1, .f32⟩
  | 95 => ⟨S2, .f32⟩
  | 96 => ⟨S1x2, .f32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S1x64, .f32⟩
  | 103 => ⟨S1x64, .f32⟩
  | 104 => ⟨S100000x64, .f32⟩
  | 105 => ⟨S_, .f32⟩
  | 106 => ⟨S64, .f32⟩
  | 107 => ⟨S1x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1, .i32⟩
  | 118 => ⟨S_, .i32⟩
  | 119 => ⟨S1600000x1, .i32⟩
  | 120 => ⟨S1600000x1, .i1⟩
  | 121 => ⟨S1x1, .i32⟩
  | 122 => ⟨S1600000x1, .i32⟩
  | 123 => ⟨S1600000x1, .i1⟩
  | 124 => ⟨S1600000x1, .i1⟩
  | 125 => ⟨S_, .i1⟩
  | 126 => ⟨S1600000, .i1⟩
  | 127 => ⟨S1600000x64, .f32⟩
  | _ => ⟨S100000x8, .f32⟩

abbrev hbmTy0_1 (i : Nat) : BufTy := match i % 128 with
  | 0 => ⟨S1600000x64, .i1⟩
  | 1 => ⟨S_, .f32⟩
  | 2 => ⟨S1600000x64, .f32⟩
  | 3 => ⟨S1600000x64, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1, .i32⟩
  | 13 => ⟨S_, .i32⟩
  | 14 => ⟨S1600000x1, .i32⟩
  | 15 => ⟨S1600000x1, .i1⟩
  | 16 => ⟨S1x1, .i32⟩
  | 17 => ⟨S1600000x1, .i32⟩
  | 18 => ⟨S1600000x1, .i1⟩
  | 19 => ⟨S1600000x1, .i1⟩
  | 20 => ⟨S_, .i1⟩
  | 21 => ⟨S1600000, .i1⟩
  | 22 => ⟨S1600000x64, .f32⟩
  | 23 => ⟨S1600000x64, .i1⟩
  | 24 => ⟨S_, .f32⟩
  | 25 => ⟨S1600000x64, .f32⟩
  | 26 => ⟨S1600000x64, .f32⟩
  | 27 => ⟨S_, .f32⟩
  | 28 => ⟨S_, .f32⟩
  | 29 => ⟨S1x1, .f32⟩
  | 30 => ⟨S1600000x1, .f32⟩
  | 31 => ⟨S_, .f32⟩
  | 32 => ⟨S_, .f32⟩
  | 33 => ⟨S1600000x1, .f32⟩
  | 34 => ⟨S1600000x1, .f32⟩
  | 35 => ⟨S1600000x1, .f32⟩
  | 36 => ⟨S_, .f32⟩
  | 37 => ⟨S_, .f32⟩
  | 38 => ⟨S1, .f32⟩
  | 39 => ⟨S1, .f32⟩
  | 40 => ⟨S2, .f32⟩
  | 41 => ⟨S1x2, .f32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S1x64, .f32⟩
  | 48 => ⟨S1x64, .f32⟩
  | 49 => ⟨S100000x64, .f32⟩
  | 50 => ⟨S_, .f32⟩
  | 51 => ⟨S64, .f32⟩
  | 52 => ⟨S1x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1, .i32⟩
  | 63 => ⟨S_, .i32⟩
  | 64 => ⟨S1600000x1, .i32⟩
  | 65 => ⟨S1600000x1, .i1⟩
  | 66 => ⟨S1x1, .i32⟩
  | 67 => ⟨S1600000x1, .i32⟩
  | 68 => ⟨S1600000x1, .i1⟩
  | 69 => ⟨S1600000x1, .i1⟩
  | 70 => ⟨S_, .i1⟩
  | 71 => ⟨S1600000, .i1⟩
  | 72 => ⟨S1600000x64, .f32⟩
  | 73 => ⟨S1600000x64, .i1⟩
  | 74 => ⟨S_, .f32⟩
  | 75 => ⟨S1600000x64, .f32⟩
  | 76 => ⟨S1600000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1, .i32⟩
  | 86 => ⟨S_, .i32⟩
  | 87 => ⟨S1600000x1, .i32⟩
  | 88 => ⟨S1600000x1, .i1⟩
  | 89 => ⟨S1x1, .i32⟩
  | 90 => ⟨S1600000x1, .i32⟩
  | 91 => ⟨S1600000x1, .i1⟩
  | 92 => ⟨S1600000x1, .i1⟩
  | 93 => ⟨S_, .i1⟩
  | 94 => ⟨S1600000, .i1⟩
  | 95 => ⟨S1600000x64, .f32⟩
  | 96 => ⟨S1600000x64, .i1⟩
  | 97 => ⟨S_, .f32⟩
  | 98 => ⟨S1600000x64, .f32⟩
  | 99 => ⟨S1600000x64, .f32⟩
  | 100 => ⟨S_, .f32⟩
  | 101 => ⟨S_, .f32⟩
  | 102 => ⟨S1x1, .f32⟩
  | 103 => ⟨S1600000x1, .f32⟩
  | 104 => ⟨S_, .f32⟩
  | 105 => ⟨S_, .f32⟩
  | 106 => ⟨S1600000x1, .f32⟩
  | 107 => ⟨S1600000x1, .f32⟩
  | 108 => ⟨S1600000x1, .f32⟩
  | 109 => ⟨S_, .f32⟩
  | 110 => ⟨S_, .f32⟩
  | 111 => ⟨S1, .f32⟩
  | 112 => ⟨S1, .f32⟩
  | 113 => ⟨S2, .f32⟩
  | 114 => ⟨S1x2, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S1x64, .f32⟩
  | 121 => ⟨S1x64, .f32⟩
  | 122 => ⟨S100000x64, .f32⟩
  | 123 => ⟨S_, .f32⟩
  | 124 => ⟨S64, .f32⟩
  | 125 => ⟨S1x64, .f32⟩
  | 126 => ⟨S100000x64, .f32⟩
  | 127 => ⟨S_, .i32⟩
  | _ => ⟨S100000x8, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1, .i32⟩
  | 8 => ⟨S_, .i32⟩
  | 9 => ⟨S1600000x1, .i32⟩
  | 10 => ⟨S1600000x1, .i1⟩
  | 11 => ⟨S1x1, .i32⟩
  | 12 => ⟨S1600000x1, .i32⟩
  | 13 => ⟨S1600000x1, .i1⟩
  | 14 => ⟨S1600000x1, .i1⟩
  | 15 => ⟨S_, .i1⟩
  | 16 => ⟨S1600000, .i1⟩
  | 17 => ⟨S1600000x64, .f32⟩
  | 18 => ⟨S1600000x64, .i1⟩
  | 19 => ⟨S_, .f32⟩
  | 20 => ⟨S1600000x64, .f32⟩
  | 21 => ⟨S1600000x64, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1, .i32⟩
  | 31 => ⟨S_, .i32⟩
  | 32 => ⟨S1600000x1, .i32⟩
  | 33 => ⟨S1600000x1, .i1⟩
  | 34 => ⟨S1x1, .i32⟩
  | 35 => ⟨S1600000x1, .i32⟩
  | 36 => ⟨S1600000x1, .i1⟩
  | 37 => ⟨S1600000x1, .i1⟩
  | 38 => ⟨S_, .i1⟩
  | 39 => ⟨S1600000, .i1⟩
  | 40 => ⟨S1600000x64, .f32⟩
  | 41 => ⟨S1600000x64, .i1⟩
  | 42 => ⟨S_, .f32⟩
  | 43 => ⟨S1600000x64, .f32⟩
  | 44 => ⟨S1600000x64, .f32⟩
  | 45 => ⟨S_, .f32⟩
  | 46 => ⟨S_, .f32⟩
  | 47 => ⟨S1x1, .f32⟩
  | 48 => ⟨S1600000x1, .f32⟩
  | 49 => ⟨S_, .f32⟩
  | 50 => ⟨S_, .f32⟩
  | 51 => ⟨S1600000x1, .f32⟩
  | 52 => ⟨S1600000x1, .f32⟩
  | 53 => ⟨S1600000x1, .f32⟩
  | 54 => ⟨S_, .f32⟩
  | 55 => ⟨S_, .f32⟩
  | 56 => ⟨S1, .f32⟩
  | 57 => ⟨S1, .f32⟩
  | 58 => ⟨S2, .f32⟩
  | 59 => ⟨S1x2, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S1x64, .f32⟩
  | 66 => ⟨S1x64, .f32⟩
  | 67 => ⟨S100000x64, .f32⟩
  | 68 => ⟨S100000x64, .f32⟩
  | 69 => ⟨S1x32, .f32⟩
  | 70 => ⟨S100000x32, .f32⟩
  | 71 => ⟨S1x1, .f32⟩
  | 72 => ⟨S100000x1, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | .local _ .vmem, ⟨0, _⟩ => ⟨S10000x8, .f32⟩
  | .local _ .vmem, ⟨1, _⟩ => ⟨S10000x8, .f32⟩
  | .local _ .vmem, ⟨2, _⟩ => ⟨S8x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S1x1, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x1, .f32⟩
  | .local _ .vmem, ⟨12, _⟩ => ⟨S8000x1, .f32⟩
  | .local _ .vmem, ⟨13, _⟩ => ⟨S1x2, .f32⟩
  | .local _ .vmem, ⟨14, _⟩ => ⟨S8000x64, .f32⟩
  | .local _ .vmem, ⟨15, _⟩ => ⟨S8000x64, .f32⟩
  | .local _ .vmem, ⟨16, _⟩ => ⟨S8000x1, .f32⟩
  | .local _ .vmem, ⟨17, _⟩ => ⟨S8000x1, .f32⟩
  | .local _ .vmem, ⟨18, _⟩ => ⟨S8000x64, .f32⟩
  | .local _ .vmem, ⟨19, _⟩ => ⟨S8000x64, .f32⟩
  | .local _ .vmem, ⟨20, _⟩ => ⟨S10000x64, .f32⟩
  | .local _ .vmem, ⟨21, _⟩ => ⟨S10000x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x1, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x64, .f32⟩
  | .local _ .vmem, ⟨37, _⟩ => ⟨S8000x1, .f32⟩
  | .local _ .vmem, ⟨38, _⟩ => ⟨S8000x1, .f32⟩
  | .local _ .vmem, ⟨39, _⟩ => ⟨S1x2, .f32⟩
  | .local _ .vmem, ⟨40, _⟩ => ⟨S8000x64, .f32⟩
  | .local _ .vmem, ⟨41, _⟩ => ⟨S8000x64, .f32⟩
  | .local _ .vmem, ⟨42, _⟩ => ⟨S8000x1, .f32⟩
  | .local _ .vmem, ⟨43, _⟩ => ⟨S8000x1, .f32⟩
  | .local _ .vmem, ⟨44, _⟩ => ⟨S8000x64, .f32⟩
  | .local _ .vmem, ⟨45, _⟩ => ⟨S8000x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x8, .f32⟩
  | .local _ .vmem, ⟨53, _⟩ => ⟨S10000x8, .f32⟩
  | .local _ .vmem, ⟨54, _⟩ => ⟨S8x64, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | .local _ .vmem, ⟨58, _⟩ => ⟨S1x1, .f32⟩
  | .local _ .vmem, ⟨59, _⟩ => ⟨S8000x64, .f32⟩
  | .local _ .vmem, ⟨60, _⟩ => ⟨S8000x64, .f32⟩
  | .local _ .vmem, ⟨61, _⟩ => ⟨S8000x64, .f32⟩
  | .local _ .vmem, ⟨62, _⟩ => ⟨S8000x64, .f32⟩
  | .local _ .vmem, ⟨63, _⟩ => ⟨S8000x1, .f32⟩
  | .local _ .vmem, ⟨64, _⟩ => ⟨S8000x1, .f32⟩
  | .local _ .vmem, ⟨65, _⟩ => ⟨S1x2, .f32⟩
  | .local _ .vmem, ⟨66, _⟩ => ⟨S8000x64, .f32⟩
  | .local _ .vmem, ⟨67, _⟩ => ⟨S8000x64, .f32⟩
  | .local _ .vmem, ⟨68, _⟩ => ⟨S8000x1, .f32⟩
  | .local _ .vmem, ⟨69, _⟩ => ⟨S8000x1, .f32⟩
  | .local _ .vmem, ⟨70, _⟩ => ⟨S8000x64, .f32⟩
  | .local _ .vmem, ⟨71, _⟩ => ⟨S8000x64, .f32⟩
  | .local _ .vmem, ⟨72, _⟩ => ⟨S10000x64, .f32⟩
  | .local _ .vmem, ⟨73, _⟩ => ⟨S10000x64, .f32⟩
  | .local _ .vmem, ⟨74, _⟩ => ⟨S1x64, .f32⟩
  | .local _ .vmem, ⟨75, _⟩ => ⟨S1x64, .f32⟩
  | .local _ .vmem, ⟨76, _⟩ => ⟨S10000x64, .f32⟩
  | .local _ .vmem, ⟨77, _⟩ => ⟨S10000x64, .f32⟩
  | .local _ .vmem, ⟨78, _⟩ => ⟨S10000x64, .f32⟩
  | .local _ .vmem, ⟨79, _⟩ => ⟨S10000x64, .f32⟩
  | .local _ .vmem, ⟨80, _⟩ => ⟨S64x64, .f32⟩
  | .local _ .vmem, ⟨81, _⟩ => ⟨S1x64, .f32⟩
  | .local _ .vmem, ⟨82, _⟩ => ⟨S10000x64, .f32⟩
  | .local _ .vmem, ⟨83, _⟩ => ⟨S10000x64, .f32⟩
  | .local _ .vmem, ⟨84, _⟩ => ⟨S1x1, .f32⟩
  | .local _ .vmem, ⟨85, _⟩ => ⟨S8000x64, .f32⟩
  | .local _ .vmem, ⟨86, _⟩ => ⟨S8000x64, .f32⟩
  | .local _ .vmem, ⟨87, _⟩ => ⟨S8000x64, .f32⟩
  | .local _ .vmem, ⟨88, _⟩ => ⟨S8000x64, .f32⟩
  | .local _ .vmem, ⟨89, _⟩ => ⟨S8000x1, .f32⟩
  | .local _ .vmem, ⟨90, _⟩ => ⟨S8000x1, .f32⟩
  | .local _ .vmem, ⟨91, _⟩ => ⟨S1x2, .f32⟩
  | .local _ .vmem, ⟨92, _⟩ => ⟨S8000x64, .f32⟩
  | .local _ .vmem, ⟨93, _⟩ => ⟨S8000x64, .f32⟩
  | .local _ .vmem, ⟨94, _⟩ => ⟨S8000x1, .f32⟩
  | .local _ .vmem, ⟨95, _⟩ => ⟨S8000x1, .f32⟩
  | .local _ .vmem, ⟨96, _⟩ => ⟨S8000x64, .f32⟩
  | .local _ .vmem, ⟨97, _⟩ => ⟨S8000x64, .f32⟩
  | .local _ .vmem, ⟨98, _⟩ => ⟨S10000x64, .f32⟩
  | .local _ .vmem, ⟨99, _⟩ => ⟨S10000x64, .f32⟩
  | .local _ .vmem, ⟨100, _⟩ => ⟨S1x64, .f32⟩
  | .local _ .vmem, ⟨101, _⟩ => ⟨S1x64, .f32⟩
  | .local _ .vmem, ⟨102, _⟩ => ⟨S10000x64, .f32⟩
  | .local _ .vmem, ⟨103, _⟩ => ⟨S10000x64, .f32⟩
  | .local _ .vmem, ⟨104, _⟩ => ⟨S10000x64, .f32⟩
  | .local _ .vmem, ⟨105, _⟩ => ⟨S10000x64, .f32⟩
  | .local _ .vmem, ⟨106, _⟩ => ⟨S64x32, .f32⟩
  | .local _ .vmem, ⟨107, _⟩ => ⟨S1x32, .f32⟩
  | .local _ .vmem, ⟨108, _⟩ => ⟨S10000x32, .f32⟩
  | .local _ .vmem, ⟨109, _⟩ => ⟨S10000x32, .f32⟩
  | .local _ .vmem, ⟨110, _⟩ => ⟨S10000x32, .f32⟩
  | .local _ .vmem, ⟨111, _⟩ => ⟨S10000x32, .f32⟩
  | .local _ .vmem, ⟨112, _⟩ => ⟨S32x1, .f32⟩
  | .local _ .vmem, ⟨113, _⟩ => ⟨S1x1, .f32⟩
  | .local _ .vmem, ⟨114, _⟩ => ⟨S10000x1, .f32⟩
  | .local _ .vmem, ⟨115, _⟩ => ⟨S10000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v11 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v12 : Ref sig .tc := ⟨.hbm, 81, rfl⟩
abbrev main_cst_0 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_1 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_cst_2 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_cst_3 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_cst_4 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v35 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v36 : Ref sig .tc := ⟨.hbm, 154, rfl⟩
abbrev main_cst_5 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_cst_6 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_cst_7 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_8 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_cst_9 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_call4_c : Ref sig .tc := ⟨.hbm, 182, rfl⟩
abbrev main_call4_v0 : Ref sig .tc := ⟨.hbm, 183, rfl⟩
abbrev main_call4_v1 : Ref sig .tc := ⟨.hbm, 184, rfl⟩
abbrev main_call4_c_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_c_1 : Ref sig .tc := ⟨.hbm, 190, rfl⟩
abbrev main_call4_c_2 : Ref sig .tc := ⟨.hbm, 191, rfl⟩
abbrev main_call4_v6 : Ref sig .tc := ⟨.hbm, 192, rfl⟩
abbrev main_call4_v7 : Ref sig .tc := ⟨.hbm, 193, rfl⟩
abbrev main_call4_v8 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_c_3 : Ref sig .tc := ⟨.hbm, 198, rfl⟩
abbrev main_call4_v12 : Ref sig .tc := ⟨.hbm, 199, rfl⟩
abbrev main_call4_v13 : Ref sig .tc := ⟨.hbm, 200, rfl⟩
abbrev main_call4_v14 : Ref sig .tc := ⟨.hbm, 201, rfl⟩
abbrev main_call4_cst : Ref sig .tc := ⟨.hbm, 202, rfl⟩
abbrev main_call4_v15 : Ref sig .tc := ⟨.hbm, 203, rfl⟩
abbrev main_v59 : Ref sig .tc := ⟨.hbm, 204, rfl⟩
abbrev main_call5_c : Ref sig .tc := ⟨.hbm, 205, rfl⟩
abbrev main_call5_v0 : Ref sig .tc := ⟨.hbm, 206, rfl⟩
abbrev main_call5_v1 : Ref sig .tc := ⟨.hbm, 207, rfl⟩
abbrev main_call5_c_0 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_call5_v5 : Ref sig .tc := ⟨.hbm, 212, rfl⟩
abbrev main_call5_c_1 : Ref sig .tc := ⟨.hbm, 213, rfl⟩
abbrev main_call5_c_2 : Ref sig .tc := ⟨.hbm, 214, rfl⟩
abbrev main_call5_v6 : Ref sig .tc := ⟨.hbm, 215, rfl⟩
abbrev main_call5_v7 : Ref sig .tc := ⟨.hbm, 216, rfl⟩
abbrev main_call5_v8 : Ref sig .tc := ⟨.hbm, 217, rfl⟩
abbrev main_call5_v9 : Ref sig .tc := ⟨.hbm, 218, rfl⟩
abbrev main_call5_v10 : Ref sig .tc := ⟨.hbm, 219, rfl⟩
abbrev main_call5_v11 : Ref sig .tc := ⟨.hbm, 220, rfl⟩
abbrev main_call5_c_3 : Ref sig .tc := ⟨.hbm, 221, rfl⟩
abbrev main_call5_v12 : Ref sig .tc := ⟨.hbm, 222, rfl⟩
abbrev main_call5_v13 : Ref sig .tc := ⟨.hbm, 223, rfl⟩
abbrev main_call5_v14 : Ref sig .tc := ⟨.hbm, 224, rfl⟩
abbrev main_call5_cst : Ref sig .tc := ⟨.hbm, 225, rfl⟩
abbrev main_call5_v15 : Ref sig .tc := ⟨.hbm, 226, rfl⟩
abbrev main_v60 : Ref sig .tc := ⟨.hbm, 227, rfl⟩
abbrev main_cst_10 : Ref sig .tc := ⟨.hbm, 228, rfl⟩
abbrev main_v61 : Ref sig .tc := ⟨.hbm, 229, rfl⟩
abbrev main_v62 : Ref sig .tc := ⟨.hbm, 230, rfl⟩
abbrev main_v63 : Ref sig .tc := ⟨.hbm, 231, rfl⟩
abbrev main_cst_11 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_cst_12 : Ref sig .tc := ⟨.hbm, 237, rfl⟩
abbrev main_v68 : Ref sig .tc := ⟨.hbm, 238, rfl⟩
abbrev main_v69 : Ref sig .tc := ⟨.hbm, 239, rfl⟩
abbrev main_v70 : Ref sig .tc := ⟨.hbm, 240, rfl⟩
abbrev main_v71 : Ref sig .tc := ⟨.hbm, 241, rfl⟩
abbrev main_v72 : Ref sig .tc := ⟨.hbm, 242, rfl⟩
abbrev main_v73 : Ref sig .tc := ⟨.hbm, 243, rfl⟩
abbrev main_cst_13 : Ref sig .tc := ⟨.hbm, 244, rfl⟩
abbrev main_v74 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_cst_14 : Ref sig .tc := ⟨.hbm, 251, rfl⟩
abbrev main_v80 : Ref sig .tc := ⟨.hbm, 252, rfl⟩
abbrev main_v81 : Ref sig .tc := ⟨.hbm, 253, rfl⟩
abbrev main_v82 : Ref sig .tc := ⟨.hbm, 254, rfl⟩
abbrev main_call6_c : Ref sig .tc := ⟨.hbm, 255, rfl⟩
abbrev main_call6_v0 : Ref sig .tc := ⟨.hbm, 256, rfl⟩
abbrev main_call6_v1 : Ref sig .tc := ⟨.hbm, 257, rfl⟩
abbrev main_call6_c_0 : Ref sig .tc := ⟨.hbm, 258, rfl⟩
abbrev main_call6_v2 : Ref sig .tc := ⟨.hbm, 259, rfl⟩
abbrev main_call6_v3 : Ref sig .tc := ⟨.hbm, 260, rfl⟩
abbrev main_call6_v4 : Ref sig .tc := ⟨.hbm, 261, rfl⟩
abbrev main_call6_v5 : Ref sig .tc := ⟨.hbm, 262, rfl⟩
abbrev main_call6_c_1 : Ref sig .tc := ⟨.hbm, 263, rfl⟩
abbrev main_call6_c_2 : Ref sig .tc := ⟨.hbm, 264, rfl⟩
abbrev main_call6_v6 : Ref sig .tc := ⟨.hbm, 265, rfl⟩
abbrev main_call6_v7 : Ref sig .tc := ⟨.hbm, 266, rfl⟩
abbrev main_call6_v8 : Ref sig .tc := ⟨.hbm, 267, rfl⟩
abbrev main_call6_v9 : Ref sig .tc := ⟨.hbm, 268, rfl⟩
abbrev main_call6_v10 : Ref sig .tc := ⟨.hbm, 269, rfl⟩
abbrev main_call6_v11 : Ref sig .tc := ⟨.hbm, 270, rfl⟩
abbrev main_call6_c_3 : Ref sig .tc := ⟨.hbm, 271, rfl⟩
abbrev main_call6_v12 : Ref sig .tc := ⟨.hbm, 272, rfl⟩
abbrev main_call6_v13 : Ref sig .tc := ⟨.hbm, 273, rfl⟩
abbrev main_call6_v14 : Ref sig .tc := ⟨.hbm, 274, rfl⟩
abbrev main_call6_cst : Ref sig .tc := ⟨.hbm, 275, rfl⟩
abbrev main_call6_v15 : Ref sig .tc := ⟨.hbm, 276, rfl⟩
abbrev main_v83 : Ref sig .tc := ⟨.hbm, 277, rfl⟩
abbrev main_call7_c : Ref sig .tc := ⟨.hbm, 278, rfl⟩
abbrev main_call7_v0 : Ref sig .tc := ⟨.hbm, 279, rfl⟩
abbrev main_call7_v1 : Ref sig .tc := ⟨.hbm, 280, rfl⟩
abbrev main_call7_c_0 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_call7_v5 : Ref sig .tc := ⟨.hbm, 285, rfl⟩
abbrev main_call7_c_1 : Ref sig .tc := ⟨.hbm, 286, rfl⟩
abbrev main_call7_c_2 : Ref sig .tc := ⟨.hbm, 287, rfl⟩
abbrev main_call7_v6 : Ref sig .tc := ⟨.hbm, 288, rfl⟩
abbrev main_call7_v7 : Ref sig .tc := ⟨.hbm, 289, rfl⟩
abbrev main_call7_v8 : Ref sig .tc := ⟨.hbm, 290, rfl⟩
abbrev main_call7_v9 : Ref sig .tc := ⟨.hbm, 291, rfl⟩
abbrev main_call7_v10 : Ref sig .tc := ⟨.hbm, 292, rfl⟩
abbrev main_call7_v11 : Ref sig .tc := ⟨.hbm, 293, rfl⟩
abbrev main_call7_c_3 : Ref sig .tc := ⟨.hbm, 294, rfl⟩
abbrev main_call7_v12 : Ref sig .tc := ⟨.hbm, 295, rfl⟩
abbrev main_call7_v13 : Ref sig .tc := ⟨.hbm, 296, rfl⟩
abbrev main_call7_v14 : Ref sig .tc := ⟨.hbm, 297, rfl⟩
abbrev main_call7_cst : Ref sig .tc := ⟨.hbm, 298, rfl⟩
abbrev main_call7_v15 : Ref sig .tc := ⟨.hbm, 299, rfl⟩
abbrev main_v84 : Ref sig .tc := ⟨.hbm, 300, rfl⟩
abbrev main_cst_15 : Ref sig .tc := ⟨.hbm, 301, rfl⟩
abbrev main_v85 : Ref sig .tc := ⟨.hbm, 302, rfl⟩
abbrev main_v86 : Ref sig .tc := ⟨.hbm, 303, rfl⟩
abbrev main_v87 : Ref sig .tc := ⟨.hbm, 304, rfl⟩
abbrev main_cst_16 : Ref sig .tc := ⟨.hbm, 305, rfl⟩
abbrev main_v88 : Ref sig .tc := ⟨.hbm, 306, rfl⟩
abbrev main_v89 : Ref sig .tc := ⟨.hbm, 307, rfl⟩
abbrev main_v90 : Ref sig .tc := ⟨.hbm, 308, rfl⟩
abbrev main_v91 : Ref sig .tc := ⟨.hbm, 309, rfl⟩
abbrev main_cst_17 : Ref sig .tc := ⟨.hbm, 310, rfl⟩
abbrev main_v92 : Ref sig .tc := ⟨.hbm, 311, rfl⟩
abbrev main_v93 : Ref sig .tc := ⟨.hbm, 312, rfl⟩
abbrev main_v94 : Ref sig .tc := ⟨.hbm, 313, rfl⟩
abbrev main_v95 : Ref sig .tc := ⟨.hbm, 314, rfl⟩
abbrev main_v96 : Ref sig .tc := ⟨.hbm, 315, rfl⟩
abbrev main_v97 : Ref sig .tc := ⟨.hbm, 316, rfl⟩
abbrev main_cst_18 : Ref sig .tc := ⟨.hbm, 317, rfl⟩
abbrev main_v98 : Ref sig .tc := ⟨.hbm, 318, rfl⟩
abbrev main_v99 : Ref sig .tc := ⟨.hbm, 319, rfl⟩
abbrev main_v100 : Ref sig .tc := ⟨.hbm, 320, rfl⟩
abbrev main_v101 : Ref sig .tc := ⟨.hbm, 321, rfl⟩
abbrev main_v102 : Ref sig .tc := ⟨.hbm, 322, rfl⟩
abbrev main_v103 : Ref sig .tc := ⟨.hbm, 323, rfl⟩
abbrev main_v104 : Ref sig .tc := ⟨.hbm, 324, rfl⟩
abbrev main_v105 : Ref sig .tc := ⟨.hbm, 325, rfl⟩
abbrev main_v106 : Ref sig .tc := ⟨.hbm, 326, rfl⟩
abbrev main_v107 : Ref sig .tc := ⟨.hbm, 327, rfl⟩
abbrev main_v108 : Ref sig .tc := ⟨.hbm, 328, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg3_1 : Ref sig .tc := ⟨.vmem, 57, rfl⟩
abbrev cc9_stg0_0 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg2_1 : Ref sig .tc := ⟨.vmem, 62, rfl⟩
abbrev cc9_stg3_0 : Ref sig .tc := ⟨.vmem, 63, rfl⟩
abbrev cc9_stg3_1 : Ref sig .tc := ⟨.vmem, 64, rfl⟩
abbrev cc10_stg0_0 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg2_1 : Ref sig .tc := ⟨.vmem, 69, rfl⟩
abbrev cc10_stg3_0 : Ref sig .tc := ⟨.vmem, 70, rfl⟩
abbrev cc10_stg3_1 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg3_1 : Ref sig .tc := ⟨.vmem, 77, rfl⟩
abbrev cc12_stg0_0 : Ref sig .tc := ⟨.vmem, 78, rfl⟩
abbrev cc12_stg0_1 : Ref sig .tc := ⟨.vmem, 79, rfl⟩
abbrev cc12_stg1_0 : Ref sig .tc := ⟨.vmem, 80, rfl⟩
abbrev cc12_stg2_0 : Ref sig .tc := ⟨.vmem, 81, rfl⟩
abbrev cc12_stg3_0 : Ref sig .tc := ⟨.vmem, 82, rfl⟩
abbrev cc12_stg3_1 : Ref sig .tc := ⟨.vmem, 83, rfl⟩
abbrev cc13_stg0_0 : Ref sig .tc := ⟨.vmem, 84, rfl⟩
abbrev cc13_stg1_0 : Ref sig .tc := ⟨.vmem, 85, rfl⟩
abbrev cc13_stg1_1 : Ref sig .tc := ⟨.vmem, 86, rfl⟩
abbrev cc13_stg2_0 : Ref sig .tc := ⟨.vmem, 87, rfl⟩
abbrev cc13_stg2_1 : Ref sig .tc := ⟨.vmem, 88, rfl⟩
abbrev cc13_stg3_0 : Ref sig .tc := ⟨.vmem, 89, rfl⟩
abbrev cc13_stg3_1 : Ref sig .tc := ⟨.vmem, 90, rfl⟩
abbrev cc14_stg0_0 : Ref sig .tc := ⟨.vmem, 91, rfl⟩
abbrev cc14_stg1_0 : Ref sig .tc := ⟨.vmem, 92, rfl⟩
abbrev cc14_stg1_1 : Ref sig .tc := ⟨.vmem, 93, rfl⟩
abbrev cc14_stg2_0 : Ref sig .tc := ⟨.vmem, 94, rfl⟩
abbrev cc14_stg2_1 : Ref sig .tc := ⟨.vmem, 95, rfl⟩
abbrev cc14_stg3_0 : Ref sig .tc := ⟨.vmem, 96, rfl⟩
abbrev cc14_stg3_1 : Ref sig .tc := ⟨.vmem, 97, rfl⟩
abbrev cc15_stg0_0 : Ref sig .tc := ⟨.vmem, 98, rfl⟩
abbrev cc15_stg0_1 : Ref sig .tc := ⟨.vmem, 99, rfl⟩
abbrev cc15_stg1_0 : Ref sig .tc := ⟨.vmem, 100, rfl⟩
abbrev cc15_stg2_0 : Ref sig .tc := ⟨.vmem, 101, rfl⟩
abbrev cc15_stg3_0 : Ref sig .tc := ⟨.vmem, 102, rfl⟩
abbrev cc15_stg3_1 : Ref sig .tc := ⟨.vmem, 103, rfl⟩
abbrev cc16_stg0_0 : Ref sig .tc := ⟨.vmem, 104, rfl⟩
abbrev cc16_stg0_1 : Ref sig .tc := ⟨.vmem, 105, rfl⟩
abbrev cc16_stg1_0 : Ref sig .tc := ⟨.vmem, 106, rfl⟩
abbrev cc16_stg2_0 : Ref sig .tc := ⟨.vmem, 107, rfl⟩
abbrev cc16_stg3_0 : Ref sig .tc := ⟨.vmem, 108, rfl⟩
abbrev cc16_stg3_1 : Ref sig .tc := ⟨.vmem, 109, rfl⟩
abbrev cc17_stg0_0 : Ref sig .tc := ⟨.vmem, 110, rfl⟩
abbrev cc17_stg0_1 : Ref sig .tc := ⟨.vmem, 111, rfl⟩
abbrev cc17_stg1_0 : Ref sig .tc := ⟨.vmem, 112, rfl⟩
abbrev cc17_stg2_0 : Ref sig .tc := ⟨.vmem, 113, rfl⟩
abbrev cc17_stg3_0 : Ref sig .tc := ⟨.vmem, 114, rfl⟩
abbrev cc17_stg3_1 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc6_sem0_0 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem3_1 : DmaSem sig := 57
abbrev cc9_sem0_0 : DmaSem sig := 58
abbrev cc9_sem1_0 : DmaSem sig := 59
abbrev cc9_sem1_1 : DmaSem sig := 60
abbrev cc9_sem2_0 : DmaSem sig := 61
abbrev cc9_sem2_1 : DmaSem sig := 62
abbrev cc9_sem3_0 : DmaSem sig := 63
abbrev cc9_sem3_1 : DmaSem sig := 64
abbrev cc10_sem0_0 : DmaSem sig := 65
abbrev cc10_sem1_0 : DmaSem sig := 66
abbrev cc10_sem1_1 : DmaSem sig := 67
abbrev cc10_sem2_0 : DmaSem sig := 68
abbrev cc10_sem2_1 : DmaSem sig := 69
abbrev cc10_sem3_0 : DmaSem sig := 70
abbrev cc10_sem3_1 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem3_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem3_0 : DmaSem sig := 82
abbrev cc12_sem3_1 : DmaSem sig := 83
abbrev cc13_sem0_0 : DmaSem sig := 84
abbrev cc13_sem1_0 : DmaSem sig := 85
abbrev cc13_sem1_1 : DmaSem sig := 86
abbrev cc13_sem2_0 : DmaSem sig := 87
abbrev cc13_sem2_1 : DmaSem sig := 88
abbrev cc13_sem3_0 : DmaSem sig := 89
abbrev cc13_sem3_1 : DmaSem sig := 90
abbrev cc14_sem0_0 : DmaSem sig := 91
abbrev cc14_sem1_0 : DmaSem sig := 92
abbrev cc14_sem1_1 : DmaSem sig := 93
abbrev cc14_sem2_0 : DmaSem sig := 94
abbrev cc14_sem2_1 : DmaSem sig := 95
abbrev cc14_sem3_0 : DmaSem sig := 96
abbrev cc14_sem3_1 : DmaSem sig := 97
abbrev cc15_sem0_0 : DmaSem sig := 98
abbrev cc15_sem0_1 : DmaSem sig := 99
abbrev cc15_sem1_0 : DmaSem sig := 100
abbrev cc15_sem2_0 : DmaSem sig := 101
abbrev cc15_sem3_0 : DmaSem sig := 102
abbrev cc15_sem3_1 : DmaSem sig := 103
abbrev cc16_sem0_0 : DmaSem sig := 104
abbrev cc16_sem0_1 : DmaSem sig := 105
abbrev cc16_sem1_0 : DmaSem sig := 106
abbrev cc16_sem2_0 : DmaSem sig := 107
abbrev cc16_sem3_0 : DmaSem sig := 108
abbrev cc16_sem3_1 : DmaSem sig := 109
abbrev cc17_sem0_0 : DmaSem sig := 110
abbrev cc17_sem0_1 : DmaSem sig := 111
abbrev cc17_sem1_0 : DmaSem sig := 112
abbrev cc17_sem2_0 : DmaSem sig := 113
abbrev cc17_sem3_0 : DmaSem sig := 114
abbrev cc17_sem3_1 : DmaSem sig := 115

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1x2 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S8000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x8 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S8x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![200], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S1x1 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S8000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S8000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![200], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S1x2 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S8000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S8000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![200], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S1x1 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 2 → Memref sig .tc .vmem S8000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S8000x1 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![200], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S1x2 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 2 → Memref sig .tc .vmem S8000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S8000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S8000x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S10000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S64x32 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x32 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S10000x32 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S32x1 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x1 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S10000x1 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S64 : S_.BroadcastsInDim S64 (![] : Fin 0 → Fin S64.rank)
  shapeCasts_S64_S1x64 : S64.ShapeCasts S1x64
  inb_S10000x8_S10000x8_0_0 : ∀ a, (![0, 0] : Fin 2 → Nat) a + S10000x8.size a ≤ S10000x8.size a
  h_S10000x8 : 0 < S10000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  reducesTo_S128x1_S_d0_1 : S128x1.ReducesTo [0, 1] S_
  shapeCasts_S_S1x1 : S_.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8000x1_S8000x1_0_0 : ∀ a, (![0, 0] : Fin 2 → Nat) a + S8000x1.size a ≤ S8000x1.size a
  h_S8000x1 : 0 < S8000x1.numel
  reducesTo_S1600000x1_S_d0_1 : S1600000x1.ReducesTo [0, 1] S_
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x2_S1x1_0_0 : ∀ a, (![0, 0] : Fin 2 → Nat) a + S1x1.size a ≤ S1x2.size a
  inb_S1x2_S1x1_0_1 : ∀ a, (![0, 1] : Fin 2 → Nat) a + S1x1.size a ≤ S1x2.size a
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S1_S1x1 : S1.ShapeCasts S1x1
  shapeCasts_S10000x32_S10000x32 : S10000x32.ShapeCasts S10000x32
  inb_S32x1_S32x1_0_0 : ∀ a, (![0, 0] : Fin 2 → Nat) a + S32x1.size a ≤ S32x1.size a
  h_S32x1 : 0 < S32x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x8_S8x64_S10000x64_1_0_0_1_n_n_wf : DotDims.WF S10000x8 S8x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .f32 = 32 ∨ (Rect.block (s := S1600000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S1600000x1.size a
  hwx1_3 : ∀ i : grid1.Coords, EltTy.bits .f32 = 32 ∨ (Rect.block (s := S1600000x1) S8000x1.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2.size a ≤ S1x2.size a
  hwx2_0 : ∀ i : grid2.Coords, EltTy.bits .f32 = 32 ∨ (Rect.block (s := S1x2) S1x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1600000x1.size a
  hwx2_2 : ∀ i : grid2.Coords, EltTy.bits .f32 = 32 ∨ (Rect.block (s := S1600000x1) S8000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S1600000x64.size a
  hwx2_3 : ∀ i : grid2.Coords, EltTy.bits .f32 = 32 ∨ (Rect.block (s := S1600000x64) S8000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x1.size a ≤ S1x1.size a
  hwx5_0 : ∀ i : grid5.Coords, EltTy.bits .f32 = 32 ∨ (Rect.block (s := S1x1) S1x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S1600000x64.size a
  hwx5_1 : ∀ i : grid5.Coords, EltTy.bits .f32 = 32 ∨ (Rect.block (s := S1600000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1600000x64.size a
  hwx5_2 : ∀ i : grid5.Coords, EltTy.bits .f32 = 32 ∨ (Rect.block (s := S1600000x64) S8000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x1.size a ≤ S1600000x1.size a
  hwx5_3 : ∀ i : grid5.Coords, EltTy.bits .f32 = 32 ∨ (Rect.block (s := S1600000x1) S8000x1.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x2.size a ≤ S1x2.size a
  hwx6_0 : ∀ i : grid6.Coords, EltTy.bits .f32 = 32 ∨ (Rect.block (s := S1x2) S1x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S1600000x64.size a
  hwx6_1 : ∀ i : grid6.Coords, EltTy.bits .f32 = 32 ∨ (Rect.block (s := S1600000x64) S8000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x1.size a ≤ S1600000x1.size a
  hwx6_2 : ∀ i : grid6.Coords, EltTy.bits .f32 = 32 ∨ (Rect.block (s := S1600000x1) S8000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x64.size a ≤ S1600000x64.size a
  hwx6_3 : ∀ i : grid6.Coords, EltTy.bits .f32 = 32 ∨ (Rect.block (s := S1600000x64) S8000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x8.size a ≤ S100000x8.size a
  hwx8_0 : ∀ i : grid8.Coords, EltTy.bits .f32 = 32 ∨ (Rect.block (s := S100000x8) S10000x8.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S8x64.size a ≤ S8x64.size a
  hwx8_1 : ∀ i : grid8.Coords, EltTy.bits .f32 = 32 ∨ (Rect.block (s := S8x64) S8x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S100000x64.size a
  hwx8_3 : ∀ i : grid8.Coords, EltTy.bits .f32 = 32 ∨ (Rect.block (s := S100000x64) S10000x64.size (cc8_transform_3 i) (hinb8_3 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1x1.size a ≤ S1x1.size a
  hwx9_0 : ∀ i : grid9.Coords, EltTy.bits .f32 = 32 ∨ (Rect.block (s := S1x1) S1x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x64.size a ≤ S1600000x64.size a
  hwx9_1 : ∀ i : grid9.Coords, EltTy.bits .f32 = 32 ∨ (Rect.block (s := S1600000x64) S8000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x64.size a ≤ S1600000x64.size a
  hwx9_2 : ∀ i : grid9.Coords, EltTy.bits .f32 = 32 ∨ (Rect.block (s := S1600000x64) S8000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S8000x1.size a ≤ S1600000x1.size a
  hwx9_3 : ∀ i : grid9.Coords, EltTy.bits .f32 = 32 ∨ (Rect.block (s := S1600000x1) S8000x1.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S1x2.size a ≤ S1x2.size a
  hwx10_0 : ∀ i : grid10.Coords, EltTy.bits .f32 = 32 ∨ (Rect.block (s := S1x2) S1x2.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x64.size a ≤ S1600000x64.size a
  hwx10_1 : ∀ i : grid10.Coords, EltTy.bits .f32 = 32 ∨ (Rect.block (s := S1600000x64) S8000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x1.size a ≤ S1600000x1.size a
  hwx10_2 : ∀ i : grid10.Coords, EltTy.bits .f32 = 32 ∨ (Rect.block (s := S1600000x1) S8000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8000x64.size a ≤ S1600000x64.size a
  hwx10_3 : ∀ i : grid10.Coords, EltTy.bits .f32 = 32 ∨ (Rect.block (s := S1600000x64) S8000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x64.size a ≤ S100000x64.size a
  hwx11_3 : ∀ i : grid11.Coords, EltTy.bits .f32 = 32 ∨ (Rect.block (s := S100000x64) S10000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x64.size a ≤ S100000x64.size a
  hwx12_3 : ∀ i : grid12.Coords, EltTy.bits .f32 = 32 ∨ (Rect.block (s := S100000x64) S10000x64.size (cc12_transform_3 i) (hinb12_3 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S1x1.size a ≤ S1x1.size a
  hwx13_0 : ∀ i : grid13.Coords, EltTy.bits .f32 = 32 ∨ (Rect.block (s := S1x1) S1x1.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8000x64.size a ≤ S1600000x64.size a
  hwx13_1 : ∀ i : grid13.Coords, EltTy.bits .f32 = 32 ∨ (Rect.block (s := S1600000x64) S8000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8000x64.size a ≤ S1600000x64.size a
  hwx13_2 : ∀ i : grid13.Coords, EltTy.bits .f32 = 32 ∨ (Rect.block (s := S1600000x64) S8000x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S8000x1.size a ≤ S1600000x1.size a
  hwx13_3 : ∀ i : grid13.Coords, EltTy.bits .f32 = 32 ∨ (Rect.block (s := S1600000x1) S8000x1.size (cc13_transform_3 i) (hinb13_3 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S1x2.size a ≤ S1x2.size a
  hwx14_0 : ∀ i : grid14.Coords, EltTy.bits .f32 = 32 ∨ (Rect.block (s := S1x2) S1x2.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S8000x64.size a ≤ S1600000x64.size a
  hwx14_1 : ∀ i : grid14.Coords, EltTy.bits .f32 = 32 ∨ (Rect.block (s := S1600000x64) S8000x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S8000x1.size a ≤ S1600000x1.size a
  hwx14_2 : ∀ i : grid14.Coords, EltTy.bits .f32 = 32 ∨ (Rect.block (s := S1600000x1) S8000x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S8000x64.size a ≤ S1600000x64.size a
  hwx14_3 : ∀ i : grid14.Coords, EltTy.bits .f32 = 32 ∨ (Rect.block (s := S1600000x64) S8000x64.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x64.size a ≤ S100000x64.size a
  hwx15_0 : ∀ i : grid15.Coords, EltTy.bits .f32 = 32 ∨ (Rect.block (s := S100000x64) S10000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S10000x64.size a ≤ S100000x64.size a
  hwx15_3 : ∀ i : grid15.Coords, EltTy.bits .f32 = 32 ∨ (Rect.block (s := S100000x64) S10000x64.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x64.size a ≤ S100000x64.size a
  hwx16_0 : ∀ i : grid16.Coords, EltTy.bits .f32 = 32 ∨ (Rect.block (s := S100000x64) S10000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x32.size a ≤ S64x32.size a
  hwx16_1 : ∀ i : grid16.Coords, EltTy.bits .f32 = 32 ∨ (Rect.block (s := S64x32) S64x32.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x32.size a ≤ S1x32.size a
  hwx16_2 : ∀ i : grid16.Coords, EltTy.bits .f32 = 32 ∨ (Rect.block (s := S1x32) S1x32.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S10000x32.size a ≤ S100000x32.size a
  hwx16_3 : ∀ i : grid16.Coords, EltTy.bits .f32 = 32 ∨ (Rect.block (s := S100000x32) S10000x32.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x32.size a ≤ S100000x32.size a
  hwx17_0 : ∀ i : grid17.Coords, EltTy.bits .f32 = 32 ∨ (Rect.block (s := S100000x32) S10000x32.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S32x1.size a ≤ S32x1.size a
  hwx17_1 : ∀ i : grid17.Coords, EltTy.bits .f32 = 32 ∨ (Rect.block (s := S32x1) S32x1.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x1.size a ≤ S1x1.size a
  hwx17_2 : ∀ i : grid17.Coords, EltTy.bits .f32 = 32 ∨ (Rect.block (s := S1x1) S1x1.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S10000x1.size a ≤ S100000x1.size a
  hwx17_3 : ∀ i : grid17.Coords, EltTy.bits .f32 = 32 ∨ (Rect.block (s := S100000x1) S10000x1.size (cc17_transform_3 i) (hinb17_3 i)).WholeWords (EltTy.packing .f32)

variable [Facts₀]

def dot_S10000x8_S8x64_S10000x64_1_0_0_1_n_n : DotDims S10000x8 S8x64 S10000x64 where
  lhsContracting := [1]
  rhsContracting := [0]
  lhsNonContracting := [0]
  rhsNonContracting := [1]
  lhsBatch := []
  rhsBatch := []
  wf := dot_S10000x8_S8x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S8000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S1x2.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v11) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S8000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v31) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v38) S1x1.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v35) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S8000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S8000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v48) S1x2.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v35) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v39) S8000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v49) S8000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v52) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v53) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v54) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v55) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg0) S10000x8.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S8x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v57) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v58) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v62) S1x1.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v59) S8000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v60) S8000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v63) S8000x1.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v72) S1x2.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v59) S8000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v63) S8000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v73) S8000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v76) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v77) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v78) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v79) S10000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v79) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg16) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v81) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v82) S10000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v86) S1x1.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_v83) S8000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v84) S8000x64.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v87) S8000x1.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v96) S1x2.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_v83) S8000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v87) S8000x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v97) S8000x64.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v100) S10000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v101) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v102) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v103) S10000x64.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v104) S10000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg20) S64x32.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v105) S1x32.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v106) S10000x32.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v106) S10000x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg22) S32x1.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v107) S1x1.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v108) S10000x1.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S1600000 : Shape := ⟨1, ![1600000]⟩
abbrev S8x64 : Shape := ⟨2, ![8, 64]⟩
abbrev S128x1 : Shape := ⟨2, ![128, 1]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 540
  | .vmem => 0
  | .smem => 0
  | _ => 0

abbrev hbmTy0_0 (i : Nat) : BufTy := match i % 128 with
  | 0 => ⟨S100000x8, .f32⟩
  | 1 => ⟨S2x1600000, .i32⟩
  | 2 => ⟨S1600000, .i32⟩
  | 3 => ⟨S2x1600000, .i32⟩
  | 4 => ⟨S8x64, .f32⟩
  | 5 => ⟨S128x1, .f32⟩
  | 6 => ⟨S64, .f32⟩
  | 7 => ⟨S64, .f32⟩
  | 8 => ⟨S64x64, .f32⟩
  | 9 => ⟨S128x1, .f32⟩
  | 10 => ⟨S64, .f32⟩
  | 11 => ⟨S64, .f32⟩
  | 12 => ⟨S8x64, .f32⟩
  | 13 => ⟨S128x1, .f32⟩
  | 14 => ⟨S64, .f32⟩
  | 15 => ⟨S64, .f32⟩
  | 16 => ⟨S64x64, .f32⟩
  | 17 => ⟨S128x1, .f32⟩
  | 18 => ⟨S64, .f32⟩
  | 19 => ⟨S64, .f32⟩
  | 20 => ⟨S64x32, .f32⟩
  | 21 => ⟨S32, .f32⟩
  | 22 => ⟨S32x1, .f32⟩
  | 23 => ⟨S1, .f32⟩
  | 24 => ⟨S1x1600000, .i32⟩
  | 25 => ⟨S1600000, .i32⟩
  | 26 => ⟨S1x1600000, .i32⟩
  | 27 => ⟨S1600000, .i32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S1600000x64, .f32⟩
  | 48 => ⟨S_, .f32⟩
  | 49 => ⟨S1600000, .f32⟩
  | 50 => ⟨S_, .f32⟩
  | 51 => ⟨S_, .f32⟩
  | 52 => ⟨S1600000, .f32⟩
  | 53 => ⟨S1600000, .f32⟩
  | 54 => ⟨S_, .f32⟩
  | 55 => ⟨S_, .f32⟩
  | 56 => ⟨S1600000, .f32⟩
  | 57 => ⟨S1600000, .i1⟩
  | 58 => ⟨S_, .f32⟩
  | 59 => ⟨S1600000, .f32⟩
  | 60 => ⟨S1600000, .f32⟩
  | 61 => ⟨S1600000, .f32⟩
  | 62 => ⟨S_, .f32⟩
  | 63 => ⟨S_, .f32⟩
  | 64 => ⟨S_, .f32⟩
  | 65 => ⟨S_, .f32⟩
  | 66 => ⟨S1, .f32⟩
  | 67 => ⟨S1600000, .f32⟩
  | 68 => ⟨S1600000, .f32⟩
  | 69 => ⟨S1600000, .f32⟩
  | 70 => ⟨S_, .f32⟩
  | 71 => ⟨S_, .f32⟩
  | 72 => ⟨S1, .f32⟩
  | 73 => ⟨S1600000, .f32⟩
  | 74 => ⟨S1600000, .f32⟩
  | 75 => ⟨S1600000x1, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S1600000x64, .f32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S_, .f32⟩
  | 92 => ⟨S100000x64, .f32⟩
  | 93 => ⟨S100000x64, .i1⟩
  | 94 => ⟨S_, .f32⟩
  | 95 => ⟨S100000x64, .f32⟩
  | 96 => ⟨S100000x64, .i1⟩
  | 97 => ⟨S_, .f32⟩
  | 98 => ⟨S_, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S_, .i32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S100000x64, .f32⟩
  | 120 => ⟨S100000x64, .f32⟩
  | 121 => ⟨S100000x64, .f32⟩
  | 122 => ⟨S_, .f32⟩
  | 123 => ⟨S_, .f32⟩
  | 124 => ⟨S_, .f32⟩
  | 125 => ⟨S_, .f32⟩
  | 126 => ⟨S100000, .f32⟩
  | 127 => ⟨S100000x1, .f32⟩
  | _ => ⟨S100000x8, .f32⟩

abbrev hbmTy0_1 (i : Nat) : BufTy := match i % 128 with
  | 0 => ⟨S100000x1, .f32⟩
  | 1 => ⟨S100000x1, .f32⟩
  | 2 => ⟨S_, .f32⟩
  | 3 => ⟨S_, .i1⟩
  | 4 => ⟨S_, .f32⟩
  | 5 => ⟨S_, .f32⟩
  | 6 => ⟨S100000x1, .f32⟩
  | 7 => ⟨S100000x1, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x1, .f32⟩
  | 15 => ⟨S100000x1, .f32⟩
  | 16 => ⟨S100000x1, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x64, .f32⟩
  | 42 => ⟨S_, .f32⟩
  | 43 => ⟨S1600000, .f32⟩
  | 44 => ⟨S_, .f32⟩
  | 45 => ⟨S_, .f32⟩
  | 46 => ⟨S1600000, .f32⟩
  | 47 => ⟨S1600000, .f32⟩
  | 48 => ⟨S_, .f32⟩
  | 49 => ⟨S_, .f32⟩
  | 50 => ⟨S1600000, .f32⟩
  | 51 => ⟨S1600000, .i1⟩
  | 52 => ⟨S_, .f32⟩
  | 53 => ⟨S1600000, .f32⟩
  | 54 => ⟨S1600000, .f32⟩
  | 55 => ⟨S1600000, .f32⟩
  | 56 => ⟨S_, .f32⟩
  | 57 => ⟨S_, .f32⟩
  | 58 => ⟨S_, .f32⟩
  | 59 => ⟨S_, .f32⟩
  | 60 => ⟨S1, .f32⟩
  | 61 => ⟨S1600000, .f32⟩
  | 62 => ⟨S1600000, .f32⟩
  | 63 => ⟨S1600000, .f32⟩
  | 64 => ⟨S_, .f32⟩
  | 65 => ⟨S_, .f32⟩
  | 66 => ⟨S1, .f32⟩
  | 67 => ⟨S1600000, .f32⟩
  | 68 => ⟨S1600000, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S_, .f32⟩
  | 86 => ⟨S100000x64, .f32⟩
  | 87 => ⟨S100000x64, .i1⟩
  | 88 => ⟨S_, .f32⟩
  | 89 => ⟨S100000x64, .f32⟩
  | 90 => ⟨S100000x64, .i1⟩
  | 91 => ⟨S_, .f32⟩
  | 92 => ⟨S_, .f32⟩
  | 93 => ⟨S100000x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S_, .i32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x64, .f32⟩
  | 114 => ⟨S100000x64, .f32⟩
  | 115 => ⟨S100000x64, .f32⟩
  | 116 => ⟨S_, .f32⟩
  | 117 => ⟨S_, .f32⟩
  | 118 => ⟨S_, .f32⟩
  | 119 => ⟨S_, .f32⟩
  | 120 => ⟨S100000, .f32⟩
  | 121 => ⟨S100000x1, .f32⟩
  | 122 => ⟨S100000x1, .f32⟩
  | 123 => ⟨S100000x1, .f32⟩
  | 124 => ⟨S_, .f32⟩
  | 125 => ⟨S_, .i1⟩
  | 126 => ⟨S_, .f32⟩
  | 127 => ⟨S_, .f32⟩
  | _ => ⟨S100000x8, .f32⟩

abbrev hbmTy0_2 (i : Nat) : BufTy := match i % 128 with
  | 0 => ⟨S100000x1, .f32⟩
  | 1 => ⟨S100000x1, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x1, .f32⟩
  | 9 => ⟨S100000x1, .f32⟩
  | 10 => ⟨S100000x1, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S1x1600000, .i32⟩
  | 17 => ⟨S1600000, .i32⟩
  | 18 => ⟨S1x1600000, .i32⟩
  | 19 => ⟨S1600000, .i32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S1600000x64, .f32⟩
  | 40 => ⟨S_, .f32⟩
  | 41 => ⟨S1600000, .f32⟩
  | 42 => ⟨S_, .f32⟩
  | 43 => ⟨S_, .f32⟩
  | 44 => ⟨S1600000, .f32⟩
  | 45 => ⟨S1600000, .f32⟩
  | 46 => ⟨S_, .f32⟩
  | 47 => ⟨S_, .f32⟩
  | 48 => ⟨S1600000, .f32⟩
  | 49 => ⟨S1600000, .i1⟩
  | 50 => ⟨S_, .f32⟩
  | 51 => ⟨S1600000, .f32⟩
  | 52 => ⟨S1600000, .f32⟩
  | 53 => ⟨S1600000, .f32⟩
  | 54 => ⟨S_, .f32⟩
  | 55 => ⟨S_, .f32⟩
  | 56 => ⟨S_, .f32⟩
  | 57 => ⟨S_, .f32⟩
  | 58 => ⟨S1, .f32⟩
  | 59 => ⟨S1600000, .f32⟩
  | 60 => ⟨S1600000, .f32⟩
  | 61 => ⟨S1600000, .f32⟩
  | 62 => ⟨S_, .f32⟩
  | 63 => ⟨S_, .f32⟩
  | 64 => ⟨S1, .f32⟩
  | 65 => ⟨S1600000, .f32⟩
  | 66 => ⟨S1600000, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S_, .f32⟩
  | 84 => ⟨S100000x64, .f32⟩
  | 85 => ⟨S100000x64, .i1⟩
  | 86 => ⟨S_, .f32⟩
  | 87 => ⟨S100000x64, .f32⟩
  | 88 => ⟨S100000x64, .i1⟩
  | 89 => ⟨S_, .f32⟩
  | 90 => ⟨S_, .f32⟩
  | 91 => ⟨S100000x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .f32⟩
  | 99 => ⟨S100000, .f32⟩
  | 100 => ⟨S100000x1, .f32⟩
  | 101 => ⟨S_, .f32⟩
  | 102 => ⟨S100000x1, .f32⟩
  | 103 => ⟨S100000x1, .f32⟩
  | 104 => ⟨S_, .i32⟩
  | 105 => ⟨S_, .f32⟩
  | 106 => ⟨S100000, .f32⟩
  | 107 => ⟨S100000x1, .f32⟩
  | 108 => ⟨S_, .f32⟩
  | 109 => ⟨S100000x1, .f32⟩
  | 110 => ⟨S100000x1, .f32⟩
  | 111 => ⟨S100000x64, .f32⟩
  | 112 => ⟨S100000x64, .f32⟩
  | 113 => ⟨S100000x64, .f32⟩
  | 114 => ⟨S_, .f32⟩
  | 115 => ⟨S_, .f32⟩
  | 116 => ⟨S_, .f32⟩
  | 117 => ⟨S_, .f32⟩
  | 118 => ⟨S100000, .f32⟩
  | 119 => ⟨S100000x1, .f32⟩
  | 120 => ⟨S100000x1, .f32⟩
  | 121 => ⟨S100000x1, .f32⟩
  | 122 => ⟨S_, .f32⟩
  | 123 => ⟨S_, .i1⟩
  | 124 => ⟨S_, .f32⟩
  | 125 => ⟨S_, .f32⟩
  | 126 => ⟨S100000x1, .f32⟩
  | 127 => ⟨S100000x1, .f32⟩
  | _ => ⟨S100000x8, .f32⟩

abbrev hbmTy0_3 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x1, .f32⟩
  | 7 => ⟨S100000x1, .f32⟩
  | 8 => ⟨S100000x1, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S100000x64, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S_, .f32⟩
  | 35 => ⟨S1600000, .f32⟩
  | 36 => ⟨S_, .f32⟩
  | 37 => ⟨S_, .f32⟩
  | 38 => ⟨S1600000, .f32⟩
  | 39 => ⟨S1600000, .f32⟩
  | 40 => ⟨S_, .f32⟩
  | 41 => ⟨S_, .f32⟩
  | 42 => ⟨S1600000, .f32⟩
  | 43 => ⟨S1600000, .i1⟩
  | 44 => ⟨S_, .f32⟩
  | 45 => ⟨S1600000, .f32⟩
  | 46 => ⟨S1600000, .f32⟩
  | 47 => ⟨S1600000, .f32⟩
  | 48 => ⟨S_, .f32⟩
  | 49 => ⟨S_, .f32⟩
  | 50 => ⟨S_, .f32⟩
  | 51 => ⟨S_, .f32⟩
  | 52 => ⟨S1, .f32⟩
  | 53 => ⟨S1600000, .f32⟩
  | 54 => ⟨S1600000, .f32⟩
  | 55 => ⟨S1600000, .f32⟩
  | 56 => ⟨S_, .f32⟩
  | 57 => ⟨S_, .f32⟩
  | 58 => ⟨S1, .f32⟩
  | 59 => ⟨S1600000, .f32⟩
  | 60 => ⟨S1600000, .f32⟩
  | 61 => ⟨S1600000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S_, .f32⟩
  | 78 => ⟨S100000x64, .f32⟩
  | 79 => ⟨S100000x64, .i1⟩
  | 80 => ⟨S_, .f32⟩
  | 81 => ⟨S100000x64, .f32⟩
  | 82 => ⟨S100000x64, .i1⟩
  | 83 => ⟨S_, .f32⟩
  | 84 => ⟨S_, .f32⟩
  | 85 => ⟨S100000x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S_, .f32⟩
  | 93 => ⟨S100000, .f32⟩
  | 94 => ⟨S100000x1, .f32⟩
  | 95 => ⟨S_, .f32⟩
  | 96 => ⟨S100000x1, .f32⟩
  | 97 => ⟨S100000x1, .f32⟩
  | 98 => ⟨S_, .i32⟩
  | 99 => ⟨S_, .f32⟩
  | 100 => ⟨S100000, .f32⟩
  | 101 => ⟨S100000x1, .f32⟩
  | 102 => ⟨S_, .f32⟩
  | 103 => ⟨S100000x1, .f32⟩
  | 104 => ⟨S100000x1, .f32⟩
  | 105 => ⟨S100000x64, .f32⟩
  | 106 => ⟨S100000x64, .f32⟩
  | 107 => ⟨S100000x64, .f32⟩
  | 108 => ⟨S_, .f32⟩
  | 109 => ⟨S_, .f32⟩
  | 110 => ⟨S_, .f32⟩
  | 111 => ⟨S_, .f32⟩
  | 112 => ⟨S100000, .f32⟩
  | 113 => ⟨S100000x1, .f32⟩
  | 114 => ⟨S100000x1, .f32⟩
  | 115 => ⟨S100000x1, .f32⟩
  | 116 => ⟨S_, .f32⟩
  | 117 => ⟨S_, .i1⟩
  | 118 => ⟨S_, .f32⟩
  | 119 => ⟨S_, .f32⟩
  | 120 => ⟨S100000x1, .f32⟩
  | 121 => ⟨S100000x1, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x8, .f32⟩

abbrev hbmTy0_4 (i : Nat) : BufTy := match i % 128 with
  | 0 => ⟨S100000x1, .f32⟩
  | 1 => ⟨S100000x1, .f32⟩
  | 2 => ⟨S100000x1, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S100000x32, .f32⟩
  | 10 => ⟨S1x32, .f32⟩
  | 11 => ⟨S100000x32, .f32⟩
  | 12 => ⟨S100000x32, .f32⟩
  | 13 => ⟨S_, .f32⟩
  | 14 => ⟨S100000x32, .f32⟩
  | 15 => ⟨S100000x32, .f32⟩
  | 16 => ⟨S100000x1, .f32⟩
  | 17 => ⟨S1x1, .f32⟩
  | 18 => ⟨S100000x1, .f32⟩
  | 19 => ⟨S100000x1, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S_, .f32⟩
  | 26 => ⟨S100000x1, .f32⟩
  | 27 => ⟨S100000x1, .f32⟩
  | _ => ⟨S100000x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v24 : Ref sig .tc := ⟨.hbm, 61, rfl⟩
abbrev main_cst_5 : Ref sig .tc := ⟨.hbm, 62, rfl⟩
abbrev main_v25 : Ref sig .tc := ⟨.hbm, 63, rfl⟩
abbrev main_cst_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_8 : Ref sig .tc := ⟨.hbm, 76, rfl⟩
abbrev main_v36 : Ref sig .tc := ⟨.hbm, 77, rfl⟩
abbrev main_v37 : Ref sig .tc := ⟨.hbm, 78, rfl⟩
abbrev main_c_9 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_10 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_cst_1 : Ref sig .tc := ⟨.hbm, 97, rfl⟩
abbrev main_call1_call0_v0 : Ref sig .tc := ⟨.hbm, 98, rfl⟩
abbrev main_call1_call0_v1 : Ref sig .tc := ⟨.hbm, 99, rfl⟩
abbrev main_call1_v4 : Ref sig .tc := ⟨.hbm, 100, rfl⟩
abbrev main_call1_v5 : Ref sig .tc := ⟨.hbm, 101, rfl⟩
abbrev main_call1_cst_2 : Ref sig .tc := ⟨.hbm, 102, rfl⟩
abbrev main_call1_v6 : Ref sig .tc := ⟨.hbm, 103, rfl⟩
abbrev main_call1_v7 : Ref sig .tc := ⟨.hbm, 104, rfl⟩
abbrev main_v48 : Ref sig .tc := ⟨.hbm, 105, rfl⟩
abbrev main_cst_11 : Ref sig .tc := ⟨.hbm, 106, rfl⟩
abbrev main_v49 : Ref sig .tc := ⟨.hbm, 107, rfl⟩
abbrev main_v50 : Ref sig .tc := ⟨.hbm, 108, rfl⟩
abbrev main_cst_12 : Ref sig .tc := ⟨.hbm, 109, rfl⟩
abbrev main_v51 : Ref sig .tc := ⟨.hbm, 110, rfl⟩
abbrev main_v52 : Ref sig .tc := ⟨.hbm, 111, rfl⟩
abbrev main_c_13 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_cst_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_cst_2 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_cst_3 : Ref sig .tc := ⟨.hbm, 130, rfl⟩
abbrev main_call2_v13 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_14 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_c_15 : Ref sig .tc := ⟨.hbm, 151, rfl⟩
abbrev main_v68 : Ref sig .tc := ⟨.hbm, 152, rfl⟩
abbrev main_v69 : Ref sig .tc := ⟨.hbm, 153, rfl⟩
abbrev main_c_16 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_c_17 : Ref sig .tc := ⟨.hbm, 160, rfl⟩
abbrev main_v75 : Ref sig .tc := ⟨.hbm, 161, rfl⟩
abbrev main_v76 : Ref sig .tc := ⟨.hbm, 162, rfl⟩
abbrev main_c_18 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_19 : Ref sig .tc := ⟨.hbm, 170, rfl⟩
abbrev main_v83 : Ref sig .tc := ⟨.hbm, 171, rfl⟩
abbrev main_cst_20 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_cst_21 : Ref sig .tc := ⟨.hbm, 176, rfl⟩
abbrev main_call3_cst : Ref sig .tc := ⟨.hbm, 177, rfl⟩
abbrev main_call3_v0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_v87 : Ref sig .tc := ⟨.hbm, 183, rfl⟩
abbrev main_cst_22 : Ref sig .tc := ⟨.hbm, 184, rfl⟩
abbrev main_v88 : Ref sig .tc := ⟨.hbm, 185, rfl⟩
abbrev main_cst_23 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_cst_24 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_c_25 : Ref sig .tc := ⟨.hbm, 198, rfl⟩
abbrev main_v99 : Ref sig .tc := ⟨.hbm, 199, rfl⟩
abbrev main_v100 : Ref sig .tc := ⟨.hbm, 200, rfl⟩
abbrev main_c_26 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_27 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_call4_cst : Ref sig .tc := ⟨.hbm, 213, rfl⟩
abbrev main_call4_v0 : Ref sig .tc := ⟨.hbm, 214, rfl⟩
abbrev main_call4_v1 : Ref sig .tc := ⟨.hbm, 215, rfl⟩
abbrev main_call4_cst_0 : Ref sig .tc := ⟨.hbm, 216, rfl⟩
abbrev main_call4_v2 : Ref sig .tc := ⟨.hbm, 217, rfl⟩
abbrev main_call4_v3 : Ref sig .tc := ⟨.hbm, 218, rfl⟩
abbrev main_call4_cst_1 : Ref sig .tc := ⟨.hbm, 219, rfl⟩
abbrev main_call4_call0_v0 : Ref sig .tc := ⟨.hbm, 220, rfl⟩
abbrev main_call4_call0_v1 : Ref sig .tc := ⟨.hbm, 221, rfl⟩
abbrev main_call4_v4 : Ref sig .tc := ⟨.hbm, 222, rfl⟩
abbrev main_call4_v5 : Ref sig .tc := ⟨.hbm, 223, rfl⟩
abbrev main_call4_cst_2 : Ref sig .tc := ⟨.hbm, 224, rfl⟩
abbrev main_call4_v6 : Ref sig .tc := ⟨.hbm, 225, rfl⟩
abbrev main_call4_v7 : Ref sig .tc := ⟨.hbm, 226, rfl⟩
abbrev main_v111 : Ref sig .tc := ⟨.hbm, 227, rfl⟩
abbrev main_cst_28 : Ref sig .tc := ⟨.hbm, 228, rfl⟩
abbrev main_v112 : Ref sig .tc := ⟨.hbm, 229, rfl⟩
abbrev main_v113 : Ref sig .tc := ⟨.hbm, 230, rfl⟩
abbrev main_cst_29 : Ref sig .tc := ⟨.hbm, 231, rfl⟩
abbrev main_v114 : Ref sig .tc := ⟨.hbm, 232, rfl⟩
abbrev main_v115 : Ref sig .tc := ⟨.hbm, 233, rfl⟩
abbrev main_c_30 : Ref sig .tc := ⟨.hbm, 234, rfl⟩
abbrev main_call5_cst : Ref sig .tc := ⟨.hbm, 235, rfl⟩
abbrev main_call5_v0 : Ref sig .tc := ⟨.hbm, 236, rfl⟩
abbrev main_call5_v1 : Ref sig .tc := ⟨.hbm, 237, rfl⟩
abbrev main_call5_cst_0 : Ref sig .tc := ⟨.hbm, 238, rfl⟩
abbrev main_call5_v2 : Ref sig .tc := ⟨.hbm, 239, rfl⟩
abbrev main_call5_v3 : Ref sig .tc := ⟨.hbm, 240, rfl⟩
abbrev main_call5_v4 : Ref sig .tc := ⟨.hbm, 241, rfl⟩
abbrev main_call5_v5 : Ref sig .tc := ⟨.hbm, 242, rfl⟩
abbrev main_call5_v6 : Ref sig .tc := ⟨.hbm, 243, rfl⟩
abbrev main_call5_v7 : Ref sig .tc := ⟨.hbm, 244, rfl⟩
abbrev main_call5_cst_1 : Ref sig .tc := ⟨.hbm, 245, rfl⟩
abbrev main_call5_v8 : Ref sig .tc := ⟨.hbm, 246, rfl⟩
abbrev main_call5_cst_2 : Ref sig .tc := ⟨.hbm, 247, rfl⟩
abbrev main_call5_v9 : Ref sig .tc := ⟨.hbm, 248, rfl⟩
abbrev main_call5_v10 : Ref sig .tc := ⟨.hbm, 249, rfl⟩
abbrev main_call5_v11 : Ref sig .tc := ⟨.hbm, 250, rfl⟩
abbrev main_call5_v12 : Ref sig .tc := ⟨.hbm, 251, rfl⟩
abbrev main_call5_cst_3 : Ref sig .tc := ⟨.hbm, 252, rfl⟩
abbrev main_call5_v13 : Ref sig .tc := ⟨.hbm, 253, rfl⟩
abbrev main_call5_cst_4 : Ref sig .tc := ⟨.hbm, 254, rfl⟩
abbrev main_call5_call0_v0 : Ref sig .tc := ⟨.hbm, 255, rfl⟩
abbrev main_call5_call0_v1 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_cst_31 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_c_32 : Ref sig .tc := ⟨.hbm, 277, rfl⟩
abbrev main_v135 : Ref sig .tc := ⟨.hbm, 278, rfl⟩
abbrev main_v136 : Ref sig .tc := ⟨.hbm, 279, rfl⟩
abbrev main_c_33 : Ref sig .tc := ⟨.hbm, 280, rfl⟩
abbrev main_v137 : Ref sig .tc := ⟨.hbm, 281, rfl⟩
abbrev main_v138 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_c_34 : Ref sig .tc := ⟨.hbm, 286, rfl⟩
abbrev main_v142 : Ref sig .tc := ⟨.hbm, 287, rfl⟩
abbrev main_v143 : Ref sig .tc := ⟨.hbm, 288, rfl⟩
abbrev main_c_35 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_cst_36 : Ref sig .tc := ⟨.hbm, 296, rfl⟩
abbrev main_v150 : Ref sig .tc := ⟨.hbm, 297, rfl⟩
abbrev main_cst_37 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_cst_38 : Ref sig .tc := ⟨.hbm, 302, rfl⟩
abbrev main_call6_cst : Ref sig .tc := ⟨.hbm, 303, rfl⟩
abbrev main_call6_v0 : Ref sig .tc := ⟨.hbm, 304, rfl⟩
abbrev main_call6_v1 : Ref sig .tc := ⟨.hbm, 305, rfl⟩
abbrev main_call6_v2 : Ref sig .tc := ⟨.hbm, 306, rfl⟩
abbrev main_call6_v3 : Ref sig .tc := ⟨.hbm, 307, rfl⟩
abbrev main_call6_v4 : Ref sig .tc := ⟨.hbm, 308, rfl⟩
abbrev main_v154 : Ref sig .tc := ⟨.hbm, 309, rfl⟩
abbrev main_cst_39 : Ref sig .tc := ⟨.hbm, 310, rfl⟩
abbrev main_v155 : Ref sig .tc := ⟨.hbm, 311, rfl⟩
abbrev main_cst_40 : Ref sig .tc := ⟨.hbm, 312, rfl⟩
abbrev main_v156 : Ref sig .tc := ⟨.hbm, 313, rfl⟩
abbrev main_v157 : Ref sig .tc := ⟨.hbm, 314, rfl⟩
abbrev main_v158 : Ref sig .tc := ⟨.hbm, 315, rfl⟩
abbrev main_v159 : Ref sig .tc := ⟨.hbm, 316, rfl⟩
abbrev main_v160 : Ref sig .tc := ⟨.hbm, 317, rfl⟩
abbrev main_cst_41 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_v164 : Ref sig .tc := ⟨.hbm, 322, rfl⟩
abbrev main_v165 : Ref sig .tc := ⟨.hbm, 323, rfl⟩
abbrev main_c_42 : Ref sig .tc := ⟨.hbm, 324, rfl⟩
abbrev main_v166 : Ref sig .tc := ⟨.hbm, 325, rfl⟩
abbrev main_v167 : Ref sig .tc := ⟨.hbm, 326, rfl⟩
abbrev main_c_43 : Ref sig .tc := ⟨.hbm, 327, rfl⟩
abbrev main_v168 : Ref sig .tc := ⟨.hbm, 328, rfl⟩
abbrev main_v169 : Ref sig .tc := ⟨.hbm, 329, rfl⟩
abbrev main_v170 : Ref sig .tc := ⟨.hbm, 330, rfl⟩
abbrev main_v171 : Ref sig .tc := ⟨.hbm, 331, rfl⟩
abbrev main_v172 : Ref sig .tc := ⟨.hbm, 332, rfl⟩
abbrev main_v173 : Ref sig .tc := ⟨.hbm, 333, rfl⟩
abbrev main_v174 : Ref sig .tc := ⟨.hbm, 334, rfl⟩
abbrev main_cst_44 : Ref sig .tc := ⟨.hbm, 335, rfl⟩
abbrev main_v175 : Ref sig .tc := ⟨.hbm, 336, rfl⟩
abbrev main_v176 : Ref sig .tc := ⟨.hbm, 337, rfl⟩
abbrev main_v177 : Ref sig .tc := ⟨.hbm, 338, rfl⟩
abbrev main_call7_cst : Ref sig .tc := ⟨.hbm, 339, rfl⟩
abbrev main_call7_v0 : Ref sig .tc := ⟨.hbm, 340, rfl⟩
abbrev main_call7_v1 : Ref sig .tc := ⟨.hbm, 341, rfl⟩
abbrev main_call7_cst_0 : Ref sig .tc := ⟨.hbm, 342, rfl⟩
abbrev main_call7_v2 : Ref sig .tc := ⟨.hbm, 343, rfl⟩
abbrev main_call7_v3 : Ref sig .tc := ⟨.hbm, 344, rfl⟩
abbrev main_call7_cst_1 : Ref sig .tc := ⟨.hbm, 345, rfl⟩
abbrev main_call7_call0_v0 : Ref sig .tc := ⟨.hbm, 346, rfl⟩
abbrev main_call7_call0_v1 : Ref sig .tc := ⟨.hbm, 347, rfl⟩
abbrev main_call7_v4 : Ref sig .tc := ⟨.hbm, 348, rfl⟩
abbrev main_call7_v5 : Ref sig .tc := ⟨.hbm, 349, rfl⟩
abbrev main_call7_cst_2 : Ref sig .tc := ⟨.hbm, 350, rfl⟩
abbrev main_call7_v6 : Ref sig .tc := ⟨.hbm, 351, rfl⟩
abbrev main_call7_v7 : Ref sig .tc := ⟨.hbm, 352, rfl⟩
abbrev main_v178 : Ref sig .tc := ⟨.hbm, 353, rfl⟩
abbrev main_cst_45 : Ref sig .tc := ⟨.hbm, 354, rfl⟩
abbrev main_v179 : Ref sig .tc := ⟨.hbm, 355, rfl⟩
abbrev main_v180 : Ref sig .tc := ⟨.hbm, 356, rfl⟩
abbrev main_cst_46 : Ref sig .tc := ⟨.hbm, 357, rfl⟩
abbrev main_v181 : Ref sig .tc := ⟨.hbm, 358, rfl⟩
abbrev main_v182 : Ref sig .tc := ⟨.hbm, 359, rfl⟩
abbrev main_c_47 : Ref sig .tc := ⟨.hbm, 360, rfl⟩
abbrev main_call8_cst : Ref sig .tc := ⟨.hbm, 361, rfl⟩
abbrev main_call8_v0 : Ref sig .tc := ⟨.hbm, 362, rfl⟩
abbrev main_call8_v1 : Ref sig .tc := ⟨.hbm, 363, rfl⟩
abbrev main_call8_cst_0 : Ref sig .tc := ⟨.hbm, 364, rfl⟩
abbrev main_call8_v2 : Ref sig .tc := ⟨.hbm, 365, rfl⟩
abbrev main_call8_v3 : Ref sig .tc := ⟨.hbm, 366, rfl⟩
abbrev main_call8_v4 : Ref sig .tc := ⟨.hbm, 367, rfl⟩
abbrev main_call8_v5 : Ref sig .tc := ⟨.hbm, 368, rfl⟩
abbrev main_call8_v6 : Ref sig .tc := ⟨.hbm, 369, rfl⟩
abbrev main_call8_v7 : Ref sig .tc := ⟨.hbm, 370, rfl⟩
abbrev main_call8_cst_1 : Ref sig .tc := ⟨.hbm, 371, rfl⟩
abbrev main_call8_v8 : Ref sig .tc := ⟨.hbm, 372, rfl⟩
abbrev main_call8_cst_2 : Ref sig .tc := ⟨.hbm, 373, rfl⟩
abbrev main_call8_v9 : Ref sig .tc := ⟨.hbm, 374, rfl⟩
abbrev main_call8_v10 : Ref sig .tc := ⟨.hbm, 375, rfl⟩
abbrev main_call8_v11 : Ref sig .tc := ⟨.hbm, 376, rfl⟩
abbrev main_call8_v12 : Ref sig .tc := ⟨.hbm, 377, rfl⟩
abbrev main_call8_cst_3 : Ref sig .tc := ⟨.hbm, 378, rfl⟩
abbrev main_call8_v13 : Ref sig .tc := ⟨.hbm, 379, rfl⟩
abbrev main_call8_cst_4 : Ref sig .tc := ⟨.hbm, 380, rfl⟩
abbrev main_call8_call0_v0 : Ref sig .tc := ⟨.hbm, 381, rfl⟩
abbrev main_call8_call0_v1 : Ref sig .tc := ⟨.hbm, 382, rfl⟩
abbrev main_v183 : Ref sig .tc := ⟨.hbm, 383, rfl⟩
abbrev main_v184 : Ref sig .tc := ⟨.hbm, 384, rfl⟩
abbrev main_v185 : Ref sig .tc := ⟨.hbm, 385, rfl⟩
abbrev main_v186 : Ref sig .tc := ⟨.hbm, 386, rfl⟩
abbrev main_v187 : Ref sig .tc := ⟨.hbm, 387, rfl⟩
abbrev main_v188 : Ref sig .tc := ⟨.hbm, 388, rfl⟩
abbrev main_cst_48 : Ref sig .tc := ⟨.hbm, 389, rfl⟩
abbrev main_v189 : Ref sig .tc := ⟨.hbm, 390, rfl⟩
abbrev main_v190 : Ref sig .tc := ⟨.hbm, 391, rfl⟩
abbrev main_v191 : Ref sig .tc := ⟨.hbm, 392, rfl⟩
abbrev main_v192 : Ref sig .tc := ⟨.hbm, 393, rfl⟩
abbrev main_v193 : Ref sig .tc := ⟨.hbm, 394, rfl⟩
abbrev main_v194 : Ref sig .tc := ⟨.hbm, 395, rfl⟩
abbrev main_v195 : Ref sig .tc := ⟨.hbm, 396, rfl⟩
abbrev main_v196 : Ref sig .tc := ⟨.hbm, 397, rfl⟩
abbrev main_v197 : Ref sig .tc := ⟨.hbm, 398, rfl⟩
abbrev main_c_49 : Ref sig .tc := ⟨.hbm, 399, rfl⟩
abbrev main_v198 : Ref sig .tc := ⟨.hbm, 400, rfl⟩
abbrev main_v199 : Ref sig .tc := ⟨.hbm, 401, rfl⟩
abbrev main_c_50 : Ref sig .tc := ⟨.hbm, 402, rfl⟩
abbrev main_v200 : Ref sig .tc := ⟨.hbm, 403, rfl⟩
abbrev main_v201 : Ref sig .tc := ⟨.hbm, 404, rfl⟩
abbrev main_v202 : Ref sig .tc := ⟨.hbm, 405, rfl⟩
abbrev main_v203 : Ref sig .tc := ⟨.hbm, 406, rfl⟩
abbrev main_v204 : Ref sig .tc := ⟨.hbm, 407, rfl⟩
abbrev main_c_51 : Ref sig .tc := ⟨.hbm, 408, rfl⟩
abbrev main_v205 : Ref sig .tc := ⟨.hbm, 409, rfl⟩
abbrev main_v206 : Ref sig .tc := ⟨.hbm, 410, rfl⟩
abbrev main_c_52 : Ref sig .tc := ⟨.hbm, 411, rfl⟩
abbrev main_v207 : Ref sig .tc := ⟨.hbm, 412, rfl⟩
abbrev main_v208 : Ref sig .tc := ⟨.hbm, 413, rfl⟩
abbrev main_v209 : Ref sig .tc := ⟨.hbm, 414, rfl⟩
abbrev main_v210 : Ref sig .tc := ⟨.hbm, 415, rfl⟩
abbrev main_v211 : Ref sig .tc := ⟨.hbm, 416, rfl⟩
abbrev main_v212 : Ref sig .tc := ⟨.hbm, 417, rfl⟩
abbrev main_cst_53 : Ref sig .tc := ⟨.hbm, 418, rfl⟩
abbrev main_v213 : Ref sig .tc := ⟨.hbm, 419, rfl⟩
abbrev main_cst_54 : Ref sig .tc := ⟨.hbm, 420, rfl⟩
abbrev main_v214 : Ref sig .tc := ⟨.hbm, 421, rfl⟩
abbrev main_v215 : Ref sig .tc := ⟨.hbm, 422, rfl⟩
abbrev main_v216 : Ref sig .tc := ⟨.hbm, 423, rfl⟩
abbrev main_cst_55 : Ref sig .tc := ⟨.hbm, 424, rfl⟩
abbrev main_call9_cst : Ref sig .tc := ⟨.hbm, 425, rfl⟩
abbrev main_call9_v0 : Ref sig .tc := ⟨.hbm, 426, rfl⟩
abbrev main_call9_v1 : Ref sig .tc := ⟨.hbm, 427, rfl⟩
abbrev main_call9_v2 : Ref sig .tc := ⟨.hbm, 428, rfl⟩
abbrev main_call9_v3 : Ref sig .tc := ⟨.hbm, 429, rfl⟩
abbrev main_call9_v4 : Ref sig .tc := ⟨.hbm, 430, rfl⟩
abbrev main_v217 : Ref sig .tc := ⟨.hbm, 431, rfl⟩
abbrev main_cst_56 : Ref sig .tc := ⟨.hbm, 432, rfl⟩
abbrev main_v218 : Ref sig .tc := ⟨.hbm, 433, rfl⟩
abbrev main_cst_57 : Ref sig .tc := ⟨.hbm, 434, rfl⟩
abbrev main_v219 : Ref sig .tc := ⟨.hbm, 435, rfl⟩
abbrev main_v220 : Ref sig .tc := ⟨.hbm, 436, rfl⟩
abbrev main_v221 : Ref sig .tc := ⟨.hbm, 437, rfl⟩
abbrev main_v222 : Ref sig .tc := ⟨.hbm, 438, rfl⟩
abbrev main_v223 : Ref sig .tc := ⟨.hbm, 439, rfl⟩
abbrev main_cst_58 : Ref sig .tc := ⟨.hbm, 440, rfl⟩
abbrev main_v224 : Ref sig .tc := ⟨.hbm, 441, rfl⟩
abbrev main_v225 : Ref sig .tc := ⟨.hbm, 442, rfl⟩
abbrev main_v226 : Ref sig .tc := ⟨.hbm, 443, rfl⟩
abbrev main_v227 : Ref sig .tc := ⟨.hbm, 444, rfl⟩
abbrev main_v228 : Ref sig .tc := ⟨.hbm, 445, rfl⟩
abbrev main_c_59 : Ref sig .tc := ⟨.hbm, 446, rfl⟩
abbrev main_v229 : Ref sig .tc := ⟨.hbm, 447, rfl⟩
abbrev main_v230 : Ref sig .tc := ⟨.hbm, 448, rfl⟩
abbrev main_c_60 : Ref sig .tc := ⟨.hbm, 449, rfl⟩
abbrev main_v231 : Ref sig .tc := ⟨.hbm, 450, rfl⟩
abbrev main_v232 : Ref sig .tc := ⟨.hbm, 451, rfl⟩
abbrev main_v233 : Ref sig .tc := ⟨.hbm, 452, rfl⟩
abbrev main_v234 : Ref sig .tc := ⟨.hbm, 453, rfl⟩
abbrev main_v235 : Ref sig .tc := ⟨.hbm, 454, rfl⟩
abbrev main_v236 : Ref sig .tc := ⟨.hbm, 455, rfl⟩
abbrev main_v237 : Ref sig .tc := ⟨.hbm, 456, rfl⟩
abbrev main_cst_61 : Ref sig .tc := ⟨.hbm, 457, rfl⟩
abbrev main_v238 : Ref sig .tc := ⟨.hbm, 458, rfl⟩
abbrev main_v239 : Ref sig .tc := ⟨.hbm, 459, rfl⟩
abbrev main_v240 : Ref sig .tc := ⟨.hbm, 460, rfl⟩
abbrev main_call10_cst : Ref sig .tc := ⟨.hbm, 461, rfl⟩
abbrev main_call10_v0 : Ref sig .tc := ⟨.hbm, 462, rfl⟩
abbrev main_call10_v1 : Ref sig .tc := ⟨.hbm, 463, rfl⟩
abbrev main_call10_cst_0 : Ref sig .tc := ⟨.hbm, 464, rfl⟩
abbrev main_call10_v2 : Ref sig .tc := ⟨.hbm, 465, rfl⟩
abbrev main_call10_v3 : Ref sig .tc := ⟨.hbm, 466, rfl⟩
abbrev main_call10_cst_1 : Ref sig .tc := ⟨.hbm, 467, rfl⟩
abbrev main_call10_call0_v0 : Ref sig .tc := ⟨.hbm, 468, rfl⟩
abbrev main_call10_call0_v1 : Ref sig .tc := ⟨.hbm, 469, rfl⟩
abbrev main_call10_v4 : Ref sig .tc := ⟨.hbm, 470, rfl⟩
abbrev main_call10_v5 : Ref sig .tc := ⟨.hbm, 471, rfl⟩
abbrev main_call10_cst_2 : Ref sig .tc := ⟨.hbm, 472, rfl⟩
abbrev main_call10_v6 : Ref sig .tc := ⟨.hbm, 473, rfl⟩
abbrev main_call10_v7 : Ref sig .tc := ⟨.hbm, 474, rfl⟩
abbrev main_v241 : Ref sig .tc := ⟨.hbm, 475, rfl⟩
abbrev main_cst_62 : Ref sig .tc := ⟨.hbm, 476, rfl⟩
abbrev main_v242 : Ref sig .tc := ⟨.hbm, 477, rfl⟩
abbrev main_v243 : Ref sig .tc := ⟨.hbm, 478, rfl⟩
abbrev main_cst_63 : Ref sig .tc := ⟨.hbm, 479, rfl⟩
abbrev main_v244 : Ref sig .tc := ⟨.hbm, 480, rfl⟩
abbrev main_v245 : Ref sig .tc := ⟨.hbm, 481, rfl⟩
abbrev main_c_64 : Ref sig .tc := ⟨.hbm, 482, rfl⟩
abbrev main_call11_cst : Ref sig .tc := ⟨.hbm, 483, rfl⟩
abbrev main_call11_v0 : Ref sig .tc := ⟨.hbm, 484, rfl⟩
abbrev main_call11_v1 : Ref sig .tc := ⟨.hbm, 485, rfl⟩
abbrev main_call11_cst_0 : Ref sig .tc := ⟨.hbm, 486, rfl⟩
abbrev main_call11_v2 : Ref sig .tc := ⟨.hbm, 487, rfl⟩
abbrev main_call11_v3 : Ref sig .tc := ⟨.hbm, 488, rfl⟩
abbrev main_call11_v4 : Ref sig .tc := ⟨.hbm, 489, rfl⟩
abbrev main_call11_v5 : Ref sig .tc := ⟨.hbm, 490, rfl⟩
abbrev main_call11_v6 : Ref sig .tc := ⟨.hbm, 491, rfl⟩
abbrev main_call11_v7 : Ref sig .tc := ⟨.hbm, 492, rfl⟩
abbrev main_call11_cst_1 : Ref sig .tc := ⟨.hbm, 493, rfl⟩
abbrev main_call11_v8 : Ref sig .tc := ⟨.hbm, 494, rfl⟩
abbrev main_call11_cst_2 : Ref sig .tc := ⟨.hbm, 495, rfl⟩
abbrev main_call11_v9 : Ref sig .tc := ⟨.hbm, 496, rfl⟩
abbrev main_call11_v10 : Ref sig .tc := ⟨.hbm, 497, rfl⟩
abbrev main_call11_v11 : Ref sig .tc := ⟨.hbm, 498, rfl⟩
abbrev main_call11_v12 : Ref sig .tc := ⟨.hbm, 499, rfl⟩
abbrev main_call11_cst_3 : Ref sig .tc := ⟨.hbm, 500, rfl⟩
abbrev main_call11_v13 : Ref sig .tc := ⟨.hbm, 501, rfl⟩
abbrev main_call11_cst_4 : Ref sig .tc := ⟨.hbm, 502, rfl⟩
abbrev main_call11_call0_v0 : Ref sig .tc := ⟨.hbm, 503, rfl⟩
abbrev main_call11_call0_v1 : Ref sig .tc := ⟨.hbm, 504, rfl⟩
abbrev main_v246 : Ref sig .tc := ⟨.hbm, 505, rfl⟩
abbrev main_v247 : Ref sig .tc := ⟨.hbm, 506, rfl⟩
abbrev main_v248 : Ref sig .tc := ⟨.hbm, 507, rfl⟩
abbrev main_v249 : Ref sig .tc := ⟨.hbm, 508, rfl⟩
abbrev main_v250 : Ref sig .tc := ⟨.hbm, 509, rfl⟩
abbrev main_v251 : Ref sig .tc := ⟨.hbm, 510, rfl⟩
abbrev main_cst_65 : Ref sig .tc := ⟨.hbm, 511, rfl⟩
abbrev main_v252 : Ref sig .tc := ⟨.hbm, 512, rfl⟩
abbrev main_v253 : Ref sig .tc := ⟨.hbm, 513, rfl⟩
abbrev main_v254 : Ref sig .tc := ⟨.hbm, 514, rfl⟩
abbrev main_v255 : Ref sig .tc := ⟨.hbm, 515, rfl⟩
abbrev main_v256 : Ref sig .tc := ⟨.hbm, 516, rfl⟩
abbrev main_v257 : Ref sig .tc := ⟨.hbm, 517, rfl⟩
abbrev main_v258 : Ref sig .tc := ⟨.hbm, 518, rfl⟩
abbrev main_v259 : Ref sig .tc := ⟨.hbm, 519, rfl⟩
abbrev main_v260 : Ref sig .tc := ⟨.hbm, 520, rfl⟩
abbrev main_v261 : Ref sig .tc := ⟨.hbm, 521, rfl⟩
abbrev main_v262 : Ref sig .tc := ⟨.hbm, 522, rfl⟩
abbrev main_v263 : Ref sig .tc := ⟨.hbm, 523, rfl⟩
abbrev main_v264 : Ref sig .tc := ⟨.hbm, 524, rfl⟩
abbrev main_call12_cst : Ref sig .tc := ⟨.hbm, 525, rfl⟩
abbrev main_call12_v0 : Ref sig .tc := ⟨.hbm, 526, rfl⟩
abbrev main_v265 : Ref sig .tc := ⟨.hbm, 527, rfl⟩
abbrev main_v266 : Ref sig .tc := ⟨.hbm, 528, rfl⟩
abbrev main_v267 : Ref sig .tc := ⟨.hbm, 529, rfl⟩
abbrev main_v268 : Ref sig .tc := ⟨.hbm, 530, rfl⟩
abbrev main_v269 : Ref sig .tc := ⟨.hbm, 531, rfl⟩
abbrev main_v270 : Ref sig .tc := ⟨.hbm, 532, rfl⟩
abbrev main_v271 : Ref sig .tc := ⟨.hbm, 533, rfl⟩
abbrev main_cst_66 : Ref sig .tc := ⟨.hbm, 534, rfl⟩
abbrev main_v272 : Ref sig .tc := ⟨.hbm, 535, rfl⟩
abbrev main_v273 : Ref sig .tc := ⟨.hbm, 536, rfl⟩
abbrev main_cst_67 : Ref sig .tc := ⟨.hbm, 537, rfl⟩
abbrev main_v274 : Ref sig .tc := ⟨.hbm, 538, rfl⟩
abbrev main_v275 : Ref sig .tc := ⟨.hbm, 539, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  reducesTo_S128x1_S_d0_1 : S128x1.ReducesTo [0, 1] S_
  reducesTo_S1600000_S_d0 : S1600000.ReducesTo [0] S_
  bcast_S_S1 : S_.BroadcastsInDim S1 (![] : Fin 0 → Fin S1.rank)
  bcast_S1_S1600000_0 : S1.BroadcastsInDim S1600000 (![0] : Fin 1 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x8_S8x64_S100000x64_1_0_0_1_n_n_wf : DotDims.WF S100000x8 S8x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Fns.lean ====
import proofs.«400993_j24043226923663_1_alg».proof.ReferenceIdeal
import proofs.«400993_j24043226923663_1_alg».proof.Proof.Gen.ReferenceIdeal

/-! The graph-attention network as pure functions, each the composition of the reference's own operations in its own
order: a dense projection, its rows gathered at the edges' end points, the edge score, its softmax over all edges, the
messages and their sum by destination row, `elu`, the normalisation of each row, and the head's two dense layers. -/

noncomputable section

namespace Cert.ReferenceIdeal.Fns

open Idealize.ShloMosaic Idealize.ShloMosaic.TcCoe Cert.ReferenceIdeal
open Cert.ReferenceIdeal.Facts₀ Cert.ReferenceIdeal.Facts

variable {F : FTy → Type} [FloatOps F]

def row0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

def row1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

def wrap (i : (⟨S1600000, .i32⟩ : BufTy).Contents (Elt F)) : (⟨S1600000, .i32⟩ : BufTy).Contents (Elt F) :=
  select (cmpi .slt i (broadcastInDim S1600000 ![] bcast_S_S1600000 (constantI S_ 32 0#32)))
    (addi i (broadcastInDim S1600000 ![] bcast_S_S1600000 (constantI S_ 32 100000#32))) i

def gatherRows (x : (⟨S100000x64, .f32⟩ : BufTy).Contents (Elt F)) (i : (⟨S1600000, .i32⟩ : BufTy).Contents (Elt F)) : (⟨S1600000x64, .f32⟩ : BufTy).Contents (Elt F) :=
  Host.gather gather_S100000x64_S1600000x1_S1600000x64_1_0_n_n_0_1_164 x
    (broadcastInDim S1600000x1 ![0] bcast_S1600000_S1600000x1_0 (wrap i))

def dot8 (h : (⟨S100000x8, .f32⟩ : BufTy).Contents (Elt F)) (w : (⟨S8x64, .f32⟩ : BufTy).Contents (Elt F)) : (⟨S100000x64, .f32⟩ : BufTy).Contents (Elt F) :=
  Host.dotGeneral dot_S100000x8_S8x64_S100000x64_1_0_0_1_n_n none h w

def dot64 (h : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none h w

def leaky (x : (⟨S1600000, .f32⟩ : BufTy).Contents (Elt F)) : (⟨S1600000, .f32⟩ : BufTy).Contents (Elt F) :=
  select (cmpf .oge x (broadcastInDim S1600000 ![] bcast_S_S1600000 (constant S_ .f32 0x00000000#32))) x
    (mulf (broadcastInDim S1600000 ![] bcast_S_S1600000 (constant S_ .f32 0x3E4CCCCD#32)) x)

def score (wsrc wdst : (⟨S1600000x64, .f32⟩ : BufTy).Contents (Elt F)) (a : (⟨S128x1, .f32⟩ : BufTy).Contents (Elt F)) : (⟨S1600000, .f32⟩ : BufTy).Contents (Elt F) :=
  leaky (mulf (Host.reduceAdd (mulf wsrc wdst) (constant S_ .f32 0x00000000#32) reducesTo_S1600000x64_S1600000_d1 h_S_)
    (broadcastInDim S1600000 ![] bcast_S_S1600000
      (Host.reduceAdd a (constant S_ .f32 0x00000000#32) reducesTo_S128x1_S_d0_1 h_S_)))

def emax (e : (⟨S1600000, .f32⟩ : BufTy).Contents (Elt F)) : (⟨S_, .f32⟩ : BufTy).Contents (Elt F) :=
  maximumf (constant S_ .f32 0xFF800000#32)
    (Host.reduce FloatOps.maximumf e (constant S_ .f32 0xFF800000#32) reducesTo_S1600000_S_d0 h_S_)

def eexp (e : (⟨S1600000, .f32⟩ : BufTy).Contents (Elt F)) : (⟨S1600000, .f32⟩ : BufTy).Contents (Elt F) :=
  Host.exp (subf e (broadcastInDim S1600000 ![0] bcast_S1_S1600000_0 (broadcastInDim S1 ![] bcast_S_S1 (emax e))))

def esum (p : (⟨S1600000, .f32⟩ : BufTy).Contents (Elt F)) : (⟨S_, .f32⟩ : BufTy).Contents (Elt F) :=
  Host.reduceAdd p (constant S_ .f32 0x00000000#32) reducesTo_S1600000_S_d0 h_S_

def att (e : (⟨S1600000, .f32⟩ : BufTy).Contents (Elt F)) : (⟨S1600000, .f32⟩ : BufTy).Contents (Elt F) :=
  Host.divf (eexp e) (broadcastInDim S1600000 ![0] bcast_S1_S1600000_0 (broadcastInDim S1 ![] bcast_S_S1 (esum (eexp e))))

def col (e : (⟨S1600000, .f32⟩ : BufTy).Contents (Elt F)) : (⟨S1600000x1, .f32⟩ : BufTy).Contents (Elt F) :=
  broadcastInDim S1600000x1 ![0] bcast_S1600000_S1600000x1_0 e

def spread (a : (⟨S1600000x1, .f32⟩ : BufTy).Contents (Elt F)) : (⟨S1600000x64, .f32⟩ : BufTy).Contents (Elt F) :=
  broadcastInDim S1600000x64 ![0, 1] bcast_S1600000x1_S1600000x64_0_1 a

def msgOf (e : (⟨S1600000, .f32⟩ : BufTy).Contents (Elt F)) (wsrc : (⟨S1600000x64, .f32⟩ : BufTy).Contents (Elt F)) : (⟨S1600000x64, .f32⟩ : BufTy).Contents (Elt F) :=
  mulf (spread (col (att e))) wsrc

def msg (wsrc wdst : (⟨S1600000x64, .f32⟩ : BufTy).Contents (Elt F)) (a : (⟨S128x1, .f32⟩ : BufTy).Contents (Elt F)) : (⟨S1600000x64, .f32⟩ : BufTy).Contents (Elt F) :=
  msgOf (score wsrc wdst a) wsrc

def segsum (u : (⟨S1600000x64, .f32⟩ : BufTy).Contents (Elt F)) (dst : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) u

def elu (x : (⟨S100000x64, .f32⟩ : BufTy).Contents (Elt F)) : (⟨S100000x64, .f32⟩ : BufTy).Contents (Elt F) :=
  select (cmpf .ogt x (broadcastInDim S100000x64 ![] bcast_S_S100000x64 (constant S_ .f32 0x00000000#32))) x
    (mulf (broadcastInDim S100000x64 ![] bcast_S_S100000x64 (constant S_ .f32 0x3F800000#32))
      (Host.expm1 (select (cmpf .ogt x (broadcastInDim S100000x64 ![] bcast_S_S100000x64 (constant S_ .f32 0x00000000#32)))
        (broadcastInDim S100000x64 ![] bcast_S_S100000x64 (constant S_ .f32 0x00000000#32)) x)))

def rowMean (x : (⟨S100000x64, .f32⟩ : BufTy).Contents (Elt F)) : (⟨S100000x1, .f32⟩ : BufTy).Contents (Elt F) :=
  Host.divf (broadcastInDim S100000x1 ![0] bcast_S100000_S100000x1_0
      (Host.reduceAdd x (constant S_ .f32 0x00000000#32) reducesTo_S100000x64_S100000_d1 h_S_))
    (broadcastInDim S100000x1 ![] bcast_S_S100000x1 (constant S_ .f32 0x42800000#32))

def varCount : (⟨S_, .f32⟩ : BufTy).Contents (Elt F) :=
  subf (constant S_ .f32 0x42800000#32) (sitofp (F := F) .f32 (constantI S_ 32 0#32))

def rowVar (x : (⟨S100000x64, .f32⟩ : BufTy).Contents (Elt F)) : (⟨S100000x1, .f32⟩ : BufTy).Contents (Elt F) :=
  select (broadcastInDim S100000x1 ![] bcast_S_S100000x1 (cmpf .ogt (varCount (F := F)) (constant S_ .f32 0x00000000#32)))
    (Host.divf (broadcastInDim S100000x1 ![0] bcast_S100000_S100000x1_0
        (Host.reduceAdd
          (mulf (subf x (broadcastInDim S100000x64 ![0, 1] bcast_S100000x1_S100000x64_0_1 (rowMean x)))
            (subf x (broadcastInDim S100000x64 ![0, 1] bcast_S100000x1_S100000x64_0_1 (rowMean x))))
          (constant S_ .f32 0x00000000#32) reducesTo_S100000x64_S100000_d1 h_S_))
      (broadcastInDim S100000x1 ![] bcast_S_S100000x1 (varCount (F := F))))
    (broadcastInDim S100000x1 ![] bcast_S_S100000x1 (constant S_ .f32 0x7FC00000#32))

def layerNorm (x : (⟨S100000x64, .f32⟩ : BufTy).Contents (Elt F)) (g b : (⟨S64, .f32⟩ : BufTy).Contents (Elt F)) : (⟨S100000x64, .f32⟩ : BufTy).Contents (Elt F) :=
  addf
    (Host.divf
      (mulf (broadcastInDim S100000x64 ![0, 1] bcast_S1x64_S100000x64_0_1 (broadcastInDim S1x64 ![1] bcast_S64_S1x64_1 g))
        (subf x (broadcastInDim S100000x64 ![0, 1] bcast_S100000x1_S100000x64_0_1 (rowMean x))))
      (broadcastInDim S100000x64 ![0, 1] bcast_S100000x1_S100000x64_0_1
        (Host.sqrt (addf (rowVar x) (broadcastInDim S100000x1 ![] bcast_S_S100000x1 (constant S_ .f32 0x3727C5AC#32))))))
    (broadcastInDim S100000x64 ![0, 1] bcast_S1x64_S100000x64_0_1 (broadcastInDim S1x64 ![1] bcast_S64_S1x64_1 b))

def gat (wh : (⟨S100000x64, .f32⟩ : BufTy).Contents (Elt F)) (a : (⟨S128x1, .f32⟩ : BufTy).Contents (Elt F)) (g b : (⟨S64, .f32⟩ : BufTy).Contents (Elt F))
    (src dst : (⟨S1600000, .i32⟩ : BufTy).Contents (Elt F)) : (⟨S100000x64, .f32⟩ : BufTy).Contents (Elt F) :=
  layerNorm (elu (segsum (msg (gatherRows wh src) (gatherRows wh dst) a) dst)) g b

def stack (x : (⟨S100000x8, .f32⟩ : BufTy).Contents (Elt F)) (ei : (⟨S2x1600000, .i32⟩ : BufTy).Contents (Elt F))
    (w0 : (⟨S8x64, .f32⟩ : BufTy).Contents (Elt F)) (a0 : (⟨S128x1, .f32⟩ : BufTy).Contents (Elt F)) (g0 b0 : (⟨S64, .f32⟩ : BufTy).Contents (Elt F))
    (w1 : (⟨S64x64, .f32⟩ : BufTy).Contents (Elt F)) (a1 : (⟨S128x1, .f32⟩ : BufTy).Contents (Elt F)) (g1 b1 : (⟨S64, .f32⟩ : BufTy).Contents (Elt F)) : (⟨S100000x64, .f32⟩ : BufTy).Contents (Elt F) :=
  gat (dot64 (gat (dot8 x w0) a0 g0 b0 (row0 ei) (row1 ei)) w1) a1 g1 b1 (row0 ei) (row1 ei)

def denseRelu (h : (⟨S100000x64, .f32⟩ : BufTy).Contents (Elt F)) (w : (⟨S64x32, .f32⟩ : BufTy).Contents (Elt F)) (b : (⟨S32, .f32⟩ : BufTy).Contents (Elt F)) : (⟨S100000x32, .f32⟩ : BufTy).Contents (Elt F) :=
  maximumf
    (addf (Host.dotGeneral dot_S100000x64_S64x32_S100000x32_1_0_0_1_n_n none h w)
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

def denseSigmoid (h : (⟨S100000x32, .f32⟩ : BufTy).Contents (Elt F)) (w : (⟨S32x1, .f32⟩ : BufTy).Contents (Elt F)) (b : (⟨S1, .f32⟩ : BufTy).Contents (Elt F)) : (⟨S100000x1, .f32⟩ : BufTy).Contents (Elt F) :=
  Host.divf (broadcastInDim S100000x1 ![] bcast_S_S100000x1 (constant S_ .f32 0x3F800000#32))
    (addf (broadcastInDim S100000x1 ![] bcast_S_S100000x1 (constant S_ .f32 0x3F800000#32))
      (Host.exp (Host.negf
        (addf (Host.dotGeneral dot_S100000x32_S32x1_S100000x1_1_0_0_1_n_n none h w)
          (broadcastInDim S100000x1 ![0, 1] bcast_S1x1_S100000x1_0_1 (broadcastInDim S1x1 ![1] bcast_S1_S1x1_1 b))))))

def out (x : (⟨S100000x8, .f32⟩ : BufTy).Contents (Elt F)) (ei tei : (⟨S2x1600000, .i32⟩ : BufTy).Contents (Elt F))
    (sW0 : (⟨S8x64, .f32⟩ : BufTy).Contents (Elt F)) (sa0 : (⟨S128x1, .f32⟩ : BufTy).Contents (Elt F)) (sg0 sb0 : (⟨S64, .f32⟩ : BufTy).Contents (Elt F))
    (sW1 : (⟨S64x64, .f32⟩ : BufTy).Contents (Elt F)) (sa1 : (⟨S128x1, .f32⟩ : BufTy).Contents (Elt F)) (sg1 sb1 : (⟨S64, .f32⟩ : BufTy).Contents (Elt F))
    (tW0 : (⟨S8x64, .f32⟩ : BufTy).Contents (Elt F)) (ta0 : (⟨S128x1, .f32⟩ : BufTy).Contents (Elt F)) (tg0 tb0 : (⟨S64, .f32⟩ : BufTy).Contents (Elt F))
    (tW1 : (⟨S64x64, .f32⟩ : BufTy).Contents (Elt F)) (ta1 : (⟨S128x1, .f32⟩ : BufTy).Contents (Elt F)) (tg1 tb1 : (⟨S64, .f32⟩ : BufTy).Contents (Elt F))
    (cW1 : (⟨S64x32, .f32⟩ : BufTy).Contents (Elt F)) (cb1 : (⟨S32, .f32⟩ : BufTy).Contents (Elt F)) (cW2 : (⟨S32x1, .f32⟩ : BufTy).Contents (Elt F)) (cb2 : (⟨S1, .f32⟩ : BufTy).Contents (Elt F)) :
    (⟨S100000x1, .f32⟩ : BufTy).Contents (Elt F) :=
  denseSigmoid (denseRelu (addf (stack x ei sW0 sa0 sg0 sb0 sW1 sa1 sg1 sb1) (stack x tei tW0 ta0 tg0 tb0 tW1 ta1 tg1 tb1)) cW1 cb1) cW2 cb2

end Cert.ReferenceIdeal.Fns

end
-- ==== Proof.RefLine.lean ====
import proofs.«400993_j24043226923663_1_alg».proof.Proof.Gen.ReferenceIdeal
import Idealize.ShloMosaic.Lib.StableHlo.Run

/-!
The reference's main function, with every call's body in its place over the call's buffers, is one line of host
operations. Here that line, cut where the network's functions end; beside each stretch the references it writes.
-/

noncomputable section

namespace Cert.ReferenceIdeal.Run

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

local macro "wr" : term =>
  `(Finset.singleton_subset_iff.mpr (List.mem_toFinset.mpr (List.mem_map_of_mem (by decide))))

abbrev c0 : List (HloOp τ sig (Elt F)) :=
  [ StableHlo.unary main_arg1 main_v0 ((extractStridedSlice S1x1600000 ![0, 0] · slices_S2x1600000_S1x1600000_0_0)),
    StableHlo.reshape main_v0 main_v1 rfl shapeCasts_S1x1600000_S1600000,
    StableHlo.unary main_arg1 main_v2 ((extractStridedSlice S1x1600000 ![1, 0] · slices_S2x1600000_S1x1600000_1_0)),
    StableHlo.reshape main_v2 main_v3 rfl shapeCasts_S1x1600000_S1600000 ]

abbrev ws0 : List (Ref sig .tc) :=
  [ main_v0, main_v1, main_v2, main_v3 ]

set_option maxRecDepth 8192 in
theorem c0_writes : (c0 : List (HloOp τ sig (Elt F))).Forall fun op => op.writes ⊆ ((ws0).map (Proc.devRef (τ := τ) .tc)).toFinset :=
  ⟨wr, wr, wr, wr⟩

theorem c0_sub : (c0 : List (HloOp τ sig (Elt F))).Forall fun op => op.bufs ⊆ tcRefs τ sig :=
  by simp only [c0, List.Forall, binary_bufs_sub, nullary_bufs_sub, reshape_bufs_sub, ternary_bufs_sub, unary_bufs_sub, and_self]

set_option maxRecDepth 8192 in
theorem c0_fresh : (c0 : List (HloOp τ sig (Elt F))).Forall fun op => op.fresh = ∅ :=
  ⟨rfl, rfl, rfl, rfl⟩

abbrev c1 : List (HloOp τ sig (Elt F)) :=
  [ StableHlo.binary main_arg0 main_arg4 main_v4 ((fun l r => Host.dotGeneral dot_S100000x8_S8x64_S100000x64_1_0_0_1_n_n none l r)),
    StableHlo.nullary main_c (constantI S_ 32 0#32),
    StableHlo.unary main_c main_v5 (broadcastInDim S1600000 ![] bcast_S_S1600000),
    StableHlo.binary main_v1 main_v5 main_v6 (cmpi .slt),
    StableHlo.nullary main_c_0 (constantI S_ 32 100000#32),
    StableHlo.unary main_c_0 main_v7 (broadcastInDim S1600000 ![] bcast_S_S1600000),
    StableHlo.binary main_v1 main_v7 main_v8 (addi),
    StableHlo.ternary main_v6 main_v8 main_v1 main_v9 (select),
    StableHlo.unary main_v9 main_v10 (broadcastInDim S1600000x1 ![0] bcast_S1600000_S1600000x1_0),
    StableHlo.binary main_v4 main_v10 main_v11 ((fun x i => Host.gather gather_S100000x64_S1600000x1_S1600000x64_1_0_n_n_0_1_164 x i)),
    StableHlo.nullary main_c_1 (constantI S_ 32 0#32),
    StableHlo.unary main_c_1 main_v12 (broadcastInDim S1600000 ![] bcast_S_S1600000),
    StableHlo.binary main_v3 main_v12 main_v13 (cmpi .slt),
    StableHlo.nullary main_c_2 (constantI S_ 32 100000#32),
    StableHlo.unary main_c_2 main_v14 (broadcastInDim S1600000 ![] bcast_S_S1600000),
    StableHlo.binary main_v3 main_v14 main_v15 (addi),
    StableHlo.ternary main_v13 main_v15 main_v3 main_v16 (select),
    StableHlo.unary main_v16 main_v17 (broadcastInDim S1600000x1 ![0] bcast_S1600000_S1600000x1_0),
    StableHlo.binary main_v4 main_v17 main_v18 ((fun x i => Host.gather gather_S100000x64_S1600000x1_S1600000x64_1_0_n_n_0_1_164 x i)),
    StableHlo.binary main_v11 main_v18 main_v19 (mulf),
    StableHlo.nullary main_cst (constant S_ .f32 0x00000000#32),
    StableHlo.binary main_v19 main_cst main_v20 ((fun x v => Host.reduceAdd x v reducesTo_S1600000x64_S1600000_d1 h_S_)),
    StableHlo.nullary main_cst_3 (constant S_ .f32 0x00000000#32),
    StableHlo.binary main_arg5 main_cst_3 main_v21 ((fun x v => Host.reduceAdd x v reducesTo_S128x1_S_d0_1 h_S_)),
    StableHlo.unary main_v21 main_v22 (broadcastInDim S1600000 ![] bcast_S_S1600000),
    StableHlo.binary main_v20 main_v22 main_v23 (mulf),
    StableHlo.nullary main_cst_4 (constant S_ .f32 0x3E4CCCCD#32),
    StableHlo.TRef.nullary main_call0.cst (constant S_ .f32 0x00000000#32),
    StableHlo.TRef.unary main_call0.cst main_call0.v0 (broadcastInDim S1600000 ![] bcast_S_S1600000),
    StableHlo.TRef.binary (.of main_v23) main_call0.v0 main_call0.v1 (cmpf .oge),
    StableHlo.TRef.unary (.of main_cst_4) main_call0.v2 id,
    StableHlo.TRef.unary main_call0.v2 main_call0.v3 (broadcastInDim S1600000 ![] bcast_S_S1600000),
    StableHlo.TRef.binary main_call0.v3 (.of main_v23) main_call0.v4 mulf,
    StableHlo.TRef.ternary main_call0.v1 (.of main_v23) main_call0.v4 main_call0.call0.v0 select,
    StableHlo.nullary main_cst_5 (constant S_ .f32 0xFF800000#32),
    StableHlo.binary main_v24 main_cst_5 main_v25 ((fun x v => Host.reduce FloatOps.maximumf x v reducesTo_S1600000_S_d0 h_S_)),
    StableHlo.nullary main_cst_6 (constant S_ .f32 0xFF800000#32),
    StableHlo.binary main_cst_6 main_v25 main_v26 (maximumf),
    StableHlo.unary main_v26 main_v27 (broadcastInDim S1 ![] bcast_S_S1),
    StableHlo.unary main_v27 main_v28 (broadcastInDim S1600000 ![0] bcast_S1_S1600000_0),
    StableHlo.binary main_v24 main_v28 main_v29 (subf),
    StableHlo.unary main_v29 main_v30 (Host.exp),
    StableHlo.nullary main_cst_7 (constant S_ .f32 0x00000000#32),
    StableHlo.binary main_v30 main_cst_7 main_v31 ((fun x v => Host.reduceAdd x v reducesTo_S1600000_S_d0 h_S_)),
    StableHlo.unary main_v31 main_v32 (broadcastInDim S1 ![] bcast_S_S1),
    StableHlo.unary main_v32 main_v33 (broadcastInDim S1600000 ![0] bcast_S1_S1600000_0),
    StableHlo.binary main_v30 main_v33 main_v34 (Host.divf),
    StableHlo.unary main_v34 main_v35 (broadcastInDim S1600000x1 ![0] bcast_S1600000_S1600000x1_0),
    StableHlo.nullary main_c_8 (constantI S_ 32 0#32),
    StableHlo.unary main_c_8 main_v36 (broadcastInDim S1600000 ![] bcast_S_S1600000),
    StableHlo.binary main_v1 main_v36 main_v37 (cmpi .slt),
    StableHlo.nullary main_c_9 (constantI S_ 32 100000#32),
    StableHlo.unary main_c_9 main_v38 (broadcastInDim S1600000 ![] bcast_S_S1600000),
    StableHlo.binary main_v1 main_v38 main_v39 (addi),
    StableHlo.ternary main_v37 main_v39 main_v1 main_v40 (select),
    StableHlo.unary main_v40 main_v41 (broadcastInDim S1600000x1 ![0] bcast_S1600000_S1600000x1_0),
    StableHlo.binary main_v4 main_v41 main_v42 ((fun x i => Host.gather gather_S100000x64_S1600000x1_S1600000x64_1_0_n_n_0_1_164 x i)),
    StableHlo.unary main_v35 main_v43 (broadcastInDim S1600000x64 ![0, 1] bcast_S1600000x1_S1600000x64_0_1),
    StableHlo.binary main_v43 main_v42 main_v44 (mulf) ]

abbrev ws1 : List (Ref sig .tc) :=
  [ main_v4, main_c, main_v5, main_v6, main_c_0, main_v7, main_v8, main_v9,
    main_v10, main_v11, main_c_1, main_v12, main_v13, main_c_2, main_v14, main_v15,
    main_v16, main_v17, main_v18, main_v19, main_cst, main_v20, main_cst_3, main_v21,
    main_v22, main_v23, main_cst_4, main_call0.cst.ref, main_call0.v0.ref, main_call0.v1.ref, main_call0.v2.ref, main_call0.v3.ref,
    main_call0.v4.ref, main_call0.call0.v0.ref, main_cst_5, main_v25, main_cst_6, main_v26, main_v27, main_v28,
    main_v29, main_v30, main_cst_7, main_v31, main_v32, main_v33, main_v34, main_v35,
    main_c_8, main_v36, main_v37, main_c_9, main_v38, main_v39, main_v40, main_v41,
    main_v42, main_v43, main_v44 ]

set_option maxRecDepth 8192 in
theorem c1_writes : (c1 : List (HloOp τ sig (Elt F))).Forall fun op => op.writes ⊆ ((ws1).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr⟩

theorem c1_sub : (c1 : List (HloOp τ sig (Elt F))).Forall fun op => op.bufs ⊆ tcRefs τ sig :=
  by simp only [c1, List.Forall, binary_bufs_sub, nullary_bufs_sub, reshape_bufs_sub, ternary_bufs_sub, unary_bufs_sub, and_self]

set_option maxRecDepth 8192 in
theorem c1_fresh : (c1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

abbrev c2 : List (HloOp τ sig (Elt F)) :=
  [ StableHlo.nullary main_cst_10 (constant S_ .f32 0x00000000#32),
    StableHlo.unary main_cst_10 main_v45 (broadcastInDim S100000x64 ![] bcast_S_S100000x64),
    StableHlo.unary main_v3 main_v46 (broadcastInDim S1600000x1 ![0] bcast_S1600000_S1600000x1_0),
    StableHlo.ternary main_v45 main_v46 main_v44 main_v47 ((fun x i u => Host.scatterAdd scatter_S100000x64_S1600000x1_S1600000x64_1_0_0_1 x i u)),
    StableHlo.TRef.nullary main_call1.cst (constant S_ .f32 0x00000000#32),
    StableHlo.TRef.unary main_call1.cst main_call1.v0 (broadcastInDim S100000x64 ![] bcast_S_S100000x64),
    StableHlo.TRef.binary (.of main_v47) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v47) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v47) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v47) main_call1.v7 main_call1.call1.v0 select,
    StableHlo.nullary main_cst_11 (constant S_ .f32 0x00000000#32),
    StableHlo.binary main_v48 main_cst_11 main_v49 ((fun x v => Host.reduceAdd x v reducesTo_S100000x64_S100000_d1 h_S_)),
    StableHlo.unary main_v49 main_v50 (broadcastInDim S100000x1 ![0] bcast_S100000_S100000x1_0),
    StableHlo.nullary main_cst_12 (constant S_ .f32 0x42800000#32),
    StableHlo.unary main_cst_12 main_v51 (broadcastInDim S100000x1 ![] bcast_S_S100000x1),
    StableHlo.binary main_v50 main_v51 main_v52 (Host.divf),
    StableHlo.nullary main_c_13 (constantI S_ 32 0#32),
    StableHlo.TRef.nullary main_call2.cst (constant S_ .f32 0x00000000#32),
    StableHlo.TRef.binary (.of main_v48) main_call2.cst main_call2.v0 (fun x v => Host.reduceAdd x v reducesTo_S100000x64_S100000_d1 h_S_),
    StableHlo.TRef.unary main_call2.v0 main_call2.v1 (broadcastInDim S100000x1 ![0] bcast_S100000_S100000x1_0),
    StableHlo.TRef.nullary main_call2.cst_0 (constant S_ .f32 0x42800000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x64 ![0, 1] bcast_S100000x1_S100000x64_0_1),
    StableHlo.TRef.binary (.of main_v48) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v52 main_v54 (broadcastInDim S100000x64 ![0, 1] bcast_S100000x1_S100000x64_0_1),
    StableHlo.binary main_v48 main_v54 main_v55 (subf),
    StableHlo.unary main_arg6 main_v56 (broadcastInDim S1x64 ![1] bcast_S64_S1x64_1),
    StableHlo.unary main_v56 main_v57 (broadcastInDim S100000x64 ![0, 1] bcast_S1x64_S100000x64_0_1),
    StableHlo.binary main_v57 main_v55 main_v58 (mulf),
    StableHlo.nullary main_cst_14 (constant S_ .f32 0x3727C5AC#32),
    StableHlo.unary main_cst_14 main_v59 (broadcastInDim S100000x1 ![] bcast_S_S100000x1),
    StableHlo.binary main_v53 main_v59 main_v60 (addf),
    StableHlo.unary main_v60 main_v61 (Host.sqrt),
    StableHlo.unary main_v61 main_v62 (broadcastInDim S100000x64 ![0, 1] bcast_S100000x1_S100000x64_0_1),
    StableHlo.binary main_v58 main_v62 main_v63 (Host.divf),
    StableHlo.unary main_arg7 main_v64 (broadcastInDim S1x64 ![1] bcast_S64_S1x64_1),
    StableHlo.unary main_v64 main_v65 (broadcastInDim S100000x64 ![0, 1] bcast_S1x64_S100000x64_0_1),
    StableHlo.binary main_v63 main_v65 main_v66 (addf) ]

abbrev ws2 : List (Ref sig .tc) :=
  [ main_cst_10, main_v45, main_v46, main_v47, main_call1.cst.ref, main_call1.v0.ref, main_call1.v1.ref, main_call1.cst_0.ref,
    main_call1.v2.ref, main_call1.v3.ref, main_call1.cst_1.ref, main_call1.call0.v0.ref, main_call1.call0.v1.ref, main_call1.call0.v2.ref, main_call1.v5.ref, main_call1.cst_2.ref,
    main_call1.v6.ref, main_call1.v7.ref, main_call1.call1.v0.ref, main_cst_11, main_v49, main_v50, main_cst_12, main_v51,
    main_v52, main_c_13, main_call2.cst.ref, main_call2.v0.ref, main_call2.v1.ref, main_call2.cst_0.ref, main_call2.v2.ref, main_call2.v3.ref,
    main_call2.v4.ref, main_call2.v5.ref, main_call2.v6.ref, main_call2.v7.ref, main_call2.cst_1.ref, main_call2.v8.ref, main_call2.cst_2.ref, main_call2.v9.ref,
    main_call2.v10.ref, main_call2.v11.ref, main_call2.v12.ref, main_call2.cst_3.ref, main_call2.v13.ref, main_call2.cst_4.ref, main_call2.call0.v0.ref, main_call2.call0.v1.ref,
    main_call2.call0.v2.ref, main_v54, main_v55, main_v56, main_v57, main_v58, main_cst_14, main_v59,
    main_v60, main_v61, main_v62, main_v63, main_v64, main_v65, main_v66 ]

set_option maxRecDepth 8192 in
theorem c2_writes : (c2 : List (HloOp τ sig (Elt F))).Forall fun op => op.writes ⊆ ((ws2).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr, wr, wr, wr, wr⟩

theorem c2_sub : (c2 : List (HloOp τ sig (Elt F))).Forall fun op => op.bufs ⊆ tcRefs τ sig :=
  by simp only [c2, List.Forall, binary_bufs_sub, nullary_bufs_sub, reshape_bufs_sub, ternary_bufs_sub, unary_bufs_sub, and_self]

set_option maxRecDepth 8192 in
theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

abbrev c3 : List (HloOp τ sig (Elt F)) :=
  [ StableHlo.binary main_v66 main_arg8 main_v67 ((fun l r => Host.dotGeneral dot_S100000x64_S64x64_S100000x64_1_0_0_1_n_n none l r)),
    StableHlo.nullary main_c_15 (constantI S_ 32 0#32),
    StableHlo.unary main_c_15 main_v68 (broadcastInDim S1600000 ![] bcast_S_S1600000),
    StableHlo.binary main_v1 main_v68 main_v69 (cmpi .slt),
    StableHlo.nullary main_c_16 (constantI S_ 32 100000#32),
    StableHlo.unary main_c_16 main_v70 (broadcastInDim S1600000 ![] bcast_S_S1600000),
    StableHlo.binary main_v1 main_v70 main_v71 (addi),
    StableHlo.ternary main_v69 main_v71 main_v1 main_v72 (select),
    StableHlo.unary main_v72 main_v73 (broadcastInDim S1600000x1 ![0] bcast_S1600000_S1600000x1_0),
    StableHlo.binary main_v67 main_v73 main_v74 ((fun x i => Host.gather gather_S100000x64_S1600000x1_S1600000x64_1_0_n_n_0_1_164 x i)),
    StableHlo.nullary main_c_17 (constantI S_ 32 0#32),
    StableHlo.unary main_c_17 main_v75 (broadcastInDim S1600000 ![] bcast_S_S1600000),
    StableHlo.binary main_v3 main_v75 main_v76 (cmpi .slt),
    StableHlo.nullary main_c_18 (constantI S_ 32 100000#32),
    StableHlo.unary main_c_18 main_v77 (broadcastInDim S1600000 ![] bcast_S_S1600000),
    StableHlo.binary main_v3 main_v77 main_v78 (addi),
    StableHlo.ternary main_v76 main_v78 main_v3 main_v79 (select),
    StableHlo.unary main_v79 main_v80 (broadcastInDim S1600000x1 ![0] bcast_S1600000_S1600000x1_0),
    StableHlo.binary main_v67 main_v80 main_v81 ((fun x i => Host.gather gather_S100000x64_S1600000x1_S1600000x64_1_0_n_n_0_1_164 x i)),
    StableHlo.binary main_v74 main_v81 main_v82 (mulf),
    StableHlo.nullary main_cst_19 (constant S_ .f32 0x00000000#32),
    StableHlo.binary main_v82 main_cst_19 main_v83 ((fun x v => Host.reduceAdd x v reducesTo_S1600000x64_S1600000_d1 h_S_)),
    StableHlo.nullary main_cst_20 (constant S_ .f32 0x00000000#32),
    StableHlo.binary main_arg9 main_cst_20 main_v84 ((fun x v => Host.reduceAdd x v reducesTo_S128x1_S_d0_1 h_S_)),
    StableHlo.unary main_v84 main_v85 (broadcastInDim S1600000 ![] bcast_S_S1600000),
    StableHlo.binary main_v83 main_v85 main_v86 (mulf),
    StableHlo.nullary main_cst_21 (constant S_ .f32 0x3E4CCCCD#32),
    StableHlo.TRef.nullary main_call3.cst (constant S_ .f32 0x00000000#32),
    StableHlo.TRef.unary main_call3.cst main_call3.v0 (broadcastInDim S1600000 ![] bcast_S_S1600000),
    StableHlo.TRef.binary (.of main_v86) main_call3.v0 main_call3.v1 (cmpf .oge),
    StableHlo.TRef.unary (.of main_cst_21) main_call3.v2 id,
    StableHlo.TRef.unary main_call3.v2 main_call3.v3 (broadcastInDim S1600000 ![] bcast_S_S1600000),
    StableHlo.TRef.binary main_call3.v3 (.of main_v86) main_call3.v4 mulf,
    StableHlo.TRef.ternary main_call3.v1 (.of main_v86) main_call3.v4 main_call3.call0.v0 select,
    StableHlo.nullary main_cst_22 (constant S_ .f32 0xFF800000#32),
    StableHlo.binary main_v87 main_cst_22 main_v88 ((fun x v => Host.reduce FloatOps.maximumf x v reducesTo_S1600000_S_d0 h_S_)),
    StableHlo.nullary main_cst_23 (constant S_ .f32 0xFF800000#32),
    StableHlo.binary main_cst_23 main_v88 main_v89 (maximumf),
    StableHlo.unary main_v89 main_v90 (broadcastInDim S1 ![] bcast_S_S1),
    StableHlo.unary main_v90 main_v91 (broadcastInDim S1600000 ![0] bcast_S1_S1600000_0),
    StableHlo.binary main_v87 main_v91 main_v92 (subf),
    StableHlo.unary main_v92 main_v93 (Host.exp),
    StableHlo.nullary main_cst_24 (constant S_ .f32 0x00000000#32),
    StableHlo.binary main_v93 main_cst_24 main_v94 ((fun x v => Host.reduceAdd x v reducesTo_S1600000_S_d0 h_S_)),
    StableHlo.unary main_v94 main_v95 (broadcastInDim S1 ![] bcast_S_S1),
    StableHlo.unary main_v95 main_v96 (broadcastInDim S1600000 ![0] bcast_S1_S1600000_0),
    StableHlo.binary main_v93 main_v96 main_v97 (Host.divf),
    StableHlo.unary main_v97 main_v98 (broadcastInDim S1600000x1 ![0] bcast_S1600000_S1600000x1_0),
    StableHlo.nullary main_c_25 (constantI S_ 32 0#32),
    StableHlo.unary main_c_25 main_v99 (broadcastInDim S1600000 ![] bcast_S_S1600000),
    StableHlo.binary main_v1 main_v99 main_v100 (cmpi .slt),
    StableHlo.nullary main_c_26 (constantI S_ 32 100000#32),
    StableHlo.unary main_c_26 main_v101 (broadcastInDim S1600000 ![] bcast_S_S1600000),
    StableHlo.binary main_v1 main_v101 main_v102 (addi),
    StableHlo.ternary main_v100 main_v102 main_v1 main_v103 (select),
    StableHlo.unary main_v103 main_v104 (broadcastInDim S1600000x1 ![0] bcast_S1600000_S1600000x1_0),
    StableHlo.binary main_v67 main_v104 main_v105 ((fun x i => Host.gather gather_S100000x64_S1600000x1_S1600000x64_1_0_n_n_0_1_164 x i)),
    StableHlo.unary main_v98 main_v106 (broadcastInDim S1600000x64 ![0, 1] bcast_S1600000x1_S1600000x64_0_1),
    StableHlo.binary main_v106 main_v105 main_v107 (mulf) ]

abbrev ws3 : List (Ref sig .tc) :=
  [ main_v67, main_c_15, main_v68, main_v69, main_c_16, main_v70, main_v71, main_v72,
    main_v73, main_v74, main_c_17, main_v75, main_v76, main_c_18, main_v77, main_v78,
    main_v79, main_v80, main_v81, main_v82, main_cst_19, main_v83, main_cst_20, main_v84,
    main_v85, main_v86, main_cst_21, main_call3.cst.ref, main_call3.v0.ref, main_call3.v1.ref, main_call3.v2.ref, main_call3.v3.ref,
    main_call3.v4.ref, main_call3.call0.v0.ref, main_cst_22, main_v88, main_cst_23, main_v89, main_v90, main_v91,
    main_v92, main_v93, main_cst_24, main_v94, main_v95, main_v96, main_v97, main_v98,
    main_c_25, main_v99, main_v100, main_c_26, main_v101, main_v102, main_v103, main_v104,
    main_v105, main_v106, main_v107 ]

set_option maxRecDepth 8192 in
theorem c3_writes : (c3 : List (HloOp τ sig (Elt F))).Forall fun op => op.writes ⊆ ((ws3).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr⟩

theorem c3_sub : (c3 : List (HloOp τ sig (Elt F))).Forall fun op => op.bufs ⊆ tcRefs τ sig :=
  by simp only [c3, List.Forall, binary_bufs_sub, nullary_bufs_sub, reshape_bufs_sub, ternary_bufs_sub, unary_bufs_sub, and_self]

set_option maxRecDepth 8192 in
theorem c3_fresh : (c3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

abbrev c4 : List (HloOp τ sig (Elt F)) :=
  [ StableHlo.nullary main_cst_27 (constant S_ .f32 0x00000000#32),
    StableHlo.unary main_cst_27 main_v108 (broadcastInDim S100000x64 ![] bcast_S_S100000x64),
    StableHlo.unary main_v3 main_v109 (broadcastInDim S1600000x1 ![0] bcast_S1600000_S1600000x1_0),
    StableHlo.ternary main_v108 main_v109 main_v107 main_v110 ((fun x i u => Host.scatterAdd scatter_S100000x64_S1600000x1_S1600000x64_1_0_0_1 x i u)),
    StableHlo.TRef.nullary main_call4.cst (constant S_ .f32 0x00000000#32),
    StableHlo.TRef.unary main_call4.cst main_call4.v0 (broadcastInDim S100000x64 ![] bcast_S_S100000x64),
    StableHlo.TRef.binary (.of main_v110) main_call4.v0 main_call4.v1 (cmpf .ogt),
    StableHlo.TRef.nullary main_call4.cst_0 (constant S_ .f32 0x00000000#32),
    StableHlo.TRef.unary main_call4.cst_0 main_call4.v2 (broadcastInDim S100000x64 ![] bcast_S_S100000x64),
    StableHlo.TRef.binary (.of main_v110) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x64 ![] bcast_S_S100000x64),
    StableHlo.TRef.ternary main_call4.v3 main_call4.call0.v1 (.of main_v110) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x64 ![] bcast_S_S100000x64),
    StableHlo.TRef.binary main_call4.v6 main_call4.v5 main_call4.v7 mulf,
    StableHlo.TRef.ternary main_call4.v1 (.of main_v110) main_call4.v7 main_call4.call1.v0 select,
    StableHlo.nullary main_cst_28 (constant S_ .f32 0x00000000#32),
    StableHlo.binary main_v111 main_cst_28 main_v112 ((fun x v => Host.reduceAdd x v reducesTo_S100000x64_S100000_d1 h_S_)),
    StableHlo.unary main_v112 main_v113 (broadcastInDim S100000x1 ![0] bcast_S100000_S100000x1_0),
    StableHlo.nullary main_cst_29 (constant S_ .f32 0x42800000#32),
    StableHlo.unary main_cst_29 main_v114 (broadcastInDim S100000x1 ![] bcast_S_S100000x1),
    StableHlo.binary main_v113 main_v114 main_v115 (Host.divf),
    StableHlo.nullary main_c_30 (constantI S_ 32 0#32),
    StableHlo.TRef.nullary main_call5.cst (constant S_ .f32 0x00000000#32),
    StableHlo.TRef.binary (.of main_v111) main_call5.cst main_call5.v0 (fun x v => Host.reduceAdd x v reducesTo_S100000x64_S100000_d1 h_S_),
    StableHlo.TRef.unary main_call5.v0 main_call5.v1 (broadcastInDim S100000x1 ![0] bcast_S100000_S100000x1_0),
    StableHlo.TRef.nullary main_call5.cst_0 (constant S_ .f32 0x42800000#32),
    StableHlo.TRef.unary main_call5.cst_0 main_call5.v2 (broadcastInDim S100000x1 ![] bcast_S_S100000x1),
    StableHlo.TRef.binary main_call5.v1 main_call5.v2 main_call5.v3 Host.divf,
    StableHlo.TRef.unary main_call5.v3 main_call5.v4 (broadcastInDim S100000x64 ![0, 1] bcast_S100000x1_S100000x64_0_1),
    StableHlo.TRef.binary (.of main_v111) main_call5.v4 main_call5.v5 subf,
    StableHlo.TRef.binary main_call5.v5 main_call5.v5 main_call5.v6 mulf,
    StableHlo.TRef.unary (.of main_c_30) main_call5.v7 (sitofp .f32),
    StableHlo.TRef.nullary main_call5.cst_1 (constant S_ .f32 0x42800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S100000_d1 h_S_),
    StableHlo.TRef.unary main_call5.v9 main_call5.v10 (broadcastInDim S100000x1 ![0] bcast_S100000_S100000x1_0),
    StableHlo.TRef.unary main_call5.v8 main_call5.v11 (broadcastInDim S100000x1 ![] bcast_S_S100000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S100000x1 ![] bcast_S_S100000x1),
    StableHlo.TRef.ternary main_call5.v13 main_call5.v12 main_call5.call0.v1 main_call5.call0.v2 (fun p a b => select (broadcastInDim S100000x1 ![] bcast_S_S100000x1 p) a b),
    StableHlo.unary main_v115 main_v117 (broadcastInDim S100000x64 ![0, 1] bcast_S100000x1_S100000x64_0_1),
    StableHlo.binary main_v111 main_v117 main_v118 (subf),
    StableHlo.unary main_arg10 main_v119 (broadcastInDim S1x64 ![1] bcast_S64_S1x64_1),
    StableHlo.unary main_v119 main_v120 (broadcastInDim S100000x64 ![0, 1] bcast_S1x64_S100000x64_0_1),
    StableHlo.binary main_v120 main_v118 main_v121 (mulf),
    StableHlo.nullary main_cst_31 (constant S_ .f32 0x3727C5AC#32),
    StableHlo.unary main_cst_31 main_v122 (broadcastInDim S100000x1 ![] bcast_S_S100000x1),
    StableHlo.binary main_v116 main_v122 main_v123 (addf),
    StableHlo.unary main_v123 main_v124 (Host.sqrt),
    StableHlo.unary main_v124 main_v125 (broadcastInDim S100000x64 ![0, 1] bcast_S100000x1_S100000x64_0_1),
    StableHlo.binary main_v121 main_v125 main_v126 (Host.divf),
    StableHlo.unary main_arg11 main_v127 (broadcastInDim S1x64 ![1] bcast_S64_S1x64_1),
    StableHlo.unary main_v127 main_v128 (broadcastInDim S100000x64 ![0, 1] bcast_S1x64_S100000x64_0_1),
    StableHlo.binary main_v126 main_v128 main_v129 (addf) ]

abbrev ws4 : List (Ref sig .tc) :=
  [ main_cst_27, main_v108, main_v109, main_v110, main_call4.cst.ref, main_call4.v0.ref, main_call4.v1.ref, main_call4.cst_0.ref,
    main_call4.v2.ref, main_call4.v3.ref, main_call4.cst_1.ref, main_call4.call0.v0.ref, main_call4.call0.v1.ref, main_call4.call0.v2.ref, main_call4.v5.ref, main_call4.cst_2.ref,
    main_call4.v6.ref, main_call4.v7.ref, main_call4.call1.v0.ref, main_cst_28, main_v112, main_v113, main_cst_29, main_v114,
    main_v115, main_c_30, main_call5.cst.ref, main_call5.v0.ref, main_call5.v1.ref, main_call5.cst_0.ref, main_call5.v2.ref, main_call5.v3.ref,
    main_call5.v4.ref, main_call5.v5.ref, main_call5.v6.ref, main_call5.v7.ref, main_call5.cst_1.ref, main_call5.v8.ref, main_call5.cst_2.ref, main_call5.v9.ref,
    main_call5.v10.ref, main_call5.v11.ref, main_call5.v12.ref, main_call5.cst_3.ref, main_call5.v13.ref, main_call5.cst_4.ref, main_call5.call0.v0.ref, main_call5.call0.v1.ref,
    main_call5.call0.v2.ref, main_v117, main_v118, main_v119, main_v120, main_v121, main_cst_31, main_v122,
    main_v123, main_v124, main_v125, main_v126, main_v127, main_v128, main_v129 ]

set_option maxRecDepth 8192 in
theorem c4_writes : (c4 : List (HloOp τ sig (Elt F))).Forall fun op => op.writes ⊆ ((ws4).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr, wr, wr, wr, wr⟩

theorem c4_sub : (c4 : List (HloOp τ sig (Elt F))).Forall fun op => op.bufs ⊆ tcRefs τ sig :=
  by simp only [c4, List.Forall, binary_bufs_sub, nullary_bufs_sub, reshape_bufs_sub, ternary_bufs_sub, unary_bufs_sub, and_self]

set_option maxRecDepth 8192 in
theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

abbrev c5 : List (HloOp τ sig (Elt F)) :=
  [ StableHlo.unary main_arg3 main_v130 ((extractStridedSlice S1x1600000 ![0, 0] · slices_S2x1600000_S1x1600000_0_0)),
    StableHlo.reshape main_v130 main_v131 rfl shapeCasts_S1x1600000_S1600000,
    StableHlo.unary main_arg3 main_v132 ((extractStridedSlice S1x1600000 ![1, 0] · slices_S2x1600000_S1x1600000_1_0)),
    StableHlo.reshape main_v132 main_v133 rfl shapeCasts_S1x1600000_S1600000 ]

abbrev ws5 : List (Ref sig .tc) :=
  [ main_v130, main_v131, main_v132, main_v133 ]

set_option maxRecDepth 8192 in
theorem c5_writes : (c5 : List (HloOp τ sig (Elt F))).Forall fun op => op.writes ⊆ ((ws5).map (Proc.devRef (τ := τ) .tc)).toFinset :=
  ⟨wr, wr, wr, wr⟩

theorem c5_sub : (c5 : List (HloOp τ sig (Elt F))).Forall fun op => op.bufs ⊆ tcRefs τ sig :=
  by simp only [c5, List.Forall, binary_bufs_sub, nullary_bufs_sub, reshape_bufs_sub, ternary_bufs_sub, unary_bufs_sub, and_self]

set_option maxRecDepth 8192 in
theorem c5_fresh : (c5 : List (HloOp τ sig (Elt F))).Forall fun op => op.fresh = ∅ :=
  ⟨rfl, rfl, rfl, rfl⟩

abbrev c6 : List (HloOp τ sig (Elt F)) :=
  [ StableHlo.binary main_arg0 main_arg12 main_v134 ((fun l r => Host.dotGeneral dot_S100000x8_S8x64_S100000x64_1_0_0_1_n_n none l r)),
    StableHlo.nullary main_c_32 (constantI S_ 32 0#32),
    StableHlo.unary main_c_32 main_v135 (broadcastInDim S1600000 ![] bcast_S_S1600000),
    StableHlo.binary main_v131 main_v135 main_v136 (cmpi .slt),
    StableHlo.nullary main_c_33 (constantI S_ 32 100000#32),
    StableHlo.unary main_c_33 main_v137 (broadcastInDim S1600000 ![] bcast_S_S1600000),
    StableHlo.binary main_v131 main_v137 main_v138 (addi),
    StableHlo.ternary main_v136 main_v138 main_v131 main_v139 (select),
    StableHlo.unary main_v139 main_v140 (broadcastInDim S1600000x1 ![0] bcast_S1600000_S1600000x1_0),
    StableHlo.binary main_v134 main_v140 main_v141 ((fun x i => Host.gather gather_S100000x64_S1600000x1_S1600000x64_1_0_n_n_0_1_164 x i)),
    StableHlo.nullary main_c_34 (constantI S_ 32 0#32),
    StableHlo.unary main_c_34 main_v142 (broadcastInDim S1600000 ![] bcast_S_S1600000),
    StableHlo.binary main_v133 main_v142 main_v143 (cmpi .slt),
    StableHlo.nullary main_c_35 (constantI S_ 32 100000#32),
    StableHlo.unary main_c_35 main_v144 (broadcastInDim S1600000 ![] bcast_S_S1600000),
    StableHlo.binary main_v133 main_v144 main_v145 (addi),
    StableHlo.ternary main_v143 main_v145 main_v133 main_v146 (select),
    StableHlo.unary main_v146 main_v147 (broadcastInDim S1600000x1 ![0] bcast_S1600000_S1600000x1_0),
    StableHlo.binary main_v134 main_v147 main_v148 ((fun x i => Host.gather gather_S100000x64_S1600000x1_S1600000x64_1_0_n_n_0_1_164 x i)),
    StableHlo.binary main_v141 main_v148 main_v149 (mulf),
    StableHlo.nullary main_cst_36 (constant S_ .f32 0x00000000#32),
    StableHlo.binary main_v149 main_cst_36 main_v150 ((fun x v => Host.reduceAdd x v reducesTo_S1600000x64_S1600000_d1 h_S_)),
    StableHlo.nullary main_cst_37 (constant S_ .f32 0x00000000#32),
    StableHlo.binary main_arg13 main_cst_37 main_v151 ((fun x v => Host.reduceAdd x v reducesTo_S128x1_S_d0_1 h_S_)),
    StableHlo.unary main_v151 main_v152 (broadcastInDim S1600000 ![] bcast_S_S1600000),
    StableHlo.binary main_v150 main_v152 main_v153 (mulf),
    StableHlo.nullary main_cst_38 (constant S_ .f32 0x3E4CCCCD#32),
    StableHlo.TRef.nullary main_call6.cst (constant S_ .f32 0x00000000#32),
    StableHlo.TRef.unary main_call6.cst main_call6.v0 (broadcastInDim S1600000 ![] bcast_S_S1600000),
    StableHlo.TRef.binary (.of main_v153) main_call6.v0 main_call6.v1 (cmpf .oge),
    StableHlo.TRef.unary (.of main_cst_38) main_call6.v2 id,
    StableHlo.TRef.unary main_call6.v2 main_call6.v3 (broadcastInDim S1600000 ![] bcast_S_S1600000),
    StableHlo.TRef.binary main_call6.v3 (.of main_v153) main_call6.v4 mulf,
    StableHlo.TRef.ternary main_call6.v1 (.of main_v153) main_call6.v4 main_call6.call0.v0 select,
    StableHlo.nullary main_cst_39 (constant S_ .f32 0xFF800000#32),
    StableHlo.binary main_v154 main_cst_39 main_v155 ((fun x v => Host.reduce FloatOps.maximumf x v reducesTo_S1600000_S_d0 h_S_)),
    StableHlo.nullary main_cst_40 (constant S_ .f32 0xFF800000#32),
    StableHlo.binary main_cst_40 main_v155 main_v156 (maximumf),
    StableHlo.unary main_v156 main_v157 (broadcastInDim S1 ![] bcast_S_S1),
    StableHlo.unary main_v157 main_v158 (broadcastInDim S1600000 ![0] bcast_S1_S1600000_0),
    StableHlo.binary main_v154 main_v158 main_v159 (subf),
    StableHlo.unary main_v159 main_v160 (Host.exp),
    StableHlo.nullary main_cst_41 (constant S_ .f32 0x00000000#32),
    StableHlo.binary main_v160 main_cst_41 main_v161 ((fun x v => Host.reduceAdd x v reducesTo_S1600000_S_d0 h_S_)),
    StableHlo.unary main_v161 main_v162 (broadcastInDim S1 ![] bcast_S_S1),
    StableHlo.unary main_v162 main_v163 (broadcastInDim S1600000 ![0] bcast_S1_S1600000_0),
    StableHlo.binary main_v160 main_v163 main_v164 (Host.divf),
    StableHlo.unary main_v164 main_v165 (broadcastInDim S1600000x1 ![0] bcast_S1600000_S1600000x1_0),
    StableHlo.nullary main_c_42 (constantI S_ 32 0#32),
    StableHlo.unary main_c_42 main_v166 (broadcastInDim S1600000 ![] bcast_S_S1600000),
    StableHlo.binary main_v131 main_v166 main_v167 (cmpi .slt),
    StableHlo.nullary main_c_43 (constantI S_ 32 100000#32),
    StableHlo.unary main_c_43 main_v168 (broadcastInDim S1600000 ![] bcast_S_S1600000),
    StableHlo.binary main_v131 main_v168 main_v169 (addi),
    StableHlo.ternary main_v167 main_v169 main_v131 main_v170 (select),
    StableHlo.unary main_v170 main_v171 (broadcastInDim S1600000x1 ![0] bcast_S1600000_S1600000x1_0),
    StableHlo.binary main_v134 main_v171 main_v172 ((fun x i => Host.gather gather_S100000x64_S1600000x1_S1600000x64_1_0_n_n_0_1_164 x i)),
    StableHlo.unary main_v165 main_v173 (broadcastInDim S1600000x64 ![0, 1] bcast_S1600000x1_S1600000x64_0_1),
    StableHlo.binary main_v173 main_v172 main_v174 (mulf) ]

abbrev ws6 : List (Ref sig .tc) :=
  [ main_v134, main_c_32, main_v135, main_v136, main_c_33, main_v137, main_v138, main_v139,
    main_v140, main_v141, main_c_34, main_v142, main_v143, main_c_35, main_v144, main_v145,
    main_v146, main_v147, main_v148, main_v149, main_cst_36, main_v150, main_cst_37, main_v151,
    main_v152, main_v153, main_cst_38, main_call6.cst.ref, main_call6.v0.ref, main_call6.v1.ref, main_call6.v2.ref, main_call6.v3.ref,
    main_call6.v4.ref, main_call6.call0.v0.ref, main_cst_39, main_v155, main_cst_40, main_v156, main_v157, main_v158,
    main_v159, main_v160, main_cst_41, main_v161, main_v162, main_v163, main_v164, main_v165,
    main_c_42, main_v166, main_v167, main_c_43, main_v168, main_v169, main_v170, main_v171,
    main_v172, main_v173, main_v174 ]

set_option maxRecDepth 8192 in
theorem c6_writes : (c6 : List (HloOp τ sig (Elt F))).Forall fun op => op.writes ⊆ ((ws6).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr⟩

theorem c6_sub : (c6 : List (HloOp τ sig (Elt F))).Forall fun op => op.bufs ⊆ tcRefs τ sig :=
  by simp only [c6, List.Forall, binary_bufs_sub, nullary_bufs_sub, reshape_bufs_sub, ternary_bufs_sub, unary_bufs_sub, and_self]

set_option maxRecDepth 8192 in
theorem c6_fresh : (c6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

abbrev c7 : List (HloOp τ sig (Elt F)) :=
  [ StableHlo.nullary main_cst_44 (constant S_ .f32 0x00000000#32),
    StableHlo.unary main_cst_44 main_v175 (broadcastInDim S100000x64 ![] bcast_S_S100000x64),
    StableHlo.unary main_v133 main_v176 (broadcastInDim S1600000x1 ![0] bcast_S1600000_S1600000x1_0),
    StableHlo.ternary main_v175 main_v176 main_v174 main_v177 ((fun x i u => Host.scatterAdd scatter_S100000x64_S1600000x1_S1600000x64_1_0_0_1 x i u)),
    StableHlo.TRef.nullary main_call7.cst (constant S_ .f32 0x00000000#32),
    StableHlo.TRef.unary main_call7.cst main_call7.v0 (broadcastInDim S100000x64 ![] bcast_S_S100000x64),
    StableHlo.TRef.binary (.of main_v177) main_call7.v0 main_call7.v1 (cmpf .ogt),
    StableHlo.TRef.nullary main_call7.cst_0 (constant S_ .f32 0x00000000#32),
    StableHlo.TRef.unary main_call7.cst_0 main_call7.v2 (broadcastInDim S100000x64 ![] bcast_S_S100000x64),
    StableHlo.TRef.binary (.of main_v177) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x64 ![] bcast_S_S100000x64),
    StableHlo.TRef.ternary main_call7.v3 main_call7.call0.v1 (.of main_v177) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x64 ![] bcast_S_S100000x64),
    StableHlo.TRef.binary main_call7.v6 main_call7.v5 main_call7.v7 mulf,
    StableHlo.TRef.ternary main_call7.v1 (.of main_v177) main_call7.v7 main_call7.call1.v0 select,
    StableHlo.nullary main_cst_45 (constant S_ .f32 0x00000000#32),
    StableHlo.binary main_v178 main_cst_45 main_v179 ((fun x v => Host.reduceAdd x v reducesTo_S100000x64_S100000_d1 h_S_)),
    StableHlo.unary main_v179 main_v180 (broadcastInDim S100000x1 ![0] bcast_S100000_S100000x1_0),
    StableHlo.nullary main_cst_46 (constant S_ .f32 0x42800000#32),
    StableHlo.unary main_cst_46 main_v181 (broadcastInDim S100000x1 ![] bcast_S_S100000x1),
    StableHlo.binary main_v180 main_v181 main_v182 (Host.divf),
    StableHlo.nullary main_c_47 (constantI S_ 32 0#32),
    StableHlo.TRef.nullary main_call8.cst (constant S_ .f32 0x00000000#32),
    StableHlo.TRef.binary (.of main_v178) main_call8.cst main_call8.v0 (fun x v => Host.reduceAdd x v reducesTo_S100000x64_S100000_d1 h_S_),
    StableHlo.TRef.unary main_call8.v0 main_call8.v1 (broadcastInDim S100000x1 ![0] bcast_S100000_S100000x1_0),
    StableHlo.TRef.nullary main_call8.cst_0 (constant S_ .f32 0x42800000#32),
    StableHlo.TRef.unary main_call8.cst_0 main_call8.v2 (broadcastInDim S100000x1 ![] bcast_S_S100000x1),
    StableHlo.TRef.binary main_call8.v1 main_call8.v2 main_call8.v3 Host.divf,
    StableHlo.TRef.unary main_call8.v3 main_call8.v4 (broadcastInDim S100000x64 ![0, 1] bcast_S100000x1_S100000x64_0_1),
    StableHlo.TRef.binary (.of main_v178) main_call8.v4 main_call8.v5 subf,
    StableHlo.TRef.binary main_call8.v5 main_call8.v5 main_call8.v6 mulf,
    StableHlo.TRef.unary (.of main_c_47) main_call8.v7 (sitofp .f32),
    StableHlo.TRef.nullary main_call8.cst_1 (constant S_ .f32 0x42800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x64_S100000_d1 h_S_),
    StableHlo.TRef.unary main_call8.v9 main_call8.v10 (broadcastInDim S100000x1 ![0] bcast_S100000_S100000x1_0),
    StableHlo.TRef.unary main_call8.v8 main_call8.v11 (broadcastInDim S100000x1 ![] bcast_S_S100000x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S100000x1 ![] bcast_S_S100000x1),
    StableHlo.TRef.ternary main_call8.v13 main_call8.v12 main_call8.call0.v1 main_call8.call0.v2 (fun p a b => select (broadcastInDim S100000x1 ![] bcast_S_S100000x1 p) a b),
    StableHlo.unary main_v182 main_v184 (broadcastInDim S100000x64 ![0, 1] bcast_S100000x1_S100000x64_0_1),
    StableHlo.binary main_v178 main_v184 main_v185 (subf),
    StableHlo.unary main_arg14 main_v186 (broadcastInDim S1x64 ![1] bcast_S64_S1x64_1),
    StableHlo.unary main_v186 main_v187 (broadcastInDim S100000x64 ![0, 1] bcast_S1x64_S100000x64_0_1),
    StableHlo.binary main_v187 main_v185 main_v188 (mulf),
    StableHlo.nullary main_cst_48 (constant S_ .f32 0x3727C5AC#32),
    StableHlo.unary main_cst_48 main_v189 (broadcastInDim S100000x1 ![] bcast_S_S100000x1),
    StableHlo.binary main_v183 main_v189 main_v190 (addf),
    StableHlo.unary main_v190 main_v191 (Host.sqrt),
    StableHlo.unary main_v191 main_v192 (broadcastInDim S100000x64 ![0, 1] bcast_S100000x1_S100000x64_0_1),
    StableHlo.binary main_v188 main_v192 main_v193 (Host.divf),
    StableHlo.unary main_arg15 main_v194 (broadcastInDim S1x64 ![1] bcast_S64_S1x64_1),
    StableHlo.unary main_v194 main_v195 (broadcastInDim S100000x64 ![0, 1] bcast_S1x64_S100000x64_0_1),
    StableHlo.binary main_v193 main_v195 main_v196 (addf) ]

abbrev ws7 : List (Ref sig .tc) :=
  [ main_cst_44, main_v175, main_v176, main_v177, main_call7.cst.ref, main_call7.v0.ref, main_call7.v1.ref, main_call7.cst_0.ref,
    main_call7.v2.ref, main_call7.v3.ref, main_call7.cst_1.ref, main_call7.call0.v0.ref, main_call7.call0.v1.ref, main_call7.call0.v2.ref, main_call7.v5.ref, main_call7.cst_2.ref,
    main_call7.v6.ref, main_call7.v7.ref, main_call7.call1.v0.ref, main_cst_45, main_v179, main_v180, main_cst_46, main_v181,
    main_v182, main_c_47, main_call8.cst.ref, main_call8.v0.ref, main_call8.v1.ref, main_call8.cst_0.ref, main_call8.v2.ref, main_call8.v3.ref,
    main_call8.v4.ref, main_call8.v5.ref, main_call8.v6.ref, main_call8.v7.ref, main_call8.cst_1.ref, main_call8.v8.ref, main_call8.cst_2.ref, main_call8.v9.ref,
    main_call8.v10.ref, main_call8.v11.ref, main_call8.v12.ref, main_call8.cst_3.ref, main_call8.v13.ref, main_call8.cst_4.ref, main_call8.call0.v0.ref, main_call8.call0.v1.ref,
    main_call8.call0.v2.ref, main_v184, main_v185, main_v186, main_v187, main_v188, main_cst_48, main_v189,
    main_v190, main_v191, main_v192, main_v193, main_v194, main_v195, main_v196 ]

set_option maxRecDepth 8192 in
theorem c7_writes : (c7 : List (HloOp τ sig (Elt F))).Forall fun op => op.writes ⊆ ((ws7).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr, wr, wr, wr, wr⟩

theorem c7_sub : (c7 : List (HloOp τ sig (Elt F))).Forall fun op => op.bufs ⊆ tcRefs τ sig :=
  by simp only [c7, List.Forall, binary_bufs_sub, nullary_bufs_sub, reshape_bufs_sub, ternary_bufs_sub, unary_bufs_sub, and_self]

set_option maxRecDepth 8192 in
theorem c7_fresh : (c7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

abbrev c8 : List (HloOp τ sig (Elt F)) :=
  [ StableHlo.binary main_v196 main_arg16 main_v197 ((fun l r => Host.dotGeneral dot_S100000x64_S64x64_S100000x64_1_0_0_1_n_n none l r)),
    StableHlo.nullary main_c_49 (constantI S_ 32 0#32),
    StableHlo.unary main_c_49 main_v198 (broadcastInDim S1600000 ![] bcast_S_S1600000),
    StableHlo.binary main_v131 main_v198 main_v199 (cmpi .slt),
    StableHlo.nullary main_c_50 (constantI S_ 32 100000#32),
    StableHlo.unary main_c_50 main_v200 (broadcastInDim S1600000 ![] bcast_S_S1600000),
    StableHlo.binary main_v131 main_v200 main_v201 (addi),
    StableHlo.ternary main_v199 main_v201 main_v131 main_v202 (select),
    StableHlo.unary main_v202 main_v203 (broadcastInDim S1600000x1 ![0] bcast_S1600000_S1600000x1_0),
    StableHlo.binary main_v197 main_v203 main_v204 ((fun x i => Host.gather gather_S100000x64_S1600000x1_S1600000x64_1_0_n_n_0_1_164 x i)),
    StableHlo.nullary main_c_51 (constantI S_ 32 0#32),
    StableHlo.unary main_c_51 main_v205 (broadcastInDim S1600000 ![] bcast_S_S1600000),
    StableHlo.binary main_v133 main_v205 main_v206 (cmpi .slt),
    StableHlo.nullary main_c_52 (constantI S_ 32 100000#32),
    StableHlo.unary main_c_52 main_v207 (broadcastInDim S1600000 ![] bcast_S_S1600000),
    StableHlo.binary main_v133 main_v207 main_v208 (addi),
    StableHlo.ternary main_v206 main_v208 main_v133 main_v209 (select),
    StableHlo.unary main_v209 main_v210 (broadcastInDim S1600000x1 ![0] bcast_S1600000_S1600000x1_0),
    StableHlo.binary main_v197 main_v210 main_v211 ((fun x i => Host.gather gather_S100000x64_S1600000x1_S1600000x64_1_0_n_n_0_1_164 x i)),
    StableHlo.binary main_v204 main_v211 main_v212 (mulf),
    StableHlo.nullary main_cst_53 (constant S_ .f32 0x00000000#32),
    StableHlo.binary main_v212 main_cst_53 main_v213 ((fun x v => Host.reduceAdd x v reducesTo_S1600000x64_S1600000_d1 h_S_)),
    StableHlo.nullary main_cst_54 (constant S_ .f32 0x00000000#32),
    StableHlo.binary main_arg17 main_cst_54 main_v214 ((fun x v => Host.reduceAdd x v reducesTo_S128x1_S_d0_1 h_S_)),
    StableHlo.unary main_v214 main_v215 (broadcastInDim S1600000 ![] bcast_S_S1600000),
    StableHlo.binary main_v213 main_v215 main_v216 (mulf),
    StableHlo.nullary main_cst_55 (constant S_ .f32 0x3E4CCCCD#32),
    StableHlo.TRef.nullary main_call9.cst (constant S_ .f32 0x00000000#32),
    StableHlo.TRef.unary main_call9.cst main_call9.v0 (broadcastInDim S1600000 ![] bcast_S_S1600000),
    StableHlo.TRef.binary (.of main_v216) main_call9.v0 main_call9.v1 (cmpf .oge),
    StableHlo.TRef.unary (.of main_cst_55) main_call9.v2 id,
    StableHlo.TRef.unary main_call9.v2 main_call9.v3 (broadcastInDim S1600000 ![] bcast_S_S1600000),
    StableHlo.TRef.binary main_call9.v3 (.of main_v216) main_call9.v4 mulf,
    StableHlo.TRef.ternary main_call9.v1 (.of main_v216) main_call9.v4 main_call9.call0.v0 select,
    StableHlo.nullary main_cst_56 (constant S_ .f32 0xFF800000#32),
    StableHlo.binary main_v217 main_cst_56 main_v218 ((fun x v => Host.reduce FloatOps.maximumf x v reducesTo_S1600000_S_d0 h_S_)),
    StableHlo.nullary main_cst_57 (constant S_ .f32 0xFF800000#32),
    StableHlo.binary main_cst_57 main_v218 main_v219 (maximumf),
    StableHlo.unary main_v219 main_v220 (broadcastInDim S1 ![] bcast_S_S1),
    StableHlo.unary main_v220 main_v221 (broadcastInDim S1600000 ![0] bcast_S1_S1600000_0),
    StableHlo.binary main_v217 main_v221 main_v222 (subf),
    StableHlo.unary main_v222 main_v223 (Host.exp),
    StableHlo.nullary main_cst_58 (constant S_ .f32 0x00000000#32),
    StableHlo.binary main_v223 main_cst_58 main_v224 ((fun x v => Host.reduceAdd x v reducesTo_S1600000_S_d0 h_S_)),
    StableHlo.unary main_v224 main_v225 (broadcastInDim S1 ![] bcast_S_S1),
    StableHlo.unary main_v225 main_v226 (broadcastInDim S1600000 ![0] bcast_S1_S1600000_0),
    StableHlo.binary main_v223 main_v226 main_v227 (Host.divf),
    StableHlo.unary main_v227 main_v228 (broadcastInDim S1600000x1 ![0] bcast_S1600000_S1600000x1_0),
    StableHlo.nullary main_c_59 (constantI S_ 32 0#32),
    StableHlo.unary main_c_59 main_v229 (broadcastInDim S1600000 ![] bcast_S_S1600000),
    StableHlo.binary main_v131 main_v229 main_v230 (cmpi .slt),
    StableHlo.nullary main_c_60 (constantI S_ 32 100000#32),
    StableHlo.unary main_c_60 main_v231 (broadcastInDim S1600000 ![] bcast_S_S1600000),
    StableHlo.binary main_v131 main_v231 main_v232 (addi),
    StableHlo.ternary main_v230 main_v232 main_v131 main_v233 (select),
    StableHlo.unary main_v233 main_v234 (broadcastInDim S1600000x1 ![0] bcast_S1600000_S1600000x1_0),
    StableHlo.binary main_v197 main_v234 main_v235 ((fun x i => Host.gather gather_S100000x64_S1600000x1_S1600000x64_1_0_n_n_0_1_164 x i)),
    StableHlo.unary main_v228 main_v236 (broadcastInDim S1600000x64 ![0, 1] bcast_S1600000x1_S1600000x64_0_1),
    StableHlo.binary main_v236 main_v235 main_v237 (mulf) ]

abbrev ws8 : List (Ref sig .tc) :=
  [ main_v197, main_c_49, main_v198, main_v199, main_c_50, main_v200, main_v201, main_v202,
    main_v203, main_v204, main_c_51, main_v205, main_v206, main_c_52, main_v207, main_v208,
    main_v209, main_v210, main_v211, main_v212, main_cst_53, main_v213, main_cst_54, main_v214,
    main_v215, main_v216, main_cst_55, main_call9.cst.ref, main_call9.v0.ref, main_call9.v1.ref, main_call9.v2.ref, main_call9.v3.ref,
    main_call9.v4.ref, main_call9.call0.v0.ref, main_cst_56, main_v218, main_cst_57, main_v219, main_v220, main_v221,
    main_v222, main_v223, main_cst_58, main_v224, main_v225, main_v226, main_v227, main_v228,
    main_c_59, main_v229, main_v230, main_c_60, main_v231, main_v232, main_v233, main_v234,
    main_v235, main_v236, main_v237 ]

set_option maxRecDepth 8192 in
theorem c8_writes : (c8 : List (HloOp τ sig (Elt F))).Forall fun op => op.writes ⊆ ((ws8).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr⟩

theorem c8_sub : (c8 : List (HloOp τ sig (Elt F))).Forall fun op => op.bufs ⊆ tcRefs τ sig :=
  by simp only [c8, List.Forall, binary_bufs_sub, nullary_bufs_sub, reshape_bufs_sub, ternary_bufs_sub, unary_bufs_sub, and_self]

set_option maxRecDepth 8192 in
theorem c8_fresh : (c8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

abbrev c9 : List (HloOp τ sig (Elt F)) :=
  [ StableHlo.nullary main_cst_61 (constant S_ .f32 0x00000000#32),
    StableHlo.unary main_cst_61 main_v238 (broadcastInDim S100000x64 ![] bcast_S_S100000x64),
    StableHlo.unary main_v133 main_v239 (broadcastInDim S1600000x1 ![0] bcast_S1600000_S1600000x1_0),
    StableHlo.ternary main_v238 main_v239 main_v237 main_v240 ((fun x i u => Host.scatterAdd scatter_S100000x64_S1600000x1_S1600000x64_1_0_0_1 x i u)),
    StableHlo.TRef.nullary main_call10.cst (constant S_ .f32 0x00000000#32),
    StableHlo.TRef.unary main_call10.cst main_call10.v0 (broadcastInDim S100000x64 ![] bcast_S_S100000x64),
    StableHlo.TRef.binary (.of main_v240) main_call10.v0 main_call10.v1 (cmpf .ogt),
    StableHlo.TRef.nullary main_call10.cst_0 (constant S_ .f32 0x00000000#32),
    StableHlo.TRef.unary main_call10.cst_0 main_call10.v2 (broadcastInDim S100000x64 ![] bcast_S_S100000x64),
    StableHlo.TRef.binary (.of main_v240) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S100000x64 ![] bcast_S_S100000x64),
    StableHlo.TRef.ternary main_call10.v3 main_call10.call0.v1 (.of main_v240) main_call10.call0.v2 select,
    StableHlo.TRef.unary main_call10.call0.v2 main_call10.v5 Host.expm1,
    StableHlo.TRef.nullary main_call10.cst_2 (constant S_ .f32 0x3F800000#32),
    StableHlo.TRef.unary main_call10.cst_2 main_call10.v6 (broadcastInDim S100000x64 ![] bcast_S_S100000x64),
    StableHlo.TRef.binary main_call10.v6 main_call10.v5 main_call10.v7 mulf,
    StableHlo.TRef.ternary main_call10.v1 (.of main_v240) main_call10.v7 main_call10.call1.v0 select,
    StableHlo.nullary main_cst_62 (constant S_ .f32 0x00000000#32),
    StableHlo.binary main_v241 main_cst_62 main_v242 ((fun x v => Host.reduceAdd x v reducesTo_S100000x64_S100000_d1 h_S_)),
    StableHlo.unary main_v242 main_v243 (broadcastInDim S100000x1 ![0] bcast_S100000_S100000x1_0),
    StableHlo.nullary main_cst_63 (constant S_ .f32 0x42800000#32),
    StableHlo.unary main_cst_63 main_v244 (broadcastInDim S100000x1 ![] bcast_S_S100000x1),
    StableHlo.binary main_v243 main_v244 main_v245 (Host.divf),
    StableHlo.nullary main_c_64 (constantI S_ 32 0#32),
    StableHlo.TRef.nullary main_call11.cst (constant S_ .f32 0x00000000#32),
    StableHlo.TRef.binary (.of main_v241) main_call11.cst main_call11.v0 (fun x v => Host.reduceAdd x v reducesTo_S100000x64_S100000_d1 h_S_),
    StableHlo.TRef.unary main_call11.v0 main_call11.v1 (broadcastInDim S100000x1 ![0] bcast_S100000_S100000x1_0),
    StableHlo.TRef.nullary main_call11.cst_0 (constant S_ .f32 0x42800000#32),
    StableHlo.TRef.unary main_call11.cst_0 main_call11.v2 (broadcastInDim S100000x1 ![] bcast_S_S100000x1),
    StableHlo.TRef.binary main_call11.v1 main_call11.v2 main_call11.v3 Host.divf,
    StableHlo.TRef.unary main_call11.v3 main_call11.v4 (broadcastInDim S100000x64 ![0, 1] bcast_S100000x1_S100000x64_0_1),
    StableHlo.TRef.binary (.of main_v241) main_call11.v4 main_call11.v5 subf,
    StableHlo.TRef.binary main_call11.v5 main_call11.v5 main_call11.v6 mulf,
    StableHlo.TRef.unary (.of main_c_64) main_call11.v7 (sitofp .f32),
    StableHlo.TRef.nullary main_call11.cst_1 (constant S_ .f32 0x42800000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x64_S100000_d1 h_S_),
    StableHlo.TRef.unary main_call11.v9 main_call11.v10 (broadcastInDim S100000x1 ![0] bcast_S100000_S100000x1_0),
    StableHlo.TRef.unary main_call11.v8 main_call11.v11 (broadcastInDim S100000x1 ![] bcast_S_S100000x1),
    StableHlo.TRef.binary main_call11.v10 main_call11.v11 main_call11.v12 Host.divf,
    StableHlo.TRef.nullary main_call11.cst_3 (constant S_ .f32 0x00000000#32),
    StableHlo.TRef.binary main_call11.v8 main_call11.cst_3 main_call11.v13 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S100000x1 ![] bcast_S_S100000x1),
    StableHlo.TRef.ternary main_call11.v13 main_call11.v12 main_call11.call0.v1 main_call11.call0.v2 (fun p a b => select (broadcastInDim S100000x1 ![] bcast_S_S100000x1 p) a b),
    StableHlo.unary main_v245 main_v247 (broadcastInDim S100000x64 ![0, 1] bcast_S100000x1_S100000x64_0_1),
    StableHlo.binary main_v241 main_v247 main_v248 (subf),
    StableHlo.unary main_arg18 main_v249 (broadcastInDim S1x64 ![1] bcast_S64_S1x64_1),
    StableHlo.unary main_v249 main_v250 (broadcastInDim S100000x64 ![0, 1] bcast_S1x64_S100000x64_0_1),
    StableHlo.binary main_v250 main_v248 main_v251 (mulf),
    StableHlo.nullary main_cst_65 (constant S_ .f32 0x3727C5AC#32),
    StableHlo.unary main_cst_65 main_v252 (broadcastInDim S100000x1 ![] bcast_S_S100000x1),
    StableHlo.binary main_v246 main_v252 main_v253 (addf),
    StableHlo.unary main_v253 main_v254 (Host.sqrt),
    StableHlo.unary main_v254 main_v255 (broadcastInDim S100000x64 ![0, 1] bcast_S100000x1_S100000x64_0_1),
    StableHlo.binary main_v251 main_v255 main_v256 (Host.divf),
    StableHlo.unary main_arg19 main_v257 (broadcastInDim S1x64 ![1] bcast_S64_S1x64_1),
    StableHlo.unary main_v257 main_v258 (broadcastInDim S100000x64 ![0, 1] bcast_S1x64_S100000x64_0_1),
    StableHlo.binary main_v256 main_v258 main_v259 (addf) ]

abbrev ws9 : List (Ref sig .tc) :=
  [ main_cst_61, main_v238, main_v239, main_v240, main_call10.cst.ref, main_call10.v0.ref, main_call10.v1.ref, main_call10.cst_0.ref,
    main_call10.v2.ref, main_call10.v3.ref, main_call10.cst_1.ref, main_call10.call0.v0.ref, main_call10.call0.v1.ref, main_call10.call0.v2.ref, main_call10.v5.ref, main_call10.cst_2.ref,
    main_call10.v6.ref, main_call10.v7.ref, main_call10.call1.v0.ref, main_cst_62, main_v242, main_v243, main_cst_63, main_v244,
    main_v245, main_c_64, main_call11.cst.ref, main_call11.v0.ref, main_call11.v1.ref, main_call11.cst_0.ref, main_call11.v2.ref, main_call11.v3.ref,
    main_call11.v4.ref, main_call11.v5.ref, main_call11.v6.ref, main_call11.v7.ref, main_call11.cst_1.ref, main_call11.v8.ref, main_call11.cst_2.ref, main_call11.v9.ref,
    main_call11.v10.ref, main_call11.v11.ref, main_call11.v12.ref, main_call11.cst_3.ref, main_call11.v13.ref, main_call11.cst_4.ref, main_call11.call0.v0.ref, main_call11.call0.v1.ref,
    main_call11.call0.v2.ref, main_v247, main_v248, main_v249, main_v250, main_v251, main_cst_65, main_v252,
    main_v253, main_v254, main_v255, main_v256, main_v257, main_v258, main_v259 ]

set_option maxRecDepth 8192 in
theorem c9_writes : (c9 : List (HloOp τ sig (Elt F))).Forall fun op => op.writes ⊆ ((ws9).map (Proc.devRef (τ := τ) .tc)).toFinset :=
  ⟨wr, wr, wr, wr, wr, wr, wr, wr, wr, wr, wr, wr, wr, wr, wr, wr, wr, wr, wr, wr, wr, wr, wr, wr,
    wr, wr, wr, wr, wr, wr, wr, wr, wr, wr, wr, wr, wr, wr, wr, wr, wr, wr, wr, wr, wr, wr, wr, wr,
    wr, wr, wr, wr, wr, wr, wr, wr, wr, wr, wr, wr, wr, wr, wr⟩

theorem c9_sub : (c9 : List (HloOp τ sig (Elt F))).Forall fun op => op.bufs ⊆ tcRefs τ sig :=
  by simp only [c9, List.Forall, binary_bufs_sub, nullary_bufs_sub, reshape_bufs_sub, ternary_bufs_sub, unary_bufs_sub, and_self]

set_option maxRecDepth 8192 in
theorem c9_fresh : (c9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

abbrev c10 : List (HloOp τ sig (Elt F)) :=
  [ StableHlo.binary main_v129 main_v259 main_v260 (addf),
    StableHlo.binary main_v260 main_arg20 main_v261 ((fun l r => Host.dotGeneral dot_S100000x64_S64x32_S100000x32_1_0_0_1_n_n none l r)),
    StableHlo.unary main_arg21 main_v262 (broadcastInDim S1x32 ![1] bcast_S32_S1x32_1),
    StableHlo.unary main_v262 main_v263 (broadcastInDim S100000x32 ![0, 1] bcast_S1x32_S100000x32_0_1),
    StableHlo.binary main_v261 main_v263 main_v264 (addf),
    StableHlo.TRef.nullary main_call12.cst (constant S_ .f32 0x00000000#32),
    StableHlo.TRef.unary main_call12.cst main_call12.v0 (broadcastInDim S100000x32 ![] bcast_S_S100000x32),
    StableHlo.TRef.binary (.of main_v264) main_call12.v0 main_call12.v1 maximumf,
    StableHlo.binary main_v265 main_arg22 main_v266 ((fun l r => Host.dotGeneral dot_S100000x32_S32x1_S100000x1_1_0_0_1_n_n none l r)),
    StableHlo.unary main_arg23 main_v267 (broadcastInDim S1x1 ![1] bcast_S1_S1x1_1),
    StableHlo.unary main_v267 main_v268 (broadcastInDim S100000x1 ![0, 1] bcast_S1x1_S100000x1_0_1),
    StableHlo.binary main_v266 main_v268 main_v269 (addf),
    StableHlo.unary main_v269 main_v270 (Host.negf),
    StableHlo.unary main_v270 main_v271 (Host.exp),
    StableHlo.nullary main_cst_66 (constant S_ .f32 0x3F800000#32),
    StableHlo.unary main_cst_66 main_v272 (broadcastInDim S100000x1 ![] bcast_S_S100000x1),
    StableHlo.binary main_v272 main_v271 main_v273 (addf),
    StableHlo.nullary main_cst_67 (constant S_ .f32 0x3F800000#32),
    StableHlo.unary main_cst_67 main_v274 (broadcastInDim S100000x1 ![] bcast_S_S100000x1),
    StableHlo.binary main_v274 main_v273 main_v275 (Host.divf) ]

abbrev ws10 : List (Ref sig .tc) :=
  [ main_v260, main_v261, main_v262, main_v263, main_v264, main_call12.cst.ref, main_call12.v0.ref, main_call12.v1.ref,
    main_v266, main_v267, main_v268, main_v269, main_v270, main_v271, main_cst_66, main_v272,
    main_v273, main_cst_67, main_v274, main_v275 ]

set_option maxRecDepth 8192 in
theorem c10_writes : (c10 : List (HloOp τ sig (Elt F))).Forall fun op => op.writes ⊆ ((ws10).map (Proc.devRef (τ := τ) .tc)).toFinset :=
  ⟨wr, wr, wr, wr, wr, wr, wr, wr, wr, wr, wr, wr, wr, wr, wr, wr, wr, wr, wr, wr⟩

theorem c10_sub : (c10 : List (HloOp τ sig (Elt F))).Forall fun op => op.bufs ⊆ tcRefs τ sig :=
  by simp only [c10, List.Forall, binary_bufs_sub, nullary_bufs_sub, reshape_bufs_sub, ternary_bufs_sub, unary_bufs_sub, and_self]

set_option maxRecDepth 8192 in
theorem c10_fresh : (c10 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

end Cert.ReferenceIdeal.Run

end
-- ==== Proof.RefMain.lean ====
import proofs.«400993_j24043226923663_1_alg».proof.Proof.RefLine

noncomputable section

namespace Cert.ReferenceIdeal.Run

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The reference's operations, in order. -/
abbrev ops : List (HloOp τ sig (Elt F)) := c0 ++ c1 ++ c2 ++ c3 ++ c4 ++ c5 ++ c6 ++ c7 ++ c8 ++ c9 ++ c10

/-! Each printed window of the main function is a stretch of that line: a call of a module-local function is the
callee's body at the call's operands and buffers. -/

set_option maxRecDepth 8192 in
set_option maxHeartbeats 4000000 in
theorem main_part0_eq (c : Dev nD) : main_part0 (F := F) c = seq (c0 ++ c1 ++ c2.take 3) := by
  simp only [main_part0, fn_leaky_relu.body, fn_elu.body, fn_var.body, fn_relu.body, fn_where.body, fn_where_0.body, fn_where_1.body, fn_where_2.body, bind_assoc, pure_bind]
  rfl

set_option maxRecDepth 8192 in
set_option maxHeartbeats 4000000 in
theorem main_part1_eq (c : Dev nD) : main_part1 (F := F) c = seq (c2.drop 3 ++ c3.take 42) := by
  simp only [main_part1, fn_leaky_relu.body, fn_elu.body, fn_var.body, fn_relu.body, fn_where.body, fn_where_0.body, fn_where_1.body, fn_where_2.body, bind_assoc, pure_bind]
  rfl

set_option maxRecDepth 8192 in
set_option maxHeartbeats 4000000 in
theorem main_part2_eq (c : Dev nD) : main_part2 (F := F) c = seq (c3.drop 42 ++ c4 ++ c5 ++ c6.take 12) := by
  simp only [main_part2, fn_leaky_relu.body, fn_elu.body, fn_var.body, fn_relu.body, fn_where.body, fn_where_0.body, fn_where_1.body, fn_where_2.body, bind_assoc, pure_bind]
  rfl

set_option maxRecDepth 8192 in
set_option maxHeartbeats 4000000 in
theorem main_part3_eq (c : Dev nD) : main_part3 (F := F) c = seq (c6.drop 12 ++ c7.take 55) := by
  simp only [main_part3, fn_leaky_relu.body, fn_elu.body, fn_var.body, fn_relu.body, fn_where.body, fn_where_0.body, fn_where_1.body, fn_where_2.body, bind_assoc, pure_bind]
  rfl

set_option maxRecDepth 8192 in
set_option maxHeartbeats 4000000 in
theorem main_part4_eq (c : Dev nD) : main_part4 (F := F) c = seq (c7.drop 55 ++ c8.take 58) := by
  simp only [main_part4, fn_leaky_relu.body, fn_elu.body, fn_var.body, fn_relu.body, fn_where.body, fn_where_0.body, fn_where_1.body, fn_where_2.body, bind_assoc, pure_bind]
  rfl

set_option maxRecDepth 8192 in
set_option maxHeartbeats 4000000 in
theorem main_part5_eq (c : Dev nD) : main_part5 (F := F) c = seq (c8.drop 58 ++ c9 ++ c10) := by
  simp only [main_part5, fn_leaky_relu.body, fn_elu.body, fn_var.body, fn_relu.body, fn_where.body, fn_where_0.body, fn_where_1.body, fn_where_2.body, bind_assoc, pure_bind]
  rfl

theorem take_append_drop_append {α : Type} (n : ℕ) (l r : List α) : l.take n ++ (l.drop n ++ r) = l ++ r := by
  rw [← List.append_assoc, List.take_append_drop]

/-- The windows in a row are the whole line: a list is its first entries followed by the rest. -/
theorem ops_windows : (ops : List (HloOp τ sig (Elt F)))
    = (c0 ++ c1 ++ c2.take 3) ++ (c2.drop 3 ++ c3.take 42) ++ (c3.drop 42 ++ c4 ++ c5 ++ c6.take 12)
      ++ (c6.drop 12 ++ c7.take 55) ++ (c7.drop 55 ++ c8.take 58) ++ (c8.drop 58 ++ c9 ++ c10) := by
  simp only [ops, List.append_assoc, take_append_drop_append]

theorem main_eq (c : Dev nD) : main (F := F) c = seq ops := by
  simp only [ops_windows, seq_append, bind_assoc, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨⟨⟨⟨⟨⟨c0_sub, c1_sub⟩, c2_sub⟩, c3_sub⟩, c4_sub⟩, c5_sub⟩, c6_sub⟩, c7_sub⟩, c8_sub⟩, c9_sub⟩, c10_sub⟩

theorem ops_fresh : (ops : List (HloOp τ sig (Elt F))).Forall fun op => op.fresh = ∅ := by
  simp only [ops, List.forall_append]
  exact ⟨⟨⟨⟨⟨⟨⟨⟨⟨⟨c0_fresh, c1_fresh⟩, c2_fresh⟩, c3_fresh⟩, c4_fresh⟩, c5_fresh⟩, c6_fresh⟩, c7_fresh⟩, c8_fresh⟩, c9_fresh⟩, c10_fresh⟩

/-- The line runs to its end, and every buffer then holds the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Run

end
-- ==== Proof.RefRun.lean ====
import proofs.«400993_j24043226923663_1_alg».proof.Proof.RefMain
import proofs.«400993_j24043226923663_1_alg».proof.Proof.Fns
import Idealize.ShloMosaic.Lib.Pipeline.Frame

noncomputable section

namespace Cert.ReferenceIdeal.Run

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! A stretch leaves alone every buffer it does not write. -/

theorem keep0 {r : Ref sig .tc} (W : Valuation τ sig (Elt F)) (h : r ∉ ws0) :
    after c0 W (no_index (Proc.devRef .tc r)) = W (Proc.devRef .tc r) := after_of_writes_sub c0 W c0_writes h
theorem keep1 {r : Ref sig .tc} (W : Valuation τ sig (Elt F)) (h : r ∉ ws1) :
    after c1 W (no_index (Proc.devRef .tc r)) = W (Proc.devRef .tc r) := after_of_writes_sub c1 W c1_writes h
theorem keep2 {r : Ref sig .tc} (W : Valuation τ sig (Elt F)) (h : r ∉ ws2) :
    after c2 W (no_index (Proc.devRef .tc r)) = W (Proc.devRef .tc r) := after_of_writes_sub c2 W c2_writes h
theorem keep3 {r : Ref sig .tc} (W : Valuation τ sig (Elt F)) (h : r ∉ ws3) :
    after c3 W (no_index (Proc.devRef .tc r)) = W (Proc.devRef .tc r) := after_of_writes_sub c3 W c3_writes h
theorem keep4 {r : Ref sig .tc} (W : Valuation τ sig (Elt F)) (h : r ∉ ws4) :
    after c4 W (no_index (Proc.devRef .tc r)) = W (Proc.devRef .tc r) := after_of_writes_sub c4 W c4_writes h
theorem keep5 {r : Ref sig .tc} (W : Valuation τ sig (Elt F)) (h : r ∉ ws5) :
    after c5 W (no_index (Proc.devRef .tc r)) = W (Proc.devRef .tc r) := after_of_writes_sub c5 W c5_writes h
theorem keep6 {r : Ref sig .tc} (W : Valuation τ sig (Elt F)) (h : r ∉ ws6) :
    after c6 W (no_index (Proc.devRef .tc r)) = W (Proc.devRef .tc r) := after_of_writes_sub c6 W c6_writes h
theorem keep7 {r : Ref sig .tc} (W : Valuation τ sig (Elt F)) (h : r ∉ ws7) :
    after c7 W (no_index (Proc.devRef .tc r)) = W (Proc.devRef .tc r) := after_of_writes_sub c7 W c7_writes h
theorem keep8 {r : Ref sig .tc} (W : Valuation τ sig (Elt F)) (h : r ∉ ws8) :
    after c8 W (no_index (Proc.devRef .tc r)) = W (Proc.devRef .tc r) := after_of_writes_sub c8 W c8_writes h
theorem keep9 {r : Ref sig .tc} (W : Valuation τ sig (Elt F)) (h : r ∉ ws9) :
    after c9 W (no_index (Proc.devRef .tc r)) = W (Proc.devRef .tc r) := after_of_writes_sub c9 W c9_writes h
theorem keep10 {r : Ref sig .tc} (W : Valuation τ sig (Elt F)) (h : r ∉ ws10) :
    after c10 W (no_index (Proc.devRef .tc r)) = W (Proc.devRef .tc r) := after_of_writes_sub c10 W c10_writes h

/-! Each stretch's result buffer, from ANY contents `W` before it, holds one function of the network of what `W`
holds at the few buffers the stretch reads: the fold of the stretch's operations at that buffer is the composition of
their functions, which is the function's definition. Only how the operations are composed is compared, so what
each computes stays folded. -/

section Stretches

attribute [local irreducible] Host.reduce Host.reduceAdd Host.gather Host.scatterAdd Host.exp Host.expm1 Host.sqrt Host.divf Host.negf

theorem rowsS0 (W : Valuation τ sig (Elt F)) :
    after c0 W (no_index (main_v1 : DevRef τ sig)) = Fns.row0 (W (main_arg1 : DevRef τ sig)) := by
  after_results_simp
  rfl

theorem rowsS1 (W : Valuation τ sig (Elt F)) :
    after c0 W (no_index (main_v3 : DevRef τ sig)) = Fns.row1 (W (main_arg1 : DevRef τ sig)) := by
  after_results_simp
  rfl

theorem rowsT0 (W : Valuation τ sig (Elt F)) :
    after c5 W (no_index (main_v131 : DevRef τ sig)) = Fns.row0 (W (main_arg3 : DevRef τ sig)) := by
  after_results_simp
  rfl

theorem rowsT1 (W : Valuation τ sig (Elt F)) :
    after c5 W (no_index (main_v133 : DevRef τ sig)) = Fns.row1 (W (main_arg3 : DevRef τ sig)) := by
  after_results_simp
  rfl

set_option maxRecDepth 8192 in
theorem msg1 (W : Valuation τ sig (Elt F)) :
    after c1 W (no_index (main_v44 : DevRef τ sig)) = Fns.msg (Fns.gatherRows (Fns.dot8 (W (main_arg0 : DevRef τ sig)) (W (main_arg4 : DevRef τ sig))) (W (main_v1 : DevRef τ sig)))
        (Fns.gatherRows (Fns.dot8 (W (main_arg0 : DevRef τ sig)) (W (main_arg4 : DevRef τ sig))) (W (main_v3 : DevRef τ sig))) (W (main_arg5 : DevRef τ sig)) := by
  after_results_simp
  rfl

set_option maxRecDepth 8192 in
theorem ln1 (W : Valuation τ sig (Elt F)) :
    after c2 W (no_index (main_v66 : DevRef τ sig)) = Fns.layerNorm (Fns.elu (Fns.segsum (W (main_v44 : DevRef τ sig)) (W (main_v3 : DevRef τ sig)))) (W (main_arg6 : DevRef τ sig)) (W (main_arg7 : DevRef τ sig)) := by
  after_results_simp
  rfl

set_option maxRecDepth 8192 in
theorem msg2 (W : Valuation τ sig (Elt F)) :
    after c3 W (no_index (main_v107 : DevRef τ sig)) = Fns.msg (Fns.gatherRows (Fns.dot64 (W (main_v66 : DevRef τ sig)) (W (main_arg8 : DevRef τ sig))) (W (main_v1 : DevRef τ sig)))
        (Fns.gatherRows (Fns.dot64 (W (main_v66 : DevRef τ sig)) (W (main_arg8 : DevRef τ sig))) (W (main_v3 : DevRef τ sig))) (W (main_arg9 : DevRef τ sig)) := by
  after_results_simp
  rfl

set_option maxRecDepth 8192 in
theorem ln2 (W : Valuation τ sig (Elt F)) :
    after c4 W (no_index (main_v129 : DevRef τ sig)) = Fns.layerNorm (Fns.elu (Fns.segsum (W (main_v107 : DevRef τ sig)) (W (main_v3 : DevRef τ sig)))) (W (main_arg10 : DevRef τ sig)) (W (main_arg11 : DevRef τ sig)) := by
  after_results_simp
  rfl

set_option maxRecDepth 8192 in
theorem msg3 (W : Valuation τ sig (Elt F)) :
    after c6 W (no_index (main_v174 : DevRef τ sig)) = Fns.msg (Fns.gatherRows (Fns.dot8 (W (main_arg0 : DevRef τ sig)) (W (main_arg12 : DevRef τ sig))) (W (main_v131 : DevRef τ sig)))
        (Fns.gatherRows (Fns.dot8 (W (main_arg0 : DevRef τ sig)) (W (main_arg12 : DevRef τ sig))) (W (main_v133 : DevRef τ sig))) (W (main_arg13 : DevRef τ sig)) := by
  after_results_simp
  rfl

set_option maxRecDepth 8192 in
theorem ln3 (W : Valuation τ sig (Elt F)) :
    after c7 W (no_index (main_v196 : DevRef τ sig)) = Fns.layerNorm (Fns.elu (Fns.segsum (W (main_v174 : DevRef τ sig)) (W (main_v133 : DevRef τ sig)))) (W (main_arg14 : DevRef τ sig)) (W (main_arg15 : DevRef τ sig)) := by
  after_results_simp
  rfl

set_option maxRecDepth 8192 in
theorem msg4 (W : Valuation τ sig (Elt F)) :
    after c8 W (no_index (main_v237 : DevRef τ sig)) = Fns.msg (Fns.gatherRows (Fns.dot64 (W (main_v196 : DevRef τ sig)) (W (main_arg16 : DevRef τ sig))) (W (main_v131 : DevRef τ sig)))
        (Fns.gatherRows (Fns.dot64 (W (main_v196 : DevRef τ sig)) (W (main_arg16 : DevRef τ sig))) (W (main_v133 : DevRef τ sig))) (W (main_arg17 : DevRef τ sig)) := by
  after_results_simp
  rfl

set_option maxRecDepth 8192 in
theorem ln4 (W : Valuation τ sig (Elt F)) :
    after c9 W (no_index (main_v259 : DevRef τ sig)) = Fns.layerNorm (Fns.elu (Fns.segsum (W (main_v237 : DevRef τ sig)) (W (main_v133 : DevRef τ sig)))) (W (main_arg18 : DevRef τ sig)) (W (main_arg19 : DevRef τ sig)) := by
  after_results_simp
  rfl

set_option maxRecDepth 8192 in
theorem headOut (W : Valuation τ sig (Elt F)) :
    after c10 W (no_index (main_v275 : DevRef τ sig)) = Fns.denseSigmoid (Fns.denseRelu (addf (W (main_v129 : DevRef τ sig)) (W (main_v259 : DevRef τ sig))) (W (main_arg20 : DevRef τ sig)) (W (main_arg21 : DevRef τ sig)))
        (W (main_arg22 : DevRef τ sig)) (W (main_arg23 : DevRef τ sig)) := by
  after_results_simp
  rfl

end Stretches

/-- The result buffer after the whole line, from any contents `V`: stretch by stretch from the last, the buffer read
    is the stretch's result, a function of earlier buffers, or one the stretch leaves alone; only arguments remain. -/
theorem out_eq (V : Valuation τ sig (Elt F)) :
    after ops V (main_v275 : DevRef τ sig)
      = Fns.out (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) := by
  unfold ops
  simp (disch := decide) only [after_append, headOut, ln4, msg4, ln3, msg3, rowsT0, rowsT1, ln2, msg2, ln1, msg1, rowsS0, rowsS1,
    keep0, keep1, keep2, keep3, keep4, keep5, keep6, keep7, keep8, keep9, keep10]
  rfl

/-- A buffer that no operation of the line writes holds after the line what it held before. -/
theorem kept {r : Ref sig .tc} (V : Valuation τ sig (Elt F))
    (h : r ∉ ws0 ++ ws1 ++ ws2 ++ ws3 ++ ws4 ++ ws5 ++ ws6 ++ ws7 ++ ws8 ++ ws9 ++ ws10) :
    after ops V (Proc.devRef .tc r) = V (Proc.devRef .tc r) := by
  simp only [List.mem_append, not_or] at h
  obtain ⟨⟨⟨⟨⟨⟨⟨⟨⟨⟨h0, h1⟩, h2⟩, h3⟩, h4⟩, h5⟩, h6⟩, h7⟩, h8⟩, h9⟩, h10⟩ := h
  unfold ops
  simp only [after_append]
  rw [keep10 _ h10, keep9 _ h9, keep8 _ h8, keep7 _ h7, keep6 _ h6, keep5 _ h5, keep4 _ h4, keep3 _ h3, keep2 _ h2,
    keep1 _ h1, keep0 _ h0]

/-- Every weakly fair execution of the reference ends with the result buffer at the network of the arguments' launch
    contents, and the arguments, which no operation writes, as launched. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v275)
          = Fns.out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v275).trans (out_eq _),
      (h c main_arg0).trans (kept _ (by decide)),
      (h c main_arg1).trans (kept _ (by decide)),
      (h c main_arg2).trans (kept _ (by decide)),
      (h c main_arg3).trans (kept _ (by decide)),
      (h c main_arg4).trans (kept _ (by decide)),
      (h c main_arg5).trans (kept _ (by decide)),
      (h c main_arg6).trans (kept _ (by decide)),
      (h c main_arg7).trans (kept _ (by decide)),
      (h c main_arg8).trans (kept _ (by decide)),
      (h c main_arg9).trans (kept _ (by decide)),
      (h c main_arg10).trans (kept _ (by decide)),
      (h c main_arg11).trans (kept _ (by decide)),
      (h c main_arg12).trans (kept _ (by decide)),
      (h c main_arg13).trans (kept _ (by decide)),
      (h c main_arg14).trans (kept _ (by decide)),
      (h c main_arg15).trans (kept _ (by decide)),
      (h c main_arg16).trans (kept _ (by decide)),
      (h c main_arg17).trans (kept _ (by decide)),
      (h c main_arg18).trans (kept _ (by decide)),
      (h c main_arg19).trans (kept _ (by decide)),
      (h c main_arg20).trans (kept _ (by decide)),
      (h c main_arg21).trans (kept _ (by decide)),
      (h c main_arg22).trans (kept _ (by decide)),
      (h c main_arg23).trans (kept _ (by decide))⟩)
    (run_all m ρ)

end Cert.ReferenceIdeal.Run

end
-- ==== Proof.Take.lean ====
import proofs.«400993_j24043226923663_1_alg».proof.Proof.Gen.KernelIdeal.Frame
import proofs.«400993_j24043226923663_1_alg».proof.Proof.Fns
import proofs.«400993_j24043226923663_1_alg».proof.Defs
import proofs.«400993_j24043226923663_1_alg».proof.Proof.Gen.Pre_finite_inputs
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.ValueLayout
import Idealize.ShloMosaic.PureOps.Ideal.Laws

/-! A gather that fills the rows whose index is out of range and a gather that wraps negative indices read the same
rows when every index lies in `[0, 100000)`; the precondition says so of both edge tables. -/

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

def InRange (i : (⟨S1600000, .i32⟩ : BufTy).Contents (Elt Ideal)) : Prop :=
  ∀ j : S1600000.Idx, 0 ≤ (i j).toInt ∧ (i j).toInt < 100000

def takeK (x : (⟨S100000x64, .f32⟩ : BufTy).Contents (Elt Ideal)) (i : (⟨S1600000, .i32⟩ : BufTy).Contents (Elt Ideal)) : (⟨S1600000x64, .f32⟩ : BufTy).Contents (Elt Ideal) :=
  select
    (broadcastInDim S1600000x64 ![0] bcast_S1600000_S1600000x64_0
      (Host.reduce IntOp.andi
        (andi
          (cmpi .sge (broadcastInDim S1600000x1 ![0] bcast_S1600000_S1600000x1_0
              (select (cmpi .slt i (broadcastInDim S1600000 ![] bcast_S_S1600000 (constantI S_ 32 0#32)))
                (addi i (broadcastInDim S1600000 ![] bcast_S_S1600000 (constantI S_ 32 100000#32))) i))
            (broadcastInDim S1600000x1 ![] bcast_S_S1600000x1 (constantI S_ 32 0#32)))
          (cmpi .sle (broadcastInDim S1600000x1 ![0] bcast_S1600000_S1600000x1_0
              (select (cmpi .slt i (broadcastInDim S1600000 ![] bcast_S_S1600000 (constantI S_ 32 0#32)))
                (addi i (broadcastInDim S1600000 ![] bcast_S_S1600000 (constantI S_ 32 100000#32))) i))
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x
      (broadcastInDim S1600000x1 ![0] bcast_S1600000_S1600000x1_0
        (select (cmpi .slt i (broadcastInDim S1600000 ![] bcast_S_S1600000 (constantI S_ 32 0#32)))
          (addi i (broadcastInDim S1600000 ![] bcast_S_S1600000 (constantI S_ 32 100000#32))) i)))
    (broadcastInDim S1600000x64 ![] bcast_S_S1600000x64 (constant (F := Ideal) S_ .f32 0x7FC00000#32))

namespace Take

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_one (fun n => x (s.rowMajor.symm n)) (fun n => hx _) _

theorem slt_zero_of_nonneg (w : BitVec 32) (h0 : 0 ≤ w.toInt) : IntOp.cmpi .slt w 0#32 = 0#1 := by
  unfold IntOp.cmpi
  have e : w.slt 0#32 = false := by
    simp only [BitVec.slt, BitVec.toInt_zero, decide_eq_false_iff_not, not_lt]; exact h0
  rw [e]; rfl

theorem sge_zero_of_nonneg (w : BitVec 32) (h0 : 0 ≤ w.toInt) : IntOp.cmpi .sge w 0#32 = 1#1 := by
  unfold IntOp.cmpi
  have e : (0#32 : BitVec 32).sle w = true := by
    simp only [BitVec.sle, BitVec.toInt_zero, decide_eq_true_eq]; exact h0
  rw [e]; rfl

theorem sle_last_of_lt (w : BitVec 32) (h1 : w.toInt < 100000) : IntOp.cmpi .sle w 99999#32 = 1#1 := by
  unfold IntOp.cmpi
  have e9 : (99999#32 : BitVec 32).toInt = 99999 := by decide
  have e : w.sle 99999#32 = true := by
    simp only [BitVec.sle, e9, decide_eq_true_eq]; omega
  rw [e]; rfl

theorem toInt_nonneg_of_sge (w : BitVec 32) (h : IntOp.cmpi .sge w 0#32 = 1#1) : 0 ≤ w.toInt := by
  unfold IntOp.cmpi at h
  rw [StableHlo.Predicate.ofBool_eq_one_iff] at h
  simpa only [BitVec.sle, BitVec.toInt_zero, decide_eq_true_eq] using h

theorem toInt_lt_of_slt (w : BitVec 32) (h : IntOp.cmpi .slt w 100000#32 = 1#1) : w.toInt < 100000 := by
  unfold IntOp.cmpi at h
  rw [StableHlo.Predicate.ofBool_eq_one_iff] at h
  have e : (100000#32 : BitVec 32).toInt = 100000 := by decide
  simpa only [BitVec.slt, e, decide_eq_true_eq] using h

theorem guard_word (w : BitVec 32) (h0 : 0 ≤ w.toInt) (h1 : w.toInt < 100000) :
    IntOp.andi (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  rw [slt_zero_of_nonneg w h0, ValueIdx.select_zero, sge_zero_of_nonneg w h0, sle_last_of_lt w h1]
  rfl

theorem select_rows_of_all {α : Type} (P : IVec S1600000x1 1) (hP : ∀ p, P p = 1#1) (a b : S1600000x64.Idx → α) :
    select (broadcastInDim S1600000x64 ![0] bcast_S1600000_S1600000x64_0
      (Host.reduce IntOp.andi P (constantI S_ 1 1#1) reducesTo_S1600000x1_S1600000_d1 h_S_)) a b = a := by
  funext y
  have hm : broadcastInDim S1600000x64 ![0] bcast_S1600000_S1600000x64_0
      (Host.reduce IntOp.andi P (constantI S_ 1 1#1) reducesTo_S1600000x1_S1600000_d1 h_S_) y = 1#1 :=
    reduce_andi_of_all _ _ _ _ rfl hP _
  rw [ValueIdx.select_apply, hm, ValueIdx.select_one]

end Take

theorem takeK_eq (x : (⟨S100000x64, .f32⟩ : BufTy).Contents (Elt Ideal)) (i : (⟨S1600000, .i32⟩ : BufTy).Contents (Elt Ideal)) (h : InRange i) :
    takeK x i = Cert.ReferenceIdeal.Fns.gatherRows x i := by
  unfold takeK

  refine (Take.select_rows_of_all _ (fun p => ?_) _ _).trans ?_
  · exact Take.guard_word (i _) (h _).1 (h _).2
  · rfl

theorem Take.pre_entries [Cert.Pre_finite_inputs.Facts]
    (m : (ℓ : Loc nD τ sig) → Buf (Elt Ideal) ℓ) (hpre : Cert.Pre_KernelIdeal m) (c : Dev nD) :
    (∀ k : S2x1600000.Idx, 0 ≤ (m ((c.tc : Thread nD τ).loc main_arg1) k).toInt ∧ (m ((c.tc : Thread nD τ).loc main_arg1) k).toInt < 100000)
    ∧ (∀ k : S2x1600000.Idx, 0 ≤ (m ((c.tc : Thread nD τ).loc main_arg3) k).toInt ∧ (m ((c.tc : Thread nD τ).loc main_arg3) k).toInt < 100000) := by

  haveI : Subsingleton Cert.Pre_finite_inputs.S_.Idx := ⟨fun a b => funext fun d => d.elim0⟩
  have h := congrFun (hpre c) ValueIdx.ix0

  obtain ⟨h115, hlt3⟩ := IntOp.andi_eq_one.1 h
  obtain ⟨h111, hge3⟩ := IntOp.andi_eq_one.1 h115
  obtain ⟨h107, hlt1⟩ := IntOp.andi_eq_one.1 h111
  obtain ⟨-, hge1⟩ := IntOp.andi_eq_one.1 h107
  exact ⟨fun k => ⟨Take.toInt_nonneg_of_sge _ (Host.reduce_andi_all _ _ _ _ _ hge1 k), Take.toInt_lt_of_slt _ (Host.reduce_andi_all _ _ _ _ _ hlt1 k)⟩,
    fun k => ⟨Take.toInt_nonneg_of_sge _ (Host.reduce_andi_all _ _ _ _ _ hge3 k), Take.toInt_lt_of_slt _ (Host.reduce_andi_all _ _ _ _ _ hlt3 k)⟩⟩

theorem pre_inRange [Cert.Pre_finite_inputs.Facts]
    (m : (ℓ : Loc nD τ sig) → Buf (Elt Ideal) ℓ) (hpre : Cert.Pre_KernelIdeal m) (c : Dev nD) :
    InRange (Cert.ReferenceIdeal.Fns.row0 (m ((c.tc : Thread nD τ).loc main_arg1))) ∧ InRange (Cert.ReferenceIdeal.Fns.row1 (m ((c.tc : Thread nD τ).loc main_arg1)))
    ∧ InRange (Cert.ReferenceIdeal.Fns.row0 (m ((c.tc : Thread nD τ).loc main_arg3))) ∧ InRange (Cert.ReferenceIdeal.Fns.row1 (m ((c.tc : Thread nD τ).loc main_arg3))) := by

  obtain ⟨h1, h3⟩ := Take.pre_entries m hpre c
  exact ⟨fun j => h1 _, fun j => h1 _, fun j => h3 _, fun j => h3 _⟩

end Cert.KernelIdeal.Val

end
-- ==== Proof.Dense0Spec.lean ====
import proofs.«400993_j24043226923663_1_alg».proof.Proof.Gen.KernelIdeal.Skeleton
import Idealize.ShloMosaic.Lib.StackMember
import Idealize.ShloMosaic.Lib.ValueLayout
import Idealize.ShloMosaic.Lib.IdealHost
import Idealize.ShloMosaic.Lib.Pipeline.Value

noncomputable section

open scoped BigOperators

namespace Cert.Dense

open Idealize.ShloMosaic Idealize.ShloMosaic.ValueIdx

variable {m k n : Nat}

/-- Into a zero accumulator the product is the host's (`0 + s = s`), the sum over the contracted coordinate. -/
theorem matmul_plain_apply {φ₁ φ₂ : FTy} (prec : Option ContractPrecision)
    (A : FVec Ideal ⟨2, ![m, k]⟩ φ₁) (B : FVec Ideal ⟨2, ![k, n]⟩ φ₂) (p : Fin m) (q : Fin n) :
    matmul (DotDims.plain m k n) prec A B (constant (F := Ideal) ⟨2, ![m, n]⟩ .f32 0x00000000#32) (ix2 p q)
      = ∑ c : Fin k, A (ix2 p c) * B (ix2 c q) := by
  rw [matmul_zero_eq_dotGeneral]
  exact StackMember.dotGeneral_plain_apply prec A B p q

theorem zero_offsets : (![0, 0] : Fin 2 → Nat) = fun _ => 0 := funext fun a => by fin_cases a <;> rfl

/-- A block of `R` rows from row `r` on, under a zero bias row: the sum at its entry `(p, q)` runs over row `r + p` of `x`, and `a + 0 = a`. -/
theorem dot_of_blocks {M R : Nat}
    (pay : FVec Ideal ⟨2, ![R, k]⟩ .f32 → FVec Ideal ⟨2, ![k, n]⟩ .f32 → FVec Ideal ⟨2, ![1, n]⟩ .f32 → FVec Ideal ⟨2, ![R, n]⟩ .f32)
    (hpay : ∀ x0 w b (p : Fin R) (q : Fin n),
      pay x0 w b (ix2 p q) = (∑ e : Fin k, x0 (ix2 p e) * w (ix2 e q)) + b (ix2 (0 : Fin 1) q))
    (x : FVec Ideal ⟨2, ![M, k]⟩ .f32) (w : FVec Ideal ⟨2, ![k, n]⟩ .f32)
    (x0 : FVec Ideal ⟨2, ![R, k]⟩ .f32) (w0 : FVec Ideal ⟨2, ![k, n]⟩ .f32) (b0 : FVec Ideal ⟨2, ![1, n]⟩ .f32) (r : Nat)
    (h0 : ∀ (p : Fin R) (e : Fin k) (P : Fin M), P.val = r + p.val → x0 (ix2 p e) = x (ix2 P e)) (h1 : w0 = w)
    (h2 : ∀ q : Fin n, b0 (ix2 (0 : Fin 1) q) = 0)
    (y : (⟨2, ![R, n]⟩ : Shape).Idx) (i : (⟨2, ![M, n]⟩ : Shape).Idx)
    (hi0 : (i 0).val = r + (y 0).val) (hi1 : (i 1).val = (y 1).val) :
    pay x0 w0 b0 y = Host.dotGeneral (DotDims.plain M k n) none x w i := by
  obtain ⟨p, q, rfl⟩ : ∃ (p : Fin R) (q : Fin n), y = ix2 p q := ⟨y 0, y 1, eq_ix2 y⟩
  obtain ⟨P, Q, rfl⟩ : ∃ (P : Fin M) (Q : Fin n), i = ix2 P Q := ⟨i 0, i 1, eq_ix2 i⟩
  obtain rfl : Q = q := Fin.ext hi1
  rw [h1, hpay, h2, add_zero, StackMember.dotGeneral_plain_apply]
  exact Finset.sum_congr rfl fun e _ => by rw [h0 p e P hi0]

theorem zeroRow_apply (h1 : (⟨0, ![]⟩ : Shape).BroadcastsInDim ⟨1, ![n]⟩ ![]) (h2 : (⟨1, ![n]⟩ : Shape).ShapeCasts ⟨2, ![1, n]⟩)
    (u : Fin 1) (q : Fin n) :
    shapeCast ⟨2, ![1, n]⟩ (broadcastInDim ⟨1, ![n]⟩ ![] h1 (constant (F := Ideal) ⟨0, ![]⟩ .f32 0x00000000#32)) h2 (ix2 u q)
      = (0 : EReal) := by
  rw [shapeCast_a_1a_apply, broadcastInDim_scalar_apply, constant_apply, Ideal.ofBits_zero_f32]

end Cert.Dense

namespace Cert.KernelIdeal.Val

open Idealize.ShloMosaic Idealize.ShloMosaic.TcCoe Idealize.SL.Sem Idealize.ShloMosaic.ValueIdx Cert.KernelIdeal Cert.KernelIdeal.Gen

/-- The zero vector of length 64 as a `[1, 64]` row. -/
def zeroBias64 : (⟨S1x64, .f32⟩ : BufTy).Contents (Elt Ideal) :=
  shapeCast S1x64 (broadcastInDim S64 ![] bcast_S_S64 (constant (F := Ideal) S_ .f32 0x00000000#32)) shapeCasts_S64_S1x64

theorem zeroBias64_apply (q : Fin 64) : zeroBias64 (ValueIdx.ix2 (0 : Fin 1) q) = 0 :=
  Cert.Dense.zeroRow_apply bcast_S_S64 shapeCasts_S64_S1x64 (0 : Fin 1) q

/-- The two format changes leave the operands unchanged; the bias row is laid along every row. -/
theorem pay0_apply (x0 : Vec Ideal S10000x8 .f32) (x1 : Vec Ideal S8x64 .f32) (x2 : Vec Ideal S1x64 .f32)
    (p : Fin 10000) (q : Fin 64) :
    k0_pay1 (F := Ideal) x0 x1 x2 (ix2 p q) = (∑ e : Fin 8, x0 (ix2 p e) * x1 (ix2 e q)) + x2 (ix2 (0 : Fin 1) q) := by
  unfold k0_pay1
  refine (addf_apply _ _ (ix2 p q)).trans ?_
  refine congrArg₂ (· + ·) ?_ ?_
  · exact Cert.Dense.matmul_plain_apply (m := 10000) (k := 8) (n := 64) none
      (truncf .bf16 x0 bitsLt_bf16_f32) (truncf .bf16 x1 bitsLt_bf16_f32) p q
  · exact (broadcastTo_1b_ab_apply (shapeCast S1x64 x2 shapeCasts_S1x64_S1x64) broadcasts_S1x64_S10000x64 p q).trans
      (congrFun (shapeCast_self x2 shapeCasts_S1x64_S1x64) (ix2 (0 : Fin 1) q))

/-- As `pay0_apply`, the left operand first cast to its own shape. -/
theorem pay4_apply (x0 : Vec Ideal S10000x64 .f32) (x1 : Vec Ideal S64x64 .f32) (x2 : Vec Ideal S1x64 .f32)
    (p : Fin 10000) (q : Fin 64) :
    k4_pay1 (F := Ideal) x0 x1 x2 (ix2 p q) = (∑ e : Fin 64, x0 (ix2 p e) * x1 (ix2 e q)) + x2 (ix2 (0 : Fin 1) q) := by
  unfold k4_pay1
  refine (addf_apply _ _ (ix2 p q)).trans ?_
  refine congrArg₂ (· + ·) ?_ ?_
  · refine (Cert.Dense.matmul_plain_apply (m := 10000) (k := 64) (n := 64) none
      (truncf .bf16 (shapeCast S10000x64 x0 shapeCasts_S10000x64_S10000x64) bitsLt_bf16_f32) (truncf .bf16 x1 bitsLt_bf16_f32) p q).trans ?_
    exact Finset.sum_congr rfl fun e _ =>
      congrArg (· * x1 (ix2 e q)) (congrFun (shapeCast_self x0 shapeCasts_S10000x64_S10000x64) (ix2 p e))
  · exact (broadcastTo_1b_ab_apply (shapeCast S1x64 x2 shapeCasts_S1x64_S1x64) broadcasts_S1x64_S10000x64 p q).trans
      (congrFun (shapeCast_self x2 shapeCasts_S1x64_S1x64) (ix2 (0 : Fin 1) q))

end Cert.KernelIdeal.Val

end
-- ==== Proof.Dense0Tile.lean ====
import Idealize.ShloMosaic.Lib.Pipeline.Value

namespace Idealize.ShloMosaic.Pipeline.Window

variable {sig : RefSig} {G : Grid} (w : Window sig G) (t : Fin G.N)

/-- A block is a unit-stride rectangle: entry `y` sits at the index whose every coordinate is block index times block size plus `y`'s. -/
theorem rect_emb_eq (y : (w.xblock (G.coords t)).Idx) (i : w.shape.Idx)
    (h : ∀ a, (i a).val = w.index t a * w.size a + (y a).val) : (w.rect t).emb y = i :=
  funext fun a => Fin.ext ((w.rect_emb_val t y a).trans (h a).symm)

/-- At block index zero on every axis an entry keeps its coordinates. -/
theorem rect_emb_eq_of_index_zero (h : ∀ a, w.index t a = 0) (y : (w.xblock (G.coords t)).Idx) (i : w.shape.Idx)
    (hi : ∀ a, (i a).val = (y a).val) : (w.rect t).emb y = i :=
  funext fun a => Fin.ext ((w.rect_emb_val_of_index_zero t a (h a) y).trans (hi a).symm)

/-- `a / n * n ≤ a < a / n * n + n`: an index lies in the uncut block whose index is, on every axis, its coordinate over the block size. -/
theorem mem_rect_of_div (i : w.shape.Idx) (hx : ∀ a, w.xsize (G.coords t) a = w.size a) (hpos : ∀ a, 0 < w.size a)
    (h : ∀ a, w.index t a = (i a).val / w.size a) : i ∈ (w.rect t).set :=
  Rect.mem_set_unit.mpr fun a => by
    show w.index t a * w.size a ≤ (i a).val ∧ (i a).val < w.index t a * w.size a + w.xsize (G.coords t) a
    rw [h a, hx a]
    exact ⟨Nat.div_mul_le_self _ _, Nat.lt_div_mul_add (hpos a)⟩

end Idealize.ShloMosaic.Pipeline.Window

/-- Row `r` of `N` blocks of `R` rows lies in block `r / R`. -/
theorem Fin.exists_val_eq_div {N R r : Nat} (h : r < R * N) : ∃ t : Fin N, t.val = r / R :=
  ⟨⟨r / R, Nat.div_lt_of_lt_mul h⟩, rfl⟩
-- ==== Proof.Dense0R0.lean ====
import proofs.«400993_j24043226923663_1_alg».proof.Proof.Gen.KernelIdeal.Frame
import proofs.«400993_j24043226923663_1_alg».proof.Proof.Fns
import proofs.«400993_j24043226923663_1_alg».proof.Proof.Dense0Spec
import proofs.«400993_j24043226923663_1_alg».proof.Proof.Dense0Tile

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of `x` is rows `10000 t …` of `x`; its blocks of `w` and of the bias row are the whole arrays. -/
theorem blk0 (c : Dev nD) (t : Fin cfg0.N) :
    (∀ (p : Fin 10000) (e : Fin 8) (P : Fin 100000), P.val = t.val * 10000 + p.val →
      iblk0 V c 0 t (ix2 p e) = (V c (Pipeline.arrRef spec0 0) : Vec Ideal S100000x8 .f32) (ix2 P e))
    ∧ iblk0 V c 1 t = V c (Pipeline.arrRef spec0 1) ∧ iblk0 V c 2 t = V c (Pipeline.arrRef spec0 2) := by
  obtain ⟨e0, e1, e2, e3, e4, e5, -⟩ := idx0 t
  refine ⟨fun p e P hP => congrArg (V c (Pipeline.arrRef spec0 0) : Vec Ideal S100000x8 .f32)
      (win0_0.rect_emb_eq t (ix2 p e) (ix2 P e) (Fin.forall_fin_two.2 ⟨?_, ?_⟩)),
    funext fun y => congrArg (V c (Pipeline.arrRef spec0 1) : Vec Ideal S8x64 .f32)
      (win0_1.rect_emb_eq_of_index_zero t (Fin.forall_fin_two.2 ⟨e2, e3⟩) y y fun _ => rfl),
    funext fun y => congrArg (V c (Pipeline.arrRef spec0 2) : Vec Ideal S1x64 .f32)
      (win0_2.rect_emb_eq_of_index_zero t (Fin.forall_fin_two.2 ⟨e4, e5⟩) y y fun _ => rfl)⟩
  · show P.val = win0_0.index t (0 : Fin 2) * 10000 + p.val; rw [e0]; exact hP
  · show e.val = win0_0.index t (1 : Fin 2) * 8 + e.val; rw [e1, Nat.zero_mul, Nat.zero_add]

/-- Point `t` writes rows `10000 t …` of `x · w` (the bias row is zero), and row `r` lies in the block of point `r / 10000`. -/
theorem arr0 (c : Dev nD) (x : (⟨S100000x8, .f32⟩ : BufTy).Contents (Elt Ideal)) (w : (⟨S8x64, .f32⟩ : BufTy).Contents (Elt Ideal))
    (hx : V c (Pipeline.arrRef spec0 0) = x) (hw : V c (Pipeline.arrRef spec0 1) = w)
    (hb : V c (Pipeline.arrRef spec0 2) = zeroBias64) :
    (dat0 V c).arrAt 3 cfg0.N = Cert.ReferenceIdeal.Fns.dot8 x w := by
  refine (dat0 V c).arrAt_eq_of_cover 3 _ (fun t _ => ?_) fun (i : S100000x64.Idx) => ?_
  · obtain ⟨-, -, -, -, -, -, e6, e7⟩ := idx0 t
    obtain ⟨h0, h1, h2⟩ := blk0 V c t
    show (cfg0.win 3).cut (grid0.coords t) ((dat0 V c).after 3 t) = _
    rw [after0_3, out0_3, View.canon_unit_zero Cert.Dense.zero_offsets]
    simp only [View.ld_unit_zero (S := S10000x8) Cert.Dense.zero_offsets, View.ld_unit_zero (S := S8x64) Cert.Dense.zero_offsets,
      View.ld_unit_zero (S := S1x64) Cert.Dense.zero_offsets]
    funext j
    refine Cert.Dense.dot_of_blocks (M := 100000) (k := 8) (k0_pay1 (F := Ideal)) pay0_apply x w (iblk0 V c 0 t) (iblk0 V c 1 t) (iblk0 V c 2 t) (t.val * 10000)
      (fun p e P hP => (h0 p e P hP).trans (congrFun hx _)) (h1.trans hw) (fun q => (congrFun (h2.trans hb) _).trans (zeroBias64_apply q))
      ((cfg0.win 3).xinj (grid0.coords t) j) ((win0_3.rect t).emb j) ?_ ?_
    · show win0_3.index t (0 : Fin 2) * 10000 + 1 * (j 0).val = t.val * 10000 + (j 0).val; omega
    · show win0_3.index t (1 : Fin 2) * 64 + 1 * (j 1).val = (j 1).val; omega
  · obtain ⟨t, ht⟩ := Fin.exists_val_eq_div (N := cfg0.N) (R := 10000) (r := (i 0).val) (by rw [show cfg0.N = 10 from N_0]; exact (i 0).isLt)
    obtain ⟨-, -, -, -, -, -, e6, e7⟩ := idx0 t
    refine ⟨t, flush0_3 t, (View.set_slice_whole main_v10 (win0_3.rect t)).ge (win0_3.mem_rect_of_div t i (fun _ => rfl)
      (Fin.forall_fin_two.2 ⟨Nat.succ_pos _, Nat.succ_pos _⟩) (Fin.forall_fin_two.2 ⟨?_, ?_⟩))⟩
    · show win0_3.index t (0 : Fin 2) = (i 0).val / 10000; omega
    · have h1 : (i 1).val < 64 := (i 1).isLt
      show win0_3.index t (1 : Fin 2) = (i 1).val / 64; omega

end Cert.KernelIdeal.Val
-- ==== Proof.Dense0R8.lean ====
import proofs.«400993_j24043226923663_1_alg».proof.Proof.Gen.KernelIdeal.Frame
import proofs.«400993_j24043226923663_1_alg».proof.Proof.Fns
import proofs.«400993_j24043226923663_1_alg».proof.Proof.Dense0Spec
import proofs.«400993_j24043226923663_1_alg».proof.Proof.Dense0Tile

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Point `t`'s block of `x` is rows `10000 t …` of `x`; its blocks of `w` and of the bias row are the whole arrays. -/
theorem blk8 (c : Dev nD) (t : Fin cfg8.N) :
    (∀ (p : Fin 10000) (e : Fin 8) (P : Fin 100000), P.val = t.val * 10000 + p.val →
      iblk8 V c 0 t (ix2 p e) = (V c (Pipeline.arrRef spec8 0) : Vec Ideal S100000x8 .f32) (ix2 P e))
    ∧ iblk8 V c 1 t = V c (Pipeline.arrRef spec8 1) ∧ iblk8 V c 2 t = V c (Pipeline.arrRef spec8 2) := by
  obtain ⟨e0, e1, e2, e3, e4, e5, -⟩ := idx8 t
  refine ⟨fun p e P hP => congrArg (V c (Pipeline.arrRef spec8 0) : Vec Ideal S100000x8 .f32)
      (win8_0.rect_emb_eq t (ix2 p e) (ix2 P e) (Fin.forall_fin_two.2 ⟨?_, ?_⟩)),
    funext fun y => congrArg (V c (Pipeline.arrRef spec8 1) : Vec Ideal S8x64 .f32)
      (win8_1.rect_emb_eq_of_index_zero t (Fin.forall_fin_two.2 ⟨e2, e3⟩) y y fun _ => rfl),
    funext fun y => congrArg (V c (Pipeline.arrRef spec8 2) : Vec Ideal S1x64 .f32)
      (win8_2.rect_emb_eq_of_index_zero t (Fin.forall_fin_two.2 ⟨e4, e5⟩) y y fun _ => rfl)⟩
  · show P.val = win8_0.index t (0 : Fin 2) * 10000 + p.val; rw [e0]; exact hP
  · show e.val = win8_0.index t (1 : Fin 2) * 8 + e.val; rw [e1, Nat.zero_mul, Nat.zero_add]

/-- Point `t` writes rows `10000 t …` of `x · w` (the bias row is zero), and row `r` lies in the block of point `r / 10000`. -/
theorem arr8 (c : Dev nD) (x : (⟨S100000x8, .f32⟩ : BufTy).Contents (Elt Ideal)) (w : (⟨S8x64, .f32⟩ : BufTy).Contents (Elt Ideal))
    (hx : V c (Pipeline.arrRef spec8 0) = x) (hw : V c (Pipeline.arrRef spec8 1) = w)
    (hb : V c (Pipeline.arrRef spec8 2) = zeroBias64) :
    (dat8 V c).arrAt 3 cfg8.N = Cert.ReferenceIdeal.Fns.dot8 x w := by
  refine (dat8 V c).arrAt_eq_of_cover 3 _ (fun t _ => ?_) fun (i : S100000x64.Idx) => ?_
  · obtain ⟨-, -, -, -, -, -, e6, e7⟩ := idx8 t
    obtain ⟨h0, h1, h2⟩ := blk8 V c t
    show (cfg8.win 3).cut (grid8.coords t) ((dat8 V c).after 3 t) = _
    rw [after8_3, out8_3, View.canon_unit_zero Cert.Dense.zero_offsets]
    simp only [View.ld_unit_zero (S := S10000x8) Cert.Dense.zero_offsets, View.ld_unit_zero (S := S8x64) Cert.Dense.zero_offsets,
      View.ld_unit_zero (S := S1x64) Cert.Dense.zero_offsets]
    funext j
    refine Cert.Dense.dot_of_blocks (M := 100000) (k := 8) (k8_pay1 (F := Ideal)) pay0_apply x w (iblk8 V c 0 t) (iblk8 V c 1 t) (iblk8 V c 2 t) (t.val * 10000)
      (fun p e P hP => (h0 p e P hP).trans (congrFun hx _)) (h1.trans hw) (fun q => (congrFun (h2.trans hb) _).trans (zeroBias64_apply q))
      ((cfg8.win 3).xinj (grid8.coords t) j) ((win8_3.rect t).emb j) ?_ ?_
    · show win8_3.index t (0 : Fin 2) * 10000 + 1 * (j 0).val = t.val * 10000 + (j 0).val; omega
    · show win8_3.index t (1 : Fin 2) * 64 + 1 * (j 1).val = (j 1).val; omega
  · obtain ⟨t, ht⟩ := Fin.exists_val_eq_div (N := cfg8.N) (R := 10000) (r := (i 0).val) (by rw [show cfg8.N = 10 from N_8]; exact (i 0).isLt)
    obtain ⟨-, -, -, -, -, -, e6, e7⟩ := idx8 t
    refine ⟨t, flush8_3 t, (View.set_slice_whole main_v58 (win8_3.rect t)).ge (win8_3.mem_rect_of_div t i (fun _ => rfl)
      (Fin.forall_fin_two.2 ⟨Nat.succ_pos _, Nat.succ_pos _⟩) (Fin.forall_fin_two.2 ⟨?_, ?_⟩))⟩
    · show win8_3.index t (0 : Fin 2) = (i 0).val / 10000; omega
    · have h1 : (i 1).val < 64 := (i 1).isLt
      show win8_3.index t (1 : Fin 2) = (i 1).val / 64; omega

end Cert.KernelIdeal.Val
-- ==== Proof.Dense0R4.lean ====
import proofs.«400993_j24043226923663_1_alg».proof.Proof.Gen.KernelIdeal.Frame
import proofs.«400993_j24043226923663_1_alg».proof.Proof.Fns
import proofs.«400993_j24043226923663_1_alg».proof.Proof.Dense0Spec
import proofs.«400993_j24043226923663_1_alg».proof.Proof.Dense0Tile

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Point `t`'s block of `x` is rows `10000 t …` of `x`; its blocks of `w` and of the bias row are the whole arrays. -/
theorem blk4 (c : Dev nD) (t : Fin cfg4.N) :
    (∀ (p : Fin 10000) (e : Fin 64) (P : Fin 100000), P.val = t.val * 10000 + p.val →
      iblk4 V c 0 t (ix2 p e) = (V c (Pipeline.arrRef spec4 0) : Vec Ideal S100000x64 .f32) (ix2 P e))
    ∧ iblk4 V c 1 t = V c (Pipeline.arrRef spec4 1) ∧ iblk4 V c 2 t = V c (Pipeline.arrRef spec4 2) := by
  obtain ⟨e0, e1, e2, e3, e4, e5, -⟩ := idx4 t
  refine ⟨fun p e P hP => congrArg (V c (Pipeline.arrRef spec4 0) : Vec Ideal S100000x64 .f32)
      (win4_0.rect_emb_eq t (ix2 p e) (ix2 P e) (Fin.forall_fin_two.2 ⟨?_, ?_⟩)),
    funext fun y => congrArg (V c (Pipeline.arrRef spec4 1) : Vec Ideal S64x64 .f32)
      (win4_1.rect_emb_eq_of_index_zero t (Fin.forall_fin_two.2 ⟨e2, e3⟩) y y fun _ => rfl),
    funext fun y => congrArg (V c (Pipeline.arrRef spec4 2) : Vec Ideal S1x64 .f32)
      (win4_2.rect_emb_eq_of_index_zero t (Fin.forall_fin_two.2 ⟨e4, e5⟩) y y fun _ => rfl)⟩
  · show P.val = win4_0.index t (0 : Fin 2) * 10000 + p.val; rw [e0]; exact hP
  · show e.val = win4_0.index t (1 : Fin 2) * 64 + e.val; rw [e1, Nat.zero_mul, Nat.zero_add]

/-- Point `t` writes rows `10000 t …` of `x · w` (the bias row is zero), and row `r` lies in the block of point `r / 10000`. -/
theorem arr4 (c : Dev nD) (x : (⟨S100000x64, .f32⟩ : BufTy).Contents (Elt Ideal)) (w : (⟨S64x64, .f32⟩ : BufTy).Contents (Elt Ideal))
    (hx : V c (Pipeline.arrRef spec4 0) = x) (hw : V c (Pipeline.arrRef spec4 1) = w)
    (hb : V c (Pipeline.arrRef spec4 2) = zeroBias64) :
    (dat4 V c).arrAt 3 cfg4.N = Cert.ReferenceIdeal.Fns.dot64 x w := by
  refine (dat4 V c).arrAt_eq_of_cover 3 _ (fun t _ => ?_) fun (i : S100000x64.Idx) => ?_
  · obtain ⟨-, -, -, -, -, -, e6, e7⟩ := idx4 t
    obtain ⟨h0, h1, h2⟩ := blk4 V c t
    show (cfg4.win 3).cut (grid4.coords t) ((dat4 V c).after 3 t) = _
    rw [after4_3, out4_3, View.canon_unit_zero Cert.Dense.zero_offsets]
    simp only [View.ld_unit_zero (S := S10000x64) Cert.Dense.zero_offsets, View.ld_unit_zero (S := S64x64) Cert.Dense.zero_offsets,
      View.ld_unit_zero (S := S1x64) Cert.Dense.zero_offsets]
    funext j
    refine Cert.Dense.dot_of_blocks (M := 100000) (k := 64) (k4_pay1 (F := Ideal)) pay4_apply x w (iblk4 V c 0 t) (iblk4 V c 1 t) (iblk4 V c 2 t) (t.val * 10000)
      (fun p e P hP => (h0 p e P hP).trans (congrFun hx _)) (h1.trans hw) (fun q => (congrFun (h2.trans hb) _).trans (zeroBias64_apply q))
      ((cfg4.win 3).xinj (grid4.coords t) j) ((win4_3.rect t).emb j) ?_ ?_
    · show win4_3.index t (0 : Fin 2) * 10000 + 1 * (j 0).val = t.val * 10000 + (j 0).val; omega
    · show win4_3.index t (1 : Fin 2) * 64 + 1 * (j 1).val = (j 1).val; omega
  · obtain ⟨t, ht⟩ := Fin.exists_val_eq_div (N := cfg4.N) (R := 10000) (r := (i 0).val) (by rw [show cfg4.N = 10 from N_4]; exact (i 0).isLt)
    obtain ⟨-, -, -, -, -, -, e6, e7⟩ := idx4 t
    refine ⟨t, flush4_3 t, (View.set_slice_whole main_v34 (win4_3.rect t)).ge (win4_3.mem_rect_of_div t i (fun _ => rfl)
      (Fin.forall_fin_two.2 ⟨Nat.succ_pos _, Nat.succ_pos _⟩) (Fin.forall_fin_two.2 ⟨?_, ?_⟩))⟩
    · show win4_3.index t (0 : Fin 2) = (i 0).val / 10000; omega
    · have h1 : (i 1).val < 64 := (i 1).isLt
      show win4_3.index t (1 : Fin 2) = (i 1).val / 64; omega

end Cert.KernelIdeal.Val
-- ==== Proof.Dense0R12.lean ====
import proofs.«400993_j24043226923663_1_alg».proof.Proof.Gen.KernelIdeal.Frame
import proofs.«400993_j24043226923663_1_alg».proof.Proof.Fns
import proofs.«400993_j24043226923663_1_alg».proof.Proof.Dense0Spec
import proofs.«400993_j24043226923663_1_alg».proof.Proof.Dense0Tile

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- Point `t`'s block of `x` is rows `10000 t …` of `x`; its blocks of `w` and of the bias row are the whole arrays. -/
theorem blk12 (c : Dev nD) (t : Fin cfg12.N) :
    (∀ (p : Fin 10000) (e : Fin 64) (P : Fin 100000), P.val = t.val * 10000 + p.val →
      iblk12 V c 0 t (ix2 p e) = (V c (Pipeline.arrRef spec12 0) : Vec Ideal S100000x64 .f32) (ix2 P e))
    ∧ iblk12 V c 1 t = V c (Pipeline.arrRef spec12 1) ∧ iblk12 V c 2 t = V c (Pipeline.arrRef spec12 2) := by
  obtain ⟨e0, e1, e2, e3, e4, e5, -⟩ := idx12 t
  refine ⟨fun p e P hP => congrArg (V c (Pipeline.arrRef spec12 0) : Vec Ideal S100000x64 .f32)
      (win12_0.rect_emb_eq t (ix2 p e) (ix2 P e) (Fin.forall_fin_two.2 ⟨?_, ?_⟩)),
    funext fun y => congrArg (V c (Pipeline.arrRef spec12 1) : Vec Ideal S64x64 .f32)
      (win12_1.rect_emb_eq_of_index_zero t (Fin.forall_fin_two.2 ⟨e2, e3⟩) y y fun _ => rfl),
    funext fun y => congrArg (V c (Pipeline.arrRef spec12 2) : Vec Ideal S1x64 .f32)
      (win12_2.rect_emb_eq_of_index_zero t (Fin.forall_fin_two.2 ⟨e4, e5⟩) y y fun _ => rfl)⟩
  · show P.val = win12_0.index t (0 : Fin 2) * 10000 + p.val; rw [e0]; exact hP
  · show e.val = win12_0.index t (1 : Fin 2) * 64 + e.val; rw [e1, Nat.zero_mul, Nat.zero_add]

/-- Point `t` writes rows `10000 t …` of `x · w` (the bias row is zero), and row `r` lies in the block of point `r / 10000`. -/
theorem arr12 (c : Dev nD) (x : (⟨S100000x64, .f32⟩ : BufTy).Contents (Elt Ideal)) (w : (⟨S64x64, .f32⟩ : BufTy).Contents (Elt Ideal))
    (hx : V c (Pipeline.arrRef spec12 0) = x) (hw : V c (Pipeline.arrRef spec12 1) = w)
    (hb : V c (Pipeline.arrRef spec12 2) = zeroBias64) :
    (dat12 V c).arrAt 3 cfg12.N = Cert.ReferenceIdeal.Fns.dot64 x w := by
  refine (dat12 V c).arrAt_eq_of_cover 3 _ (fun t _ => ?_) fun (i : S100000x64.Idx) => ?_
  · obtain ⟨-, -, -, -, -, -, e6, e7⟩ := idx12 t
    obtain ⟨h0, h1, h2⟩ := blk12 V c t
    show (cfg12.win 3).cut (grid12.coords t) ((dat12 V c).after 3 t) = _
    rw [after12_3, out12_3, View.canon_unit_zero Cert.Dense.zero_offsets]
    simp only [View.ld_unit_zero (S := S10000x64) Cert.Dense.zero_offsets, View.ld_unit_zero (S := S64x64) Cert.Dense.zero_offsets,
      View.ld_unit_zero (S := S1x64) Cert.Dense.zero_offsets]
    funext j
    refine Cert.Dense.dot_of_blocks (M := 100000) (k := 64) (k12_pay1 (F := Ideal)) pay4_apply x w (iblk12 V c 0 t) (iblk12 V c 1 t) (iblk12 V c 2 t) (t.val * 10000)
      (fun p e P hP => (h0 p e P hP).trans (congrFun hx _)) (h1.trans hw) (fun q => (congrFun (h2.trans hb) _).trans (zeroBias64_apply q))
      ((cfg12.win 3).xinj (grid12.coords t) j) ((win12_3.rect t).emb j) ?_ ?_
    · show win12_3.index t (0 : Fin 2) * 10000 + 1 * (j 0).val = t.val * 10000 + (j 0).val; omega
    · show win12_3.index t (1 : Fin 2) * 64 + 1 * (j 1).val = (j 1).val; omega
  · obtain ⟨t, ht⟩ := Fin.exists_val_eq_div (N := cfg12.N) (R := 10000) (r := (i 0).val) (by rw [show cfg12.N = 10 from N_12]; exact (i 0).isLt)
    obtain ⟨-, -, -, -, -, -, e6, e7⟩ := idx12 t
    refine ⟨t, flush12_3 t, (View.set_slice_whole main_v82 (win12_3.rect t)).ge (win12_3.mem_rect_of_div t i (fun _ => rfl)
      (Fin.forall_fin_two.2 ⟨Nat.succ_pos _, Nat.succ_pos _⟩) (Fin.forall_fin_two.2 ⟨?_, ?_⟩))⟩
    · show win12_3.index t (0 : Fin 2) = (i 0).val / 10000; omega
    · have h1 : (i 1).val < 64 := (i 1).isLt
      show win12_3.index t (1 : Fin 2) = (i 1).val / 64; omega

end Cert.KernelIdeal.Val
-- ==== Proof.Dense0.lean ====
import proofs.«400993_j24043226923663_1_alg».proof.Proof.Dense0R0
import proofs.«400993_j24043226923663_1_alg».proof.Proof.Dense0R8
import proofs.«400993_j24043226923663_1_alg».proof.Proof.Dense0R4
import proofs.«400993_j24043226923663_1_alg».proof.Proof.Dense0R12
-- ==== Proof.ScoreFn.lean ====
import proofs.«400993_j24043226923663_1_alg».proof.Proof.Gen.KernelIdeal.Skeleton
import proofs.«400993_j24043226923663_1_alg».proof.Proof.Fns
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val.Score

open Idealize.ShloMosaic Idealize.ShloMosaic.ValueIdx
open Cert.KernelIdeal Cert.KernelIdeal.Gen

def leaky1 (x : EReal) : EReal :=
  Scalar.select (FloatOps.cmpf (F := Ideal) (φ := .f32) .oge x (Ideal.ofBits .f32 0x00000000#32)) x
    (Ideal.ofBits .f32 0x3E4CCCCD#32 * x)

def rowDot (wsrc wdst : S1600000x64.Idx → EReal) (e : Fin 1600000) : EReal :=
  ∑ k : Fin 64, wsrc (ix2 e k) * wdst (ix2 e k)

def scoreCol (wsrc wdst : S1600000x64.Idx → EReal) (s : EReal) : S1600000x1.Idx → EReal :=
  fun i => leaky1 (rowDot wsrc wdst (i 0) * s)

def sumAll (a : S128x1.Idx → EReal) : EReal :=
  Host.reduceAdd (F := Ideal) (φ := .f32) a (constant (F := Ideal) S_ .f32 0x00000000#32) reducesTo_S128x1_S_d0_1 h_S_ ix0

theorem hz : (![0, 0] : Fin 2 → Nat) = fun _ => 0 := funext fun a => by fin_cases a <;> rfl

theorem laneSum_apply (v : FVec Ideal S8000x64 .f32) (h : S8000x64.Reduces [1] S8000) (hφ : FKind.Formats .f32)
    (hacc : (0x00000000#32 : BitVec FTy.f32.bits) = FKind.add.neutral .f32 hφ) (p : Fin 8000) :
    multiReduction .add [1] S8000 v 0x00000000#32 h hφ hacc (ix1 p) = ∑ k : Fin 64, v (ix2 p k) := by
  refine (Ideal.multiReduction_add_single v _ h hφ hacc (ix1 p)).trans ?_
  show ∑ k : Fin 64, v (h.lift (ix1 p) k) = _
  refine Finset.sum_congr rfl fun k _ => congrArg v ?_
  funext a; apply Fin.ext
  match a with
  | ⟨0, _⟩ => rfl
  | ⟨1, _⟩ => rfl

theorem colCast_apply (v : FVec Ideal S8000 .f32) (h : S8000.ShapeCasts S8000x1) (p : Fin 8000) (z : Fin 1) :
    shapeCast S8000x1 v h (ix2 p z) = v (ix1 p) := by
  refine shapeCast_apply v h (ix2 p z) (ix1 p) ?_
  rw [Shape.rowMajor_val_one, Shape.rowMajor_val_two]
  show p.val = p.val * 1 + z.val
  omega

theorem extract00_apply (x0 : S1x1.Idx → EReal) (h : ∀ a, (![0, 0] : Fin 2 → Nat) a < S1x1.size a) :
    extractAt ![0, 0] x0 h = x0 (ix2 (0 : Fin 1) (0 : Fin 1)) := by
  unfold extractAt
  refine congrArg x0 (funext fun a => Fin.ext ?_)
  match a with
  | ⟨0, _⟩ => rfl
  | ⟨1, _⟩ => rfl

theorem pay_apply (x1 x2 : Vec Ideal S8000x64 .f32) (x0 : Vec Ideal S1x1 .f32) (p : Fin 8000) (z : Fin 1) :
    k1_pay1 (F := Ideal) x1 x2 x0 (ix2 p z)
      = leaky1 ((∑ k : Fin 64, x1 (ix2 p k) * x2 (ix2 p k)) * x0 (ix2 (0 : Fin 1) (0 : Fin 1))) := by
  unfold k1_pay1
  show leaky1 (shapeCast S8000x1 _ _ (ix2 p z) * extractAt ![0, 0] x0 _) = _
  refine congrArg leaky1 (congrArg₂ (· * ·) ?_ (extract00_apply x0 _))
  refine (colCast_apply _ _ p z).trans ((laneSum_apply _ _ _ _ p).trans (Finset.sum_congr rfl fun k _ => ?_))
  show shapeCast S8000x64 x1 _ (ix2 p k) * shapeCast S8000x64 x2 _ (ix2 p k) = _
  rw [shapeCast_self, shapeCast_self]

theorem row_coords {I : Fin 2 → Nat} {T : Nat} (h0 : I 0 = T) (h1 : I 1 = 0) (r : Fin 1600000) (p : Fin 8000) (k : Fin 64)
    (hr : r.val = T * 8000 + p.val) :
    ∀ a : Fin 2, ((ix2 r k : S1600000x64.Idx) a).val = I a * S8000x64.size a + ((ix2 p k : S8000x64.Idx) a).val
  | ⟨0, _⟩ => by show r.val = I 0 * 8000 + p.val; rw [h0, hr]
  | ⟨1, _⟩ => by show k.val = I 1 * 64 + k.val; rw [h1, Nat.zero_mul, Nat.zero_add]

/-- With the scalar's block at `(0, 0)` and the three others at `(T, 0)`, each block reading its array at the block's
    offset plus its own coordinate, row `p` of the payload is `scoreCol` at row `8000 T + p`. -/
theorem block_eq (I0 I1 I2 I3 : Fin 2 → Nat) (T : Nat)
    (hI : I0 0 = 0 ∧ I0 1 = 0 ∧ I1 0 = T ∧ I1 1 = 0 ∧ I2 0 = T ∧ I2 1 = 0 ∧ I3 0 = T ∧ I3 1 = 0)
    (x0 : Vec Ideal S1x1 .f32) (x1 x2 : Vec Ideal S8000x64 .f32) (A0 : S1x1.Idx → EReal) (A1 A2 : S1600000x64.Idx → EReal)
    (h0 : ∀ (y i : S1x1.Idx), (∀ a : Fin 2, (i a).val = I0 a * S1x1.size a + (y a).val) → x0 y = A0 i)
    (h1 : ∀ (y : S8000x64.Idx) (i : S1600000x64.Idx), (∀ a : Fin 2, (i a).val = I1 a * S8000x64.size a + (y a).val) → x1 y = A1 i)
    (h2 : ∀ (y : S8000x64.Idx) (i : S1600000x64.Idx), (∀ a : Fin 2, (i a).val = I2 a * S8000x64.size a + (y a).val) → x2 y = A2 i)
    (j : S8000x1.Idx) (i : S1600000x1.Idx) (hi : ∀ a : Fin 2, (i a).val = I3 a * S8000x1.size a + (j a).val) :
    k1_pay1 (F := Ideal) x1 x2 x0 j = scoreCol A1 A2 (A0 (ix2 (0 : Fin 1) (0 : Fin 1))) i := by
  obtain ⟨e00, e01, e10, e11, e20, e21, e30, -⟩ := hI
  obtain ⟨p, z, rfl⟩ : ∃ (p : Fin 8000) (z : Fin 1), j = ix2 p z := ⟨j 0, j 1, eq_ix2 j⟩
  have hr : (i 0).val = T * 8000 + p.val := by rw [← e30]; exact hi 0
  have hs : x0 (ix2 (0 : Fin 1) (0 : Fin 1)) = A0 (ix2 (0 : Fin 1) (0 : Fin 1)) := h0 _ _ fun
    | ⟨0, _⟩ => by show 0 = I0 0 * 1 + 0; rw [e00]
    | ⟨1, _⟩ => by show 0 = I0 1 * 1 + 0; rw [e01]
  refine (pay_apply x1 x2 x0 p z).trans ?_
  unfold scoreCol rowDot
  rw [hs]
  refine congrArg leaky1 (congrArg (· * _) (Finset.sum_congr rfl fun k _ => ?_))
  rw [h1 _ _ (row_coords e10 e11 (i 0) p k hr), h2 _ _ (row_coords e20 e21 (i 0) p k hr)]

theorem leakyRef_apply (x : FVec Ideal S1600000 .f32) (h : S_.BroadcastsInDim S1600000 ![]) (j : S1600000.Idx) :
    select (cmpf .oge x (broadcastInDim S1600000 ![] h (constant (F := Ideal) S_ .f32 0x00000000#32))) x
      (mulf (broadcastInDim S1600000 ![] h (constant (F := Ideal) S_ .f32 0x3E4CCCCD#32)) x) j = leaky1 (x j) := rfl

theorem rowSum_apply (wsrc wdst : FVec Ideal S1600000x64 .f32) (h' : S1600000x64.ReducesTo [1] S1600000) (hu : 0 < S_.numel)
    (e : Fin 1600000) :
    Host.reduceAdd (mulf wsrc wdst) (constant (F := Ideal) S_ .f32 0x00000000#32) h' hu (ix1 e) = rowDot wsrc wdst e := by
  have h : S1600000x64.Reduces [1] S1600000 := by decide
  refine (hostReduceAdd_apply _ _ h' hu (ix1 e)).trans ((Ideal.hostReduceAdd_single h' h _ _ (ix1 e)).trans ?_)
  show Ideal.ofBits .f32 0x00000000#32 + ∑ k : Fin 64, (wsrc (h.lift (ix1 e) k) * wdst (h.lift (ix1 e) k)) = _
  rw [Ideal.ofBits_zero_f32, zero_add]
  refine Finset.sum_congr rfl fun k _ => ?_
  have hk : h.lift (ix1 e) k = ix2 e k := by
    funext a; apply Fin.ext
    match a with
    | ⟨0, _⟩ => rfl
    | ⟨1, _⟩ => rfl
  rw [hk]

theorem score_ref (wsrc wdst : S1600000x64.Idx → EReal) (a : S128x1.Idx → EReal) :
    scoreCol wsrc wdst (sumAll a) = Cert.ReferenceIdeal.Fns.col (Cert.ReferenceIdeal.Fns.score (F := Ideal) wsrc wdst a) := by
  funext i
  obtain ⟨e, z, rfl⟩ : ∃ (e : Fin 1600000) (z : Fin 1), i = ix2 e z := ⟨i 0, i 1, eq_ix2 i⟩
  symm
  unfold Cert.ReferenceIdeal.Fns.col
  refine (broadcastInDim_apply _ _ _ (ix2 e z) (ix1 e) (fun b => ?_)).trans ?_
  · match b with
    | ⟨0, _⟩ => exact (if_neg (show ¬ (1600000 : Nat) = 1 by decide)).symm
  unfold Cert.ReferenceIdeal.Fns.score Cert.ReferenceIdeal.Fns.leaky
  refine (leakyRef_apply _ _ (ix1 e)).trans (congrArg leaky1 ?_)
  refine (mulf_apply _ _ (ix1 e)).trans (congrArg₂ (· * ·) ?_ ?_)
  · exact rowSum_apply wsrc wdst _ _ e
  · exact broadcastInDim_scalar_apply _ _ (ix1 e)

end Cert.KernelIdeal.Val.Score

end
-- ==== Proof.ScoreTile.lean ====
import Idealize.ShloMosaic.Lib.Pipeline.Value

namespace Idealize.ShloMosaic.Pipeline.Window

variable {sig : RefSig} {G : Grid} (w : Window sig G) {Val : EltTy → Type}

/-- A block's element sits in the array at the block's offset plus its own coordinate, so reading the block there reads the array. -/
theorem read_blk (t : Fin G.N) (A : w.arr.view.ty.Contents Val) (y : (w.xblock (G.coords t)).Idx) (i : w.shape.Idx)
    (h : ∀ a, (i a).val = w.index t a * w.size a + (y a).val) :
    (w.blk t).view.read Val A y = w.arr.view.read Val A i :=
  congrArg (w.arr.view.read Val A) (funext fun a => Fin.ext ((w.rect_emb_val t y a).trans (h a).symm))

/-- Since `a / n * n ≤ a < a / n * n + n`, an index lies in the uncut block whose index on each axis is its coordinate divided by the block's size. -/
theorem emb_mem_blk (t : Fin G.N) (i : w.shape.Idx) (hx : ∀ a, w.xsize (G.coords t) a = w.size a) (hs : ∀ a, 0 < w.size a)
    (h : ∀ a, w.index t a = (i a).val / w.size a) : w.arr.view.emb i ∈ (w.blk t).view.set := by
  show w.arr.view.emb i ∈ (w.arr.view.slice (w.rect t)).set
  rw [View.set_slice]
  refine Finset.mem_map_of_mem _ (Rect.mem_set_unit.mpr fun a => ?_)
  rw [h a, hx a]
  exact ⟨Nat.div_mul_le_self _ _, Nat.lt_div_mul_add (hs a)⟩

end Idealize.ShloMosaic.Pipeline.Window
-- ==== Proof.Score1.lean ====
import proofs.«400993_j24043226923663_1_alg».proof.Proof.Gen.KernelIdeal.Frame
import proofs.«400993_j24043226923663_1_alg».proof.Proof.ScoreFn
import proofs.«400993_j24043226923663_1_alg».proof.Proof.ScoreTile

noncomputable section

namespace Cert.KernelIdeal.Val.Score1

open Idealize.ShloMosaic Idealize.ShloMosaic.TcCoe Idealize.ShloMosaic.ValueIdx Idealize.SL.Sem
open Cert.KernelIdeal Cert.KernelIdeal.Gen Cert.KernelIdeal.Val.Score

variable (V : (c : Dev nD) → (b : Ref sig .tc) → Buf (Elt Ideal) ((c : Thread nD τ).loc b))

theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

def G (c : Dev nD) : S1600000x1.Idx → EReal :=
  scoreCol (V c (Pipeline.arrRef spec1 1)) (V c (Pipeline.arrRef spec1 2)) (V c (Pipeline.arrRef spec1 0) (ix2 (0 : Fin 1) (0 : Fin 1)))

theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3 G
  rw [View.canon_unit_zero hz]
  simp only [View.ld_unit_zero (S := S8000x64) hz, View.ld_unit_zero (S := S1x1) hz]
  exact funext fun j => block_eq (win1_0.index t) (win1_1.index t) (win1_2.index t) (win1_3.index t) t.val (idx_facts t)
    (iblk1 V c 0 t) (iblk1 V c 1 t) (iblk1 V c 2 t) _ _ _ (win1_0.read_blk t _) (win1_1.read_blk t _) (win1_2.read_blk t _) j
    (((cfg1.win 3).blk t).view.emb j) (win1_3.rect_emb_val t j)

/-- Each point writes its block of `scoreCol`, and row `r` of the column lies in the block of point `r / 8000`. -/
theorem arr (c : Dev nD) : (dat1 V c).arrAt 3 cfg1.N = G V c :=
  (dat1 V c).arrAt_eq_of_cover 3 _ (fun t _ => flushed_eq V c t) fun (i : S1600000x1.Idx) => by
    have hi : (i 0).val < 1600000 := (i 0).isLt
    have ht : (i 0).val / 8000 < cfg1.N := by rw [show cfg1.N = 200 from N_1]; omega
    exact ⟨⟨_, ht⟩, flush1_3 _, win1_3.emb_mem_blk ⟨_, ht⟩ i (fun _ => rfl) (Fin.forall_fin_two.mpr ⟨by decide, by decide⟩)
      (Fin.forall_fin_two.mpr ⟨(idx_facts ⟨_, ht⟩).2.2.2.2.2.2.1,
        (idx_facts ⟨_, ht⟩).2.2.2.2.2.2.2.trans (Nat.div_eq_of_lt (i 1).isLt).symm⟩)⟩

end Cert.KernelIdeal.Val.Score1

end
-- ==== Proof.Score5.lean ====
import proofs.«400993_j24043226923663_1_alg».proof.Proof.Gen.KernelIdeal.Frame
import proofs.«400993_j24043226923663_1_alg».proof.Proof.ScoreFn
import proofs.«400993_j24043226923663_1_alg».proof.Proof.ScoreTile

noncomputable section

namespace Cert.KernelIdeal.Val.Score5

open Idealize.ShloMosaic Idealize.ShloMosaic.TcCoe Idealize.ShloMosaic.ValueIdx Idealize.SL.Sem
open Cert.KernelIdeal Cert.KernelIdeal.Gen Cert.KernelIdeal.Val.Score

variable (V : (c : Dev nD) → (b : Ref sig .tc) → Buf (Elt Ideal) ((c : Thread nD τ).loc b))

theorem idx_facts : ∀ t : Fin cfg5.N,
    win5_0.index t (0 : Fin 2) = 0 ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

def G (c : Dev nD) : S1600000x1.Idx → EReal :=
  scoreCol (V c (Pipeline.arrRef spec5 1)) (V c (Pipeline.arrRef spec5 2)) (V c (Pipeline.arrRef spec5 0) (ix2 (0 : Fin 1) (0 : Fin 1)))

theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3 G
  rw [View.canon_unit_zero hz]
  simp only [View.ld_unit_zero (S := S8000x64) hz, View.ld_unit_zero (S := S1x1) hz]
  exact funext fun j => block_eq (win5_0.index t) (win5_1.index t) (win5_2.index t) (win5_3.index t) t.val (idx_facts t)
    (iblk5 V c 0 t) (iblk5 V c 1 t) (iblk5 V c 2 t) _ _ _ (win5_0.read_blk t _) (win5_1.read_blk t _) (win5_2.read_blk t _) j
    (((cfg5.win 3).blk t).view.emb j) (win5_3.rect_emb_val t j)

/-- Each point writes its block of `scoreCol`, and row `r` of the column lies in the block of point `r / 8000`. -/
theorem arr (c : Dev nD) : (dat5 V c).arrAt 3 cfg5.N = G V c :=
  (dat5 V c).arrAt_eq_of_cover 3 _ (fun t _ => flushed_eq V c t) fun (i : S1600000x1.Idx) => by
    have hi : (i 0).val < 1600000 := (i 0).isLt
    have ht : (i 0).val / 8000 < cfg5.N := by rw [show cfg5.N = 200 from N_5]; omega
    exact ⟨⟨_, ht⟩, flush5_3 _, win5_3.emb_mem_blk ⟨_, ht⟩ i (fun _ => rfl) (Fin.forall_fin_two.mpr ⟨by decide, by decide⟩)
      (Fin.forall_fin_two.mpr ⟨(idx_facts ⟨_, ht⟩).2.2.2.2.2.2.1,
        (idx_facts ⟨_, ht⟩).2.2.2.2.2.2.2.trans (Nat.div_eq_of_lt (i 1).isLt).symm⟩)⟩

end Cert.KernelIdeal.Val.Score5

end
-- ==== Proof.Score9.lean ====
import proofs.«400993_j24043226923663_1_alg».proof.Proof.Gen.KernelIdeal.Frame
import proofs.«400993_j24043226923663_1_alg».proof.Proof.ScoreFn
import proofs.«400993_j24043226923663_1_alg».proof.Proof.ScoreTile

noncomputable section

namespace Cert.KernelIdeal.Val.Score9

open Idealize.ShloMosaic Idealize.ShloMosaic.TcCoe Idealize.ShloMosaic.ValueIdx Idealize.SL.Sem
open Cert.KernelIdeal Cert.KernelIdeal.Gen Cert.KernelIdeal.Val.Score

variable (V : (c : Dev nD) → (b : Ref sig .tc) → Buf (Elt Ideal) ((c : Thread nD τ).loc b))

theorem idx_facts : ∀ t : Fin cfg9.N,
    win9_0.index t (0 : Fin 2) = 0 ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

def G (c : Dev nD) : S1600000x1.Idx → EReal :=
  scoreCol (V c (Pipeline.arrRef spec9 1)) (V c (Pipeline.arrRef spec9 2)) (V c (Pipeline.arrRef spec9 0) (ix2 (0 : Fin 1) (0 : Fin 1)))

theorem flushed_eq (c : Dev nD) (t : Fin cfg9.N) :
    (dat9 V c).flushed 3 t = ((cfg9.win 3).blk t).view.read (Elt Ideal) (G V c) := by
  show (cfg9.win 3).cut (grid9.coords t) ((dat9 V c).after 3 t) = _
  rw [after9_3]
  unfold out9_3 G
  rw [View.canon_unit_zero hz]
  simp only [View.ld_unit_zero (S := S8000x64) hz, View.ld_unit_zero (S := S1x1) hz]
  exact funext fun j => block_eq (win9_0.index t) (win9_1.index t) (win9_2.index t) (win9_3.index t) t.val (idx_facts t)
    (iblk9 V c 0 t) (iblk9 V c 1 t) (iblk9 V c 2 t) _ _ _ (win9_0.read_blk t _) (win9_1.read_blk t _) (win9_2.read_blk t _) j
    (((cfg9.win 3).blk t).view.emb j) (win9_3.rect_emb_val t j)

/-- Each point writes its block of `scoreCol`, and row `r` of the column lies in the block of point `r / 8000`. -/
theorem arr (c : Dev nD) : (dat9 V c).arrAt 3 cfg9.N = G V c :=
  (dat9 V c).arrAt_eq_of_cover 3 _ (fun t _ => flushed_eq V c t) fun (i : S1600000x1.Idx) => by
    have hi : (i 0).val < 1600000 := (i 0).isLt
    have ht : (i 0).val / 8000 < cfg9.N := by rw [show cfg9.N = 200 from N_9]; omega
    exact ⟨⟨_, ht⟩, flush9_3 _, win9_3.emb_mem_blk ⟨_, ht⟩ i (fun _ => rfl) (Fin.forall_fin_two.mpr ⟨by decide, by decide⟩)
      (Fin.forall_fin_two.mpr ⟨(idx_facts ⟨_, ht⟩).2.2.2.2.2.2.1,
        (idx_facts ⟨_, ht⟩).2.2.2.2.2.2.2.trans (Nat.div_eq_of_lt (i 1).isLt).symm⟩)⟩

end Cert.KernelIdeal.Val.Score9

end
-- ==== Proof.Score13.lean ====
import proofs.«400993_j24043226923663_1_alg».proof.Proof.Gen.KernelIdeal.Frame
import proofs.«400993_j24043226923663_1_alg».proof.Proof.ScoreFn
import proofs.«400993_j24043226923663_1_alg».proof.Proof.ScoreTile

noncomputable section

namespace Cert.KernelIdeal.Val.Score13

open Idealize.ShloMosaic Idealize.ShloMosaic.TcCoe Idealize.ShloMosaic.ValueIdx Idealize.SL.Sem
open Cert.KernelIdeal Cert.KernelIdeal.Gen Cert.KernelIdeal.Val.Score

variable (V : (c : Dev nD) → (b : Ref sig .tc) → Buf (Elt Ideal) ((c : Thread nD τ).loc b))

theorem idx_facts : ∀ t : Fin cfg13.N,
    win13_0.index t (0 : Fin 2) = 0 ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0 :=
  (by decide +kernel : ∀ t : Fin grid13.N, _)

def G (c : Dev nD) : S1600000x1.Idx → EReal :=
  scoreCol (V c (Pipeline.arrRef spec13 1)) (V c (Pipeline.arrRef spec13 2)) (V c (Pipeline.arrRef spec13 0) (ix2 (0 : Fin 1) (0 : Fin 1)))

theorem flushed_eq (c : Dev nD) (t : Fin cfg13.N) :
    (dat13 V c).flushed 3 t = ((cfg13.win 3).blk t).view.read (Elt Ideal) (G V c) := by
  show (cfg13.win 3).cut (grid13.coords t) ((dat13 V c).after 3 t) = _
  rw [after13_3]
  unfold out13_3 G
  rw [View.canon_unit_zero hz]
  simp only [View.ld_unit_zero (S := S8000x64) hz, View.ld_unit_zero (S := S1x1) hz]
  exact funext fun j => block_eq (win13_0.index t) (win13_1.index t) (win13_2.index t) (win13_3.index t) t.val (idx_facts t)
    (iblk13 V c 0 t) (iblk13 V c 1 t) (iblk13 V c 2 t) _ _ _ (win13_0.read_blk t _) (win13_1.read_blk t _) (win13_2.read_blk t _) j
    (((cfg13.win 3).blk t).view.emb j) (win13_3.rect_emb_val t j)

/-- Each point writes its block of `scoreCol`, and row `r` of the column lies in the block of point `r / 8000`. -/
theorem arr (c : Dev nD) : (dat13 V c).arrAt 3 cfg13.N = G V c :=
  (dat13 V c).arrAt_eq_of_cover 3 _ (fun t _ => flushed_eq V c t) fun (i : S1600000x1.Idx) => by
    have hi : (i 0).val < 1600000 := (i 0).isLt
    have ht : (i 0).val / 8000 < cfg13.N := by rw [show cfg13.N = 200 from N_13]; omega
    exact ⟨⟨_, ht⟩, flush13_3 _, win13_3.emb_mem_blk ⟨_, ht⟩ i (fun _ => rfl) (Fin.forall_fin_two.mpr ⟨by decide, by decide⟩)
      (Fin.forall_fin_two.mpr ⟨(idx_facts ⟨_, ht⟩).2.2.2.2.2.2.1,
        (idx_facts ⟨_, ht⟩).2.2.2.2.2.2.2.trans (Nat.div_eq_of_lt (i 1).isLt).symm⟩)⟩

end Cert.KernelIdeal.Val.Score13

end
-- ==== Proof.Score.lean ====
import proofs.«400993_j24043226923663_1_alg».proof.Proof.Score1
import proofs.«400993_j24043226923663_1_alg».proof.Proof.Score5
import proofs.«400993_j24043226923663_1_alg».proof.Proof.Score9
import proofs.«400993_j24043226923663_1_alg».proof.Proof.Score13

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

def asum11 (a : (⟨S128x1, .f32⟩ : BufTy).Contents (Elt Ideal)) : (⟨S1x1, .f32⟩ : BufTy).Contents (Elt Ideal) :=
  shapeCast S1x1 (Host.reduceAdd a (constant (F := Ideal) S_ .f32 0x00000000#32) reducesTo_S128x1_S_d0_1 h_S_) shapeCasts_S_S1x1

theorem asum11_00 (a : (⟨S128x1, .f32⟩ : BufTy).Contents (Elt Ideal)) :
    asum11 a (ValueIdx.ix2 (0 : Fin 1) (0 : Fin 1)) = Score.sumAll a := by
  unfold asum11 shapeCast Score.sumAll
  exact congrArg _ (ValueIdx.eq_ix0 _)

theorem col_eq (a : (⟨S128x1, .f32⟩ : BufTy).Contents (Elt Ideal)) (wsrc wdst : (⟨S1600000x64, .f32⟩ : BufTy).Contents (Elt Ideal)) :
    Score.scoreCol wsrc wdst (asum11 a (ValueIdx.ix2 (0 : Fin 1) (0 : Fin 1))) = Cert.ReferenceIdeal.Fns.col (Cert.ReferenceIdeal.Fns.score wsrc wdst a) := by
  rw [asum11_00, Score.score_ref]

theorem arr1 (c : Dev nD) (a : (⟨S128x1, .f32⟩ : BufTy).Contents (Elt Ideal)) (wsrc wdst : (⟨S1600000x64, .f32⟩ : BufTy).Contents (Elt Ideal))
    (ha : V c (Pipeline.arrRef spec1 0) = asum11 a)
    (hs : V c (Pipeline.arrRef spec1 1) = wsrc) (hd : V c (Pipeline.arrRef spec1 2) = wdst) :
    (dat1 V c).arrAt 3 cfg1.N = Cert.ReferenceIdeal.Fns.col (Cert.ReferenceIdeal.Fns.score wsrc wdst a) := by
  rw [Score1.arr, Score1.G, ha, hs, hd, col_eq]

theorem arr5 (c : Dev nD) (a : (⟨S128x1, .f32⟩ : BufTy).Contents (Elt Ideal)) (wsrc wdst : (⟨S1600000x64, .f32⟩ : BufTy).Contents (Elt Ideal))
    (ha : V c (Pipeline.arrRef spec5 0) = asum11 a)
    (hs : V c (Pipeline.arrRef spec5 1) = wsrc) (hd : V c (Pipeline.arrRef spec5 2) = wdst) :
    (dat5 V c).arrAt 3 cfg5.N = Cert.ReferenceIdeal.Fns.col (Cert.ReferenceIdeal.Fns.score wsrc wdst a) := by
  rw [Score5.arr, Score5.G, ha, hs, hd, col_eq]

theorem arr9 (c : Dev nD) (a : (⟨S128x1, .f32⟩ : BufTy).Contents (Elt Ideal)) (wsrc wdst : (⟨S1600000x64, .f32⟩ : BufTy).Contents (Elt Ideal))
    (ha : V c (Pipeline.arrRef spec9 0) = asum11 a)
    (hs : V c (Pipeline.arrRef spec9 1) = wsrc) (hd : V c (Pipeline.arrRef spec9 2) = wdst) :
    (dat9 V c).arrAt 3 cfg9.N = Cert.ReferenceIdeal.Fns.col (Cert.ReferenceIdeal.Fns.score wsrc wdst a) := by
  rw [Score9.arr, Score9.G, ha, hs, hd, col_eq]

theorem arr13 (c : Dev nD) (a : (⟨S128x1, .f32⟩ : BufTy).Contents (Elt Ideal)) (wsrc wdst : (⟨S1600000x64, .f32⟩ : BufTy).Contents (Elt Ideal))
    (ha : V c (Pipeline.arrRef spec13 0) = asum11 a)
    (hs : V c (Pipeline.arrRef spec13 1) = wsrc) (hd : V c (Pipeline.arrRef spec13 2) = wdst) :
    (dat13 V c).arrAt 3 cfg13.N = Cert.ReferenceIdeal.Fns.col (Cert.ReferenceIdeal.Fns.score wsrc wdst a) := by
  rw [Score13.arr, Score13.G, ha, hs, hd, col_eq]

end Cert.KernelIdeal.Val

end
-- ==== Proof.MessageTile.lean ====
import proofs.«400993_j24043226923663_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.MessageTile

open Idealize.ShloMosaic Idealize.ShloMosaic.TcCoe Idealize.SL.Sem
open Cert.KernelIdeal Cert.KernelIdeal.Gen
open Idealize.ShloMosaic.ValueIdx

-- A rank-2 index is determined by its two coordinates.
theorem ix2_eq {N M : ℕ} (i : (⟨2, ![N, M]⟩ : Shape).Idx) (R : Fin N) (Q : Fin M)
    (h0 : (i 0).val = R.val) (h1 : (i 1).val = Q.val) : i = ix2 R Q :=
  (eq_ix2 i).trans (congrArg₂ (ix2 (n0 := N) (n1 := M)) (Fin.ext h0) (Fin.ext h1))

-- Row `a` lies in the tile of `n` rows numbered `a / n`.
theorem row_tile (a n : ℕ) (hn : 0 < n) : a / n * n ≤ a ∧ a < a / n * n + n :=
  ⟨Nat.div_mul_le_self a n, Nat.lt_div_mul_add hn⟩

-- Membership in a unit-stride rectangle of a matrix is membership in its range on each of the two axes.
theorem mem_unit_ix2 {N M : ℕ} {off size : Fin 2 → ℕ} {inb} (i : (⟨2, ![N, M]⟩ : Shape).Idx)
    (h0 : off 0 ≤ (i 0).val ∧ (i 0).val < off 0 + size 0) (h1 : off 1 ≤ (i 1).val ∧ (i 1).val < off 1 + size 1) :
    i ∈ (Rect.unit (s := ⟨2, ![N, M]⟩) off size inb).set :=
  Rect.mem_set_unit.mpr (Fin.forall_fin_two.mpr ⟨h0, h1⟩)

theorem zero2 : (![0, 0] : Fin 2 → Nat) = fun _ => 0 := funext fun a => by fin_cases a <;> rfl

theorem extractAt_one {α : Type} (v : (⟨2, ![1, 1]⟩ : Shape).Idx → α)
    (h : ∀ a, (![0, 0] : Fin 2 → Nat) a < (⟨2, ![1, 1]⟩ : Shape).size a) : extractAt ![0, 0] v h = v (ix2 0 0) :=
  congrArg v (funext fun a => Fin.ext (by match a with | ⟨0, _⟩ => rfl | ⟨1, _⟩ => rfl))

-- Entry `(p, q)` of the body's result: the weight `exp (logit p - m) / l`, the same along row `p`, times the source entry.
theorem pay_apply (v0 v2 : Vec Ideal S1x1 .f32) (v4 : Vec Ideal S8000x1 .f32) (v11 : Vec Ideal S8000x64 .f32)
    (p : Fin 8000) (q : Fin 64) :
    k2_pay1 (F := Ideal) v0 v2 v4 v11 (ix2 p q)
      = Ideal.div (Ideal.exp (v4 (ix2 p 0) - v0 (ix2 0 0))) (v2 (ix2 0 0)) * v11 (ix2 p q) := by
  unfold k2_pay1
  simp only [shapeCast_self]
  refine congrArg (· * v11 (ix2 p q)) ?_
  refine (broadcastTo_apply _ _ (ix2 p q) (ix2 p 0) ?_).trans ?_
  · intro a
    match a with
    | ⟨0, _⟩ => show p.val = if (8000 : ℕ) = 1 then 0 else p.val; rw [if_neg (by decide)]
    | ⟨1, _⟩ => show (0 : ℕ) = if (1 : ℕ) = 1 then 0 else q.val; rw [if_pos rfl]
  · show Ideal.div (Ideal.exp (v4 (ix2 p 0) - extractAt ![0, 0] v0 Gen.inpos_S1x1_p0_0))
      (extractAt ![0, 0] v2 Gen.inpos_S1x1_p0_0) = _
    rw [extractAt_one, extractAt_one]

theorem row_load (x0 : Vec Ideal S1x2 .f32) :
    View.ld x0 r2_0 (ix2 0 0) = x0 (ix2 0 0) ∧ View.ld x0 r2_1 (ix2 0 0) = x0 (ix2 0 1) :=
  ⟨congrArg x0 (funext fun a => Fin.ext (by match a with | ⟨0, _⟩ => rfl | ⟨1, _⟩ => rfl)),
    congrArg x0 (funext fun a => Fin.ext (by match a with | ⟨0, _⟩ => rfl | ⟨1, _⟩ => rfl))⟩

theorem out_apply (x0 : Vec Ideal S1x2 .f32) (x1 : Vec Ideal S8000x64 .f32) (x2 : Vec Ideal S8000x1 .f32)
    (p : Fin 8000) (q : Fin 64) :
    out2_3 (F := Ideal) x0 x1 x2 (ix2 p q)
      = Ideal.div (Ideal.exp (x2 (ix2 p 0) - x0 (ix2 0 0))) (x0 (ix2 0 1)) * x1 (ix2 p q) := by
  unfold out2_3
  rw [View.canon_unit_zero zero2]
  simp only [View.ld_unit_zero (S := S8000x64) zero2, View.ld_unit_zero (S := S8000x1) zero2]
  rw [pay_apply, (row_load x0).1, (row_load x0).2]

end Cert.MessageTile

end
-- ==== Proof.MessageBlock2.lean ====
import proofs.«400993_j24043226923663_1_alg».proof.Proof.Gen.KernelIdeal.Frame
import proofs.«400993_j24043226923663_1_alg».proof.Proof.MessageTile
import Idealize.ShloMosaic.Lib.Pipeline.Value
import Idealize.ShloMosaic.Lib.ValueIdx

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)
open Idealize.ShloMosaic.ValueIdx
open Cert.MessageTile

variable (V : (c : Dev nD) → (b : Ref sig .tc) → Buf (Elt Ideal) ((c : Thread nD τ).loc b))

theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

-- Row `r` of the output lies in the block of point `r / 8000`.
theorem cover2 (i : S1600000x64.Idx) :
    ∃ t : Fin cfg2.N, (cfg2.win 3).flush t = true ∧ i ∈ ((cfg2.win 3).blk t).view.set := by
  have hi0 : (i 0).val < 1600000 := (i 0).isLt
  have hi1 : (i 1).val < 64 := (i 1).isLt
  have ht : (i 0).val / 8000 < cfg2.N := by rw [show cfg2.N = 200 from N_2]; omega
  obtain ⟨-, -, -, -, -, -, d0, d1⟩ := idx_facts2 ⟨_, ht⟩
  refine ⟨⟨_, ht⟩, flush2_3 _, ?_⟩
  show i ∈ ((View.whole (Pipeline.arrRef spec2 3)).slice (win2_3.rect ⟨(i 0).val / 8000, ht⟩)).set
  rw [View.set_slice_whole]
  refine mem_unit_ix2 i ?_ ?_
  · show win2_3.index _ (0 : Fin 2) * 8000 ≤ (i 0).val ∧ (i 0).val < win2_3.index _ (0 : Fin 2) * 8000 + 8000
    rw [d0]; exact row_tile _ 8000 (by decide)
  · show win2_3.index _ (1 : Fin 2) * 64 ≤ (i 1).val ∧ (i 1).val < win2_3.index _ (1 : Fin 2) * 64 + 64
    rw [d1]; omega

-- Point `t` reads rows `8000 t` onwards of the sources and of the logits, and the row of two numbers whole, so it writes block `t` of `G`.
theorem arr2_of (c : Dev nD) (ml : Vec Ideal S1x2 .f32) (wsrc G : Vec Ideal S1600000x64 .f32) (e1 : Vec Ideal S1600000x1 .f32)
    (hml : V c (Pipeline.arrRef spec2 0) = ml) (hw : V c (Pipeline.arrRef spec2 1) = wsrc)
    (he : V c (Pipeline.arrRef spec2 2) = e1)
    (hG : ∀ (r : Fin 1600000) (q : Fin 64),
      G (ix2 r q) = Ideal.div (Ideal.exp (e1 (ix2 r 0) - ml (ix2 0 0))) (ml (ix2 0 1)) * wsrc (ix2 r q)) :
    (dat2 V c).arrAt 3 cfg2.N = G := by
  subst hml hw he
  refine (dat2 V c).arrAt_eq_of_cover 3 G (fun t _ => ?_) cover2
  obtain ⟨a0, a1, b0, b1, c0, c1, d0, d1⟩ := idx_facts2 t
  have ht : t.val < 200 := lt_of_lt_of_eq t.isLt N_2
  show (cfg2.win 3).cut (grid2.coords t) ((dat2 V c).after 3 t) = _
  rw [after2_3]
  funext j
  obtain ⟨p, q, rfl⟩ : ∃ (p : Fin 8000) (q : Fin 64), j = ix2 p q := ⟨j 0, j 1, eq_ix2 j⟩
  have hp : p.val < 8000 := p.isLt
  obtain ⟨R, hR⟩ : ∃ R : Fin 1600000, R.val = t.val * 8000 + p.val := ⟨⟨_, by omega⟩, rfl⟩
  have i0 : ∀ k : Fin 2, ((cfg2.win 0).blk t).view.emb (ix2 0 k) = ix2 0 k := fun k => ix2_eq _ _ _
    (by show win2_0.index t (0 : Fin 2) * 1 + 1 * 0 = 0; omega)
    (by show win2_0.index t (1 : Fin 2) * 2 + 1 * k.val = k.val; omega)
  have i1 : ((cfg2.win 1).blk t).view.emb (ix2 p q) = ix2 R q := ix2_eq _ _ _
    (by show win2_1.index t (0 : Fin 2) * 8000 + 1 * p.val = R.val; omega)
    (by show win2_1.index t (1 : Fin 2) * 64 + 1 * q.val = q.val; omega)
  have i2 : ((cfg2.win 2).blk t).view.emb (ix2 p 0) = ix2 R 0 := ix2_eq _ _ _
    (by show win2_2.index t (0 : Fin 2) * 8000 + 1 * p.val = R.val; omega)
    (by show win2_2.index t (1 : Fin 2) * 1 + 1 * 0 = 0; omega)
  have i3 : ((cfg2.win 3).blk t).view.emb (ix2 p q) = ix2 R q := ix2_eq _ _ _
    (by show win2_3.index t (0 : Fin 2) * 8000 + 1 * p.val = R.val; omega)
    (by show win2_3.index t (1 : Fin 2) * 64 + 1 * q.val = q.val; omega)
  show out2_3 (iblk2 V c 0 t) (iblk2 V c 1 t) (iblk2 V c 2 t) (ix2 p q) = G (((cfg2.win 3).blk t).view.emb (ix2 p q))
  rw [i3, hG, ← i0 0, ← i0 1, ← i1, ← i2]
  exact out_apply _ _ _ p q

end Cert.KernelIdeal.Val

end
-- ==== Proof.MessageBlock6.lean ====
import proofs.«400993_j24043226923663_1_alg».proof.Proof.Gen.KernelIdeal.Frame
import proofs.«400993_j24043226923663_1_alg».proof.Proof.MessageTile
import Idealize.ShloMosaic.Lib.Pipeline.Value
import Idealize.ShloMosaic.Lib.ValueIdx

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)
open Idealize.ShloMosaic.ValueIdx
open Cert.MessageTile

variable (V : (c : Dev nD) → (b : Ref sig .tc) → Buf (Elt Ideal) ((c : Thread nD τ).loc b))

theorem idx_facts6 : ∀ t : Fin cfg6.N,
    win6_0.index t (0 : Fin 2) = 0 ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

-- Row `r` of the output lies in the block of point `r / 8000`.
theorem cover6 (i : S1600000x64.Idx) :
    ∃ t : Fin cfg6.N, (cfg6.win 3).flush t = true ∧ i ∈ ((cfg6.win 3).blk t).view.set := by
  have hi0 : (i 0).val < 1600000 := (i 0).isLt
  have hi1 : (i 1).val < 64 := (i 1).isLt
  have ht : (i 0).val / 8000 < cfg6.N := by rw [show cfg6.N = 200 from N_6]; omega
  obtain ⟨-, -, -, -, -, -, d0, d1⟩ := idx_facts6 ⟨_, ht⟩
  refine ⟨⟨_, ht⟩, flush6_3 _, ?_⟩
  show i ∈ ((View.whole (Pipeline.arrRef spec6 3)).slice (win6_3.rect ⟨(i 0).val / 8000, ht⟩)).set
  rw [View.set_slice_whole]
  refine mem_unit_ix2 i ?_ ?_
  · show win6_3.index _ (0 : Fin 2) * 8000 ≤ (i 0).val ∧ (i 0).val < win6_3.index _ (0 : Fin 2) * 8000 + 8000
    rw [d0]; exact row_tile _ 8000 (by decide)
  · show win6_3.index _ (1 : Fin 2) * 64 ≤ (i 1).val ∧ (i 1).val < win6_3.index _ (1 : Fin 2) * 64 + 64
    rw [d1]; omega

-- Point `t` reads rows `8000 t` onwards of the sources and of the logits, and the row of two numbers whole, so it writes block `t` of `G`.
theorem arr6_of (c : Dev nD) (ml : Vec Ideal S1x2 .f32) (wsrc G : Vec Ideal S1600000x64 .f32) (e1 : Vec Ideal S1600000x1 .f32)
    (hml : V c (Pipeline.arrRef spec6 0) = ml) (hw : V c (Pipeline.arrRef spec6 1) = wsrc)
    (he : V c (Pipeline.arrRef spec6 2) = e1)
    (hG : ∀ (r : Fin 1600000) (q : Fin 64),
      G (ix2 r q) = Ideal.div (Ideal.exp (e1 (ix2 r 0) - ml (ix2 0 0))) (ml (ix2 0 1)) * wsrc (ix2 r q)) :
    (dat6 V c).arrAt 3 cfg6.N = G := by
  subst hml hw he
  refine (dat6 V c).arrAt_eq_of_cover 3 G (fun t _ => ?_) cover6
  obtain ⟨a0, a1, b0, b1, c0, c1, d0, d1⟩ := idx_facts6 t
  have ht : t.val < 200 := lt_of_lt_of_eq t.isLt N_6
  show (cfg6.win 3).cut (grid6.coords t) ((dat6 V c).after 3 t) = _
  rw [after6_3]
  funext j
  obtain ⟨p, q, rfl⟩ : ∃ (p : Fin 8000) (q : Fin 64), j = ix2 p q := ⟨j 0, j 1, eq_ix2 j⟩
  have hp : p.val < 8000 := p.isLt
  obtain ⟨R, hR⟩ : ∃ R : Fin 1600000, R.val = t.val * 8000 + p.val := ⟨⟨_, by omega⟩, rfl⟩
  have i0 : ∀ k : Fin 2, ((cfg6.win 0).blk t).view.emb (ix2 0 k) = ix2 0 k := fun k => ix2_eq _ _ _
    (by show win6_0.index t (0 : Fin 2) * 1 + 1 * 0 = 0; omega)
    (by show win6_0.index t (1 : Fin 2) * 2 + 1 * k.val = k.val; omega)
  have i1 : ((cfg6.win 1).blk t).view.emb (ix2 p q) = ix2 R q := ix2_eq _ _ _
    (by show win6_1.index t (0 : Fin 2) * 8000 + 1 * p.val = R.val; omega)
    (by show win6_1.index t (1 : Fin 2) * 64 + 1 * q.val = q.val; omega)
  have i2 : ((cfg6.win 2).blk t).view.emb (ix2 p 0) = ix2 R 0 := ix2_eq _ _ _
    (by show win6_2.index t (0 : Fin 2) * 8000 + 1 * p.val = R.val; omega)
    (by show win6_2.index t (1 : Fin 2) * 1 + 1 * 0 = 0; omega)
  have i3 : ((cfg6.win 3).blk t).view.emb (ix2 p q) = ix2 R q := ix2_eq _ _ _
    (by show win6_3.index t (0 : Fin 2) * 8000 + 1 * p.val = R.val; omega)
    (by show win6_3.index t (1 : Fin 2) * 64 + 1 * q.val = q.val; omega)
  show out6_3 (iblk6 V c 0 t) (iblk6 V c 1 t) (iblk6 V c 2 t) (ix2 p q) = G (((cfg6.win 3).blk t).view.emb (ix2 p q))
  rw [i3, hG, ← i0 0, ← i0 1, ← i1, ← i2]
  exact out_apply _ _ _ p q

end Cert.KernelIdeal.Val

end
-- ==== Proof.MessageBlock10.lean ====
import proofs.«400993_j24043226923663_1_alg».proof.Proof.Gen.KernelIdeal.Frame
import proofs.«400993_j24043226923663_1_alg».proof.Proof.MessageTile
import Idealize.ShloMosaic.Lib.Pipeline.Value
import Idealize.ShloMosaic.Lib.ValueIdx

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)
open Idealize.ShloMosaic.ValueIdx
open Cert.MessageTile

variable (V : (c : Dev nD) → (b : Ref sig .tc) → Buf (Elt Ideal) ((c : Thread nD τ).loc b))

theorem idx_facts10 : ∀ t : Fin cfg10.N,
    win10_0.index t (0 : Fin 2) = 0 ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

-- Row `r` of the output lies in the block of point `r / 8000`.
theorem cover10 (i : S1600000x64.Idx) :
    ∃ t : Fin cfg10.N, (cfg10.win 3).flush t = true ∧ i ∈ ((cfg10.win 3).blk t).view.set := by
  have hi0 : (i 0).val < 1600000 := (i 0).isLt
  have hi1 : (i 1).val < 64 := (i 1).isLt
  have ht : (i 0).val / 8000 < cfg10.N := by rw [show cfg10.N = 200 from N_10]; omega
  obtain ⟨-, -, -, -, -, -, d0, d1⟩ := idx_facts10 ⟨_, ht⟩
  refine ⟨⟨_, ht⟩, flush10_3 _, ?_⟩
  show i ∈ ((View.whole (Pipeline.arrRef spec10 3)).slice (win10_3.rect ⟨(i 0).val / 8000, ht⟩)).set
  rw [View.set_slice_whole]
  refine mem_unit_ix2 i ?_ ?_
  · show win10_3.index _ (0 : Fin 2) * 8000 ≤ (i 0).val ∧ (i 0).val < win10_3.index _ (0 : Fin 2) * 8000 + 8000
    rw [d0]; exact row_tile _ 8000 (by decide)
  · show win10_3.index _ (1 : Fin 2) * 64 ≤ (i 1).val ∧ (i 1).val < win10_3.index _ (1 : Fin 2) * 64 + 64
    rw [d1]; omega

-- Point `t` reads rows `8000 t` onwards of the sources and of the logits, and the row of two numbers whole, so it writes block `t` of `G`.
theorem arr10_of (c : Dev nD) (ml : Vec Ideal S1x2 .f32) (wsrc G : Vec Ideal S1600000x64 .f32) (e1 : Vec Ideal S1600000x1 .f32)
    (hml : V c (Pipeline.arrRef spec10 0) = ml) (hw : V c (Pipeline.arrRef spec10 1) = wsrc)
    (he : V c (Pipeline.arrRef spec10 2) = e1)
    (hG : ∀ (r : Fin 1600000) (q : Fin 64),
      G (ix2 r q) = Ideal.div (Ideal.exp (e1 (ix2 r 0) - ml (ix2 0 0))) (ml (ix2 0 1)) * wsrc (ix2 r q)) :
    (dat10 V c).arrAt 3 cfg10.N = G := by
  subst hml hw he
  refine (dat10 V c).arrAt_eq_of_cover 3 G (fun t _ => ?_) cover10
  obtain ⟨a0, a1, b0, b1, c0, c1, d0, d1⟩ := idx_facts10 t
  have ht : t.val < 200 := lt_of_lt_of_eq t.isLt N_10
  show (cfg10.win 3).cut (grid10.coords t) ((dat10 V c).after 3 t) = _
  rw [after10_3]
  funext j
  obtain ⟨p, q, rfl⟩ : ∃ (p : Fin 8000) (q : Fin 64), j = ix2 p q := ⟨j 0, j 1, eq_ix2 j⟩
  have hp : p.val < 8000 := p.isLt
  obtain ⟨R, hR⟩ : ∃ R : Fin 1600000, R.val = t.val * 8000 + p.val := ⟨⟨_, by omega⟩, rfl⟩
  have i0 : ∀ k : Fin 2, ((cfg10.win 0).blk t).view.emb (ix2 0 k) = ix2 0 k := fun k => ix2_eq _ _ _
    (by show win10_0.index t (0 : Fin 2) * 1 + 1 * 0 = 0; omega)
    (by show win10_0.index t (1 : Fin 2) * 2 + 1 * k.val = k.val; omega)
  have i1 : ((cfg10.win 1).blk t).view.emb (ix2 p q) = ix2 R q := ix2_eq _ _ _
    (by show win10_1.index t (0 : Fin 2) * 8000 + 1 * p.val = R.val; omega)
    (by show win10_1.index t (1 : Fin 2) * 64 + 1 * q.val = q.val; omega)
  have i2 : ((cfg10.win 2).blk t).view.emb (ix2 p 0) = ix2 R 0 := ix2_eq _ _ _
    (by show win10_2.index t (0 : Fin 2) * 8000 + 1 * p.val = R.val; omega)
    (by show win10_2.index t (1 : Fin 2) * 1 + 1 * 0 = 0; omega)
  have i3 : ((cfg10.win 3).blk t).view.emb (ix2 p q) = ix2 R q := ix2_eq _ _ _
    (by show win10_3.index t (0 : Fin 2) * 8000 + 1 * p.val = R.val; omega)
    (by show win10_3.index t (1 : Fin 2) * 64 + 1 * q.val = q.val; omega)
  show out10_3 (iblk10 V c 0 t) (iblk10 V c 1 t) (iblk10 V c 2 t) (ix2 p q) = G (((cfg10.win 3).blk t).view.emb (ix2 p q))
  rw [i3, hG, ← i0 0, ← i0 1, ← i1, ← i2]
  exact out_apply _ _ _ p q

end Cert.KernelIdeal.Val

end
-- ==== Proof.MessageBlock14.lean ====
import proofs.«400993_j24043226923663_1_alg».proof.Proof.Gen.KernelIdeal.Frame
import proofs.«400993_j24043226923663_1_alg».proof.Proof.MessageTile
import Idealize.ShloMosaic.Lib.Pipeline.Value
import Idealize.ShloMosaic.Lib.ValueIdx

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)
open Idealize.ShloMosaic.ValueIdx
open Cert.MessageTile

variable (V : (c : Dev nD) → (b : Ref sig .tc) → Buf (Elt Ideal) ((c : Thread nD τ).loc b))

theorem idx_facts14 : ∀ t : Fin cfg14.N,
    win14_0.index t (0 : Fin 2) = 0 ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0 :=
  (by decide +kernel : ∀ t : Fin grid14.N, _)

-- Row `r` of the output lies in the block of point `r / 8000`.
theorem cover14 (i : S1600000x64.Idx) :
    ∃ t : Fin cfg14.N, (cfg14.win 3).flush t = true ∧ i ∈ ((cfg14.win 3).blk t).view.set := by
  have hi0 : (i 0).val < 1600000 := (i 0).isLt
  have hi1 : (i 1).val < 64 := (i 1).isLt
  have ht : (i 0).val / 8000 < cfg14.N := by rw [show cfg14.N = 200 from N_14]; omega
  obtain ⟨-, -, -, -, -, -, d0, d1⟩ := idx_facts14 ⟨_, ht⟩
  refine ⟨⟨_, ht⟩, flush14_3 _, ?_⟩
  show i ∈ ((View.whole (Pipeline.arrRef spec14 3)).slice (win14_3.rect ⟨(i 0).val / 8000, ht⟩)).set
  rw [View.set_slice_whole]
  refine mem_unit_ix2 i ?_ ?_
  · show win14_3.index _ (0 : Fin 2) * 8000 ≤ (i 0).val ∧ (i 0).val < win14_3.index _ (0 : Fin 2) * 8000 + 8000
    rw [d0]; exact row_tile _ 8000 (by decide)
  · show win14_3.index _ (1 : Fin 2) * 64 ≤ (i 1).val ∧ (i 1).val < win14_3.index _ (1 : Fin 2) * 64 + 64
    rw [d1]; omega

-- Point `t` reads rows `8000 t` onwards of the sources and of the logits, and the row of two numbers whole, so it writes block `t` of `G`.
theorem arr14_of (c : Dev nD) (ml : Vec Ideal S1x2 .f32) (wsrc G : Vec Ideal S1600000x64 .f32) (e1 : Vec Ideal S1600000x1 .f32)
    (hml : V c (Pipeline.arrRef spec14 0) = ml) (hw : V c (Pipeline.arrRef spec14 1) = wsrc)
    (he : V c (Pipeline.arrRef spec14 2) = e1)
    (hG : ∀ (r : Fin 1600000) (q : Fin 64),
      G (ix2 r q) = Ideal.div (Ideal.exp (e1 (ix2 r 0) - ml (ix2 0 0))) (ml (ix2 0 1)) * wsrc (ix2 r q)) :
    (dat14 V c).arrAt 3 cfg14.N = G := by
  subst hml hw he
  refine (dat14 V c).arrAt_eq_of_cover 3 G (fun t _ => ?_) cover14
  obtain ⟨a0, a1, b0, b1, c0, c1, d0, d1⟩ := idx_facts14 t
  have ht : t.val < 200 := lt_of_lt_of_eq t.isLt N_14
  show (cfg14.win 3).cut (grid14.coords t) ((dat14 V c).after 3 t) = _
  rw [after14_3]
  funext j
  obtain ⟨p, q, rfl⟩ : ∃ (p : Fin 8000) (q : Fin 64), j = ix2 p q := ⟨j 0, j 1, eq_ix2 j⟩
  have hp : p.val < 8000 := p.isLt
  obtain ⟨R, hR⟩ : ∃ R : Fin 1600000, R.val = t.val * 8000 + p.val := ⟨⟨_, by omega⟩, rfl⟩
  have i0 : ∀ k : Fin 2, ((cfg14.win 0).blk t).view.emb (ix2 0 k) = ix2 0 k := fun k => ix2_eq _ _ _
    (by show win14_0.index t (0 : Fin 2) * 1 + 1 * 0 = 0; omega)
    (by show win14_0.index t (1 : Fin 2) * 2 + 1 * k.val = k.val; omega)
  have i1 : ((cfg14.win 1).blk t).view.emb (ix2 p q) = ix2 R q := ix2_eq _ _ _
    (by show win14_1.index t (0 : Fin 2) * 8000 + 1 * p.val = R.val; omega)
    (by show win14_1.index t (1 : Fin 2) * 64 + 1 * q.val = q.val; omega)
  have i2 : ((cfg14.win 2).blk t).view.emb (ix2 p 0) = ix2 R 0 := ix2_eq _ _ _
    (by show win14_2.index t (0 : Fin 2) * 8000 + 1 * p.val = R.val; omega)
    (by show win14_2.index t (1 : Fin 2) * 1 + 1 * 0 = 0; omega)
  have i3 : ((cfg14.win 3).blk t).view.emb (ix2 p q) = ix2 R q := ix2_eq _ _ _
    (by show win14_3.index t (0 : Fin 2) * 8000 + 1 * p.val = R.val; omega)
    (by show win14_3.index t (1 : Fin 2) * 64 + 1 * q.val = q.val; omega)
  show out14_3 (iblk14 V c 0 t) (iblk14 V c 1 t) (iblk14 V c 2 t) (ix2 p q) = G (((cfg14.win 3).blk t).view.emb (ix2 p q))
  rw [i3, hG, ← i0 0, ← i0 1, ← i1, ← i2]
  exact out_apply _ _ _ p q

end Cert.KernelIdeal.Val

end
-- ==== Proof.MessageCol.lean ====
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value
import Mathlib.Data.Finset.Fold
import Mathlib.Algebra.BigOperators.Group.Finset.Basic

namespace Cert.MessageCol

open Idealize.ShloMosaic Idealize.ShloMosaic.ValueIdx

variable {n : ℕ} {α : Type}

-- Row `r` of an `[n, 1]` column is entry `r` of the vector of length `n`.
def rowOf : (⟨2, ![n, 1]⟩ : Shape).Idx ≃ (⟨1, ![n]⟩ : Shape).Idx where
  toFun i := ix1 (i 0)
  invFun j := ix2 (j 0) (0 : Fin 1)
  left_inv i := by
    refine (congrArg (ix2 (i 0)) ?_).trans (eq_ix2 i).symm
    exact (Subsingleton.elim (α := Fin 1) _ _)
  right_inv j := (eq_ix1 j).symm

theorem filter_drop_rank_zero {s : Shape} {axes : List (Fin s.rank)} (h : s.ReducesTo axes ⟨0, ![]⟩)
    (j : (⟨0, ![]⟩ : Shape).Idx) : (Finset.univ.filter fun i => h.drop i = j) = Finset.univ :=
  Finset.filter_true_of_mem fun _ _ => funext fun b => b.elim0

-- A commutative associative fold does not mind that the column's indices are the vector's, relabelled.
theorem fold_col (op : α → α → α) [Std.Commutative op] [Std.Associative op] (b : α)
    (e : (⟨1, ![n]⟩ : Shape).Idx → α) (x : (⟨2, ![n, 1]⟩ : Shape).Idx → α) (hx : ∀ i, x i = e (rowOf i)) :
    Finset.univ.fold op b x = Finset.univ.fold op b e := by
  rw [← Finset.image_univ_equiv (rowOf (n := n)), Finset.fold_image fun a _ c _ hac => rowOf.injective hac]
  exact Finset.fold_congr fun i _ => hx i

theorem reduce_col (op : α → α → α) [Std.Commutative op] [Std.Associative op] {u : Shape} (init : u.Idx → α)
    (e : (⟨1, ![n]⟩ : Shape).Idx → α) (x : (⟨2, ![n, 1]⟩ : Shape).Idx → α) (hx : ∀ i, x i = e (rowOf i))
    {ax2 : List (Fin 2)} {ax1 : List (Fin 1)}
    (h2 : (⟨2, ![n, 1]⟩ : Shape).ReducesTo ax2 ⟨0, ![]⟩) (h1 : (⟨1, ![n]⟩ : Shape).ReducesTo ax1 ⟨0, ![]⟩)
    (hu : 0 < u.numel) : Host.reduce op x init h2 hu = Host.reduce op e init h1 hu := by
  funext j
  rw [Host.reduce_eq_fold, Host.reduce_eq_fold, filter_drop_rank_zero, filter_drop_rank_zero]
  exact fold_col op _ e x hx

-- A fold of `max` is never below the value it starts from.
theorem max_init_reduce {s : Shape} {axes : List (Fin s.rank)} {t u : Shape} (x : s.Idx → EReal) (init : u.Idx → EReal)
    (h : s.ReducesTo axes t) (hu : 0 < u.numel) (j : t.Idx) :
    max (init (Shape.Idx.first hu)) (Host.reduce (FloatOps.maximumf (F := Ideal) (φ := .f32)) x init h hu j)
      = Host.reduce (FloatOps.maximumf (F := Ideal) (φ := .f32)) x init h hu j := by
  rw [Host.reduce_eq_fold]
  exact max_eq_right (Finset.le_fold_max (init (Shape.Idx.first hu)) |>.mpr (Or.inl le_rfl))

theorem reduceAdd_col {u : Shape} (init : u.Idx → EReal)
    (e : FVec Ideal ⟨1, ![n]⟩ .f32) (x : FVec Ideal ⟨2, ![n, 1]⟩ .f32) (hx : ∀ i, x i = e (rowOf i))
    {ax2 : List (Fin 2)} {ax1 : List (Fin 1)}
    (h2 : (⟨2, ![n, 1]⟩ : Shape).ReducesTo ax2 ⟨0, ![]⟩) (h1 : (⟨1, ![n]⟩ : Shape).ReducesTo ax1 ⟨0, ![]⟩)
    (hu : 0 < u.numel) : Host.reduceAdd (F := Ideal) x init h2 hu = Host.reduceAdd (F := Ideal) e init h1 hu := by
  funext j
  rw [hostReduceAdd_apply, hostReduceAdd_apply, Ideal.hostReduceAdd_total h2 (fun b => b.elim0),
    Ideal.hostReduceAdd_total h1 (fun b => b.elim0), ← Equiv.sum_comp (rowOf (n := n))]
  exact congrArg (_ + ·) (Finset.sum_congr rfl fun i _ => hx i)

theorem col_apply (dims : Fin 1 → Fin 2) (hd : dims 0 = 0) (h : (⟨1, ![n]⟩ : Shape).BroadcastsInDim ⟨2, ![n, 1]⟩ dims)
    (e : (⟨1, ![n]⟩ : Shape).Idx → α) (i : (⟨2, ![n, 1]⟩ : Shape).Idx) :
    broadcastInDim ⟨2, ![n, 1]⟩ dims h e i = e (rowOf i) :=
  broadcastInDim_apply dims h e i (rowOf i) fun a => by
    match a with
    | ⟨0, _⟩ =>
      show (i 0).val = if n = 1 then 0 else (i (dims 0)).val
      rw [hd]
      have hlt : (i 0).val < n := (i 0).isLt
      split_ifs with h1
      · omega
      · rfl

theorem repeat_apply (dims : Fin 1 → Fin 1) (hb : (⟨0, ![]⟩ : Shape).BroadcastsInDim ⟨1, ![1]⟩ ![])
    (h : (⟨1, ![1]⟩ : Shape).BroadcastsInDim ⟨1, ![n]⟩ dims) (a : (⟨0, ![]⟩ : Shape).Idx → α) (j : (⟨1, ![n]⟩ : Shape).Idx) :
    broadcastInDim ⟨1, ![n]⟩ dims h (broadcastInDim ⟨1, ![1]⟩ ![] hb a) j = a ix0 :=
  (broadcastInDim_apply dims h _ j (ix1 0) fun c => by
    match c with
    | ⟨0, _⟩ => show (0 : ℕ) = if (1 : ℕ) = 1 then 0 else _; rw [if_pos rfl]).trans
    (broadcastInDim_scalar_apply hb a _)

theorem spread_apply {m : ℕ} (dims : Fin 2 → Fin 2) (hd0 : dims 0 = 0) (hd1 : dims 1 = 1)
    (h : (⟨2, ![n, 1]⟩ : Shape).BroadcastsInDim ⟨2, ![n, m]⟩ dims) (x : (⟨2, ![n, 1]⟩ : Shape).Idx → α)
    (r : Fin n) (q : Fin m) : broadcastInDim ⟨2, ![n, m]⟩ dims h x (ix2 r q) = x (ix2 r 0) :=
  broadcastInDim_apply dims h x (ix2 r q) (ix2 r 0) fun a => by
    match a with
    | ⟨0, _⟩ =>
      show r.val = if n = 1 then 0 else ((ix2 r q) (dims 0)).val
      rw [hd0]
      have hlt : r.val < n := r.isLt
      split_ifs with h1
      · omega
      · rfl
    | ⟨1, _⟩ => show (0 : ℕ) = if (1 : ℕ) = 1 then 0 else _; rw [if_pos rfl]

theorem pairRow_left (a b : (⟨0, ![]⟩ : Shape).Idx → α) (hb : (⟨0, ![]⟩ : Shape).BroadcastsInDim ⟨1, ![1]⟩ ![])
    (hc : Shape.Concatenates [(⟨1, ![1]⟩ : Shape), ⟨1, ![1]⟩] ⟨1, ![2]⟩ 0)
    (hs : (⟨1, ![2]⟩ : Shape).ShapeCasts ⟨2, ![1, 2]⟩) :
    shapeCast ⟨2, ![1, 2]⟩ (concatenate ⟨1, ![2]⟩ 0
      [⟨⟨1, ![1]⟩, broadcastInDim ⟨1, ![1]⟩ ![] hb a⟩, ⟨⟨1, ![1]⟩, broadcastInDim ⟨1, ![1]⟩ ![] hb b⟩] hc) hs (ix2 0 0) = a ix0 := by
  refine (shapeCast_a_1a_apply _ hs 0 0).trans ?_
  refine (concatenate_pair_apply_left 0 _ _ hc (ix1 0) rfl (ix1 0) fun c => by match c with | ⟨0, _⟩ => rfl).trans ?_
  exact broadcastInDim_scalar_apply hb a _

theorem pairRow_right (a b : (⟨0, ![]⟩ : Shape).Idx → α) (hb : (⟨0, ![]⟩ : Shape).BroadcastsInDim ⟨1, ![1]⟩ ![])
    (hc : Shape.Concatenates [(⟨1, ![1]⟩ : Shape), ⟨1, ![1]⟩] ⟨1, ![2]⟩ 0)
    (hs : (⟨1, ![2]⟩ : Shape).ShapeCasts ⟨2, ![1, 2]⟩) :
    shapeCast ⟨2, ![1, 2]⟩ (concatenate ⟨1, ![2]⟩ 0
      [⟨⟨1, ![1]⟩, broadcastInDim ⟨1, ![1]⟩ ![] hb a⟩, ⟨⟨1, ![1]⟩, broadcastInDim ⟨1, ![1]⟩ ![] hb b⟩] hc) hs (ix2 0 1) = b ix0 := by
  refine (shapeCast_a_1a_apply _ hs 0 1).trans ?_
  refine (concatenate_pair_apply_right 0 _ _ hc (ix1 1) rfl rfl (ix1 0)
    (fun c hc' => absurd (Subsingleton.elim _ _) hc') rfl).trans ?_
  exact broadcastInDim_scalar_apply hb b _

theorem hostExp_apply {s : Shape} (x : FVec Ideal s .f32) (i : s.Idx) : Host.exp x i = Ideal.exp (x i) := rfl

theorem reduce_col_max (w : BitVec 32) {u : Shape} (e : FVec Ideal ⟨1, ![n]⟩ .f32) (x : FVec Ideal ⟨2, ![n, 1]⟩ .f32)
    (hx : ∀ i, x i = e (rowOf i)) {ax2 : List (Fin 2)} {ax1 : List (Fin 1)}
    (h2 : (⟨2, ![n, 1]⟩ : Shape).ReducesTo ax2 ⟨0, ![]⟩) (h1 : (⟨1, ![n]⟩ : Shape).ReducesTo ax1 ⟨0, ![]⟩)
    (hu : 0 < u.numel) (j : (⟨0, ![]⟩ : Shape).Idx) :
    Host.reduce (FloatOps.maximumf (F := Ideal) (φ := .f32)) x (constant (F := Ideal) u .f32 w) h2 hu j
      = max (Ideal.ofBits .f32 w)
          (Host.reduce (FloatOps.maximumf (F := Ideal) (φ := .f32)) e (constant (F := Ideal) u .f32 w) h1 hu j) := by
  rw [reduce_col _ _ e x hx h2 h1 hu]
  exact (max_init_reduce e (constant (F := Ideal) u .f32 w) h1 hu j).symm

theorem shifted_exp_apply (m : FVec Ideal ⟨0, ![]⟩ .f32) (e : FVec Ideal ⟨1, ![n]⟩ .f32) (dims : Fin 1 → Fin 1)
    (hb : (⟨0, ![]⟩ : Shape).BroadcastsInDim ⟨1, ![1]⟩ ![]) (h : (⟨1, ![1]⟩ : Shape).BroadcastsInDim ⟨1, ![n]⟩ dims)
    (j : (⟨1, ![n]⟩ : Shape).Idx) :
    Host.exp (subf e (broadcastInDim ⟨1, ![n]⟩ dims h (broadcastInDim ⟨1, ![1]⟩ ![] hb m))) j = Ideal.exp (e j - m ix0) := by
  rw [hostExp_apply, subf_apply, repeat_apply]

theorem shifted_sum_col (m : FVec Ideal ⟨0, ![]⟩ .f32) (e : FVec Ideal ⟨1, ![n]⟩ .f32) (x : FVec Ideal ⟨2, ![n, 1]⟩ .f32)
    (hx : ∀ i, x i = e (rowOf i)) {u : Shape} (init : u.Idx → EReal) (dims : Fin 1 → Fin 1)
    (hb : (⟨0, ![]⟩ : Shape).BroadcastsInDim ⟨1, ![1]⟩ ![]) (h : (⟨1, ![1]⟩ : Shape).BroadcastsInDim ⟨1, ![n]⟩ dims)
    (hm : (⟨0, ![]⟩ : Shape).BroadcastsInDim ⟨2, ![n, 1]⟩ ![]) {ax2 : List (Fin 2)} {ax1 : List (Fin 1)}
    (h2 : (⟨2, ![n, 1]⟩ : Shape).ReducesTo ax2 ⟨0, ![]⟩) (h1 : (⟨1, ![n]⟩ : Shape).ReducesTo ax1 ⟨0, ![]⟩)
    (hu : 0 < u.numel) :
    Host.reduceAdd (F := Ideal) (Host.exp (subf x (broadcastInDim ⟨2, ![n, 1]⟩ ![] hm m))) init h2 hu
      = Host.reduceAdd (F := Ideal)
          (Host.exp (subf e (broadcastInDim ⟨1, ![n]⟩ dims h (broadcastInDim ⟨1, ![1]⟩ ![] hb m)))) init h1 hu :=
  reduceAdd_col init _ _ (fun i => by
    rw [shifted_exp_apply, hostExp_apply, subf_apply, broadcastInDim_scalar_apply, hx]) h2 h1 hu

theorem weight_apply (p : FVec Ideal ⟨1, ![n]⟩ .f32) (l : FVec Ideal ⟨0, ![]⟩ .f32) (dims : Fin 1 → Fin 1)
    (hb : (⟨0, ![]⟩ : Shape).BroadcastsInDim ⟨1, ![1]⟩ ![]) (h : (⟨1, ![1]⟩ : Shape).BroadcastsInDim ⟨1, ![n]⟩ dims)
    (j : (⟨1, ![n]⟩ : Shape).Idx) :
    Host.divf p (broadcastInDim ⟨1, ![n]⟩ dims h (broadcastInDim ⟨1, ![1]⟩ ![] hb l)) j = Ideal.div (p j) (l ix0) := by
  rw [hostDivf_apply, repeat_apply]

theorem msg_apply {m : ℕ} (a : FVec Ideal ⟨1, ![n]⟩ .f32) (W : FVec Ideal ⟨2, ![n, m]⟩ .f32)
    (d1 : Fin 1 → Fin 2) (hd1 : d1 0 = 0) (hc : (⟨1, ![n]⟩ : Shape).BroadcastsInDim ⟨2, ![n, 1]⟩ d1)
    (d2 : Fin 2 → Fin 2) (hd20 : d2 0 = 0) (hd21 : d2 1 = 1)
    (hs : (⟨2, ![n, 1]⟩ : Shape).BroadcastsInDim ⟨2, ![n, m]⟩ d2) (r : Fin n) (q : Fin m) :
    mulf (broadcastInDim ⟨2, ![n, m]⟩ d2 hs (broadcastInDim ⟨2, ![n, 1]⟩ d1 hc a)) W (ix2 r q)
      = a (ix1 r) * W (ix2 r q) := by
  rw [mulf_apply, spread_apply d2 hd20 hd21, col_apply d1 hd1]
  rfl

theorem rowOf_ix2 (r : Fin n) : rowOf (ix2 r (0 : Fin 1)) = ix1 r := rfl

end Cert.MessageCol
-- ==== Proof.Message.lean ====
import proofs.«400993_j24043226923663_1_alg».proof.Proof.Gen.KernelIdeal.Frame
import proofs.«400993_j24043226923663_1_alg».proof.Proof.Fns
import proofs.«400993_j24043226923663_1_alg».proof.Proof.MessageBlock2
import proofs.«400993_j24043226923663_1_alg».proof.Proof.MessageBlock6
import proofs.«400993_j24043226923663_1_alg».proof.Proof.MessageBlock10
import proofs.«400993_j24043226923663_1_alg».proof.Proof.MessageBlock14
import proofs.«400993_j24043226923663_1_alg».proof.Proof.MessageCol
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)
open Idealize.ShloMosaic.ValueIdx
open Cert.MessageCol

variable (V : (c : Dev nD) → (b : Ref sig .tc) → Buf (Elt Ideal) ((c : Thread nD τ).loc b))

-- The largest logit and the sum of the shifted exponentials, side by side as a `[1, 2]` row.
def mlRow (e1 : (⟨S1600000x1, .f32⟩ : BufTy).Contents (Elt Ideal)) : (⟨S1x2, .f32⟩ : BufTy).Contents (Elt Ideal) :=
  shapeCast S1x2
    (concatenate S2 0
      [⟨S1, broadcastInDim S1 ![] bcast_S_S1
          (Host.reduce (FloatOps.maximumf (F := Ideal) (φ := .f32)) e1 (constant (F := Ideal) S_ .f32 0xFF800000#32) reducesTo_S1600000x1_S_d0_1 h_S_)⟩,
       ⟨S1, broadcastInDim S1 ![] bcast_S_S1
          (Host.reduceAdd
            (Host.exp (subf e1 (broadcastInDim S1600000x1 ![] bcast_S_S1600000x1
              (Host.reduce (FloatOps.maximumf (F := Ideal) (φ := .f32)) e1 (constant (F := Ideal) S_ .f32 0xFF800000#32) reducesTo_S1600000x1_S_d0_1 h_S_))))
            (constant (F := Ideal) S_ .f32 0x00000000#32) reducesTo_S1600000x1_S_d0_1 h_S_)⟩]
      concatenates_S1_S1_S2_d0)
    shapeCasts_S2_S1x2

theorem col_read (e : (⟨S1600000, .f32⟩ : BufTy).Contents (Elt Ideal)) (i : S1600000x1.Idx) :
    Cert.ReferenceIdeal.Fns.col e i = e (rowOf i) := by
  unfold Cert.ReferenceIdeal.Fns.col
  exact col_apply _ rfl _ e i

theorem colMax_eq (e : (⟨S1600000, .f32⟩ : BufTy).Contents (Elt Ideal)) :
    Host.reduce (FloatOps.maximumf (F := Ideal) (φ := .f32)) (Cert.ReferenceIdeal.Fns.col e)
      (constant (F := Ideal) S_ .f32 0xFF800000#32) reducesTo_S1600000x1_S_d0_1 h_S_ = Cert.ReferenceIdeal.Fns.emax e := by
  funext j
  unfold Cert.ReferenceIdeal.Fns.emax
  rw [maximumf_apply, constant_apply]
  exact reduce_col_max _ e (Cert.ReferenceIdeal.Fns.col e) (col_read e) _ _ _ j

theorem eexp_apply (e : (⟨S1600000, .f32⟩ : BufTy).Contents (Elt Ideal)) (j : S1600000.Idx) :
    Cert.ReferenceIdeal.Fns.eexp e j = Ideal.exp (e j - Cert.ReferenceIdeal.Fns.emax e ix0) := by
  unfold Cert.ReferenceIdeal.Fns.eexp
  exact shifted_exp_apply (Cert.ReferenceIdeal.Fns.emax e) e _ _ _ j

theorem colSum_eq (e : (⟨S1600000, .f32⟩ : BufTy).Contents (Elt Ideal)) :
    Host.reduceAdd (Host.exp (subf (Cert.ReferenceIdeal.Fns.col e)
        (broadcastInDim S1600000x1 ![] bcast_S_S1600000x1 (Cert.ReferenceIdeal.Fns.emax e))))
      (constant (F := Ideal) S_ .f32 0x00000000#32) reducesTo_S1600000x1_S_d0_1 h_S_
      = Cert.ReferenceIdeal.Fns.esum (Cert.ReferenceIdeal.Fns.eexp e) := by
  unfold Cert.ReferenceIdeal.Fns.esum Cert.ReferenceIdeal.Fns.eexp
  exact shifted_sum_col (Cert.ReferenceIdeal.Fns.emax e) e (Cert.ReferenceIdeal.Fns.col e) (col_read e) _ _ _ _ _ _ _ _

theorem mlRow_max (e : (⟨S1600000, .f32⟩ : BufTy).Contents (Elt Ideal)) :
    mlRow (Cert.ReferenceIdeal.Fns.col e) (ix2 0 0) = Cert.ReferenceIdeal.Fns.emax e ix0 := by
  unfold mlRow
  refine (pairRow_left _ _ _ _ _).trans ?_
  rw [colMax_eq]

theorem mlRow_sum (e : (⟨S1600000, .f32⟩ : BufTy).Contents (Elt Ideal)) :
    mlRow (Cert.ReferenceIdeal.Fns.col e) (ix2 0 1)
      = Cert.ReferenceIdeal.Fns.esum (Cert.ReferenceIdeal.Fns.eexp e) ix0 := by
  unfold mlRow
  refine (pairRow_right _ _ _ _ _).trans ?_
  rw [colMax_eq, colSum_eq]

theorem msgOf_apply (e : (⟨S1600000, .f32⟩ : BufTy).Contents (Elt Ideal))
    (wsrc : (⟨S1600000x64, .f32⟩ : BufTy).Contents (Elt Ideal)) (r : Fin 1600000) (q : Fin 64) :
    Cert.ReferenceIdeal.Fns.msgOf e wsrc (ix2 r q)
      = Ideal.div (Ideal.exp (e (ix1 r) - Cert.ReferenceIdeal.Fns.emax e ix0))
          (Cert.ReferenceIdeal.Fns.esum (Cert.ReferenceIdeal.Fns.eexp e) ix0) * wsrc (ix2 r q) := by
  unfold Cert.ReferenceIdeal.Fns.msgOf Cert.ReferenceIdeal.Fns.spread Cert.ReferenceIdeal.Fns.col
  refine (msg_apply (Cert.ReferenceIdeal.Fns.att e) wsrc _ rfl _ _ rfl rfl _ r q).trans ?_
  unfold Cert.ReferenceIdeal.Fns.att
  rw [weight_apply, eexp_apply]

-- The reference's message is the edge's softmax weight times its source row, the row's two numbers being the maximum and the sum.
theorem msg_formula (e : (⟨S1600000, .f32⟩ : BufTy).Contents (Elt Ideal))
    (wsrc : (⟨S1600000x64, .f32⟩ : BufTy).Contents (Elt Ideal)) (r : Fin 1600000) (q : Fin 64) :
    Cert.ReferenceIdeal.Fns.msgOf e wsrc (ix2 r q)
      = Ideal.div (Ideal.exp (Cert.ReferenceIdeal.Fns.col e (ix2 r 0) - mlRow (Cert.ReferenceIdeal.Fns.col e) (ix2 0 0)))
          (mlRow (Cert.ReferenceIdeal.Fns.col e) (ix2 0 1)) * wsrc (ix2 r q) := by
  rw [msgOf_apply, mlRow_max, mlRow_sum, col_read, rowOf_ix2]

theorem arr2 (c : Dev nD) (e : (⟨S1600000, .f32⟩ : BufTy).Contents (Elt Ideal)) (wsrc : (⟨S1600000x64, .f32⟩ : BufTy).Contents (Elt Ideal))
    (hml : V c (Pipeline.arrRef spec2 0) = mlRow (Cert.ReferenceIdeal.Fns.col e))
    (hw : V c (Pipeline.arrRef spec2 1) = wsrc) (he : V c (Pipeline.arrRef spec2 2) = Cert.ReferenceIdeal.Fns.col e) :
    (dat2 V c).arrAt 3 cfg2.N = Cert.ReferenceIdeal.Fns.msgOf e wsrc :=
  arr2_of V c _ _ _ _ hml hw he (msg_formula e wsrc)

theorem arr6 (c : Dev nD) (e : (⟨S1600000, .f32⟩ : BufTy).Contents (Elt Ideal)) (wsrc : (⟨S1600000x64, .f32⟩ : BufTy).Contents (Elt Ideal))
    (hml : V c (Pipeline.arrRef spec6 0) = mlRow (Cert.ReferenceIdeal.Fns.col e))
    (hw : V c (Pipeline.arrRef spec6 1) = wsrc) (he : V c (Pipeline.arrRef spec6 2) = Cert.ReferenceIdeal.Fns.col e) :
    (dat6 V c).arrAt 3 cfg6.N = Cert.ReferenceIdeal.Fns.msgOf e wsrc :=
  arr6_of V c _ _ _ _ hml hw he (msg_formula e wsrc)

theorem arr10 (c : Dev nD) (e : (⟨S1600000, .f32⟩ : BufTy).Contents (Elt Ideal)) (wsrc : (⟨S1600000x64, .f32⟩ : BufTy).Contents (Elt Ideal))
    (hml : V c (Pipeline.arrRef spec10 0) = mlRow (Cert.ReferenceIdeal.Fns.col e))
    (hw : V c (Pipeline.arrRef spec10 1) = wsrc) (he : V c (Pipeline.arrRef spec10 2) = Cert.ReferenceIdeal.Fns.col e) :
    (dat10 V c).arrAt 3 cfg10.N = Cert.ReferenceIdeal.Fns.msgOf e wsrc :=
  arr10_of V c _ _ _ _ hml hw he (msg_formula e wsrc)

theorem arr14 (c : Dev nD) (e : (⟨S1600000, .f32⟩ : BufTy).Contents (Elt Ideal)) (wsrc : (⟨S1600000x64, .f32⟩ : BufTy).Contents (Elt Ideal))
    (hml : V c (Pipeline.arrRef spec14 0) = mlRow (Cert.ReferenceIdeal.Fns.col e))
    (hw : V c (Pipeline.arrRef spec14 1) = wsrc) (he : V c (Pipeline.arrRef spec14 2) = Cert.ReferenceIdeal.Fns.col e) :
    (dat14 V c).arrAt 3 cfg14.N = Cert.ReferenceIdeal.Fns.msgOf e wsrc :=
  arr14_of V c _ _ _ _ hml hw he (msg_formula e wsrc)

end Cert.KernelIdeal.Val

end
-- ==== Proof.UpdateAlg.lean ====
import Idealize.ShloMosaic.PureOps.Ideal
import Idealize.ShloMosaic.PureOps.Ideal.Laws

noncomputable section

namespace Cert.UpdateAlg

open Idealize.ShloMosaic

theorem one_f32 : Ideal.ofBits .f32 0x3F800000#32 = 1 := by
  simp [Ideal.ofBits, Ideal.ieee]
  have h : ((8388608 : ℝ) * ((2 : ℝ) ^ 23)⁻¹) = 1 := by norm_num
  exact_mod_cast h

theorem sixtyfour_f32 : Ideal.ofBits .f32 0x42800000#32 = ((64 : ℝ) : EReal) := by
  simp [Ideal.ofBits, Ideal.ieee]
  have h : ((8388608 : ℝ) * ((2 : ℝ) ^ 17)⁻¹) = 64 := by norm_num
  exact_mod_cast h

theorem eps_f32 : ∃ r : ℝ, 0 < r ∧ Ideal.ofBits .f32 0x3727C5AC#32 = (r : EReal) := by
  refine ⟨(10995116 : ℝ) * ((2 : ℝ) ^ 40)⁻¹, by positivity, ?_⟩
  simp [Ideal.ofBits, Ideal.ieee]

theorem select_gt_zero {α : Type} (v : EReal) (a b : α) :
    Scalar.select (Ideal.cmp .ogt v (Ideal.ofBits .f32 0x00000000#32)) a b = if 0 < v then a else b := by
  rw [Ideal.ofBits_zero_f32]
  unfold Scalar.select Ideal.cmp
  by_cases h : 0 < v <;> simp [h]

/-- The exponential linear unit on the extended reals. -/
def eluS (v : EReal) : EReal := if 0 < v then v else Ideal.exp v - 1

theorem elu_kernel (v : EReal) :
    Scalar.select (Ideal.cmp .ogt v (Ideal.ofBits .f32 0x00000000#32)) v (Ideal.exp v - Ideal.ofBits .f32 0x3F800000#32)
      = eluS v := by
  rw [select_gt_zero, one_f32]; rfl

/-- The reference replaces the exponential's argument by `0` where `v > 0`; that branch is never selected, so the result is `elu`. -/
theorem elu_ref (v : EReal) :
    Scalar.select (Ideal.cmp .ogt v (Ideal.ofBits .f32 0x00000000#32)) v
        (Ideal.ofBits .f32 0x3F800000#32
          * (Ideal.exp (Scalar.select (Ideal.cmp .ogt v (Ideal.ofBits .f32 0x00000000#32)) (Ideal.ofBits .f32 0x00000000#32) v) - 1))
      = eluS v := by
  rw [select_gt_zero, select_gt_zero, one_f32, one_mul]
  unfold eluS
  by_cases h : 0 < v
  · rw [if_pos h, if_pos h]
  · rw [if_neg h, if_neg h, if_neg h]

/-- The mean of a row of 64 values. -/
def meanS (x : Fin 64 → EReal) : EReal := Ideal.div (∑ k, x k) (Ideal.ofBits .f32 0x42800000#32)

/-- The variance of a row about its mean. -/
def varS (x : Fin 64 → EReal) : EReal :=
  Ideal.div (∑ k, (x k - meanS x) * (x k - meanS x)) (Ideal.ofBits .f32 0x42800000#32)

/-- The layer normalisation of a row at column `q`, with scale `g` and shift `b`. -/
def lnS (x : Fin 64 → EReal) (g b : EReal) (q : Fin 64) : EReal :=
  g * ((x q - meanS x) * Ideal.rsqrt (varS x + Ideal.ofBits .f32 0x3727C5AC#32)) + b

theorem mul_self_nonneg' (d : EReal) : 0 ≤ d * d := by
  rw [EReal.mul_nonneg_iff]
  rcases le_total 0 d with h | h
  · exact Or.inl ⟨h, h⟩
  · exact Or.inr ⟨h, h⟩

/-- Every square is nonnegative on the extended reals, so the variance is. -/
theorem varS_nonneg (x : Fin 64 → EReal) : 0 ≤ varS x := by
  unfold varS
  rw [sixtyfour_f32, Ideal.div_coe (by norm_num : (64 : ℝ) ≠ 0)]
  refine EReal.mul_nonneg (Finset.sum_nonneg fun k _ => mul_self_nonneg' _) ?_
  exact EReal.coe_nonneg.mpr (by norm_num)

theorem varS_add_eps_pos (x : Fin 64 → EReal) : 0 < varS x + Ideal.ofBits .f32 0x3727C5AC#32 := by
  obtain ⟨r, hr, he⟩ := eps_f32
  rw [he, add_comm]
  exact EReal.add_pos_of_pos_of_nonneg (EReal.coe_pos.mpr hr) (varS_nonneg x)

/-- For `y > 0`, dividing by `√y` is multiplying by `1/√y`; at `y = ⊤` both sides are `a · 0`. -/
theorem div_sqrt_eq_mul_rsqrt (a y : EReal) (hy : 0 < y) : Ideal.div a (Ideal.sqrt y) = a * Ideal.rsqrt y := by
  induction y using EReal.rec with
  | bot => exact absurd hy (not_lt.mpr bot_le)
  | top =>
    rw [Ideal.sqrt_top, Ideal.rsqrt_top, Ideal.div, if_neg (by decide : (⊤ : EReal) ≠ 0), EReal.inv_top]
  | coe r =>
    have hr : 0 < r := EReal.coe_pos.mp hy
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]

theorem mean_ref (x : Fin 64 → EReal) :
    Ideal.div (Ideal.ofBits .f32 0x00000000#32 + ∑ k, x k) (Ideal.ofBits .f32 0x42800000#32) = meanS x := by
  rw [Ideal.ofBits_zero_f32, zero_add]; rfl

/-- The reference divides by `64 - 0` under a test that the divisor is positive, which holds. -/
theorem var_ref (x : Fin 64 → EReal) (fill : EReal) :
    Scalar.select
        (Ideal.cmp .ogt (Ideal.ofBits .f32 0x42800000#32 - (((0#32 : BitVec 32).toInt : ℝ) : EReal)) (Ideal.ofBits .f32 0x00000000#32))
        (Ideal.div (Ideal.ofBits .f32 0x00000000#32 + ∑ k, (x k - meanS x) * (x k - meanS x))
          (Ideal.ofBits .f32 0x42800000#32 - (((0#32 : BitVec 32).toInt : ℝ) : EReal)))
        fill
      = varS x := by
  have h0 : (((0#32 : BitVec 32).toInt : ℝ) : EReal) = 0 := by simp
  rw [select_gt_zero, h0, sub_zero, Ideal.ofBits_zero_f32, zero_add, if_pos]
  · rfl
  · rw [sixtyfour_f32]; exact EReal.coe_pos.mpr (by norm_num)

theorem ln_ref (x : Fin 64 → EReal) (g b : EReal) (q : Fin 64) :
    Ideal.div (g * (x q - meanS x)) (Ideal.sqrt (varS x + Ideal.ofBits .f32 0x3727C5AC#32)) + b = lnS x g b q := by
  rw [div_sqrt_eq_mul_rsqrt _ _ (varS_add_eps_pos x), mul_assoc]; rfl

end Cert.UpdateAlg

end
-- ==== Proof.UpdateRef.lean ====
import proofs.«400993_j24043226923663_1_alg».proof.Proof.Fns
import proofs.«400993_j24043226923663_1_alg».proof.Proof.UpdateAlg
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Upd

open Idealize.ShloMosaic Idealize.ShloMosaic.ValueIdx
open Cert.ReferenceIdeal Cert.ReferenceIdeal.Fns
open Cert.ReferenceIdeal.Facts₀ Cert.ReferenceIdeal.Facts
open Cert.UpdateAlg

theorem col_apply {α : Type} (v : S100000.Idx → α) (h : S100000.BroadcastsInDim S100000x1 ![0]) (p : Fin 100000) (u : Fin 1) :
    broadcastInDim S100000x1 ![0] h v (ix2 p u) = v (ix1 p) := by
  refine broadcastInDim_apply ![0] h v (ix2 p u) (ix1 p) fun ax => ?_
  match ax with
  | ⟨0, _⟩ => rfl

theorem bcol_apply {α : Type} (v : S100000x1.Idx → α) (h : S100000x1.BroadcastsInDim S100000x64 ![0, 1]) (p : Fin 100000) (q : Fin 64) :
    broadcastInDim S100000x64 ![0, 1] h v (ix2 p q) = v (ix2 p (0 : Fin 1)) := by
  refine broadcastInDim_apply ![0, 1] h v (ix2 p q) (ix2 p (0 : Fin 1)) fun ax => ?_
  match ax with
  | ⟨0, _⟩ => rfl
  | ⟨1, _⟩ => rfl

theorem brow_apply {α : Type} (v : S1x64.Idx → α) (h : S1x64.BroadcastsInDim S100000x64 ![0, 1]) (p : Fin 100000) (q : Fin 64) :
    broadcastInDim S100000x64 ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ => rfl

theorem row_apply {α : Type} (v : S64.Idx → α) (h : S64.BroadcastsInDim S1x64 ![1]) (u : Fin 1) (q : Fin 64) :
    broadcastInDim S1x64 ![1] h v (ix2 u q) = v (ix1 q) := by
  refine broadcastInDim_apply ![1] h v (ix2 u q) (ix1 q) fun ax => ?_
  match ax with
  | ⟨0, _⟩ => rfl

theorem rowsum_apply (x : FVec Ideal S100000x64 .f32) (init : S_.Idx → Ideal .f32) (h' : S100000x64.ReducesTo [1] S100000)
    (hu : 0 < S_.numel) (p : Fin 100000) :
    Host.reduceAdd (F := Ideal) x init h' hu (ix1 p) = init (Shape.Idx.first hu) + ∑ k : Fin 64, x (ix2 p k) :=
  (Ideal.hostReduceAdd_single h' (by decide : S100000x64.Reduces [1] S100000) x (init (Shape.Idx.first hu)) (ix1 p)).trans
    (congrArg (init (Shape.Idx.first hu) + ·)
      (Finset.sum_congr rfl fun k _ => congrArg x (funext fun a => by match a with | ⟨0, _⟩ => rfl | ⟨1, _⟩ => rfl)))

theorem elu_apply (h : FVec Ideal S100000x64 .f32) (p : Fin 100000) (q : Fin 64) :
    Fns.elu (F := Ideal) h (ix2 p q) = eluS (h (ix2 p q)) :=
  elu_ref (h (ix2 p q))

theorem rowMean_apply (x : FVec Ideal S100000x64 .f32) (p : Fin 100000) (u : Fin 1) :
    Fns.rowMean (F := Ideal) x (ix2 p u) = meanS (fun k => x (ix2 p k)) := by
  show Ideal.div (broadcastInDim S100000x1 ![0] bcast_S100000_S100000x1_0
        (Host.reduceAdd (F := Ideal) x (constant S_ .f32 0x00000000#32) reducesTo_S100000x64_S100000_d1 h_S_) (ix2 p u))
      (Ideal.ofBits .f32 0x42800000#32) = _
  rw [col_apply, rowsum_apply]
  exact mean_ref _

theorem dev_apply (x : FVec Ideal S100000x64 .f32) (p : Fin 100000) (k : Fin 64) :
    subf x (broadcastInDim S100000x64 ![0, 1] bcast_S100000x1_S100000x64_0_1 (Fns.rowMean (F := Ideal) x)) (ix2 p k)
      = x (ix2 p k) - meanS (fun k => x (ix2 p k)) := by
  show x (ix2 p k) - broadcastInDim S100000x64 ![0, 1] bcast_S100000x1_S100000x64_0_1 (Fns.rowMean (F := Ideal) x) (ix2 p k) = _
  rw [bcol_apply, rowMean_apply]

theorem rowVar_apply (x : FVec Ideal S100000x64 .f32) (p : Fin 100000) (u : Fin 1) :
    Fns.rowVar (F := Ideal) x (ix2 p u) = varS (fun k => x (ix2 p k)) := by
  show Scalar.select
      (Ideal.cmp .ogt (Ideal.ofBits .f32 0x42800000#32 - (((0#32 : BitVec 32).toInt : ℝ) : EReal)) (Ideal.ofBits .f32 0x00000000#32))
      (Ideal.div
        (broadcastInDim S100000x1 ![0] bcast_S100000_S100000x1_0
          (Host.reduceAdd (F := Ideal)
            (mulf (subf x (broadcastInDim S100000x64 ![0, 1] bcast_S100000x1_S100000x64_0_1 (Fns.rowMean (F := Ideal) x)))
              (subf x (broadcastInDim S100000x64 ![0, 1] bcast_S100000x1_S100000x64_0_1 (Fns.rowMean (F := Ideal) x))))
            (constant S_ .f32 0x00000000#32) reducesTo_S100000x64_S100000_d1 h_S_) (ix2 p u))
        (Ideal.ofBits .f32 0x42800000#32 - (((0#32 : BitVec 32).toInt : ℝ) : EReal)))
      (Ideal.ofBits .f32 0x7FC00000#32) = _
  rw [col_apply, rowsum_apply]
  rw [Finset.sum_congr rfl fun k _ =>
    (show (mulf (subf x (broadcastInDim S100000x64 ![0, 1] bcast_S100000x1_S100000x64_0_1 (Fns.rowMean (F := Ideal) x)))
            (subf x (broadcastInDim S100000x64 ![0, 1] bcast_S100000x1_S100000x64_0_1 (Fns.rowMean (F := Ideal) x)))) (ix2 p k)
        = (x (ix2 p k) - meanS (fun k => x (ix2 p k))) * (x (ix2 p k) - meanS (fun k => x (ix2 p k)))
      from congrArg₂ (· * ·) (dev_apply x p k) (dev_apply x p k))]
  exact var_ref _ _

/-- The reference's layer normalisation at `(p, q)` is the row law of row `p`. -/
theorem layerNorm_apply (x : FVec Ideal S100000x64 .f32) (g b : FVec Ideal S64 .f32) (p : Fin 100000) (q : Fin 64) :
    Fns.layerNorm (F := Ideal) x g b (ix2 p q) = lnS (fun k => x (ix2 p k)) (g (ix1 q)) (b (ix1 q)) q := by
  show Ideal.div
        (broadcastInDim S100000x64 ![0, 1] bcast_S1x64_S100000x64_0_1 (broadcastInDim S1x64 ![1] bcast_S64_S1x64_1 g) (ix2 p q)
          * (x (ix2 p q) - broadcastInDim S100000x64 ![0, 1] bcast_S100000x1_S100000x64_0_1 (Fns.rowMean (F := Ideal) x) (ix2 p q)))
        (broadcastInDim S100000x64 ![0, 1] bcast_S100000x1_S100000x64_0_1
          (Host.sqrt (F := Ideal) (addf (Fns.rowVar (F := Ideal) x) (broadcastInDim S100000x1 ![] bcast_S_S100000x1 (constant S_ .f32 0x3727C5AC#32)))) (ix2 p q))
      + broadcastInDim S100000x64 ![0, 1] bcast_S1x64_S100000x64_0_1 (broadcastInDim S1x64 ![1] bcast_S64_S1x64_1 b) (ix2 p q) = _
  rw [brow_apply, row_apply, brow_apply, row_apply, bcol_apply, bcol_apply, rowMean_apply]
  show Ideal.div _ (Ideal.sqrt (Fns.rowVar (F := Ideal) x (ix2 p (0 : Fin 1)) + Ideal.ofBits .f32 0x3727C5AC#32)) + _ = _
  rw [rowVar_apply]
  exact ln_ref _ _ _ _

theorem layerNorm_elu_apply (h : FVec Ideal S100000x64 .f32) (g b : FVec Ideal S64 .f32) (p : Fin 100000) (q : Fin 64) :
    Fns.layerNorm (F := Ideal) (Fns.elu (F := Ideal) h) g b (ix2 p q)
      = lnS (fun k => eluS (h (ix2 p k))) (g (ix1 q)) (b (ix1 q)) q := by
  rw [layerNorm_apply]
  simp only [elu_apply]

/-- The node update as one function of the three arrays: at `(p, q)` the row law of row `p` of `elu` of `h`. -/
def G (h : FVec Ideal S100000x64 .f32) (g b : FVec Ideal S64 .f32) : FVec Ideal S100000x64 .f32 :=
  fun i => lnS (fun k => eluS (h (ix2 (i 0) k))) (g (ix1 (i 1))) (b (ix1 (i 1))) (i 1)

theorem G_apply (h : FVec Ideal S100000x64 .f32) (g b : FVec Ideal S64 .f32) (p : Fin 100000) (q : Fin 64) :
    G h g b (ix2 p q) = lnS (fun k => eluS (h (ix2 p k))) (g (ix1 q)) (b (ix1 q)) q := rfl

theorem G_eq (h : FVec Ideal S100000x64 .f32) (g b : FVec Ideal S64 .f32) :
    G h g b = Fns.layerNorm (F := Ideal) (Fns.elu (F := Ideal) h) g b := by
  funext i
  obtain ⟨p, q, rfl⟩ : ∃ (p : Fin 100000) (q : Fin 64), i = ix2 p q := ⟨i 0, i 1, eq_ix2 i⟩
  exact (layerNorm_elu_apply h g b p q).symm

end Cert.ReferenceIdeal.Upd

end
-- ==== Proof.UpdateTile.lean ====
import Idealize.ShloMosaic.Lib.Pipeline.Value
import Idealize.ShloMosaic.Lib.ValueIdx

namespace Cert.UpdateTile

open Idealize.ShloMosaic Idealize.ShloMosaic.ValueIdx

variable {R C n : Nat}

theorem hz : (![0, 0] : Fin 2 → Nat) = fun _ => 0 := funext fun a => by fin_cases a <;> rfl

/-- A block of `n` whole rows at block index `(i, 0)` starts at row `i · n`: its element `(p, q)` is the array's `(i · n + p, q)`. -/
theorem emb_rows (idx : Fin 2 → Nat) (inb : ∀ a, idx a * ![n, C] a + ![n, C] a ≤ (⟨2, ![R, C]⟩ : Shape).size a)
    {i : Nat} (h : idx 0 = i ∧ idx 1 = 0) (p : Fin n) (q : Fin C) (r : Fin R) (hr : r.val = i * n + p.val) :
    (Rect.unit (s := ⟨2, ![R, C]⟩) (fun a => idx a * ![n, C] a) ![n, C] inb).emb (ix2 p q) = ix2 r q := by
  funext a; apply Fin.ext
  match a with
  | ⟨0, _⟩ => show idx 0 * n + 1 * p.val = r.val; rw [h.1, hr, Nat.one_mul]
  | ⟨1, _⟩ => show idx 1 * C + 1 * q.val = q.val; rw [h.2, Nat.zero_mul, Nat.zero_add, Nat.one_mul]

/-- Row `p` of block `t` of `N` blocks of `n` rows is one of the `N · n` rows. -/
theorem row_lt {N : Nat} (t : Fin N) (p : Fin n) : t.val * n + p.val < N * n :=
  calc t.val * n + p.val < t.val * n + n := Nat.add_lt_add_left p.isLt _
    _ = (t.val + 1) * n := (Nat.succ_mul _ _).symm
    _ ≤ N * n := Nat.mul_le_mul_right n t.isLt

/-- Blocks of `n` whole rows, block `t` at block index `(t, 0)`, cover an array of at most `N · n` rows: row `r` lies in block `r / n`. -/
theorem cover_rows {N : Nat} (hR : R ≤ N * n) (idx : Fin N → Fin 2 → Nat)
    (inb : ∀ t a, idx t a * ![n, C] a + ![n, C] a ≤ (⟨2, ![R, C]⟩ : Shape).size a)
    (h : ∀ t : Fin N, idx t 0 = t.val ∧ idx t 1 = 0) (y : (⟨2, ![R, C]⟩ : Shape).Idx) :
    ∃ t : Fin N, y ∈ (Rect.unit (s := ⟨2, ![R, C]⟩) (fun a => idx t a * ![n, C] a) ![n, C] (inb t)).set := by
  have h0 := idx2_lt0 y
  have hn : 0 < n := Nat.pos_of_ne_zero fun e => by rw [e, Nat.mul_zero] at hR; omega
  refine ⟨⟨(y 0).val / n, Nat.div_lt_of_lt_mul (Nat.mul_comm N n ▸ Nat.lt_of_lt_of_le h0 hR)⟩, ?_⟩
  rw [Rect.mem_set_unit]
  intro a
  match a with
  | ⟨0, _⟩ =>
    show idx _ 0 * n ≤ (y 0).val ∧ (y 0).val < idx _ 0 * n + n
    rw [(h _).1]; exact ⟨Nat.div_mul_le_self _ _, Nat.lt_div_mul_add hn⟩
  | ⟨1, _⟩ =>
    show idx _ 1 * C ≤ (y 1).val ∧ (y 1).val < idx _ 1 * C + C
    rw [(h _).2, Nat.zero_mul, Nat.zero_add]; exact ⟨Nat.zero_le _, idx2_lt1 y⟩

/-- An index in a rectangle of a whole array is under the view of that rectangle. -/
theorem mem_slice_whole {sig : RefSig} {κ : Kind} (b : Ref sig κ) (r : Rect b.ty.shape) {i : b.ty.shape.Idx} (h : i ∈ r.set) :
    i ∈ ((View.whole b).slice r).set := by rw [View.set_slice_whole]; exact h

end Cert.UpdateTile
-- ==== Proof.UpdatePay.lean ====
import proofs.«400993_j24043226923663_1_alg».proof.Proof.Gen.KernelIdeal.Skeleton
import proofs.«400993_j24043226923663_1_alg».proof.Proof.UpdateAlg
import proofs.«400993_j24043226923663_1_alg».proof.Proof.UpdateRef
import proofs.«400993_j24043226923663_1_alg».proof.Proof.UpdateTile

noncomputable section

namespace Cert.KernelIdeal.Upd

open Idealize.ShloMosaic Idealize.ShloMosaic.ValueIdx
open Cert.KernelIdeal Cert.KernelIdeal.Gen
open Cert.UpdateAlg Cert.UpdateTile
open Cert.ReferenceIdeal.Upd (G G_apply)

theorem col_apply {α : Type} (v : S10000.Idx → α) (h : S10000.ShapeCasts S10000x1) (p : Fin 10000) (u : Fin 1) :
    shapeCast S10000x1 v h (ix2 p u) = v (ix1 p) :=
  shapeCast_apply v h _ _ (by
    have hu : u.val = 0 := by omega
    rw [Shape.rowMajor_val_two, Shape.rowMajor_val_one]
    show p.val = p.val * 1 + u.val
    omega)

theorem bcol_apply {α : Type} (v : S10000x1.Idx → α) (h : S10000x1.Broadcasts S10000x64) (p : Fin 10000) (q : Fin 64) :
    broadcastTo S10000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

theorem brow_apply {α : Type} (v : S1x64.Idx → α) (h : S1x64.Broadcasts S10000x64) (p : Fin 10000) (q : Fin 64) :
    broadcastTo S10000x64 v h (ix2 p q) = v (ix2 (0 : Fin 1) q) :=
  broadcastTo_1b_ab_apply v h p q

theorem rowsum_apply (x : FVec Ideal S10000x64 .f32) (h : S10000x64.Reduces [1] S10000) (hφ : FKind.Formats .f32)
    (hacc : (0x00000000#32 : BitVec 32) = FKind.add.neutral .f32 hφ) (p : Fin 10000) :
    multiReduction .add [1] S10000 x 0x00000000#32 h hφ hacc (ix1 p) = ∑ k : Fin 64, x (ix2 p k) :=
  (Ideal.multiReduction_add_single x 0x00000000#32 h hφ hacc (ix1 p)).trans
    (Finset.sum_congr rfl fun k _ => congrArg x (funext fun a => by match a with | ⟨0, _⟩ => rfl | ⟨1, _⟩ => rfl))

def eluB (v : FVec Ideal S10000x64 .f32) : FVec Ideal S10000x64 .f32 :=
  select (cmpf .ogt v (broadcast S10000x64 (Scalar.ofBits .f32 0x00000000#32))) v
    (subf (exp v) (broadcast S10000x64 (Scalar.ofBits .f32 0x3F800000#32)))

def meanC (x : FVec Ideal S10000x64 .f32) : FVec Ideal S10000x1 .f32 :=
  divf (shapeCast S10000x1 (multiReduction .add [1] S10000 x 0x00000000#32 reduces_S10000x64_S10000 (.inl rfl) rfl) shapeCasts_S10000_S10000x1)
    (broadcast S10000x1 (Scalar.ofBits .f32 0x42800000#32))

def devB (x : FVec Ideal S10000x64 .f32) : FVec Ideal S10000x64 .f32 :=
  subf x (broadcastTo S10000x64 (meanC x) broadcasts_S10000x1_S10000x64)

def payS (x : FVec Ideal S10000x64 .f32) (g b : FVec Ideal S1x64 .f32) : FVec Ideal S10000x64 .f32 :=
  addf (mulf (broadcastTo S10000x64 g broadcasts_S1x64_S10000x64)
      (mulf (devB x) (broadcastTo S10000x64 (rsqrt (addf (meanC (mulf (devB x) (devB x))) (broadcast S10000x1 (Scalar.ofBits .f32 0x3727C5AC#32)))) broadcasts_S10000x1_S10000x64)))
    (broadcastTo S10000x64 b broadcasts_S1x64_S10000x64)

/-- The body's payload is the normalisation of `elu` of its first block, up to three identity casts. -/
theorem k3_pay1_eq (v0 : Vec Ideal S10000x64 .f32) (v28 v32 : Vec Ideal S1x64 .f32) :
    k3_pay1 (F := Ideal) v0 v28 v32
      = payS (eluB (shapeCast S10000x64 v0 shapeCasts_S10000x64_S10000x64)) (shapeCast S1x64 v28 shapeCasts_S1x64_S1x64)
          (shapeCast S1x64 v32 shapeCasts_S1x64_S1x64) := rfl

theorem eluB_apply (v : FVec Ideal S10000x64 .f32) (p : Fin 10000) (q : Fin 64) :
    eluB v (ix2 p q) = eluS (v (ix2 p q)) :=
  elu_kernel (v (ix2 p q))

theorem meanC_apply (x : FVec Ideal S10000x64 .f32) (p : Fin 10000) (u : Fin 1) :
    meanC x (ix2 p u) = Ideal.div (∑ k : Fin 64, x (ix2 p k)) (Ideal.ofBits .f32 0x42800000#32) :=
  congrArg (fun s => Ideal.div s (Ideal.ofBits .f32 0x42800000#32))
    ((col_apply _ shapeCasts_S10000_S10000x1 p u).trans (rowsum_apply x reduces_S10000x64_S10000 (.inl rfl) rfl p))

theorem devB_apply (x : FVec Ideal S10000x64 .f32) (p : Fin 10000) (q : Fin 64) :
    devB x (ix2 p q) = x (ix2 p q) - Ideal.div (∑ k : Fin 64, x (ix2 p k)) (Ideal.ofBits .f32 0x42800000#32) := by
  show x (ix2 p q) - broadcastTo S10000x64 (meanC x) broadcasts_S10000x1_S10000x64 (ix2 p q) = _
  rw [bcol_apply, meanC_apply]

theorem payS_apply (x : FVec Ideal S10000x64 .f32) (g b : FVec Ideal S1x64 .f32) (p : Fin 10000) (q : Fin 64) :
    payS x g b (ix2 p q) = lnS (fun k => x (ix2 p k)) (g (ix2 (0 : Fin 1) q)) (b (ix2 (0 : Fin 1) q)) q := by
  show broadcastTo S10000x64 g broadcasts_S1x64_S10000x64 (ix2 p q)
        * (devB x (ix2 p q)
          * broadcastTo S10000x64 (rsqrt (addf (meanC (mulf (devB x) (devB x))) (broadcast S10000x1 (Scalar.ofBits .f32 0x3727C5AC#32)))) broadcasts_S10000x1_S10000x64 (ix2 p q))
      + broadcastTo S10000x64 b broadcasts_S1x64_S10000x64 (ix2 p q) = _
  rw [brow_apply, brow_apply, bcol_apply, devB_apply]
  show _ * (_ * Ideal.rsqrt (meanC (mulf (devB x) (devB x)) (ix2 p (0 : Fin 1)) + Ideal.ofBits .f32 0x3727C5AC#32)) + _ = _
  rw [meanC_apply]
  simp only [mulf_apply, devB_apply]
  rfl

/-- The payload at `(p, q)` is the row law of row `p` of `elu` of the first block. -/
theorem k3_pay1_apply (v0 : Vec Ideal S10000x64 .f32) (v28 v32 : Vec Ideal S1x64 .f32) (p : Fin 10000) (q : Fin 64) :
    k3_pay1 (F := Ideal) v0 v28 v32 (ix2 p q)
      = lnS (fun k => eluS (v0 (ix2 p k))) (v28 (ix2 (0 : Fin 1) q)) (v32 (ix2 (0 : Fin 1) q)) q := by
  rw [k3_pay1_eq, shapeCast_self, shapeCast_self, shapeCast_self, payS_apply]
  simp only [eluB_apply]

/-- Block `t` of the three arrays gives block `t` of the whole-array function: row `p` of the block is row `10000 t + p` of `h`, and both sides are its row law. -/
theorem pay_tile (h : FVec Ideal S100000x64 .f32) (g b : FVec Ideal S64 .f32) (A1 A2 : FVec Ideal S1x64 .f32)
    (hg : A1 = shapeCast S1x64 g shapeCasts_S64_S1x64) (hb : A2 = shapeCast S1x64 b shapeCasts_S64_S1x64)
    {N : Nat} (hN : N * 10000 = 100000) (t : Fin N) {i0 i1 i2 i3 : Fin 2 → Nat}
    {inb0 : ∀ a, i0 a * S10000x64.size a + S10000x64.size a ≤ S100000x64.size a}
    {inb1 : ∀ a, i1 a * S1x64.size a + S1x64.size a ≤ S1x64.size a}
    {inb2 : ∀ a, i2 a * S1x64.size a + S1x64.size a ≤ S1x64.size a}
    {inb3 : ∀ a, i3 a * S10000x64.size a + S10000x64.size a ≤ S100000x64.size a}
    (e : (i0 0 = t.val ∧ i0 1 = 0) ∧ (i1 0 = 0 ∧ i1 1 = 0) ∧ (i2 0 = 0 ∧ i2 1 = 0) ∧ (i3 0 = t.val ∧ i3 1 = 0)) :
    k3_pay1 (F := Ideal)
        (fun j => h ((Rect.unit (s := S100000x64) (fun a => i0 a * S10000x64.size a) S10000x64.size inb0).emb j))
        (fun j => A1 ((Rect.unit (s := S1x64) (fun a => i1 a * S1x64.size a) S1x64.size inb1).emb j))
        (fun j => A2 ((Rect.unit (s := S1x64) (fun a => i2 a * S1x64.size a) S1x64.size inb2).emb j))
      = fun y => G h g b ((Rect.unit (s := S100000x64) (fun a => i3 a * S10000x64.size a) S10000x64.size inb3).emb y) := by
  obtain ⟨e0, e1, e2, e3⟩ := e
  funext y
  obtain ⟨p, q, rfl⟩ : ∃ (p : Fin 10000) (q : Fin 64), y = ix2 p q := ⟨y 0, y 1, eq_ix2 y⟩
  let r : Fin 100000 := ⟨t.val * 10000 + p.val, (row_lt t p).trans_le hN.le⟩
  have e : (fun k => eluS (h ((Rect.unit (s := S100000x64) (fun a => i0 a * S10000x64.size a) S10000x64.size inb0).emb (ix2 p k))))
      = fun k => eluS (h (ix2 r k)) := funext fun k => congrArg (fun i => eluS (h i)) (emb_rows _ _ e0 p k r rfl)
  show _ = G h g b ((Rect.unit (s := S100000x64) (fun a => i3 a * S10000x64.size a) S10000x64.size inb3).emb (ix2 p q))
  rw [emb_rows _ _ e3 p q r rfl, k3_pay1_apply, G_apply, e, emb_rows _ _ e1 0 q 0 rfl, emb_rows _ _ e2 0 q 0 rfl, hg, hb,
    shapeCast_a_1a_apply g shapeCasts_S64_S1x64 0 q, shapeCast_a_1a_apply b shapeCasts_S64_S1x64 0 q]

end Cert.KernelIdeal.Upd

end
-- ==== Proof.UpdateR3.lean ====
import proofs.«400993_j24043226923663_1_alg».proof.Proof.Gen.KernelIdeal.Frame
import proofs.«400993_j24043226923663_1_alg».proof.Proof.UpdatePay

noncomputable section

namespace Cert.KernelIdeal.UpdR3

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.UpdateTile Cert.KernelIdeal.Upd
open Cert.ReferenceIdeal.Upd (G)

variable (V : (c : Dev nD) → (b : Ref sig .tc) → Buf (Elt Ideal) ((c : Thread nD τ).loc b))

/-- The index maps over the grid: the first array's and the output's blocks sit at `(t, 0)`, the scale's and the shift's at `(0, 0)`. -/
theorem idx_facts : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0) :=
  (by decide +kernel : ∀ t : Fin grid3.N, _)

theorem rows : cfg3.N * 10000 = 100000 := by rw [show cfg3.N = 10 from N_3]

/-- The block point `t` leaves is the payload of its three input blocks. -/
theorem flushed_pay (c : Dev nD) (t : Fin cfg3.N) :
    (dat3 V c).flushed 3 t
      = (cfg3.win 3).cut (grid3.coords t) (k3_pay1 (F := Ideal) (iblk3 V c 0 t) (iblk3 V c 1 t) (iblk3 V c 2 t)) := by
  show (cfg3.win 3).cut (grid3.coords t) ((dat3 V c).after 3 t) = _
  rw [after3_3]
  unfold out3_3
  rw [View.canon_unit_zero hz]
  simp only [View.ld_unit_zero (S := S10000x64) hz, View.ld_unit_zero (S := S1x64) hz]

/-- So it is block `t` of the whole-array function of the three arrays. -/
theorem flushed_eq (c : Dev nD) (h : FVec Ideal S100000x64 .f32) (g b : FVec Ideal S64 .f32)
    (hh : V c (Pipeline.arrRef spec3 0) = h)
    (hg : V c (Pipeline.arrRef spec3 1) = shapeCast S1x64 g shapeCasts_S64_S1x64)
    (hb : V c (Pipeline.arrRef spec3 2) = shapeCast S1x64 b shapeCasts_S64_S1x64) (t : Fin cfg3.N) :
    (dat3 V c).flushed 3 t = ((cfg3.win 3).blk t).view.read (Elt Ideal) (G h g b) := by
  subst hh
  rw [flushed_pay]
  exact pay_tile _ g b _ _ hg hb rows t (idx_facts t)

/-- The ten blocks cover the output array. -/
theorem cover (i : S100000x64.Idx) :
    ∃ t : Fin cfg3.N, (cfg3.win 3).flush t = true ∧ i ∈ ((cfg3.win 3).blk t).view.set :=
  (cover_rows rows.ge win3_3.index _ (fun t => (idx_facts t).2.2.2) i).imp fun t ht =>
    ⟨flush3_3 t, mem_slice_whole _ _ ht⟩

end Cert.KernelIdeal.UpdR3

end
-- ==== Proof.UpdateR7.lean ====
import proofs.«400993_j24043226923663_1_alg».proof.Proof.Gen.KernelIdeal.Frame
import proofs.«400993_j24043226923663_1_alg».proof.Proof.UpdatePay

noncomputable section

namespace Cert.KernelIdeal.UpdR7

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.UpdateTile Cert.KernelIdeal.Upd
open Cert.ReferenceIdeal.Upd (G)

variable (V : (c : Dev nD) → (b : Ref sig .tc) → Buf (Elt Ideal) ((c : Thread nD τ).loc b))

/-- The index maps over the grid: the first array's and the output's blocks sit at `(t, 0)`, the scale's and the shift's at `(0, 0)`. -/
theorem idx_facts : ∀ t : Fin cfg7.N,
    (win7_0.index t (0 : Fin 2) = t.val ∧ win7_0.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = t.val ∧ win7_3.index t (1 : Fin 2) = 0) :=
  (by decide +kernel : ∀ t : Fin grid7.N, _)

theorem rows : cfg7.N * 10000 = 100000 := by rw [show cfg7.N = 10 from N_7]

/-- The block point `t` leaves is the payload of its three input blocks. -/
theorem flushed_pay (c : Dev nD) (t : Fin cfg7.N) :
    (dat7 V c).flushed 3 t
      = (cfg7.win 3).cut (grid7.coords t) (k7_pay1 (F := Ideal) (iblk7 V c 0 t) (iblk7 V c 1 t) (iblk7 V c 2 t)) := by
  show (cfg7.win 3).cut (grid7.coords t) ((dat7 V c).after 3 t) = _
  rw [after7_3]
  unfold out7_3
  rw [View.canon_unit_zero hz]
  simp only [View.ld_unit_zero (S := S10000x64) hz, View.ld_unit_zero (S := S1x64) hz]

/-- So it is block `t` of the whole-array function of the three arrays. -/
theorem flushed_eq (c : Dev nD) (h : FVec Ideal S100000x64 .f32) (g b : FVec Ideal S64 .f32)
    (hh : V c (Pipeline.arrRef spec7 0) = h)
    (hg : V c (Pipeline.arrRef spec7 1) = shapeCast S1x64 g shapeCasts_S64_S1x64)
    (hb : V c (Pipeline.arrRef spec7 2) = shapeCast S1x64 b shapeCasts_S64_S1x64) (t : Fin cfg7.N) :
    (dat7 V c).flushed 3 t = ((cfg7.win 3).blk t).view.read (Elt Ideal) (G h g b) := by
  subst hh
  rw [flushed_pay]
  exact pay_tile _ g b _ _ hg hb rows t (idx_facts t)

/-- The ten blocks cover the output array. -/
theorem cover (i : S100000x64.Idx) :
    ∃ t : Fin cfg7.N, (cfg7.win 3).flush t = true ∧ i ∈ ((cfg7.win 3).blk t).view.set :=
  (cover_rows rows.ge win7_3.index _ (fun t => (idx_facts t).2.2.2) i).imp fun t ht =>
    ⟨flush7_3 t, mem_slice_whole _ _ ht⟩

end Cert.KernelIdeal.UpdR7

end
-- ==== Proof.UpdateR11.lean ====
import proofs.«400993_j24043226923663_1_alg».proof.Proof.Gen.KernelIdeal.Frame
import proofs.«400993_j24043226923663_1_alg».proof.Proof.UpdatePay

noncomputable section

namespace Cert.KernelIdeal.UpdR11

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.UpdateTile Cert.KernelIdeal.Upd
open Cert.ReferenceIdeal.Upd (G)

variable (V : (c : Dev nD) → (b : Ref sig .tc) → Buf (Elt Ideal) ((c : Thread nD τ).loc b))

/-- The index maps over the grid: the first array's and the output's blocks sit at `(t, 0)`, the scale's and the shift's at `(0, 0)`. -/
theorem idx_facts : ∀ t : Fin cfg11.N,
    (win11_0.index t (0 : Fin 2) = t.val ∧ win11_0.index t (1 : Fin 2) = 0)
    ∧ (win11_1.index t (0 : Fin 2) = 0 ∧ win11_1.index t (1 : Fin 2) = 0)
    ∧ (win11_2.index t (0 : Fin 2) = 0 ∧ win11_2.index t (1 : Fin 2) = 0)
    ∧ (win11_3.index t (0 : Fin 2) = t.val ∧ win11_3.index t (1 : Fin 2) = 0) :=
  (by decide +kernel : ∀ t : Fin grid11.N, _)

theorem rows : cfg11.N * 10000 = 100000 := by rw [show cfg11.N = 10 from N_11]

/-- The block point `t` leaves is the payload of its three input blocks. -/
theorem flushed_pay (c : Dev nD) (t : Fin cfg11.N) :
    (dat11 V c).flushed 3 t
      = (cfg11.win 3).cut (grid11.coords t) (k11_pay1 (F := Ideal) (iblk11 V c 0 t) (iblk11 V c 1 t) (iblk11 V c 2 t)) := by
  show (cfg11.win 3).cut (grid11.coords t) ((dat11 V c).after 3 t) = _
  rw [after11_3]
  unfold out11_3
  rw [View.canon_unit_zero hz]
  simp only [View.ld_unit_zero (S := S10000x64) hz, View.ld_unit_zero (S := S1x64) hz]

/-- So it is block `t` of the whole-array function of the three arrays. -/
theorem flushed_eq (c : Dev nD) (h : FVec Ideal S100000x64 .f32) (g b : FVec Ideal S64 .f32)
    (hh : V c (Pipeline.arrRef spec11 0) = h)
    (hg : V c (Pipeline.arrRef spec11 1) = shapeCast S1x64 g shapeCasts_S64_S1x64)
    (hb : V c (Pipeline.arrRef spec11 2) = shapeCast S1x64 b shapeCasts_S64_S1x64) (t : Fin cfg11.N) :
    (dat11 V c).flushed 3 t = ((cfg11.win 3).blk t).view.read (Elt Ideal) (G h g b) := by
  subst hh
  rw [flushed_pay]
  exact pay_tile _ g b _ _ hg hb rows t (idx_facts t)

/-- The ten blocks cover the output array. -/
theorem cover (i : S100000x64.Idx) :
    ∃ t : Fin cfg11.N, (cfg11.win 3).flush t = true ∧ i ∈ ((cfg11.win 3).blk t).view.set :=
  (cover_rows rows.ge win11_3.index _ (fun t => (idx_facts t).2.2.2) i).imp fun t ht =>
    ⟨flush11_3 t, mem_slice_whole _ _ ht⟩

end Cert.KernelIdeal.UpdR11

end
-- ==== Proof.UpdateR15.lean ====
import proofs.«400993_j24043226923663_1_alg».proof.Proof.Gen.KernelIdeal.Frame
import proofs.«400993_j24043226923663_1_alg».proof.Proof.UpdatePay

noncomputable section

namespace Cert.KernelIdeal.UpdR15

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.UpdateTile Cert.KernelIdeal.Upd
open Cert.ReferenceIdeal.Upd (G)

variable (V : (c : Dev nD) → (b : Ref sig .tc) → Buf (Elt Ideal) ((c : Thread nD τ).loc b))

/-- The index maps over the grid: the first array's and the output's blocks sit at `(t, 0)`, the scale's and the shift's at `(0, 0)`. -/
theorem idx_facts : ∀ t : Fin cfg15.N,
    (win15_0.index t (0 : Fin 2) = t.val ∧ win15_0.index t (1 : Fin 2) = 0)
    ∧ (win15_1.index t (0 : Fin 2) = 0 ∧ win15_1.index t (1 : Fin 2) = 0)
    ∧ (win15_2.index t (0 : Fin 2) = 0 ∧ win15_2.index t (1 : Fin 2) = 0)
    ∧ (win15_3.index t (0 : Fin 2) = t.val ∧ win15_3.index t (1 : Fin 2) = 0) :=
  (by decide +kernel : ∀ t : Fin grid15.N, _)

theorem rows : cfg15.N * 10000 = 100000 := by rw [show cfg15.N = 10 from N_15]

/-- The block point `t` leaves is the payload of its three input blocks. -/
theorem flushed_pay (c : Dev nD) (t : Fin cfg15.N) :
    (dat15 V c).flushed 3 t
      = (cfg15.win 3).cut (grid15.coords t) (k15_pay1 (F := Ideal) (iblk15 V c 0 t) (iblk15 V c 1 t) (iblk15 V c 2 t)) := by
  show (cfg15.win 3).cut (grid15.coords t) ((dat15 V c).after 3 t) = _
  rw [after15_3]
  unfold out15_3
  rw [View.canon_unit_zero hz]
  simp only [View.ld_unit_zero (S := S10000x64) hz, View.ld_unit_zero (S := S1x64) hz]

/-- So it is block `t` of the whole-array function of the three arrays. -/
theorem flushed_eq (c : Dev nD) (h : FVec Ideal S100000x64 .f32) (g b : FVec Ideal S64 .f32)
    (hh : V c (Pipeline.arrRef spec15 0) = h)
    (hg : V c (Pipeline.arrRef spec15 1) = shapeCast S1x64 g shapeCasts_S64_S1x64)
    (hb : V c (Pipeline.arrRef spec15 2) = shapeCast S1x64 b shapeCasts_S64_S1x64) (t : Fin cfg15.N) :
    (dat15 V c).flushed 3 t = ((cfg15.win 3).blk t).view.read (Elt Ideal) (G h g b) := by
  subst hh
  rw [flushed_pay]
  exact pay_tile _ g b _ _ hg hb rows t (idx_facts t)

/-- The ten blocks cover the output array. -/
theorem cover (i : S100000x64.Idx) :
    ∃ t : Fin cfg15.N, (cfg15.win 3).flush t = true ∧ i ∈ ((cfg15.win 3).blk t).view.set :=
  (cover_rows rows.ge win15_3.index _ (fun t => (idx_facts t).2.2.2) i).imp fun t ht =>
    ⟨flush15_3 t, mem_slice_whole _ _ ht⟩

end Cert.KernelIdeal.UpdR15

end
-- ==== Proof.Update.lean ====
import proofs.«400993_j24043226923663_1_alg».proof.Proof.UpdateR3
import proofs.«400993_j24043226923663_1_alg».proof.Proof.UpdateR7
import proofs.«400993_j24043226923663_1_alg».proof.Proof.UpdateR11
import proofs.«400993_j24043226923663_1_alg».proof.Proof.UpdateR15

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)
open Cert.ReferenceIdeal.Upd (G G_eq)

variable (V : (c : Dev nD) → (b : Ref sig .tc) → Buf (Elt Ideal) ((c : Thread nD τ).loc b))

theorem arr3 (c : Dev nD) (h : (⟨S100000x64, .f32⟩ : BufTy).Contents (Elt Ideal)) (g b : (⟨S64, .f32⟩ : BufTy).Contents (Elt Ideal))
    (hh : V c (Pipeline.arrRef spec3 0) = h)
    (hg : V c (Pipeline.arrRef spec3 1) = shapeCast S1x64 g shapeCasts_S64_S1x64)
    (hb : V c (Pipeline.arrRef spec3 2) = shapeCast S1x64 b shapeCasts_S64_S1x64) :
    (dat3 V c).arrAt 3 cfg3.N = Cert.ReferenceIdeal.Fns.layerNorm (Cert.ReferenceIdeal.Fns.elu h) g b :=
  ((dat3 V c).arrAt_eq_of_cover 3 (G h g b) (fun t _ => UpdR3.flushed_eq V c h g b hh hg hb t) UpdR3.cover).trans (G_eq h g b)

theorem arr7 (c : Dev nD) (h : (⟨S100000x64, .f32⟩ : BufTy).Contents (Elt Ideal)) (g b : (⟨S64, .f32⟩ : BufTy).Contents (Elt Ideal))
    (hh : V c (Pipeline.arrRef spec7 0) = h)
    (hg : V c (Pipeline.arrRef spec7 1) = shapeCast S1x64 g shapeCasts_S64_S1x64)
    (hb : V c (Pipeline.arrRef spec7 2) = shapeCast S1x64 b shapeCasts_S64_S1x64) :
    (dat7 V c).arrAt 3 cfg7.N = Cert.ReferenceIdeal.Fns.layerNorm (Cert.ReferenceIdeal.Fns.elu h) g b :=
  ((dat7 V c).arrAt_eq_of_cover 3 (G h g b) (fun t _ => UpdR7.flushed_eq V c h g b hh hg hb t) UpdR7.cover).trans (G_eq h g b)

theorem arr11 (c : Dev nD) (h : (⟨S100000x64, .f32⟩ : BufTy).Contents (Elt Ideal)) (g b : (⟨S64, .f32⟩ : BufTy).Contents (Elt Ideal))
    (hh : V c (Pipeline.arrRef spec11 0) = h)
    (hg : V c (Pipeline.arrRef spec11 1) = shapeCast S1x64 g shapeCasts_S64_S1x64)
    (hb : V c (Pipeline.arrRef spec11 2) = shapeCast S1x64 b shapeCasts_S64_S1x64) :
    (dat11 V c).arrAt 3 cfg11.N = Cert.ReferenceIdeal.Fns.layerNorm (Cert.ReferenceIdeal.Fns.elu h) g b :=
  ((dat11 V c).arrAt_eq_of_cover 3 (G h g b) (fun t _ => UpdR11.flushed_eq V c h g b hh hg hb t) UpdR11.cover).trans (G_eq h g b)

theorem arr15 (c : Dev nD) (h : (⟨S100000x64, .f32⟩ : BufTy).Contents (Elt Ideal)) (g b : (⟨S64, .f32⟩ : BufTy).Contents (Elt Ideal))
    (hh : V c (Pipeline.arrRef spec15 0) = h)
    (hg : V c (Pipeline.arrRef spec15 1) = shapeCast S1x64 g shapeCasts_S64_S1x64)
    (hb : V c (Pipeline.arrRef spec15 2) = shapeCast S1x64 b shapeCasts_S64_S1x64) :
    (dat15 V c).arrAt 3 cfg15.N = Cert.ReferenceIdeal.Fns.layerNorm (Cert.ReferenceIdeal.Fns.elu h) g b :=
  ((dat15 V c).arrAt_eq_of_cover 3 (G h g b) (fun t _ => UpdR15.flushed_eq V c h g b hh hg hb t) UpdR15.cover).trans (G_eq h g b)

end Cert.KernelIdeal.Val

end
-- ==== Proof.ThreadS.lean ====
import proofs.«400993_j24043226923663_1_alg».proof.Proof.Gen.KernelIdeal.Frame
import proofs.«400993_j24043226923663_1_alg».proof.Proof.Fns
import proofs.«400993_j24043226923663_1_alg».proof.Proof.Dense0
import proofs.«400993_j24043226923663_1_alg».proof.Proof.Score
import proofs.«400993_j24043226923663_1_alg».proof.Proof.Message
import proofs.«400993_j24043226923663_1_alg».proof.Proof.Update
import proofs.«400993_j24043226923663_1_alg».proof.Proof.Take
import Idealize.ShloMosaic.Lib.StableHlo.Run

/-! The first stack, boundary by boundary from the launch memory: each live buffer's contents as a function of the launch
arguments. A host stretch keeps what it does not write; a region keeps what is not its output array. -/

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

namespace ThreadS

/-- Every op of `ops` writes only buffers listed in `wr`. -/
abbrev WritesIn (ops : List (HloOp τ sig (Elt Ideal))) (wr : List (Ref sig .tc)) : Prop :=
  ops.Forall fun op => op.writes ⊆ (wr.map (Proc.devRef (τ := τ) .tc)).toFinset

local macro "writes_in " ops:ident : tactic =>
  `(tactic| (simp only [WritesIn, $ops:ident, List.Forall]
             repeat' apply And.intro
             all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))))

abbrev wr0 : List (Ref sig .tc) := [main_v0, main_v1, main_v2, main_v3, main_v4, main_v5, main_v6, main_v7, main_cst, main_v8, main_v9]
theorem wr0_ok : WritesIn hostOps0 wr0 := by
  writes_in hostOps0

abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v11]
theorem wr1_ok : WritesIn hostOps1 wr1 := by
  writes_in hostOps1

abbrev wr1_1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v12]
theorem wr1_1_ok : WritesIn hostOps1_1 wr1_1 := by
  writes_in hostOps1_1

abbrev wr1_2 : List (Ref sig .tc) := [main_cst_0, main_v13, main_v14]
theorem wr1_2_ok : WritesIn hostOps1_2 wr1_2 := by
  writes_in hostOps1_2

abbrev wr2 : List (Ref sig .tc) := [main_cst_1, main_v16, main_v17, main_v18, main_v19, main_cst_2, main_v20, main_v21, main_v22, main_v23, main_v24]
theorem wr2_ok : WritesIn hostOps2 wr2 := by
  writes_in hostOps2

abbrev wr3 : List (Ref sig .tc) := [main_cst_3, main_v26, main_v27, main_v28, main_v29, main_v30]
theorem wr3_ok : WritesIn hostOps3 wr3 := by
  writes_in hostOps3

abbrev wr4 : List (Ref sig .tc) := [main_cst_4, main_v32, main_v33]
theorem wr4_ok : WritesIn hostOps4 wr4 := by
  writes_in hostOps4

abbrev wr5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v35]
theorem wr5_ok : WritesIn hostOps5 wr5 := by
  writes_in hostOps5

abbrev wr5_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v36]
theorem wr5_1_ok : WritesIn hostOps5_1 wr5_1 := by
  writes_in hostOps5_1

abbrev wr5_2 : List (Ref sig .tc) := [main_cst_5, main_v37, main_v38]
theorem wr5_2_ok : WritesIn hostOps5_2 wr5_2 := by
  writes_in hostOps5_2

abbrev wr6 : List (Ref sig .tc) := [main_cst_6, main_v40, main_v41, main_v42, main_v43, main_cst_7, main_v44, main_v45, main_v46, main_v47, main_v48]
theorem wr6_ok : WritesIn hostOps6 wr6 := by
  writes_in hostOps6

abbrev wr7 : List (Ref sig .tc) := [main_cst_8, main_v50, main_v51, main_v52, main_v53, main_v54]
theorem wr7_ok : WritesIn hostOps7 wr7 := by
  writes_in hostOps7

section Host

variable (V : Valuation τ sig (Elt Ideal))

theorem ofBuf_toBuf {Val : EltTy → Type} {T : BufTy} (x : StableHlo.TRef sig T) (v : T.Contents Val) : x.ofBuf (x.toBuf v) = v := by
  obtain ⟨r, rfl, _, _⟩ := x; rfl

theorem host0_v1 : StableHlo.after (hostOps0 (F := Ideal)) V (Proc.devRef .tc main_v1) = Cert.ReferenceIdeal.Fns.row0 (V (Proc.devRef .tc main_arg1)) := by
  after_results; rfl

theorem host0_v3 : StableHlo.after (hostOps0 (F := Ideal)) V (Proc.devRef .tc main_v3) = Cert.ReferenceIdeal.Fns.row1 (V (Proc.devRef .tc main_arg1)) := by
  after_results; rfl

theorem host0_v9 : StableHlo.after (hostOps0 (F := Ideal)) V (Proc.devRef .tc main_v9) = zeroBias64 := by
  after_results; rfl
set_option maxHeartbeats 1000000 in

theorem host1_v11 : StableHlo.after (hostOps1 (F := Ideal)) V (Proc.devRef .tc main_v11) = takeK (V (Proc.devRef .tc main_v10)) (V (Proc.devRef .tc main_v1)) := by
  after_results_simp
  simp only [ofBuf_toBuf]
  unfold takeK
  have ei : (StableHlo.TRef.of main_v1 : StableHlo.TRef sig ⟨S1600000, .i32⟩).ofBuf (V (Proc.devRef .tc main_v1)) = V (Proc.devRef .tc main_v1) := rfl
  have ex : (StableHlo.TRef.of main_v10 : StableHlo.TRef sig ⟨S100000x64, .f32⟩).ofBuf (V (Proc.devRef .tc main_v10)) = V (Proc.devRef .tc main_v10) := rfl
  have eo : ∀ X, (StableHlo.TRef.of main_v11 : StableHlo.TRef sig ⟨S1600000x64, .f32⟩).toBuf (Val := Elt Ideal) X = X := fun _ => rfl
  rw [ei, ex, eo]
set_option maxHeartbeats 1000000 in

theorem host1_1_v12 : StableHlo.after (hostOps1_1 (F := Ideal)) V (Proc.devRef .tc main_v12) = takeK (V (Proc.devRef .tc main_v10)) (V (Proc.devRef .tc main_v3)) := by
  after_results_simp
  simp only [ofBuf_toBuf]
  unfold takeK
  have ei : (StableHlo.TRef.of main_v3 : StableHlo.TRef sig ⟨S1600000, .i32⟩).ofBuf (V (Proc.devRef .tc main_v3)) = V (Proc.devRef .tc main_v3) := rfl
  have ex : (StableHlo.TRef.of main_v10 : StableHlo.TRef sig ⟨S100000x64, .f32⟩).ofBuf (V (Proc.devRef .tc main_v10)) = V (Proc.devRef .tc main_v10) := rfl
  have eo : ∀ X, (StableHlo.TRef.of main_v12 : StableHlo.TRef sig ⟨S1600000x64, .f32⟩).toBuf (Val := Elt Ideal) X = X := fun _ => rfl
  rw [ei, ex, eo]

theorem host1_2_v14 : StableHlo.after (hostOps1_2 (F := Ideal)) V (Proc.devRef .tc main_v14) = asum11 (V (Proc.devRef .tc main_arg5)) := by
  after_results; rfl

theorem host2_v24 : StableHlo.after (hostOps2 (F := Ideal)) V (Proc.devRef .tc main_v24) = mlRow (V (Proc.devRef .tc main_v15)) := by
  after_results; rfl

theorem host3_v28 : StableHlo.after (hostOps3 (F := Ideal)) V (Proc.devRef .tc main_v28) = Cert.ReferenceIdeal.Fns.segsum (V (Proc.devRef .tc main_v25)) (V (Proc.devRef .tc main_v3)) := by
  after_results; rfl

theorem host3_v29 : StableHlo.after (hostOps3 (F := Ideal)) V (Proc.devRef .tc main_v29) = shapeCast S1x64 (V (Proc.devRef .tc main_arg6)) shapeCasts_S64_S1x64 := by
  after_results; rfl

theorem host3_v30 : StableHlo.after (hostOps3 (F := Ideal)) V (Proc.devRef .tc main_v30) = shapeCast S1x64 (V (Proc.devRef .tc main_arg7)) shapeCasts_S64_S1x64 := by
  after_results; rfl

theorem host4_v33 : StableHlo.after (hostOps4 (F := Ideal)) V (Proc.devRef .tc main_v33) = zeroBias64 := by
  after_results; rfl
set_option maxHeartbeats 1000000 in

theorem host5_v35 : StableHlo.after (hostOps5 (F := Ideal)) V (Proc.devRef .tc main_v35) = takeK (V (Proc.devRef .tc main_v34)) (V (Proc.devRef .tc main_v1)) := by
  after_results_simp
  simp only [ofBuf_toBuf]
  unfold takeK
  have ei : (StableHlo.TRef.of main_v1 : StableHlo.TRef sig ⟨S1600000, .i32⟩).ofBuf (V (Proc.devRef .tc main_v1)) = V (Proc.devRef .tc main_v1) := rfl
  have ex : (StableHlo.TRef.of main_v34 : StableHlo.TRef sig ⟨S100000x64, .f32⟩).ofBuf (V (Proc.devRef .tc main_v34)) = V (Proc.devRef .tc main_v34) := rfl
  have eo : ∀ X, (StableHlo.TRef.of main_v35 : StableHlo.TRef sig ⟨S1600000x64, .f32⟩).toBuf (Val := Elt Ideal) X = X := fun _ => rfl
  rw [ei, ex, eo]
set_option maxHeartbeats 1000000 in

theorem host5_1_v36 : StableHlo.after (hostOps5_1 (F := Ideal)) V (Proc.devRef .tc main_v36) = takeK (V (Proc.devRef .tc main_v34)) (V (Proc.devRef .tc main_v3)) := by
  after_results_simp
  simp only [ofBuf_toBuf]
  unfold takeK
  have ei : (StableHlo.TRef.of main_v3 : StableHlo.TRef sig ⟨S1600000, .i32⟩).ofBuf (V (Proc.devRef .tc main_v3)) = V (Proc.devRef .tc main_v3) := rfl
  have ex : (StableHlo.TRef.of main_v34 : StableHlo.TRef sig ⟨S100000x64, .f32⟩).ofBuf (V (Proc.devRef .tc main_v34)) = V (Proc.devRef .tc main_v34) := rfl
  have eo : ∀ X, (StableHlo.TRef.of main_v36 : StableHlo.TRef sig ⟨S1600000x64, .f32⟩).toBuf (Val := Elt Ideal) X = X := fun _ => rfl
  rw [ei, ex, eo]

theorem host5_2_v38 : StableHlo.after (hostOps5_2 (F := Ideal)) V (Proc.devRef .tc main_v38) = asum11 (V (Proc.devRef .tc main_arg9)) := by
  after_results; rfl

theorem host6_v48 : StableHlo.after (hostOps6 (F := Ideal)) V (Proc.devRef .tc main_v48) = mlRow (V (Proc.devRef .tc main_v39)) := by
  after_results; rfl

theorem host7_v52 : StableHlo.after (hostOps7 (F := Ideal)) V (Proc.devRef .tc main_v52) = Cert.ReferenceIdeal.Fns.segsum (V (Proc.devRef .tc main_v49)) (V (Proc.devRef .tc main_v3)) := by
  after_results; rfl

theorem host7_v53 : StableHlo.after (hostOps7 (F := Ideal)) V (Proc.devRef .tc main_v53) = shapeCast S1x64 (V (Proc.devRef .tc main_arg10)) shapeCasts_S64_S1x64 := by
  after_results; rfl

theorem host7_v54 : StableHlo.after (hostOps7 (F := Ideal)) V (Proc.devRef .tc main_v54) = shapeCast S1x64 (V (Proc.devRef .tc main_arg11)) shapeCasts_S64_S1x64 := by
  after_results; rfl

end Host

variable (m : (ℓ : Loc nD τ sig) → Buf (Elt Ideal) ℓ) (ρ : Dev nD → PrngReg) (c : Dev nD)

theorem keep1 (r : Ref sig .tc) (h : r ∉ wr0) : W1 m ρ c (Proc.devRef .tc r) = W0 m ρ c (Proc.devRef .tc r) :=
  StableHlo.after_of_writes_sub (hostOps0 (F := Ideal)) _ wr0_ok h
theorem keep3 (r : Ref sig .tc) (h : r ∉ wr1) : W3 m ρ c (Proc.devRef .tc r) = W2 m ρ c (Proc.devRef .tc r) :=
  StableHlo.after_of_writes_sub (hostOps1 (F := Ideal)) _ wr1_ok h
theorem keep4 (r : Ref sig .tc) (h : r ∉ wr1_1) : W4 m ρ c (Proc.devRef .tc r) = W3 m ρ c (Proc.devRef .tc r) :=
  StableHlo.after_of_writes_sub (hostOps1_1 (F := Ideal)) _ wr1_1_ok h
theorem keep5 (r : Ref sig .tc) (h : r ∉ wr1_2) : W5 m ρ c (Proc.devRef .tc r) = W4 m ρ c (Proc.devRef .tc r) :=
  StableHlo.after_of_writes_sub (hostOps1_2 (F := Ideal)) _ wr1_2_ok h
theorem keep7 (r : Ref sig .tc) (h : r ∉ wr2) : W7 m ρ c (Proc.devRef .tc r) = W6 m ρ c (Proc.devRef .tc r) :=
  StableHlo.after_of_writes_sub (hostOps2 (F := Ideal)) _ wr2_ok h
theorem keep9 (r : Ref sig .tc) (h : r ∉ wr3) : W9 m ρ c (Proc.devRef .tc r) = W8 m ρ c (Proc.devRef .tc r) :=
  StableHlo.after_of_writes_sub (hostOps3 (F := Ideal)) _ wr3_ok h
theorem keep11 (r : Ref sig .tc) (h : r ∉ wr4) : W11 m ρ c (Proc.devRef .tc r) = W10 m ρ c (Proc.devRef .tc r) :=
  StableHlo.after_of_writes_sub (hostOps4 (F := Ideal)) _ wr4_ok h
theorem keep13 (r : Ref sig .tc) (h : r ∉ wr5) : W13 m ρ c (Proc.devRef .tc r) = W12 m ρ c (Proc.devRef .tc r) :=
  StableHlo.after_of_writes_sub (hostOps5 (F := Ideal)) _ wr5_ok h
theorem keep14 (r : Ref sig .tc) (h : r ∉ wr5_1) : W14 m ρ c (Proc.devRef .tc r) = W13 m ρ c (Proc.devRef .tc r) :=
  StableHlo.after_of_writes_sub (hostOps5_1 (F := Ideal)) _ wr5_1_ok h
theorem keep15 (r : Ref sig .tc) (h : r ∉ wr5_2) : W15 m ρ c (Proc.devRef .tc r) = W14 m ρ c (Proc.devRef .tc r) :=
  StableHlo.after_of_writes_sub (hostOps5_2 (F := Ideal)) _ wr5_2_ok h
theorem keep17 (r : Ref sig .tc) (h : r ∉ wr6) : W17 m ρ c (Proc.devRef .tc r) = W16 m ρ c (Proc.devRef .tc r) :=
  StableHlo.after_of_writes_sub (hostOps6 (F := Ideal)) _ wr6_ok h
theorem keep19 (r : Ref sig .tc) (h : r ∉ wr7) : W19 m ρ c (Proc.devRef .tc r) = W18 m ρ c (Proc.devRef .tc r) :=
  StableHlo.after_of_writes_sub (hostOps7 (F := Ideal)) _ wr7_ok h

abbrev Live : List (Ref sig .tc) := [main_v1, main_v3, main_arg5, main_arg6, main_arg7, main_arg8, main_arg9, main_arg10, main_arg11]

abbrev Live' : List (Ref sig .tc) := [main_v1, main_v3, main_arg9, main_arg10, main_arg11]

theorem live2 (r : Ref sig .tc) (hr : r ∈ Live) : W2 m ρ c (Proc.devRef .tc r) = W1 m ρ c (Proc.devRef .tc r) :=
  W2_of_ne m ρ c r ((by decide : ∀ x ∈ Live, ∀ w, Pipeline.arrRef spec0 w ≠ x) r hr)
theorem live3 (r : Ref sig .tc) (hr : r ∈ Live) : W3 m ρ c (Proc.devRef .tc r) = W1 m ρ c (Proc.devRef .tc r) :=
  (keep3 m ρ c r ((by decide : ∀ x ∈ Live, x ∉ wr1) r hr)).trans (live2 m ρ c r hr)
theorem live4 (r : Ref sig .tc) (hr : r ∈ Live) : W4 m ρ c (Proc.devRef .tc r) = W1 m ρ c (Proc.devRef .tc r) :=
  (keep4 m ρ c r ((by decide : ∀ x ∈ Live, x ∉ wr1_1) r hr)).trans (live3 m ρ c r hr)
theorem live8 (r : Ref sig .tc) (hr : r ∈ Live) : W8 m ρ c (Proc.devRef .tc r) = W1 m ρ c (Proc.devRef .tc r) :=
  (W8_of_ne m ρ c r ((by decide : ∀ x ∈ Live, ∀ w, Pipeline.arrRef spec2 w ≠ x) r hr)).trans <|
  (keep7 m ρ c r ((by decide : ∀ x ∈ Live, x ∉ wr2) r hr)).trans <|
  (W6_of_ne m ρ c r ((by decide : ∀ x ∈ Live, ∀ w, Pipeline.arrRef spec1 w ≠ x) r hr)).trans <|
  (keep5 m ρ c r ((by decide : ∀ x ∈ Live, x ∉ wr1_2) r hr)).trans (live4 m ρ c r hr)
theorem live11 (r : Ref sig .tc) (hr : r ∈ Live) : W11 m ρ c (Proc.devRef .tc r) = W1 m ρ c (Proc.devRef .tc r) :=
  (keep11 m ρ c r ((by decide : ∀ x ∈ Live, x ∉ wr4) r hr)).trans <|
  (W10_of_ne m ρ c r ((by decide : ∀ x ∈ Live, ∀ w, Pipeline.arrRef spec3 w ≠ x) r hr)).trans <|
  (keep9 m ρ c r ((by decide : ∀ x ∈ Live, x ∉ wr3) r hr)).trans (live8 m ρ c r hr)
theorem live12 (r : Ref sig .tc) (hr : r ∈ Live') : W12 m ρ c (Proc.devRef .tc r) = W1 m ρ c (Proc.devRef .tc r) :=
  (W12_of_ne m ρ c r ((by decide : ∀ x ∈ Live', ∀ w, Pipeline.arrRef spec4 w ≠ x) r hr)).trans (live11 m ρ c r ((by decide : ∀ x ∈ Live', x ∈ Live) r hr))
theorem live13 (r : Ref sig .tc) (hr : r ∈ Live') : W13 m ρ c (Proc.devRef .tc r) = W1 m ρ c (Proc.devRef .tc r) :=
  (keep13 m ρ c r ((by decide : ∀ x ∈ Live', x ∉ wr5) r hr)).trans (live12 m ρ c r hr)
theorem live14 (r : Ref sig .tc) (hr : r ∈ Live') : W14 m ρ c (Proc.devRef .tc r) = W1 m ρ c (Proc.devRef .tc r) :=
  (keep14 m ρ c r ((by decide : ∀ x ∈ Live', x ∉ wr5_1) r hr)).trans (live13 m ρ c r hr)
theorem live18 (r : Ref sig .tc) (hr : r ∈ Live') : W18 m ρ c (Proc.devRef .tc r) = W1 m ρ c (Proc.devRef .tc r) :=
  (W18_of_ne m ρ c r ((by decide : ∀ x ∈ Live', ∀ w, Pipeline.arrRef spec6 w ≠ x) r hr)).trans <|
  (keep17 m ρ c r ((by decide : ∀ x ∈ Live', x ∉ wr6) r hr)).trans <|
  (W16_of_ne m ρ c r ((by decide : ∀ x ∈ Live', ∀ w, Pipeline.arrRef spec5 w ≠ x) r hr)).trans <|
  (keep15 m ρ c r ((by decide : ∀ x ∈ Live', x ∉ wr5_2) r hr)).trans (live14 m ρ c r hr)

theorem W1_arg (r : Ref sig .tc) (h : r ∉ wr0) : W1 m ρ c (Proc.devRef .tc r) = m ((c : Thread nD τ).loc r) :=
  (keep1 m ρ c r h).trans rfl

abbrev src : (⟨S1600000, .i32⟩ : BufTy).Contents (Elt Ideal) := Cert.ReferenceIdeal.Fns.row0 (m ((c : Thread nD τ).loc main_arg1))

abbrev dst : (⟨S1600000, .i32⟩ : BufTy).Contents (Elt Ideal) := Cert.ReferenceIdeal.Fns.row1 (m ((c : Thread nD τ).loc main_arg1))

theorem W1_v1 : W1 m ρ c (Proc.devRef .tc main_v1) = src m c := host0_v1 (W0 m ρ c)
theorem W1_v3 : W1 m ρ c (Proc.devRef .tc main_v3) = dst m c := host0_v3 (W0 m ρ c)
theorem W1_v9 : W1 m ρ c (Proc.devRef .tc main_v9) = zeroBias64 := host0_v9 (W0 m ρ c)

def wh0 : (⟨S100000x64, .f32⟩ : BufTy).Contents (Elt Ideal) := Cert.ReferenceIdeal.Fns.dot8 (m ((c : Thread nD τ).loc main_arg0)) (m ((c : Thread nD τ).loc main_arg4))

theorem W2_v10 : W2 m ρ c (Proc.devRef .tc main_v10) = wh0 m c :=
  (W2_arr m ρ c 3).trans (arr0 (V1 m ρ) c _ _ (W1_arg m ρ c main_arg0 (by decide)) (W1_arg m ρ c main_arg4 (by decide)) (W1_v9 m ρ c))

theorem W2_v1 : W2 m ρ c (Proc.devRef .tc main_v1) = src m c := (live2 m ρ c main_v1 (by decide)).trans (W1_v1 m ρ c)

theorem W3_v11 (hsrc : InRange (src m c)) : W3 m ρ c (Proc.devRef .tc main_v11) = Cert.ReferenceIdeal.Fns.gatherRows (wh0 m c) (src m c) := by
  refine (host1_v11 (W2 m ρ c)).trans ?_
  rw [W2_v10 m ρ c, W2_v1 m ρ c]
  exact takeK_eq _ _ hsrc
theorem W3_v10 : W3 m ρ c (Proc.devRef .tc main_v10) = wh0 m c := (keep3 m ρ c main_v10 (by decide)).trans (W2_v10 m ρ c)
theorem W3_v3 : W3 m ρ c (Proc.devRef .tc main_v3) = dst m c := (live3 m ρ c main_v3 (by decide)).trans (W1_v3 m ρ c)

theorem W4_v12 (hdst : InRange (dst m c)) : W4 m ρ c (Proc.devRef .tc main_v12) = Cert.ReferenceIdeal.Fns.gatherRows (wh0 m c) (dst m c) := by
  refine (host1_1_v12 (W3 m ρ c)).trans ?_
  rw [W3_v10 m ρ c, W3_v3 m ρ c]
  exact takeK_eq _ _ hdst
theorem W4_v11 (hsrc : InRange (src m c)) : W4 m ρ c (Proc.devRef .tc main_v11) = Cert.ReferenceIdeal.Fns.gatherRows (wh0 m c) (src m c) :=
  (keep4 m ρ c main_v11 (by decide)).trans (W3_v11 m ρ c hsrc)
theorem W4_arg5 : W4 m ρ c (Proc.devRef .tc main_arg5) = (m ((c : Thread nD τ).loc main_arg5)) :=
  (live4 m ρ c main_arg5 (by decide)).trans (W1_arg m ρ c main_arg5 (by decide))

theorem W5_v14 : W5 m ρ c (Proc.devRef .tc main_v14) = asum11 (m ((c : Thread nD τ).loc main_arg5)) :=
  (host1_2_v14 (W4 m ρ c)).trans (congrArg asum11 (W4_arg5 m ρ c))
theorem W5_v11 (hsrc : InRange (src m c)) : W5 m ρ c (Proc.devRef .tc main_v11) = Cert.ReferenceIdeal.Fns.gatherRows (wh0 m c) (src m c) :=
  (keep5 m ρ c main_v11 (by decide)).trans (W4_v11 m ρ c hsrc)
theorem W5_v12 (hdst : InRange (dst m c)) : W5 m ρ c (Proc.devRef .tc main_v12) = Cert.ReferenceIdeal.Fns.gatherRows (wh0 m c) (dst m c) :=
  (keep5 m ρ c main_v12 (by decide)).trans (W4_v12 m ρ c hdst)

def e0 : (⟨S1600000, .f32⟩ : BufTy).Contents (Elt Ideal) :=
  Cert.ReferenceIdeal.Fns.score (Cert.ReferenceIdeal.Fns.gatherRows (wh0 m c) (src m c)) (Cert.ReferenceIdeal.Fns.gatherRows (wh0 m c) (dst m c)) (m ((c : Thread nD τ).loc main_arg5))

theorem W6_v15 (hsrc : InRange (src m c)) (hdst : InRange (dst m c)) : W6 m ρ c (Proc.devRef .tc main_v15) = Cert.ReferenceIdeal.Fns.col (e0 m c) :=
  (W6_arr m ρ c 3).trans (arr1 (V5 m ρ) c _ _ _ (W5_v14 m ρ c) (W5_v11 m ρ c hsrc) (W5_v12 m ρ c hdst))

theorem W6_v11 (hsrc : InRange (src m c)) : W6 m ρ c (Proc.devRef .tc main_v11) = Cert.ReferenceIdeal.Fns.gatherRows (wh0 m c) (src m c) :=
  ((W6_arr m ρ c 1).trans (((dat1 (V5 m ρ) c).arrAt_in 1 rfl _).trans (A_eq1 (V5 m ρ) c 1))).trans (W5_v11 m ρ c hsrc)

theorem W7_v24 (hsrc : InRange (src m c)) (hdst : InRange (dst m c)) : W7 m ρ c (Proc.devRef .tc main_v24) = mlRow (Cert.ReferenceIdeal.Fns.col (e0 m c)) :=
  (host2_v24 (W6 m ρ c)).trans (congrArg mlRow (W6_v15 m ρ c hsrc hdst))
theorem W7_v11 (hsrc : InRange (src m c)) : W7 m ρ c (Proc.devRef .tc main_v11) = Cert.ReferenceIdeal.Fns.gatherRows (wh0 m c) (src m c) :=
  (keep7 m ρ c main_v11 (by decide)).trans (W6_v11 m ρ c hsrc)
theorem W7_v15 (hsrc : InRange (src m c)) (hdst : InRange (dst m c)) : W7 m ρ c (Proc.devRef .tc main_v15) = Cert.ReferenceIdeal.Fns.col (e0 m c) :=
  (keep7 m ρ c main_v15 (by decide)).trans (W6_v15 m ρ c hsrc hdst)

theorem W8_v25 (hsrc : InRange (src m c)) (hdst : InRange (dst m c)) :
    W8 m ρ c (Proc.devRef .tc main_v25) = Cert.ReferenceIdeal.Fns.msgOf (e0 m c) (Cert.ReferenceIdeal.Fns.gatherRows (wh0 m c) (src m c)) :=
  (W8_arr m ρ c 3).trans (arr2 (V7 m ρ) c _ _ (W7_v24 m ρ c hsrc hdst) (W7_v11 m ρ c hsrc) (W7_v15 m ρ c hsrc hdst))
theorem W8_v3 : W8 m ρ c (Proc.devRef .tc main_v3) = dst m c := (live8 m ρ c main_v3 (by decide)).trans (W1_v3 m ρ c)
theorem W8_arg6 : W8 m ρ c (Proc.devRef .tc main_arg6) = (m ((c : Thread nD τ).loc main_arg6)) :=
  (live8 m ρ c main_arg6 (by decide)).trans (W1_arg m ρ c main_arg6 (by decide))
theorem W8_arg7 : W8 m ρ c (Proc.devRef .tc main_arg7) = (m ((c : Thread nD τ).loc main_arg7)) :=
  (live8 m ρ c main_arg7 (by decide)).trans (W1_arg m ρ c main_arg7 (by decide))

theorem W9_v28 (hsrc : InRange (src m c)) (hdst : InRange (dst m c)) :
    W9 m ρ c (Proc.devRef .tc main_v28) = Cert.ReferenceIdeal.Fns.segsum (Cert.ReferenceIdeal.Fns.msgOf (e0 m c) (Cert.ReferenceIdeal.Fns.gatherRows (wh0 m c) (src m c))) (dst m c) := by
  refine (host3_v28 (W8 m ρ c)).trans ?_
  rw [W8_v25 m ρ c hsrc hdst, W8_v3 m ρ c]
theorem W9_v29 : W9 m ρ c (Proc.devRef .tc main_v29) = shapeCast S1x64 (m ((c : Thread nD τ).loc main_arg6)) shapeCasts_S64_S1x64 := by
  refine (host3_v29 (W8 m ρ c)).trans ?_
  rw [W8_arg6 m ρ c]
theorem W9_v30 : W9 m ρ c (Proc.devRef .tc main_v30) = shapeCast S1x64 (m ((c : Thread nD τ).loc main_arg7)) shapeCasts_S64_S1x64 := by
  refine (host3_v30 (W8 m ρ c)).trans ?_
  rw [W8_arg7 m ρ c]

def hid : (⟨S100000x64, .f32⟩ : BufTy).Contents (Elt Ideal) :=
  Cert.ReferenceIdeal.Fns.gat (wh0 m c) (m ((c : Thread nD τ).loc main_arg5)) (m ((c : Thread nD τ).loc main_arg6)) (m ((c : Thread nD τ).loc main_arg7)) (src m c) (dst m c)

theorem W10_v31 (hsrc : InRange (src m c)) (hdst : InRange (dst m c)) : W10 m ρ c (Proc.devRef .tc main_v31) = hid m c :=
  (W10_arr m ρ c 3).trans (arr3 (V9 m ρ) c _ _ _ (W9_v28 m ρ c hsrc hdst) (W9_v29 m ρ c) (W9_v30 m ρ c))

theorem W11_v31 (hsrc : InRange (src m c)) (hdst : InRange (dst m c)) : W11 m ρ c (Proc.devRef .tc main_v31) = hid m c :=
  (keep11 m ρ c main_v31 (by decide)).trans (W10_v31 m ρ c hsrc hdst)
theorem W11_v33 : W11 m ρ c (Proc.devRef .tc main_v33) = zeroBias64 := host4_v33 (W10 m ρ c)
theorem W11_arg8 : W11 m ρ c (Proc.devRef .tc main_arg8) = (m ((c : Thread nD τ).loc main_arg8)) :=
  (live11 m ρ c main_arg8 (by decide)).trans (W1_arg m ρ c main_arg8 (by decide))

def wh1 : (⟨S100000x64, .f32⟩ : BufTy).Contents (Elt Ideal) := Cert.ReferenceIdeal.Fns.dot64 (hid m c) (m ((c : Thread nD τ).loc main_arg8))

theorem W12_v34 (hsrc : InRange (src m c)) (hdst : InRange (dst m c)) : W12 m ρ c (Proc.devRef .tc main_v34) = wh1 m c :=
  (W12_arr m ρ c 3).trans (arr4 (V11 m ρ) c _ _ (W11_v31 m ρ c hsrc hdst) (W11_arg8 m ρ c) (W11_v33 m ρ c))
theorem W12_v1 : W12 m ρ c (Proc.devRef .tc main_v1) = src m c := (live12 m ρ c main_v1 (by decide)).trans (W1_v1 m ρ c)

theorem W13_v35 (hsrc : InRange (src m c)) (hdst : InRange (dst m c)) : W13 m ρ c (Proc.devRef .tc main_v35) = Cert.ReferenceIdeal.Fns.gatherRows (wh1 m c) (src m c) := by
  refine (host5_v35 (W12 m ρ c)).trans ?_
  rw [W12_v34 m ρ c hsrc hdst, W12_v1 m ρ c]
  exact takeK_eq _ _ hsrc
theorem W13_v34 (hsrc : InRange (src m c)) (hdst : InRange (dst m c)) : W13 m ρ c (Proc.devRef .tc main_v34) = wh1 m c :=
  (keep13 m ρ c main_v34 (by decide)).trans (W12_v34 m ρ c hsrc hdst)
theorem W13_v3 : W13 m ρ c (Proc.devRef .tc main_v3) = dst m c := (live13 m ρ c main_v3 (by decide)).trans (W1_v3 m ρ c)

theorem W14_v36 (hsrc : InRange (src m c)) (hdst : InRange (dst m c)) : W14 m ρ c (Proc.devRef .tc main_v36) = Cert.ReferenceIdeal.Fns.gatherRows (wh1 m c) (dst m c) := by
  refine (host5_1_v36 (W13 m ρ c)).trans ?_
  rw [W13_v34 m ρ c hsrc hdst, W13_v3 m ρ c]
  exact takeK_eq _ _ hdst
theorem W14_v35 (hsrc : InRange (src m c)) (hdst : InRange (dst m c)) : W14 m ρ c (Proc.devRef .tc main_v35) = Cert.ReferenceIdeal.Fns.gatherRows (wh1 m c) (src m c) :=
  (keep14 m ρ c main_v35 (by decide)).trans (W13_v35 m ρ c hsrc hdst)
theorem W14_arg9 : W14 m ρ c (Proc.devRef .tc main_arg9) = (m ((c : Thread nD τ).loc main_arg9)) :=
  (live14 m ρ c main_arg9 (by decide)).trans (W1_arg m ρ c main_arg9 (by decide))

theorem W15_v38 : W15 m ρ c (Proc.devRef .tc main_v38) = asum11 (m ((c : Thread nD τ).loc main_arg9)) :=
  (host5_2_v38 (W14 m ρ c)).trans (congrArg asum11 (W14_arg9 m ρ c))
theorem W15_v35 (hsrc : InRange (src m c)) (hdst : InRange (dst m c)) : W15 m ρ c (Proc.devRef .tc main_v35) = Cert.ReferenceIdeal.Fns.gatherRows (wh1 m c) (src m c) :=
  (keep15 m ρ c main_v35 (by decide)).trans (W14_v35 m ρ c hsrc hdst)
theorem W15_v36 (hsrc : InRange (src m c)) (hdst : InRange (dst m c)) : W15 m ρ c (Proc.devRef .tc main_v36) = Cert.ReferenceIdeal.Fns.gatherRows (wh1 m c) (dst m c) :=
  (keep15 m ρ c main_v36 (by decide)).trans (W14_v36 m ρ c hsrc hdst)

def e1 : (⟨S1600000, .f32⟩ : BufTy).Contents (Elt Ideal) :=
  Cert.ReferenceIdeal.Fns.score (Cert.ReferenceIdeal.Fns.gatherRows (wh1 m c) (src m c)) (Cert.ReferenceIdeal.Fns.gatherRows (wh1 m c) (dst m c)) (m ((c : Thread nD τ).loc main_arg9))

theorem W16_v39 (hsrc : InRange (src m c)) (hdst : InRange (dst m c)) : W16 m ρ c (Proc.devRef .tc main_v39) = Cert.ReferenceIdeal.Fns.col (e1 m c) :=
  (W16_arr m ρ c 3).trans (arr5 (V15 m ρ) c _ _ _ (W15_v38 m ρ c) (W15_v35 m ρ c hsrc hdst) (W15_v36 m ρ c hsrc hdst))

theorem W16_v35 (hsrc : InRange (src m c)) (hdst : InRange (dst m c)) : W16 m ρ c (Proc.devRef .tc main_v35) = Cert.ReferenceIdeal.Fns.gatherRows (wh1 m c) (src m c) :=
  ((W16_arr m ρ c 1).trans (((dat5 (V15 m ρ) c).arrAt_in 1 rfl _).trans (A_eq5 (V15 m ρ) c 1))).trans (W15_v35 m ρ c hsrc hdst)

theorem W17_v48 (hsrc : InRange (src m c)) (hdst : InRange (dst m c)) : W17 m ρ c (Proc.devRef .tc main_v48) = mlRow (Cert.ReferenceIdeal.Fns.col (e1 m c)) :=
  (host6_v48 (W16 m ρ c)).trans (congrArg mlRow (W16_v39 m ρ c hsrc hdst))
theorem W17_v35 (hsrc : InRange (src m c)) (hdst : InRange (dst m c)) : W17 m ρ c (Proc.devRef .tc main_v35) = Cert.ReferenceIdeal.Fns.gatherRows (wh1 m c) (src m c) :=
  (keep17 m ρ c main_v35 (by decide)).trans (W16_v35 m ρ c hsrc hdst)
theorem W17_v39 (hsrc : InRange (src m c)) (hdst : InRange (dst m c)) : W17 m ρ c (Proc.devRef .tc main_v39) = Cert.ReferenceIdeal.Fns.col (e1 m c) :=
  (keep17 m ρ c main_v39 (by decide)).trans (W16_v39 m ρ c hsrc hdst)

theorem W18_v49 (hsrc : InRange (src m c)) (hdst : InRange (dst m c)) :
    W18 m ρ c (Proc.devRef .tc main_v49) = Cert.ReferenceIdeal.Fns.msgOf (e1 m c) (Cert.ReferenceIdeal.Fns.gatherRows (wh1 m c) (src m c)) :=
  (W18_arr m ρ c 3).trans (arr6 (V17 m ρ) c _ _ (W17_v48 m ρ c hsrc hdst) (W17_v35 m ρ c hsrc hdst) (W17_v39 m ρ c hsrc hdst))
theorem W18_v3 : W18 m ρ c (Proc.devRef .tc main_v3) = dst m c := (live18 m ρ c main_v3 (by decide)).trans (W1_v3 m ρ c)
theorem W18_arg10 : W18 m ρ c (Proc.devRef .tc main_arg10) = (m ((c : Thread nD τ).loc main_arg10)) :=
  (live18 m ρ c main_arg10 (by decide)).trans (W1_arg m ρ c main_arg10 (by decide))
theorem W18_arg11 : W18 m ρ c (Proc.devRef .tc main_arg11) = (m ((c : Thread nD τ).loc main_arg11)) :=
  (live18 m ρ c main_arg11 (by decide)).trans (W1_arg m ρ c main_arg11 (by decide))

theorem W19_v52 (hsrc : InRange (src m c)) (hdst : InRange (dst m c)) :
    W19 m ρ c (Proc.devRef .tc main_v52) = Cert.ReferenceIdeal.Fns.segsum (Cert.ReferenceIdeal.Fns.msgOf (e1 m c) (Cert.ReferenceIdeal.Fns.gatherRows (wh1 m c) (src m c))) (dst m c) := by
  refine (host7_v52 (W18 m ρ c)).trans ?_
  rw [W18_v49 m ρ c hsrc hdst, W18_v3 m ρ c]
theorem W19_v53 : W19 m ρ c (Proc.devRef .tc main_v53) = shapeCast S1x64 (m ((c : Thread nD τ).loc main_arg10)) shapeCasts_S64_S1x64 := by
  refine (host7_v53 (W18 m ρ c)).trans ?_
  rw [W18_arg10 m ρ c]
theorem W19_v54 : W19 m ρ c (Proc.devRef .tc main_v54) = shapeCast S1x64 (m ((c : Thread nD τ).loc main_arg11)) shapeCasts_S64_S1x64 := by
  refine (host7_v54 (W18 m ρ c)).trans ?_
  rw [W18_arg11 m ρ c]

theorem W20_v55 (hsrc : InRange (src m c)) (hdst : InRange (dst m c)) :
    W20 m ρ c (Proc.devRef .tc main_v55) = Cert.ReferenceIdeal.Fns.gat (wh1 m c) (m ((c : Thread nD τ).loc main_arg9)) (m ((c : Thread nD τ).loc main_arg10)) (m ((c : Thread nD τ).loc main_arg11)) (src m c) (dst m c) :=
  (W20_arr m ρ c 3).trans (arr7 (V19 m ρ) c _ _ _ (W19_v52 m ρ c hsrc hdst) (W19_v53 m ρ c) (W19_v54 m ρ c))

end ThreadS

theorem stackS (m : (ℓ : Loc nD τ sig) → Buf (Elt Ideal) ℓ) (ρ : Dev nD → PrngReg) (c : Dev nD)
    (hsrc : InRange (Cert.ReferenceIdeal.Fns.row0 (m ((c : Thread nD τ).loc main_arg1))))
    (hdst : InRange (Cert.ReferenceIdeal.Fns.row1 (m ((c : Thread nD τ).loc main_arg1)))) :
    W20 m ρ c (Proc.devRef .tc main_v55) = Cert.ReferenceIdeal.Fns.stack (m ((c : Thread nD τ).loc main_arg0)) (m ((c : Thread nD τ).loc main_arg1))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11)) :=
  (ThreadS.W20_v55 m ρ c hsrc hdst).trans rfl

end Cert.KernelIdeal.Val

end
-- ==== Proof.ThreadT.lean ====
import proofs.«400993_j24043226923663_1_alg».proof.Proof.Gen.KernelIdeal.Frame
import proofs.«400993_j24043226923663_1_alg».proof.Proof.Fns
import proofs.«400993_j24043226923663_1_alg».proof.Proof.Dense0
import proofs.«400993_j24043226923663_1_alg».proof.Proof.Score
import proofs.«400993_j24043226923663_1_alg».proof.Proof.Message
import proofs.«400993_j24043226923663_1_alg».proof.Proof.Update
import proofs.«400993_j24043226923663_1_alg».proof.Proof.Take
import Idealize.ShloMosaic.Lib.StableHlo.Run
import Idealize.ShloMosaic.PureOps.Ideal.Laws

/-! The second stack, boundary by boundary from region 7's exit: the same chain over the second edge table and the second
set of weights, and the first stack's output array untouched from its own region's exit on. -/

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

namespace ThreadT

def wr : ℕ → List (Ref sig .tc)
  | 1 => [main_v0, main_v1, main_v2, main_v3, main_v4, main_v5, main_v6, main_v7, main_cst, main_v8, main_v9]
  | 2 => [main_v10]
  | 3 => [main_call0_c, main_call0_v0, main_call0_v1, main_call0_c_0, main_call0_v2, main_call0_v3, main_call0_v4, main_call0_v5,
      main_call0_c_1, main_call0_c_2, main_call0_v6, main_call0_v7, main_call0_v8, main_call0_v9, main_call0_v10, main_call0_v11,
      main_call0_c_3, main_call0_v12, main_call0_v13, main_call0_v14, main_call0_cst, main_call0_v15, main_v11]
  | 4 => [main_call1_c, main_call1_v0, main_call1_v1, main_call1_c_0, main_call1_v2, main_call1_v3, main_call1_v4, main_call1_v5,
      main_call1_c_1, main_call1_c_2, main_call1_v6, main_call1_v7, main_call1_v8, main_call1_v9, main_call1_v10, main_call1_v11,
      main_call1_c_3, main_call1_v12, main_call1_v13, main_call1_v14, main_call1_cst, main_call1_v15, main_v12]
  | 5 => [main_cst_0, main_v13, main_v14]
  | 6 => [main_v15]
  | 7 => [main_cst_1, main_v16, main_v17, main_v18, main_v19, main_cst_2, main_v20, main_v21, main_v22, main_v23, main_v24]
  | 8 => [main_v25]
  | 9 => [main_cst_3, main_v26, main_v27, main_v28, main_v29, main_v30]
  | 10 => [main_v31]
  | 11 => [main_cst_4, main_v32, main_v33]
  | 12 => [main_v34]
  | 13 => [main_call2_c, main_call2_v0, main_call2_v1, main_call2_c_0, main_call2_v2, main_call2_v3, main_call2_v4, main_call2_v5,
      main_call2_c_1, main_call2_c_2, main_call2_v6, main_call2_v7, main_call2_v8, main_call2_v9, main_call2_v10, main_call2_v11,
      main_call2_c_3, main_call2_v12, main_call2_v13, main_call2_v14, main_call2_cst, main_call2_v15, main_v35]
  | 14 => [main_call3_c, main_call3_v0, main_call3_v1, main_call3_c_0, main_call3_v2, main_call3_v3, main_call3_v4, main_call3_v5,
      main_call3_c_1, main_call3_c_2, main_call3_v6, main_call3_v7, main_call3_v8, main_call3_v9, main_call3_v10, main_call3_v11,
      main_call3_c_3, main_call3_v12, main_call3_v13, main_call3_v14, main_call3_cst, main_call3_v15, main_v36]
  | 15 => [main_cst_5, main_v37, main_v38]
  | 16 => [main_v39]
  | 17 => [main_cst_6, main_v40, main_v41, main_v42, main_v43, main_cst_7, main_v44, main_v45, main_v46, main_v47, main_v48]
  | 18 => [main_v49]
  | 19 => [main_cst_8, main_v50, main_v51, main_v52, main_v53, main_v54]
  | 20 => [main_v55]
  | 21 => [main_cst_9, main_v56, main_v57]
  | 22 => [main_v58]
  | 23 => [main_call4_c, main_call4_v0, main_call4_v1, main_call4_c_0, main_call4_v2, main_call4_v3, main_call4_v4, main_call4_v5,
      main_call4_c_1, main_call4_c_2, main_call4_v6, main_call4_v7, main_call4_v8, main_call4_v9, main_call4_v10, main_call4_v11,
      main_call4_c_3, main_call4_v12, main_call4_v13, main_call4_v14, main_call4_cst, main_call4_v15, main_v59]
  | 24 => [main_call5_c, main_call5_v0, main_call5_v1, main_call5_c_0, main_call5_v2, main_call5_v3, main_call5_v4, main_call5_v5,
      main_call5_c_1, main_call5_c_2, main_call5_v6, main_call5_v7, main_call5_v8, main_call5_v9, main_call5_v10, main_call5_v11,
      main_call5_c_3, main_call5_v12, main_call5_v13, main_call5_v14, main_call5_cst, main_call5_v15, main_v60]
  | 25 => [main_cst_10, main_v61, main_v62]
  | 26 => [main_v63]
  | 27 => [main_cst_11, main_v64, main_v65, main_v66, main_v67, main_cst_12, main_v68, main_v69, main_v70, main_v71, main_v72]
  | 28 => [main_v73]
  | 29 => [main_cst_13, main_v74, main_v75, main_v76, main_v77, main_v78]
  | 30 => [main_v79]
  | 31 => [main_cst_14, main_v80, main_v81]
  | 32 => [main_v82]
  | 33 => [main_call6_c, main_call6_v0, main_call6_v1, main_call6_c_0, main_call6_v2, main_call6_v3, main_call6_v4, main_call6_v5,
      main_call6_c_1, main_call6_c_2, main_call6_v6, main_call6_v7, main_call6_v8, main_call6_v9, main_call6_v10, main_call6_v11,
      main_call6_c_3, main_call6_v12, main_call6_v13, main_call6_v14, main_call6_cst, main_call6_v15, main_v83]
  | 34 => [main_call7_c, main_call7_v0, main_call7_v1, main_call7_c_0, main_call7_v2, main_call7_v3, main_call7_v4, main_call7_v5,
      main_call7_c_1, main_call7_c_2, main_call7_v6, main_call7_v7, main_call7_v8, main_call7_v9, main_call7_v10, main_call7_v11,
      main_call7_c_3, main_call7_v12, main_call7_v13, main_call7_v14, main_call7_cst, main_call7_v15, main_v84]
  | 35 => [main_cst_15, main_v85, main_v86]
  | 36 => [main_v87]
  | 37 => [main_cst_16, main_v88, main_v89, main_v90, main_v91, main_cst_17, main_v92, main_v93, main_v94, main_v95, main_v96]
  | 38 => [main_v97]
  | 39 => [main_cst_18, main_v98, main_v99, main_v100, main_v101, main_v102]
  | 40 => [main_v103]
  | _ => []

local macro "writes_in " ops:ident : tactic =>
  `(tactic|
    (simp only [$ops:ident, List.Forall, StableHlo.nullary_writes, StableHlo.unary_writes, StableHlo.binary_writes,
       StableHlo.ternary_writes, StableHlo.quaternary_writes, StableHlo.reshape_writes, Finset.singleton_subset_iff,
       List.mem_toFinset]
     repeat' apply And.intro
     all_goals exact List.mem_map_of_mem (by decide)))

/-- A region leaves every buffer that is not one of its output arrays as it found it: an input array is read back whole, any other buffer is untouched. -/
theorem keep_region {n : ℕ} (arr : Fin n → Ref sig .tc) (isOut : Fin n → Bool) (F G : Valuation τ sig (Elt Ideal)) (l : List (Ref sig .tc))
    (hin : ∀ w, isOut w = false → F (Proc.devRef .tc (arr w)) = G (Proc.devRef .tc (arr w)))
    (hne : ∀ b, (∀ w, arr w ≠ b) → F (Proc.devRef .tc b) = G (Proc.devRef .tc b))
    (hdec : ∀ w, arr w ∉ l → isOut w = false) (b : Ref sig .tc) (hb : b ∉ l) :
    F (Proc.devRef .tc b) = G (Proc.devRef .tc b) := by
  by_cases h : ∃ w, arr w = b
  · obtain ⟨w, rfl⟩ := h; exact hin w (hdec w hb)
  · exact hne b fun w e => h ⟨w, e⟩

section Keep

variable (c : Dev nD) (b : Ref sig .tc)

theorem keep1 (hb : b ∉ wr 1) : W1 m ρ c (Proc.devRef .tc b) = W0 m ρ c (Proc.devRef .tc b) :=
  StableHlo.after_of_writes_sub hostOps0 _ (by writes_in hostOps0) hb

theorem keep2 (hb : b ∉ wr 2) : W2 m ρ c (Proc.devRef .tc b) = W1 m ρ c (Proc.devRef .tc b) :=
  keep_region (Pipeline.arrRef spec0) (fun w => (cfg0.win w).isOut) _ _ _
    (fun w hw => (W2_arr m ρ c w).trans (((dat0 (V1 m ρ) c).arrAt_in w hw _).trans (A_eq0 (V1 m ρ) c w)))
    (W2_of_ne m ρ c) (by decide) b hb

theorem keep3 (hb : b ∉ wr 3) : W3 m ρ c (Proc.devRef .tc b) = W2 m ρ c (Proc.devRef .tc b) :=
  StableHlo.after_of_writes_sub hostOps1 _ (by writes_in hostOps1) hb

theorem keep4 (hb : b ∉ wr 4) : W4 m ρ c (Proc.devRef .tc b) = W3 m ρ c (Proc.devRef .tc b) :=
  StableHlo.after_of_writes_sub hostOps1_1 _ (by writes_in hostOps1_1) hb

theorem keep5 (hb : b ∉ wr 5) : W5 m ρ c (Proc.devRef .tc b) = W4 m ρ c (Proc.devRef .tc b) :=
  StableHlo.after_of_writes_sub hostOps1_2 _ (by writes_in hostOps1_2) hb

theorem keep6 (hb : b ∉ wr 6) : W6 m ρ c (Proc.devRef .tc b) = W5 m ρ c (Proc.devRef .tc b) :=
  keep_region (Pipeline.arrRef spec1) (fun w => (cfg1.win w).isOut) _ _ _
    (fun w hw => (W6_arr m ρ c w).trans (((dat1 (V5 m ρ) c).arrAt_in w hw _).trans (A_eq1 (V5 m ρ) c w)))
    (W6_of_ne m ρ c) (by decide) b hb

theorem keep7 (hb : b ∉ wr 7) : W7 m ρ c (Proc.devRef .tc b) = W6 m ρ c (Proc.devRef .tc b) :=
  StableHlo.after_of_writes_sub hostOps2 _ (by writes_in hostOps2) hb

theorem keep8 (hb : b ∉ wr 8) : W8 m ρ c (Proc.devRef .tc b) = W7 m ρ c (Proc.devRef .tc b) :=
  keep_region (Pipeline.arrRef spec2) (fun w => (cfg2.win w).isOut) _ _ _
    (fun w hw => (W8_arr m ρ c w).trans (((dat2 (V7 m ρ) c).arrAt_in w hw _).trans (A_eq2 (V7 m ρ) c w)))
    (W8_of_ne m ρ c) (by decide) b hb

theorem keep9 (hb : b ∉ wr 9) : W9 m ρ c (Proc.devRef .tc b) = W8 m ρ c (Proc.devRef .tc b) :=
  StableHlo.after_of_writes_sub hostOps3 _ (by writes_in hostOps3) hb

theorem keep10 (hb : b ∉ wr 10) : W10 m ρ c (Proc.devRef .tc b) = W9 m ρ c (Proc.devRef .tc b) :=
  keep_region (Pipeline.arrRef spec3) (fun w => (cfg3.win w).isOut) _ _ _
    (fun w hw => (W10_arr m ρ c w).trans (((dat3 (V9 m ρ) c).arrAt_in w hw _).trans (A_eq3 (V9 m ρ) c w)))
    (W10_of_ne m ρ c) (by decide) b hb

theorem keep11 (hb : b ∉ wr 11) : W11 m ρ c (Proc.devRef .tc b) = W10 m ρ c (Proc.devRef .tc b) :=
  StableHlo.after_of_writes_sub hostOps4 _ (by writes_in hostOps4) hb

theorem keep12 (hb : b ∉ wr 12) : W12 m ρ c (Proc.devRef .tc b) = W11 m ρ c (Proc.devRef .tc b) :=
  keep_region (Pipeline.arrRef spec4) (fun w => (cfg4.win w).isOut) _ _ _
    (fun w hw => (W12_arr m ρ c w).trans (((dat4 (V11 m ρ) c).arrAt_in w hw _).trans (A_eq4 (V11 m ρ) c w)))
    (W12_of_ne m ρ c) (by decide) b hb

theorem keep13 (hb : b ∉ wr 13) : W13 m ρ c (Proc.devRef .tc b) = W12 m ρ c (Proc.devRef .tc b) :=
  StableHlo.after_of_writes_sub hostOps5 _ (by writes_in hostOps5) hb

theorem keep14 (hb : b ∉ wr 14) : W14 m ρ c (Proc.devRef .tc b) = W13 m ρ c (Proc.devRef .tc b) :=
  StableHlo.after_of_writes_sub hostOps5_1 _ (by writes_in hostOps5_1) hb

theorem keep15 (hb : b ∉ wr 15) : W15 m ρ c (Proc.devRef .tc b) = W14 m ρ c (Proc.devRef .tc b) :=
  StableHlo.after_of_writes_sub hostOps5_2 _ (by writes_in hostOps5_2) hb

theorem keep16 (hb : b ∉ wr 16) : W16 m ρ c (Proc.devRef .tc b) = W15 m ρ c (Proc.devRef .tc b) :=
  keep_region (Pipeline.arrRef spec5) (fun w => (cfg5.win w).isOut) _ _ _
    (fun w hw => (W16_arr m ρ c w).trans (((dat5 (V15 m ρ) c).arrAt_in w hw _).trans (A_eq5 (V15 m ρ) c w)))
    (W16_of_ne m ρ c) (by decide) b hb

theorem keep17 (hb : b ∉ wr 17) : W17 m ρ c (Proc.devRef .tc b) = W16 m ρ c (Proc.devRef .tc b) :=
  StableHlo.after_of_writes_sub hostOps6 _ (by writes_in hostOps6) hb

theorem keep18 (hb : b ∉ wr 18) : W18 m ρ c (Proc.devRef .tc b) = W17 m ρ c (Proc.devRef .tc b) :=
  keep_region (Pipeline.arrRef spec6) (fun w => (cfg6.win w).isOut) _ _ _
    (fun w hw => (W18_arr m ρ c w).trans (((dat6 (V17 m ρ) c).arrAt_in w hw _).trans (A_eq6 (V17 m ρ) c w)))
    (W18_of_ne m ρ c) (by decide) b hb

theorem keep19 (hb : b ∉ wr 19) : W19 m ρ c (Proc.devRef .tc b) = W18 m ρ c (Proc.devRef .tc b) :=
  StableHlo.after_of_writes_sub hostOps7 _ (by writes_in hostOps7) hb

theorem keep20 (hb : b ∉ wr 20) : W20 m ρ c (Proc.devRef .tc b) = W19 m ρ c (Proc.devRef .tc b) :=
  keep_region (Pipeline.arrRef spec7) (fun w => (cfg7.win w).isOut) _ _ _
    (fun w hw => (W20_arr m ρ c w).trans (((dat7 (V19 m ρ) c).arrAt_in w hw _).trans (A_eq7 (V19 m ρ) c w)))
    (W20_of_ne m ρ c) (by decide) b hb

theorem keep21 (hb : b ∉ wr 21) : W21 m ρ c (Proc.devRef .tc b) = W20 m ρ c (Proc.devRef .tc b) :=
  StableHlo.after_of_writes_sub hostOps8 _ (by writes_in hostOps8) hb

theorem keep22 (hb : b ∉ wr 22) : W22 m ρ c (Proc.devRef .tc b) = W21 m ρ c (Proc.devRef .tc b) :=
  keep_region (Pipeline.arrRef spec8) (fun w => (cfg8.win w).isOut) _ _ _
    (fun w hw => (W22_arr m ρ c w).trans (((dat8 (V21 m ρ) c).arrAt_in w hw _).trans (A_eq8 (V21 m ρ) c w)))
    (W22_of_ne m ρ c) (by decide) b hb

theorem keep23 (hb : b ∉ wr 23) : W23 m ρ c (Proc.devRef .tc b) = W22 m ρ c (Proc.devRef .tc b) :=
  StableHlo.after_of_writes_sub hostOps9 _ (by writes_in hostOps9) hb

theorem keep24 (hb : b ∉ wr 24) : W24 m ρ c (Proc.devRef .tc b) = W23 m ρ c (Proc.devRef .tc b) :=
  StableHlo.after_of_writes_sub hostOps9_1 _ (by writes_in hostOps9_1) hb

theorem keep25 (hb : b ∉ wr 25) : W25 m ρ c (Proc.devRef .tc b) = W24 m ρ c (Proc.devRef .tc b) :=
  StableHlo.after_of_writes_sub hostOps9_2 _ (by writes_in hostOps9_2) hb

theorem keep26 (hb : b ∉ wr 26) : W26 m ρ c (Proc.devRef .tc b) = W25 m ρ c (Proc.devRef .tc b) :=
  keep_region (Pipeline.arrRef spec9) (fun w => (cfg9.win w).isOut) _ _ _
    (fun w hw => (W26_arr m ρ c w).trans (((dat9 (V25 m ρ) c).arrAt_in w hw _).trans (A_eq9 (V25 m ρ) c w)))
    (W26_of_ne m ρ c) (by decide) b hb

theorem keep27 (hb : b ∉ wr 27) : W27 m ρ c (Proc.devRef .tc b) = W26 m ρ c (Proc.devRef .tc b) :=
  StableHlo.after_of_writes_sub hostOps10 _ (by writes_in hostOps10) hb

theorem keep28 (hb : b ∉ wr 28) : W28 m ρ c (Proc.devRef .tc b) = W27 m ρ c (Proc.devRef .tc b) :=
  keep_region (Pipeline.arrRef spec10) (fun w => (cfg10.win w).isOut) _ _ _
    (fun w hw => (W28_arr m ρ c w).trans (((dat10 (V27 m ρ) c).arrAt_in w hw _).trans (A_eq10 (V27 m ρ) c w)))
    (W28_of_ne m ρ c) (by decide) b hb

theorem keep29 (hb : b ∉ wr 29) : W29 m ρ c (Proc.devRef .tc b) = W28 m ρ c (Proc.devRef .tc b) :=
  StableHlo.after_of_writes_sub hostOps11 _ (by writes_in hostOps11) hb

theorem keep30 (hb : b ∉ wr 30) : W30 m ρ c (Proc.devRef .tc b) = W29 m ρ c (Proc.devRef .tc b) :=
  keep_region (Pipeline.arrRef spec11) (fun w => (cfg11.win w).isOut) _ _ _
    (fun w hw => (W30_arr m ρ c w).trans (((dat11 (V29 m ρ) c).arrAt_in w hw _).trans (A_eq11 (V29 m ρ) c w)))
    (W30_of_ne m ρ c) (by decide) b hb

theorem keep31 (hb : b ∉ wr 31) : W31 m ρ c (Proc.devRef .tc b) = W30 m ρ c (Proc.devRef .tc b) :=
  StableHlo.after_of_writes_sub hostOps12 _ (by writes_in hostOps12) hb

theorem keep32 (hb : b ∉ wr 32) : W32 m ρ c (Proc.devRef .tc b) = W31 m ρ c (Proc.devRef .tc b) :=
  keep_region (Pipeline.arrRef spec12) (fun w => (cfg12.win w).isOut) _ _ _
    (fun w hw => (W32_arr m ρ c w).trans (((dat12 (V31 m ρ) c).arrAt_in w hw _).trans (A_eq12 (V31 m ρ) c w)))
    (W32_of_ne m ρ c) (by decide) b hb

theorem keep33 (hb : b ∉ wr 33) : W33 m ρ c (Proc.devRef .tc b) = W32 m ρ c (Proc.devRef .tc b) :=
  StableHlo.after_of_writes_sub hostOps13 _ (by writes_in hostOps13) hb

theorem keep34 (hb : b ∉ wr 34) : W34 m ρ c (Proc.devRef .tc b) = W33 m ρ c (Proc.devRef .tc b) :=
  StableHlo.after_of_writes_sub hostOps13_1 _ (by writes_in hostOps13_1) hb

theorem keep35 (hb : b ∉ wr 35) : W35 m ρ c (Proc.devRef .tc b) = W34 m ρ c (Proc.devRef .tc b) :=
  StableHlo.after_of_writes_sub hostOps13_2 _ (by writes_in hostOps13_2) hb

theorem keep36 (hb : b ∉ wr 36) : W36 m ρ c (Proc.devRef .tc b) = W35 m ρ c (Proc.devRef .tc b) :=
  keep_region (Pipeline.arrRef spec13) (fun w => (cfg13.win w).isOut) _ _ _
    (fun w hw => (W36_arr m ρ c w).trans (((dat13 (V35 m ρ) c).arrAt_in w hw _).trans (A_eq13 (V35 m ρ) c w)))
    (W36_of_ne m ρ c) (by decide) b hb

theorem keep37 (hb : b ∉ wr 37) : W37 m ρ c (Proc.devRef .tc b) = W36 m ρ c (Proc.devRef .tc b) :=
  StableHlo.after_of_writes_sub hostOps14 _ (by writes_in hostOps14) hb

theorem keep38 (hb : b ∉ wr 38) : W38 m ρ c (Proc.devRef .tc b) = W37 m ρ c (Proc.devRef .tc b) :=
  keep_region (Pipeline.arrRef spec14) (fun w => (cfg14.win w).isOut) _ _ _
    (fun w hw => (W38_arr m ρ c w).trans (((dat14 (V37 m ρ) c).arrAt_in w hw _).trans (A_eq14 (V37 m ρ) c w)))
    (W38_of_ne m ρ c) (by decide) b hb

theorem keep39 (hb : b ∉ wr 39) : W39 m ρ c (Proc.devRef .tc b) = W38 m ρ c (Proc.devRef .tc b) :=
  StableHlo.after_of_writes_sub hostOps15 _ (by writes_in hostOps15) hb

theorem keep40 (hb : b ∉ wr 40) : W40 m ρ c (Proc.devRef .tc b) = W39 m ρ c (Proc.devRef .tc b) :=
  keep_region (Pipeline.arrRef spec15) (fun w => (cfg15.win w).isOut) _ _ _
    (fun w hw => (W40_arr m ρ c w).trans (((dat15 (V39 m ρ) c).arrAt_in w hw _).trans (A_eq15 (V39 m ρ) c w)))
    (W40_of_ne m ρ c) (by decide) b hb

end Keep

def Keeps (A B : Valuation τ sig (Elt Ideal)) (l : List (Ref sig .tc)) : Prop :=
  ∀ b : Ref sig .tc, b ∉ l → B (Proc.devRef .tc b) = A (Proc.devRef .tc b)

theorem Keeps.comp {A B C : Valuation τ sig (Elt Ideal)} {l₁ l₂ : List (Ref sig .tc)}
    (h₁ : Keeps A B l₁) (h₂ : Keeps B C l₂) : Keeps A C (l₁ ++ l₂) :=
  fun b hb => (h₂ b fun h => hb (List.mem_append_right _ h)).trans (h₁ b fun h => hb (List.mem_append_left _ h))

section Ranges

variable (c : Dev nD)

def K1_20 :=
  (Keeps.comp (keep2 m ρ c) <| Keeps.comp (keep3 m ρ c) <| Keeps.comp (keep4 m ρ c) <| Keeps.comp (keep5 m ρ c) <|
   Keeps.comp (keep6 m ρ c) <| Keeps.comp (keep7 m ρ c) <| Keeps.comp (keep8 m ρ c) <| Keeps.comp (keep9 m ρ c) <|
   Keeps.comp (keep10 m ρ c) <| Keeps.comp (keep11 m ρ c) <| Keeps.comp (keep12 m ρ c) <| Keeps.comp (keep13 m ρ c) <|
   Keeps.comp (keep14 m ρ c) <| Keeps.comp (keep15 m ρ c) <| Keeps.comp (keep16 m ρ c) <| Keeps.comp (keep17 m ρ c) <|
   Keeps.comp (keep18 m ρ c) <| Keeps.comp (keep19 m ρ c) (keep20 m ρ c) :
   Keeps (W1 m ρ c) (W20 m ρ c) _)

def K1_21 := (Keeps.comp (K1_20 m ρ c) (keep21 m ρ c) : Keeps (W1 m ρ c) (W21 m ρ c) _)
def K0_21 := (Keeps.comp (keep1 m ρ c) (K1_21 m ρ c) : Keeps (W0 m ρ c) (W21 m ρ c) _)
def K1_22 := (Keeps.comp (K1_21 m ρ c) (keep22 m ρ c) : Keeps (W1 m ρ c) (W22 m ρ c) _)
def K1_23 := (Keeps.comp (K1_22 m ρ c) (keep23 m ρ c) : Keeps (W1 m ρ c) (W23 m ρ c) _)
def K1_24 := (Keeps.comp (K1_23 m ρ c) (keep24 m ρ c) : Keeps (W1 m ρ c) (W24 m ρ c) _)
def K0_24 := (Keeps.comp (keep1 m ρ c) (K1_24 m ρ c) : Keeps (W0 m ρ c) (W24 m ρ c) _)

def K1_28 :=
  (Keeps.comp (K1_24 m ρ c) <| Keeps.comp (keep25 m ρ c) <| Keeps.comp (keep26 m ρ c) <| Keeps.comp (keep27 m ρ c) (keep28 m ρ c) :
   Keeps (W1 m ρ c) (W28 m ρ c) _)
def K0_28 := (Keeps.comp (keep1 m ρ c) (K1_28 m ρ c) : Keeps (W0 m ρ c) (W28 m ρ c) _)

def K1_31 :=
  (Keeps.comp (K1_28 m ρ c) <| Keeps.comp (keep29 m ρ c) <| Keeps.comp (keep30 m ρ c) (keep31 m ρ c) :
   Keeps (W1 m ρ c) (W31 m ρ c) _)
def K0_31 := (Keeps.comp (keep1 m ρ c) (K1_31 m ρ c) : Keeps (W0 m ρ c) (W31 m ρ c) _)
def K1_32 := (Keeps.comp (K1_31 m ρ c) (keep32 m ρ c) : Keeps (W1 m ρ c) (W32 m ρ c) _)
def K1_33 := (Keeps.comp (K1_32 m ρ c) (keep33 m ρ c) : Keeps (W1 m ρ c) (W33 m ρ c) _)
def K1_34 := (Keeps.comp (K1_33 m ρ c) (keep34 m ρ c) : Keeps (W1 m ρ c) (W34 m ρ c) _)
def K0_34 := (Keeps.comp (keep1 m ρ c) (K1_34 m ρ c) : Keeps (W0 m ρ c) (W34 m ρ c) _)

def K1_38 :=
  (Keeps.comp (K1_34 m ρ c) <| Keeps.comp (keep35 m ρ c) <| Keeps.comp (keep36 m ρ c) <| Keeps.comp (keep37 m ρ c) (keep38 m ρ c) :
   Keeps (W1 m ρ c) (W38 m ρ c) _)
def K0_38 := (Keeps.comp (keep1 m ρ c) (K1_38 m ρ c) : Keeps (W0 m ρ c) (W38 m ρ c) _)

def K23_25 := (Keeps.comp (keep24 m ρ c) (keep25 m ρ c) : Keeps (W23 m ρ c) (W25 m ρ c) _)
def K25_27 := (Keeps.comp (keep26 m ρ c) (keep27 m ρ c) : Keeps (W25 m ρ c) (W27 m ρ c) _)
def K33_35 := (Keeps.comp (keep34 m ρ c) (keep35 m ρ c) : Keeps (W33 m ρ c) (W35 m ρ c) _)
def K35_37 := (Keeps.comp (keep36 m ρ c) (keep37 m ρ c) : Keeps (W35 m ρ c) (W37 m ρ c) _)

def K20_40 :=
  (Keeps.comp (keep21 m ρ c) <| Keeps.comp (keep22 m ρ c) <| Keeps.comp (keep23 m ρ c) <| Keeps.comp (keep24 m ρ c) <|
   Keeps.comp (keep25 m ρ c) <| Keeps.comp (keep26 m ρ c) <| Keeps.comp (keep27 m ρ c) <| Keeps.comp (keep28 m ρ c) <|
   Keeps.comp (keep29 m ρ c) <| Keeps.comp (keep30 m ρ c) <| Keeps.comp (keep31 m ρ c) <| Keeps.comp (keep32 m ρ c) <|
   Keeps.comp (keep33 m ρ c) <| Keeps.comp (keep34 m ρ c) <| Keeps.comp (keep35 m ρ c) <| Keeps.comp (keep36 m ρ c) <|
   Keeps.comp (keep37 m ρ c) <| Keeps.comp (keep38 m ρ c) <| Keeps.comp (keep39 m ρ c) (keep40 m ρ c) :
   Keeps (W20 m ρ c) (W40 m ρ c) _)

end Ranges

section HostResults

theorem ofBuf_toBuf {T : BufTy} (x : StableHlo.TRef sig T) (v : T.Contents (Elt Ideal)) : x.ofBuf (x.toBuf v) = v := by
  obtain ⟨r, rfl, h2, h3⟩ := x
  rfl

variable (V : Valuation τ sig (Elt Ideal))

theorem host0_v5 (ei : (⟨S2x1600000, .i32⟩ : BufTy).Contents (Elt Ideal)) (h : V (Proc.devRef .tc main_arg3) = ei) :
    StableHlo.after hostOps0 V (Proc.devRef .tc main_v5) = Cert.ReferenceIdeal.Fns.row0 ei := by
  subst h
  after_results
  rfl

theorem host0_v7 (ei : (⟨S2x1600000, .i32⟩ : BufTy).Contents (Elt Ideal)) (h : V (Proc.devRef .tc main_arg3) = ei) :
    StableHlo.after hostOps0 V (Proc.devRef .tc main_v7) = Cert.ReferenceIdeal.Fns.row1 ei := by
  subst h
  after_results
  rfl

theorem host8_v57 : StableHlo.after hostOps8 V (Proc.devRef .tc main_v57) = zeroBias64 := by
  after_results
  rfl

set_option maxHeartbeats 2000000 in

theorem host9_v59_typed (x : (⟨S100000x64, .f32⟩ : BufTy).Contents (Elt Ideal)) (i : (⟨S1600000, .i32⟩ : BufTy).Contents (Elt Ideal))
    (hx : (StableHlo.TRef.of main_v58 : StableHlo.TRef sig ⟨S100000x64, .f32⟩).ofBuf (V (Proc.devRef .tc main_v58)) = x)
    (hi : (StableHlo.TRef.of main_v5 : StableHlo.TRef sig ⟨S1600000, .i32⟩).ofBuf (V (Proc.devRef .tc main_v5)) = i) :
    StableHlo.after hostOps9 V (Proc.devRef .tc main_v59)
      = (StableHlo.TRef.of main_v59 : StableHlo.TRef sig ⟨S1600000x64, .f32⟩).toBuf (takeK x i) := by
  subst hx hi
  after_results
  simp only [ofBuf_toBuf]
  rfl

theorem host9_v59 (x : (⟨S100000x64, .f32⟩ : BufTy).Contents (Elt Ideal)) (i : (⟨S1600000, .i32⟩ : BufTy).Contents (Elt Ideal))
    (hx : V (Proc.devRef .tc main_v58) = x) (hi : V (Proc.devRef .tc main_v5) = i) :
    StableHlo.after hostOps9 V (Proc.devRef .tc main_v59) = takeK x i := by
  have hx' : (StableHlo.TRef.of main_v58 : StableHlo.TRef sig ⟨S100000x64, .f32⟩).ofBuf (V (Proc.devRef .tc main_v58)) = x := hx
  have hi' : (StableHlo.TRef.of main_v5 : StableHlo.TRef sig ⟨S1600000, .i32⟩).ofBuf (V (Proc.devRef .tc main_v5)) = i := hi
  have h := host9_v59_typed V x i hx' hi'
  generalize takeK x i = t at h ⊢
  exact h

set_option maxHeartbeats 2000000 in

theorem host9_1_v60_typed (x : (⟨S100000x64, .f32⟩ : BufTy).Contents (Elt Ideal)) (i : (⟨S1600000, .i32⟩ : BufTy).Contents (Elt Ideal))
    (hx : (StableHlo.TRef.of main_v58 : StableHlo.TRef sig ⟨S100000x64, .f32⟩).ofBuf (V (Proc.devRef .tc main_v58)) = x)
    (hi : (StableHlo.TRef.of main_v7 : StableHlo.TRef sig ⟨S1600000, .i32⟩).ofBuf (V (Proc.devRef .tc main_v7)) = i) :
    StableHlo.after hostOps9_1 V (Proc.devRef .tc main_v60)
      = (StableHlo.TRef.of main_v60 : StableHlo.TRef sig ⟨S1600000x64, .f32⟩).toBuf (takeK x i) := by
  subst hx hi
  after_results
  simp only [ofBuf_toBuf]
  rfl

theorem host9_1_v60 (x : (⟨S100000x64, .f32⟩ : BufTy).Contents (Elt Ideal)) (i : (⟨S1600000, .i32⟩ : BufTy).Contents (Elt Ideal))
    (hx : V (Proc.devRef .tc main_v58) = x) (hi : V (Proc.devRef .tc main_v7) = i) :
    StableHlo.after hostOps9_1 V (Proc.devRef .tc main_v60) = takeK x i := by
  have hx' : (StableHlo.TRef.of main_v58 : StableHlo.TRef sig ⟨S100000x64, .f32⟩).ofBuf (V (Proc.devRef .tc main_v58)) = x := hx
  have hi' : (StableHlo.TRef.of main_v7 : StableHlo.TRef sig ⟨S1600000, .i32⟩).ofBuf (V (Proc.devRef .tc main_v7)) = i := hi
  have h := host9_1_v60_typed V x i hx' hi'
  generalize takeK x i = t at h ⊢
  exact h

theorem host9_2_v62 (a : (⟨S128x1, .f32⟩ : BufTy).Contents (Elt Ideal)) (h : V (Proc.devRef .tc main_arg13) = a) :
    StableHlo.after hostOps9_2 V (Proc.devRef .tc main_v62) = asum11 a := by
  subst h
  after_results
  rfl

theorem host10_v72 (e1 : (⟨S1600000x1, .f32⟩ : BufTy).Contents (Elt Ideal)) (h : V (Proc.devRef .tc main_v63) = e1) :
    StableHlo.after hostOps10 V (Proc.devRef .tc main_v72) = mlRow e1 := by
  subst h
  after_results
  rfl

theorem host11_v76 (u : (⟨S1600000x64, .f32⟩ : BufTy).Contents (Elt Ideal)) (d : (⟨S1600000, .i32⟩ : BufTy).Contents (Elt Ideal))
    (hu : V (Proc.devRef .tc main_v73) = u) (hd : V (Proc.devRef .tc main_v7) = d) :
    StableHlo.after hostOps11 V (Proc.devRef .tc main_v76) = Cert.ReferenceIdeal.Fns.segsum u d := by
  subst hu hd
  after_results
  rfl

theorem host11_v77 (g : (⟨S64, .f32⟩ : BufTy).Contents (Elt Ideal)) (h : V (Proc.devRef .tc main_arg14) = g) :
    StableHlo.after hostOps11 V (Proc.devRef .tc main_v77) = shapeCast S1x64 g shapeCasts_S64_S1x64 := by
  subst h
  after_results
  rfl

theorem host11_v78 (g : (⟨S64, .f32⟩ : BufTy).Contents (Elt Ideal)) (h : V (Proc.devRef .tc main_arg15) = g) :
    StableHlo.after hostOps11 V (Proc.devRef .tc main_v78) = shapeCast S1x64 g shapeCasts_S64_S1x64 := by
  subst h
  after_results
  rfl

theorem host12_v81 : StableHlo.after hostOps12 V (Proc.devRef .tc main_v81) = zeroBias64 := by
  after_results
  rfl

set_option maxHeartbeats 2000000 in

theorem host13_v83_typed (x : (⟨S100000x64, .f32⟩ : BufTy).Contents (Elt Ideal)) (i : (⟨S1600000, .i32⟩ : BufTy).Contents (Elt Ideal))
    (hx : (StableHlo.TRef.of main_v82 : StableHlo.TRef sig ⟨S100000x64, .f32⟩).ofBuf (V (Proc.devRef .tc main_v82)) = x)
    (hi : (StableHlo.TRef.of main_v5 : StableHlo.TRef sig ⟨S1600000, .i32⟩).ofBuf (V (Proc.devRef .tc main_v5)) = i) :
    StableHlo.after hostOps13 V (Proc.devRef .tc main_v83)
      = (StableHlo.TRef.of main_v83 : StableHlo.TRef sig ⟨S1600000x64, .f32⟩).toBuf (takeK x i) := by
  subst hx hi
  after_results
  simp only [ofBuf_toBuf]
  rfl

theorem host13_v83 (x : (⟨S100000x64, .f32⟩ : BufTy).Contents (Elt Ideal)) (i : (⟨S1600000, .i32⟩ : BufTy).Contents (Elt Ideal))
    (hx : V (Proc.devRef .tc main_v82) = x) (hi : V (Proc.devRef .tc main_v5) = i) :
    StableHlo.after hostOps13 V (Proc.devRef .tc main_v83) = takeK x i := by
  have hx' : (StableHlo.TRef.of main_v82 : StableHlo.TRef sig ⟨S100000x64, .f32⟩).ofBuf (V (Proc.devRef .tc main_v82)) = x := hx
  have hi' : (StableHlo.TRef.of main_v5 : StableHlo.TRef sig ⟨S1600000, .i32⟩).ofBuf (V (Proc.devRef .tc main_v5)) = i := hi
  have h := host13_v83_typed V x i hx' hi'
  generalize takeK x i = t at h ⊢
  exact h

set_option maxHeartbeats 2000000 in

theorem host13_1_v84_typed (x : (⟨S100000x64, .f32⟩ : BufTy).Contents (Elt Ideal)) (i : (⟨S1600000, .i32⟩ : BufTy).Contents (Elt Ideal))
    (hx : (StableHlo.TRef.of main_v82 : StableHlo.TRef sig ⟨S100000x64, .f32⟩).ofBuf (V (Proc.devRef .tc main_v82)) = x)
    (hi : (StableHlo.TRef.of main_v7 : StableHlo.TRef sig ⟨S1600000, .i32⟩).ofBuf (V (Proc.devRef .tc main_v7)) = i) :
    StableHlo.after hostOps13_1 V (Proc.devRef .tc main_v84)
      = (StableHlo.TRef.of main_v84 : StableHlo.TRef sig ⟨S1600000x64, .f32⟩).toBuf (takeK x i) := by
  subst hx hi
  after_results
  simp only [ofBuf_toBuf]
  rfl

theorem host13_1_v84 (x : (⟨S100000x64, .f32⟩ : BufTy).Contents (Elt Ideal)) (i : (⟨S1600000, .i32⟩ : BufTy).Contents (Elt Ideal))
    (hx : V (Proc.devRef .tc main_v82) = x) (hi : V (Proc.devRef .tc main_v7) = i) :
    StableHlo.after hostOps13_1 V (Proc.devRef .tc main_v84) = takeK x i := by
  have hx' : (StableHlo.TRef.of main_v82 : StableHlo.TRef sig ⟨S100000x64, .f32⟩).ofBuf (V (Proc.devRef .tc main_v82)) = x := hx
  have hi' : (StableHlo.TRef.of main_v7 : StableHlo.TRef sig ⟨S1600000, .i32⟩).ofBuf (V (Proc.devRef .tc main_v7)) = i := hi
  have h := host13_1_v84_typed V x i hx' hi'
  generalize takeK x i = t at h ⊢
  exact h

theorem host13_2_v86 (a : (⟨S128x1, .f32⟩ : BufTy).Contents (Elt Ideal)) (h : V (Proc.devRef .tc main_arg17) = a) :
    StableHlo.after hostOps13_2 V (Proc.devRef .tc main_v86) = asum11 a := by
  subst h
  after_results
  rfl

theorem host14_v96 (e1 : (⟨S1600000x1, .f32⟩ : BufTy).Contents (Elt Ideal)) (h : V (Proc.devRef .tc main_v87) = e1) :
    StableHlo.after hostOps14 V (Proc.devRef .tc main_v96) = mlRow e1 := by
  subst h
  after_results
  rfl

theorem host15_v100 (u : (⟨S1600000x64, .f32⟩ : BufTy).Contents (Elt Ideal)) (d : (⟨S1600000, .i32⟩ : BufTy).Contents (Elt Ideal))
    (hu : V (Proc.devRef .tc main_v97) = u) (hd : V (Proc.devRef .tc main_v7) = d) :
    StableHlo.after hostOps15 V (Proc.devRef .tc main_v100) = Cert.ReferenceIdeal.Fns.segsum u d := by
  subst hu hd
  after_results
  rfl

theorem host15_v101 (g : (⟨S64, .f32⟩ : BufTy).Contents (Elt Ideal)) (h : V (Proc.devRef .tc main_arg18) = g) :
    StableHlo.after hostOps15 V (Proc.devRef .tc main_v101) = shapeCast S1x64 g shapeCasts_S64_S1x64 := by
  subst h
  after_results
  rfl

theorem host15_v102 (g : (⟨S64, .f32⟩ : BufTy).Contents (Elt Ideal)) (h : V (Proc.devRef .tc main_arg19) = g) :
    StableHlo.after hostOps15 V (Proc.devRef .tc main_v102) = shapeCast S1x64 g shapeCasts_S64_S1x64 := by
  subst h
  after_results
  rfl

end HostResults

section Chain

variable (c : Dev nD)

abbrev tX : (⟨S100000x8, .f32⟩ : BufTy).Contents (Elt Ideal) := m ((c : Thread nD τ).loc main_arg0)

abbrev tEi : (⟨S2x1600000, .i32⟩ : BufTy).Contents (Elt Ideal) := m ((c : Thread nD τ).loc main_arg3)

abbrev tW0 : (⟨S8x64, .f32⟩ : BufTy).Contents (Elt Ideal) := m ((c : Thread nD τ).loc main_arg12)
abbrev tA0 : (⟨S128x1, .f32⟩ : BufTy).Contents (Elt Ideal) := m ((c : Thread nD τ).loc main_arg13)
abbrev tG0 : (⟨S64, .f32⟩ : BufTy).Contents (Elt Ideal) := m ((c : Thread nD τ).loc main_arg14)
abbrev tB0 : (⟨S64, .f32⟩ : BufTy).Contents (Elt Ideal) := m ((c : Thread nD τ).loc main_arg15)

abbrev tW1 : (⟨S64x64, .f32⟩ : BufTy).Contents (Elt Ideal) := m ((c : Thread nD τ).loc main_arg16)
abbrev tA1 : (⟨S128x1, .f32⟩ : BufTy).Contents (Elt Ideal) := m ((c : Thread nD τ).loc main_arg17)
abbrev tG1 : (⟨S64, .f32⟩ : BufTy).Contents (Elt Ideal) := m ((c : Thread nD τ).loc main_arg18)
abbrev tB1 : (⟨S64, .f32⟩ : BufTy).Contents (Elt Ideal) := m ((c : Thread nD τ).loc main_arg19)

abbrev tSrc : (⟨S1600000, .i32⟩ : BufTy).Contents (Elt Ideal) := Cert.ReferenceIdeal.Fns.row0 (tEi m c)
abbrev tDst : (⟨S1600000, .i32⟩ : BufTy).Contents (Elt Ideal) := Cert.ReferenceIdeal.Fns.row1 (tEi m c)

abbrev tWh0 : (⟨S100000x64, .f32⟩ : BufTy).Contents (Elt Ideal) := Cert.ReferenceIdeal.Fns.dot8 (tX m c) (tW0 m c)
abbrev tS0 : (⟨S1600000x64, .f32⟩ : BufTy).Contents (Elt Ideal) := Cert.ReferenceIdeal.Fns.gatherRows (tWh0 m c) (tSrc m c)
abbrev tD0 : (⟨S1600000x64, .f32⟩ : BufTy).Contents (Elt Ideal) := Cert.ReferenceIdeal.Fns.gatherRows (tWh0 m c) (tDst m c)
abbrev tE0 : (⟨S1600000, .f32⟩ : BufTy).Contents (Elt Ideal) := Cert.ReferenceIdeal.Fns.score (tS0 m c) (tD0 m c) (tA0 m c)
abbrev tH1 : (⟨S100000x64, .f32⟩ : BufTy).Contents (Elt Ideal) := Cert.ReferenceIdeal.Fns.gat (tWh0 m c) (tA0 m c) (tG0 m c) (tB0 m c) (tSrc m c) (tDst m c)

abbrev tWh1 : (⟨S100000x64, .f32⟩ : BufTy).Contents (Elt Ideal) := Cert.ReferenceIdeal.Fns.dot64 (tH1 m c) (tW1 m c)
abbrev tS1 : (⟨S1600000x64, .f32⟩ : BufTy).Contents (Elt Ideal) := Cert.ReferenceIdeal.Fns.gatherRows (tWh1 m c) (tSrc m c)
abbrev tD1 : (⟨S1600000x64, .f32⟩ : BufTy).Contents (Elt Ideal) := Cert.ReferenceIdeal.Fns.gatherRows (tWh1 m c) (tDst m c)
abbrev tE1 : (⟨S1600000, .f32⟩ : BufTy).Contents (Elt Ideal) := Cert.ReferenceIdeal.Fns.score (tS1 m c) (tD1 m c) (tA1 m c)

theorem W1_v5 : W1 m ρ c (Proc.devRef .tc main_v5) = tSrc m c :=
  host0_v5 (W0 m ρ c) _ rfl

theorem W1_v7 : W1 m ρ c (Proc.devRef .tc main_v7) = tDst m c :=
  host0_v7 (W0 m ρ c) _ rfl

theorem W21_arg0 : W21 m ρ c (Proc.devRef .tc main_arg0) = tX m c :=
  K0_21 m ρ c main_arg0 (by decide)

theorem W21_arg12 : W21 m ρ c (Proc.devRef .tc main_arg12) = tW0 m c :=
  K0_21 m ρ c main_arg12 (by decide)

theorem W21_v57 : W21 m ρ c (Proc.devRef .tc main_v57) = zeroBias64 :=
  host8_v57 (W20 m ρ c)

theorem W22_v58 : W22 m ρ c (Proc.devRef .tc main_v58) = tWh0 m c :=
  (W22_arr m ρ c 3).trans (arr8 (V21 m ρ) c _ _ (W21_arg0 m ρ c) (W21_arg12 m ρ c) (W21_v57 m ρ c))

theorem W22_v5 : W22 m ρ c (Proc.devRef .tc main_v5) = tSrc m c :=
  (K1_22 m ρ c main_v5 (by decide)).trans (W1_v5 m ρ c)

theorem W23_v59 (hsrc : InRange (tSrc m c)) : W23 m ρ c (Proc.devRef .tc main_v59) = tS0 m c :=
  (host9_v59 (W22 m ρ c) _ _ (W22_v58 m ρ c) (W22_v5 m ρ c)).trans (takeK_eq _ _ hsrc)

theorem W23_v7 : W23 m ρ c (Proc.devRef .tc main_v7) = tDst m c :=
  (K1_23 m ρ c main_v7 (by decide)).trans (W1_v7 m ρ c)

theorem W23_v58 : W23 m ρ c (Proc.devRef .tc main_v58) = tWh0 m c :=
  (keep23 m ρ c main_v58 (by decide)).trans (W22_v58 m ρ c)

theorem W24_v60 (hdst : InRange (tDst m c)) : W24 m ρ c (Proc.devRef .tc main_v60) = tD0 m c :=
  (host9_1_v60 (W23 m ρ c) _ _ (W23_v58 m ρ c) (W23_v7 m ρ c)).trans (takeK_eq _ _ hdst)

theorem W24_arg13 : W24 m ρ c (Proc.devRef .tc main_arg13) = tA0 m c :=
  K0_24 m ρ c main_arg13 (by decide)

theorem W25_v62 : W25 m ρ c (Proc.devRef .tc main_v62) = asum11 (tA0 m c) :=
  host9_2_v62 (W24 m ρ c) _ (W24_arg13 m ρ c)

theorem W25_v59 (hsrc : InRange (tSrc m c)) : W25 m ρ c (Proc.devRef .tc main_v59) = tS0 m c :=
  (K23_25 m ρ c main_v59 (by decide)).trans (W23_v59 m ρ c hsrc)

theorem W25_v60 (hdst : InRange (tDst m c)) : W25 m ρ c (Proc.devRef .tc main_v60) = tD0 m c :=
  (keep25 m ρ c main_v60 (by decide)).trans (W24_v60 m ρ c hdst)

theorem W26_v63 (hsrc : InRange (tSrc m c)) (hdst : InRange (tDst m c)) :
    W26 m ρ c (Proc.devRef .tc main_v63) = Cert.ReferenceIdeal.Fns.col (tE0 m c) :=
  (W26_arr m ρ c 3).trans
    (arr9 (V25 m ρ) c _ _ _ (W25_v62 m ρ c) (W25_v59 m ρ c hsrc) (W25_v60 m ρ c hdst))

theorem W27_v72 (hsrc : InRange (tSrc m c)) (hdst : InRange (tDst m c)) :
    W27 m ρ c (Proc.devRef .tc main_v72) = mlRow (Cert.ReferenceIdeal.Fns.col (tE0 m c)) :=
  host10_v72 (W26 m ρ c) _ (W26_v63 m ρ c hsrc hdst)

theorem W27_v59 (hsrc : InRange (tSrc m c)) : W27 m ρ c (Proc.devRef .tc main_v59) = tS0 m c :=
  (K25_27 m ρ c main_v59 (by decide)).trans (W25_v59 m ρ c hsrc)

theorem W27_v63 (hsrc : InRange (tSrc m c)) (hdst : InRange (tDst m c)) :
    W27 m ρ c (Proc.devRef .tc main_v63) = Cert.ReferenceIdeal.Fns.col (tE0 m c) :=
  (keep27 m ρ c main_v63 (by decide)).trans (W26_v63 m ρ c hsrc hdst)

theorem W28_v73 (hsrc : InRange (tSrc m c)) (hdst : InRange (tDst m c)) :
    W28 m ρ c (Proc.devRef .tc main_v73) = Cert.ReferenceIdeal.Fns.msgOf (tE0 m c) (tS0 m c) :=
  (W28_arr m ρ c 3).trans
    (arr10 (V27 m ρ) c _ _ (W27_v72 m ρ c hsrc hdst) (W27_v59 m ρ c hsrc) (W27_v63 m ρ c hsrc hdst))

theorem W28_v7 : W28 m ρ c (Proc.devRef .tc main_v7) = tDst m c :=
  (K1_28 m ρ c main_v7 (by decide)).trans (W1_v7 m ρ c)

theorem W28_arg14 : W28 m ρ c (Proc.devRef .tc main_arg14) = tG0 m c :=
  K0_28 m ρ c main_arg14 (by decide)

theorem W28_arg15 : W28 m ρ c (Proc.devRef .tc main_arg15) = tB0 m c :=
  K0_28 m ρ c main_arg15 (by decide)

theorem W29_v76 (hsrc : InRange (tSrc m c)) (hdst : InRange (tDst m c)) :
    W29 m ρ c (Proc.devRef .tc main_v76) = Cert.ReferenceIdeal.Fns.segsum (Cert.ReferenceIdeal.Fns.msgOf (tE0 m c) (tS0 m c)) (tDst m c) :=
  host11_v76 (W28 m ρ c) _ _ (W28_v73 m ρ c hsrc hdst) (W28_v7 m ρ c)

theorem W29_v77 : W29 m ρ c (Proc.devRef .tc main_v77) = shapeCast S1x64 (tG0 m c) shapeCasts_S64_S1x64 :=
  host11_v77 (W28 m ρ c) _ (W28_arg14 m ρ c)

theorem W29_v78 : W29 m ρ c (Proc.devRef .tc main_v78) = shapeCast S1x64 (tB0 m c) shapeCasts_S64_S1x64 :=
  host11_v78 (W28 m ρ c) _ (W28_arg15 m ρ c)

theorem W30_v79 (hsrc : InRange (tSrc m c)) (hdst : InRange (tDst m c)) :
    W30 m ρ c (Proc.devRef .tc main_v79) = tH1 m c :=
  (W30_arr m ρ c 3).trans
    (arr11 (V29 m ρ) c _ _ _ (W29_v76 m ρ c hsrc hdst) (W29_v77 m ρ c) (W29_v78 m ρ c))

theorem W31_v79 (hsrc : InRange (tSrc m c)) (hdst : InRange (tDst m c)) :
    W31 m ρ c (Proc.devRef .tc main_v79) = tH1 m c :=
  (keep31 m ρ c main_v79 (by decide)).trans (W30_v79 m ρ c hsrc hdst)

theorem W31_arg16 : W31 m ρ c (Proc.devRef .tc main_arg16) = tW1 m c :=
  K0_31 m ρ c main_arg16 (by decide)

theorem W31_v81 : W31 m ρ c (Proc.devRef .tc main_v81) = zeroBias64 :=
  host12_v81 (W30 m ρ c)

theorem W32_v82 (hsrc : InRange (tSrc m c)) (hdst : InRange (tDst m c)) :
    W32 m ρ c (Proc.devRef .tc main_v82) = tWh1 m c :=
  (W32_arr m ρ c 3).trans
    (arr12 (V31 m ρ) c _ _ (W31_v79 m ρ c hsrc hdst) (W31_arg16 m ρ c) (W31_v81 m ρ c))

theorem W32_v5 : W32 m ρ c (Proc.devRef .tc main_v5) = tSrc m c :=
  (K1_32 m ρ c main_v5 (by decide)).trans (W1_v5 m ρ c)

theorem W33_v83 (hsrc : InRange (tSrc m c)) (hdst : InRange (tDst m c)) :
    W33 m ρ c (Proc.devRef .tc main_v83) = tS1 m c :=
  (host13_v83 (W32 m ρ c) _ _ (W32_v82 m ρ c hsrc hdst) (W32_v5 m ρ c)).trans (takeK_eq _ _ hsrc)

theorem W33_v7 : W33 m ρ c (Proc.devRef .tc main_v7) = tDst m c :=
  (K1_33 m ρ c main_v7 (by decide)).trans (W1_v7 m ρ c)

theorem W33_v82 (hsrc : InRange (tSrc m c)) (hdst : InRange (tDst m c)) :
    W33 m ρ c (Proc.devRef .tc main_v82) = tWh1 m c :=
  (keep33 m ρ c main_v82 (by decide)).trans (W32_v82 m ρ c hsrc hdst)

theorem W34_v84 (hsrc : InRange (tSrc m c)) (hdst : InRange (tDst m c)) :
    W34 m ρ c (Proc.devRef .tc main_v84) = tD1 m c :=
  (host13_1_v84 (W33 m ρ c) _ _ (W33_v82 m ρ c hsrc hdst) (W33_v7 m ρ c)).trans (takeK_eq _ _ hdst)

theorem W34_arg17 : W34 m ρ c (Proc.devRef .tc main_arg17) = tA1 m c :=
  K0_34 m ρ c main_arg17 (by decide)

theorem W35_v86 : W35 m ρ c (Proc.devRef .tc main_v86) = asum11 (tA1 m c) :=
  host13_2_v86 (W34 m ρ c) _ (W34_arg17 m ρ c)

theorem W35_v83 (hsrc : InRange (tSrc m c)) (hdst : InRange (tDst m c)) :
    W35 m ρ c (Proc.devRef .tc main_v83) = tS1 m c :=
  (K33_35 m ρ c main_v83 (by decide)).trans (W33_v83 m ρ c hsrc hdst)

theorem W35_v84 (hsrc : InRange (tSrc m c)) (hdst : InRange (tDst m c)) :
    W35 m ρ c (Proc.devRef .tc main_v84) = tD1 m c :=
  (keep35 m ρ c main_v84 (by decide)).trans (W34_v84 m ρ c hsrc hdst)

theorem W36_v87 (hsrc : InRange (tSrc m c)) (hdst : InRange (tDst m c)) :
    W36 m ρ c (Proc.devRef .tc main_v87) = Cert.ReferenceIdeal.Fns.col (tE1 m c) :=
  (W36_arr m ρ c 3).trans
    (arr13 (V35 m ρ) c _ _ _ (W35_v86 m ρ c) (W35_v83 m ρ c hsrc hdst) (W35_v84 m ρ c hsrc hdst))

theorem W37_v96 (hsrc : InRange (tSrc m c)) (hdst : InRange (tDst m c)) :
    W37 m ρ c (Proc.devRef .tc main_v96) = mlRow (Cert.ReferenceIdeal.Fns.col (tE1 m c)) :=
  host14_v96 (W36 m ρ c) _ (W36_v87 m ρ c hsrc hdst)

theorem W37_v83 (hsrc : InRange (tSrc m c)) (hdst : InRange (tDst m c)) :
    W37 m ρ c (Proc.devRef .tc main_v83) = tS1 m c :=
  (K35_37 m ρ c main_v83 (by decide)).trans (W35_v83 m ρ c hsrc hdst)

theorem W37_v87 (hsrc : InRange (tSrc m c)) (hdst : InRange (tDst m c)) :
    W37 m ρ c (Proc.devRef .tc main_v87) = Cert.ReferenceIdeal.Fns.col (tE1 m c) :=
  (keep37 m ρ c main_v87 (by decide)).trans (W36_v87 m ρ c hsrc hdst)

theorem W38_v97 (hsrc : InRange (tSrc m c)) (hdst : InRange (tDst m c)) :
    W38 m ρ c (Proc.devRef .tc main_v97) = Cert.ReferenceIdeal.Fns.msgOf (tE1 m c) (tS1 m c) :=
  (W38_arr m ρ c 3).trans
    (arr14 (V37 m ρ) c _ _ (W37_v96 m ρ c hsrc hdst) (W37_v83 m ρ c hsrc hdst) (W37_v87 m ρ c hsrc hdst))

theorem W38_v7 : W38 m ρ c (Proc.devRef .tc main_v7) = tDst m c :=
  (K1_38 m ρ c main_v7 (by decide)).trans (W1_v7 m ρ c)

theorem W38_arg18 : W38 m ρ c (Proc.devRef .tc main_arg18) = tG1 m c :=
  K0_38 m ρ c main_arg18 (by decide)

theorem W38_arg19 : W38 m ρ c (Proc.devRef .tc main_arg19) = tB1 m c :=
  K0_38 m ρ c main_arg19 (by decide)

theorem W39_v100 (hsrc : InRange (tSrc m c)) (hdst : InRange (tDst m c)) :
    W39 m ρ c (Proc.devRef .tc main_v100) = Cert.ReferenceIdeal.Fns.segsum (Cert.ReferenceIdeal.Fns.msgOf (tE1 m c) (tS1 m c)) (tDst m c) :=
  host15_v100 (W38 m ρ c) _ _ (W38_v97 m ρ c hsrc hdst) (W38_v7 m ρ c)

theorem W39_v101 : W39 m ρ c (Proc.devRef .tc main_v101) = shapeCast S1x64 (tG1 m c) shapeCasts_S64_S1x64 :=
  host15_v101 (W38 m ρ c) _ (W38_arg18 m ρ c)

theorem W39_v102 : W39 m ρ c (Proc.devRef .tc main_v102) = shapeCast S1x64 (tB1 m c) shapeCasts_S64_S1x64 :=
  host15_v102 (W38 m ρ c) _ (W38_arg19 m ρ c)

theorem W40_v103 (hsrc : InRange (tSrc m c)) (hdst : InRange (tDst m c)) :
    W40 m ρ c (Proc.devRef .tc main_v103)
      = Cert.ReferenceIdeal.Fns.gat (tWh1 m c) (tA1 m c) (tG1 m c) (tB1 m c) (tSrc m c) (tDst m c) :=
  (W40_arr m ρ c 3).trans
    (arr15 (V39 m ρ) c _ _ _ (W39_v100 m ρ c hsrc hdst) (W39_v101 m ρ c) (W39_v102 m ρ c))

end Chain

end ThreadT

theorem stackT (c : Dev nD)
    (hsrc : InRange (Cert.ReferenceIdeal.Fns.row0 (m ((c : Thread nD τ).loc main_arg3))))
    (hdst : InRange (Cert.ReferenceIdeal.Fns.row1 (m ((c : Thread nD τ).loc main_arg3)))) :
    W40 m ρ c (Proc.devRef .tc main_v103)
      = Cert.ReferenceIdeal.Fns.stack (m ((c : Thread nD τ).loc main_arg0)) (m ((c : Thread nD τ).loc main_arg3))
          (m ((c : Thread nD τ).loc main_arg12)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18)) (m ((c : Thread nD τ).loc main_arg19)) :=
  ThreadT.W40_v103 m ρ c hsrc hdst

theorem keepS (c : Dev nD) :
    W40 m ρ c (Proc.devRef .tc main_v55) = W20 m ρ c (Proc.devRef .tc main_v55) :=
  ThreadT.K20_40 m ρ c main_v55 (by decide)

end Cert.KernelIdeal.Val

end
-- ==== Proof.HeadPay.lean ====
import proofs.«400993_j24043226923663_1_alg».proof.Proof.Gen.KernelIdeal.Skeleton
import Idealize.ShloMosaic.Lib.ValueIdx
import Idealize.ShloMosaic.Lib.ValueLayout
import Idealize.ShloMosaic.Lib.StackMember
import Idealize.ShloMosaic.PureOps.Ideal.Laws

/-! One block of a head layer read at one entry: the block product at `(p, q)` is the sum over the contracted coordinate
of the operands' products, the bias row is read at column `q`, then the activation. -/

noncomputable section

namespace Cert.KernelIdeal.Val.Head

open Idealize.ShloMosaic Idealize.ShloMosaic.ValueIdx
open Cert.KernelIdeal Cert.KernelIdeal.Gen

theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

theorem logistic_apply {s : Shape} {φ : FTy} (a : FVec Ideal s φ) (i : s.Idx) : logistic a i = Ideal.logistic (a i) := rfl

theorem dot16_eq : dot_S10000x64_S64x32_S10000x32_1_0_0_1_n_n = DotDims.plain 10000 64 32 := rfl

theorem dot17_eq : dot_S10000x32_S32x1_S10000x1_1_0_0_1_n_n = DotDims.plain 10000 32 1 := rfl

theorem pay16_apply (v0 : Vec Ideal S10000x64 .f32) (v3 : Vec Ideal S64x32 .f32) (v6 : Vec Ideal S1x32 .f32)
    (p : Fin 10000) (q : Fin 32) :
    k16_pay1 v0 v3 v6 (ix2 p q)
      = max ((∑ c : Fin 64, v0 (ix2 p c) * v3 (ix2 c q)) + v6 (ix2 (0 : Fin 1) q)) (Ideal.ofBits .f32 0x00000000#32) := by
  unfold k16_pay1
  simp only [shapeCast_self]
  rw [maximumf_apply, addf_apply, broadcast_apply, dot16_eq, matmul_plain_apply, broadcastTo_1b_ab_apply]
  rfl

theorem pay17_apply (v0 : Vec Ideal S10000x32 .f32) (v3 : Vec Ideal S32x1 .f32) (v6 : Vec Ideal S1x1 .f32)
    (p : Fin 10000) (q : Fin 1) :
    k17_pay1 v0 v3 v6 (ix2 p q)
      = Ideal.logistic ((∑ c : Fin 32, v0 (ix2 p c) * v3 (ix2 c q)) + v6 (ix2 (0 : Fin 1) q)) := by
  unfold k17_pay1
  simp only [shapeCast_self]
  rw [logistic_apply, addf_apply, dot17_eq, matmul_plain_apply, broadcastTo_1b_ab_apply]
  rfl

end Cert.KernelIdeal.Val.Head

end
-- ==== Proof.HeadRef.lean ====
import proofs.«400993_j24043226923663_1_alg».proof.Proof.Fns
import Idealize.ShloMosaic.Lib.ValueIdx
import Idealize.ShloMosaic.Lib.ValueLayout
import Idealize.ShloMosaic.Lib.StackMember
import Idealize.ShloMosaic.Lib.IdealHost
import Idealize.ShloMosaic.PureOps.Ideal.Laws

/-! The reference's head layers read at one entry: row `P`, column `q` of `h · W` is the sum over the contracted coordinate;
the bias vector along every row is read at `q`; `1 / (1 + exp (-x))` is the logistic function by definition. -/

noncomputable section

namespace Cert.ReferenceIdeal.Fns.Head

open Idealize.ShloMosaic Idealize.ShloMosaic.TcCoe Idealize.ShloMosaic.ValueIdx
open Cert.ReferenceIdeal
open Cert.ReferenceIdeal.Facts₀ Cert.ReferenceIdeal.Facts

theorem broadcastInDim_row_apply {α : Type} {n : Nat} (hd : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] hd x (ix2 u q) = x (ix1 q) := by
  refine broadcastInDim_apply ![1] hd x (ix2 u q) (ix1 q) fun a => ?_
  match a with
  | ⟨0, _⟩ =>
    show q.val = if n = 1 then 0 else q.val
    split
    · have := q.isLt; omega
    · rfl

theorem hostExp_apply {s : Shape} {φ : FTy} (a : FVec Ideal s φ) (i : s.Idx) : Host.exp a i = Ideal.exp (a i) := rfl

theorem hostNegf_apply {s : Shape} {φ : FTy} (a : FVec Ideal s φ) (i : s.Idx) : Host.negf a i = -(a i) := rfl

theorem dotRef16_eq : dot_S100000x64_S64x32_S100000x32_1_0_0_1_n_n = DotDims.plain 100000 64 32 := rfl

theorem dotRef17_eq : dot_S100000x32_S32x1_S100000x1_1_0_0_1_n_n = DotDims.plain 100000 32 1 := rfl

theorem denseRelu_apply (h : (⟨S100000x64, .f32⟩ : BufTy).Contents (Elt Ideal)) (w : (⟨S64x32, .f32⟩ : BufTy).Contents (Elt Ideal))
    (b : (⟨S32, .f32⟩ : BufTy).Contents (Elt Ideal)) (P : Fin 100000) (q : Fin 32) :
    Cert.ReferenceIdeal.Fns.denseRelu h w b (ix2 P q)
      = max ((∑ c : Fin 64, h (ix2 P c) * w (ix2 c q)) + b (ix1 q)) (Ideal.ofBits .f32 0x00000000#32) := by
  unfold Cert.ReferenceIdeal.Fns.denseRelu
  rw [maximumf_apply, addf_apply, dotRef16_eq, StackMember.dotGeneral_plain_apply, broadcastInDim_oneRow_apply,
    broadcastInDim_row_apply, broadcastInDim_scalar_apply]
  rfl

theorem denseSigmoid_apply (h : (⟨S100000x32, .f32⟩ : BufTy).Contents (Elt Ideal)) (w : (⟨S32x1, .f32⟩ : BufTy).Contents (Elt Ideal))
    (b : (⟨S1, .f32⟩ : BufTy).Contents (Elt Ideal)) (P : Fin 100000) (q : Fin 1) :
    Cert.ReferenceIdeal.Fns.denseSigmoid h w b (ix2 P q)
      = Ideal.logistic ((∑ c : Fin 32, h (ix2 P c) * w (ix2 c q)) + b (ix1 q)) := by
  unfold Cert.ReferenceIdeal.Fns.denseSigmoid
  rw [hostDivf_apply, addf_apply, hostExp_apply, hostNegf_apply, addf_apply, broadcastInDim_scalar_apply,
    dotRef17_eq, StackMember.dotGeneral_plain_apply, broadcastInDim_oneRow_apply, broadcastInDim_row_apply]
  show Ideal.div (Ideal.ofBits .f32 0x3F800000#32) (Ideal.ofBits .f32 0x3F800000#32 + Ideal.exp (-_)) = _
  rw [Ideal.ofBits_one_f32]
  rfl

end Cert.ReferenceIdeal.Fns.Head

end
-- ==== Proof.Head.lean ====
import proofs.«400993_j24043226923663_1_alg».proof.Proof.Gen.KernelIdeal.Frame
import proofs.«400993_j24043226923663_1_alg».proof.Proof.Fns
import proofs.«400993_j24043226923663_1_alg».proof.Proof.HeadPay
import proofs.«400993_j24043226923663_1_alg».proof.Proof.HeadRef
import proofs.«400993_j24043226923663_1_alg».proof.Proof.MessageTile
import Idealize.ShloMosaic.Lib.Pipeline.Value
import Idealize.ShloMosaic.Lib.ValueIdx
import Idealize.ShloMosaic.Lib.ValueLayout
import Idealize.ShloMosaic.PureOps.Ideal.Laws

/-! The head's two dense regions (16: `relu (h · W₁ + b₁)`, 17: `sigmoid (h · W₂ + b₂)`). Each grid point writes back its
ten thousand rows of ONE function of the region's three input arrays, and the ten blocks tile the output array. -/

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

namespace Head

open Cert.ReferenceIdeal.Fns.Head Cert.MessageTile

theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

theorem iblk16_0_apply (c : Dev nD) (t : Fin cfg16.N) (p : Fin 10000) (k : Fin 64) (P : Fin 100000)
    (hP : P.val = t.val * 10000 + p.val) :
    (iblk16 V c 0 t : Vec Ideal S10000x64 .f32) (ix2 p k)
      = (V c (Pipeline.arrRef spec16 0) : S100000x64.Idx → Elt Ideal .f32) (ix2 P k) := by
  obtain ⟨e0, e1, -⟩ := idx16 t
  exact congrArg (V c (Pipeline.arrRef spec16 0)) (ix2_eq _ _ _ (by show win16_0.index t (0 : Fin 2) * 10000 + 1 * p.val = P.val; omega) (by show win16_0.index t (1 : Fin 2) * 64 + 1 * k.val = k.val; omega))

theorem iblk16_1_apply (c : Dev nD) (t : Fin cfg16.N) (k : Fin 64) (q : Fin 32) :
    (iblk16 V c 1 t : Vec Ideal S64x32 .f32) (ix2 k q)
      = (V c (Pipeline.arrRef spec16 1) : S64x32.Idx → Elt Ideal .f32) (ix2 k q) := by
  obtain ⟨-, -, e2, e3, -⟩ := idx16 t
  exact congrArg (V c (Pipeline.arrRef spec16 1)) (ix2_eq _ _ _ (by show win16_1.index t (0 : Fin 2) * 64 + 1 * k.val = k.val; omega) (by show win16_1.index t (1 : Fin 2) * 32 + 1 * q.val = q.val; omega))

theorem iblk16_2_apply (c : Dev nD) (t : Fin cfg16.N) (u : Fin 1) (q : Fin 32) :
    (iblk16 V c 2 t : Vec Ideal S1x32 .f32) (ix2 u q)
      = (V c (Pipeline.arrRef spec16 2) : S1x32.Idx → Elt Ideal .f32) (ix2 u q) := by
  obtain ⟨-, -, -, -, e4, e5, -⟩ := idx16 t
  exact congrArg (V c (Pipeline.arrRef spec16 2)) (ix2_eq _ _ _ (by show win16_2.index t (0 : Fin 2) * 1 + 1 * u.val = u.val; omega) (by show win16_2.index t (1 : Fin 2) * 32 + 1 * q.val = q.val; omega))

-- Row `r` of the output lies in the block of point `r / 10000`.
theorem cover16 (i : S100000x32.Idx) :
    ∃ t : Fin cfg16.N, (cfg16.win 3).flush t = true ∧ i ∈ ((cfg16.win 3).blk t).view.set := by
  have hi0 : (i 0).val < 100000 := (i 0).isLt
  have hi1 : (i 1).val < 32 := (i 1).isLt
  have ht : (i 0).val / 10000 < cfg16.N := by rw [show cfg16.N = 10 from N_16]; omega
  obtain ⟨-, -, -, -, -, -, d0, d1⟩ := idx16 ⟨_, ht⟩
  refine ⟨⟨_, ht⟩, flush16_3 _, ?_⟩
  show i ∈ ((View.whole main_v106).slice (win16_3.rect ⟨(i 0).val / 10000, ht⟩)).set
  rw [View.set_slice_whole]
  refine mem_unit_ix2 i ?_ ?_
  · show win16_3.index _ (0 : Fin 2) * 10000 ≤ (i 0).val ∧ (i 0).val < win16_3.index _ (0 : Fin 2) * 10000 + 10000
    rw [d0]; exact row_tile _ 10000 (by decide)
  · show win16_3.index _ (1 : Fin 2) * 32 ≤ (i 1).val ∧ (i 1).val < win16_3.index _ (1 : Fin 2) * 32 + 32
    rw [d1]; omega

theorem idx17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

theorem iblk17_0_apply (c : Dev nD) (t : Fin cfg17.N) (p : Fin 10000) (k : Fin 32) (P : Fin 100000)
    (hP : P.val = t.val * 10000 + p.val) :
    (iblk17 V c 0 t : Vec Ideal S10000x32 .f32) (ix2 p k)
      = (V c (Pipeline.arrRef spec17 0) : S100000x32.Idx → Elt Ideal .f32) (ix2 P k) := by
  obtain ⟨e0, e1, -⟩ := idx17 t
  exact congrArg (V c (Pipeline.arrRef spec17 0)) (ix2_eq _ _ _ (by show win17_0.index t (0 : Fin 2) * 10000 + 1 * p.val = P.val; omega) (by show win17_0.index t (1 : Fin 2) * 32 + 1 * k.val = k.val; omega))

theorem iblk17_1_apply (c : Dev nD) (t : Fin cfg17.N) (k : Fin 32) (q : Fin 1) :
    (iblk17 V c 1 t : Vec Ideal S32x1 .f32) (ix2 k q)
      = (V c (Pipeline.arrRef spec17 1) : S32x1.Idx → Elt Ideal .f32) (ix2 k q) := by
  obtain ⟨-, -, e2, e3, -⟩ := idx17 t
  exact congrArg (V c (Pipeline.arrRef spec17 1)) (ix2_eq _ _ _ (by show win17_1.index t (0 : Fin 2) * 32 + 1 * k.val = k.val; omega) (by show win17_1.index t (1 : Fin 2) * 1 + 1 * q.val = q.val; omega))

theorem iblk17_2_apply (c : Dev nD) (t : Fin cfg17.N) (u : Fin 1) (q : Fin 1) :
    (iblk17 V c 2 t : Vec Ideal S1x1 .f32) (ix2 u q)
      = (V c (Pipeline.arrRef spec17 2) : S1x1.Idx → Elt Ideal .f32) (ix2 u q) := by
  obtain ⟨-, -, -, -, e4, e5, -⟩ := idx17 t
  exact congrArg (V c (Pipeline.arrRef spec17 2)) (ix2_eq _ _ _ (by show win17_2.index t (0 : Fin 2) * 1 + 1 * u.val = u.val; omega) (by show win17_2.index t (1 : Fin 2) * 1 + 1 * q.val = q.val; omega))

theorem cover17 (i : S100000x1.Idx) :
    ∃ t : Fin cfg17.N, (cfg17.win 3).flush t = true ∧ i ∈ ((cfg17.win 3).blk t).view.set := by
  have hi0 : (i 0).val < 100000 := (i 0).isLt
  have hi1 : (i 1).val < 1 := (i 1).isLt
  have ht : (i 0).val / 10000 < cfg17.N := by rw [show cfg17.N = 10 from N_17]; omega
  obtain ⟨-, -, -, -, -, -, d0, d1⟩ := idx17 ⟨_, ht⟩
  refine ⟨⟨_, ht⟩, flush17_3 _, ?_⟩
  show i ∈ ((View.whole main_v108).slice (win17_3.rect ⟨(i 0).val / 10000, ht⟩)).set
  rw [View.set_slice_whole]
  refine mem_unit_ix2 i ?_ ?_
  · show win17_3.index _ (0 : Fin 2) * 10000 ≤ (i 0).val ∧ (i 0).val < win17_3.index _ (0 : Fin 2) * 10000 + 10000
    rw [d0]; exact row_tile _ 10000 (by decide)
  · show win17_3.index _ (1 : Fin 2) * 1 ≤ (i 1).val ∧ (i 1).val < win17_3.index _ (1 : Fin 2) * 1 + 1
    rw [d1]; omega

end Head

-- Point `t` reads rows `10000 t` onwards of the input, and the weights and the bias whole, so it writes block `t` of the layer's output.
open Head Cert.ReferenceIdeal.Fns.Head Cert.MessageTile in
theorem arr16 (c : Dev nD) (x : (⟨S100000x64, .f32⟩ : BufTy).Contents (Elt Ideal)) (w : (⟨S64x32, .f32⟩ : BufTy).Contents (Elt Ideal)) (b : (⟨S32, .f32⟩ : BufTy).Contents (Elt Ideal))
    (hx : V c (Pipeline.arrRef spec16 0) = x) (hw : V c (Pipeline.arrRef spec16 1) = w)
    (hb : V c (Pipeline.arrRef spec16 2) = shapeCast S1x32 b shapeCasts_S32_S1x32) :
    (dat16 V c).arrAt 3 cfg16.N = Cert.ReferenceIdeal.Fns.denseRelu x w b := by
  refine (dat16 V c).arrAt_eq_of_cover 3 _ (fun t _ => ?_) cover16
  show (cfg16.win 3).cut (grid16.coords t) ((dat16 V c).after 3 t) = _
  rw [after16_3]
  unfold out16_3
  rw [View.canon_unit_zero zero2]
  simp only [View.ld_unit_zero (S := S10000x64) zero2, View.ld_unit_zero (S := S64x32) zero2, View.ld_unit_zero (S := S1x32) zero2]
  obtain ⟨-, -, -, -, -, -, e6, e7⟩ := idx16 t
  have ht : t.val < 10 := Nat.lt_of_lt_of_eq t.isLt N_16
  refine funext fun (j : S10000x32.Idx) => ?_
  obtain ⟨p, q, rfl⟩ : ∃ (p : Fin 10000) (q : Fin 32), j = ix2 p q := ⟨j 0, j 1, eq_ix2 j⟩
  have hP : t.val * 10000 + p.val < 100000 := by have := p.isLt; omega
  show k16_pay1 (iblk16 V c 0 t) (iblk16 V c 1 t) (iblk16 V c 2 t) (ix2 p q)
      = Cert.ReferenceIdeal.Fns.denseRelu x w b (((cfg16.win 3).blk t).view.emb (ix2 p q))
  have hemb : ((cfg16.win 3).blk t).view.emb (ix2 p q) = ix2 (⟨t.val * 10000 + p.val, hP⟩ : Fin 100000) q :=
    ix2_eq _ _ _ (by show win16_3.index t (0 : Fin 2) * 10000 + 1 * p.val = t.val * 10000 + p.val; omega) (by show win16_3.index t (1 : Fin 2) * 32 + 1 * q.val = q.val; omega)
  rw [hemb]
  have hb' : iblk16 V c 2 t (ix2 (0 : Fin 1) q) = b (ix1 q) :=
    (iblk16_2_apply V c t 0 q).trans (by rw [hb]; exact shapeCast_a_1a_apply b _ 0 q)
  rw [pay16_apply, denseRelu_apply, hb']
  refine congrArg (fun s => max (s + b (ix1 q)) _) (Finset.sum_congr rfl fun k _ => ?_)
  rw [iblk16_0_apply V c t p k ⟨_, hP⟩ rfl, iblk16_1_apply, hx, hw]

open Head Cert.ReferenceIdeal.Fns.Head Cert.MessageTile in
theorem arr17 (c : Dev nD) (x : (⟨S100000x32, .f32⟩ : BufTy).Contents (Elt Ideal)) (w : (⟨S32x1, .f32⟩ : BufTy).Contents (Elt Ideal)) (b : (⟨S1, .f32⟩ : BufTy).Contents (Elt Ideal))
    (hx : V c (Pipeline.arrRef spec17 0) = x) (hw : V c (Pipeline.arrRef spec17 1) = w)
    (hb : V c (Pipeline.arrRef spec17 2) = shapeCast S1x1 b shapeCasts_S1_S1x1) :
    (dat17 V c).arrAt 3 cfg17.N = Cert.ReferenceIdeal.Fns.denseSigmoid x w b := by
  refine (dat17 V c).arrAt_eq_of_cover 3 _ (fun t _ => ?_) cover17
  show (cfg17.win 3).cut (grid17.coords t) ((dat17 V c).after 3 t) = _
  rw [after17_3]
  unfold out17_3
  rw [View.canon_unit_zero zero2]
  simp only [View.ld_unit_zero (S := S10000x32) zero2, View.ld_unit_zero (S := S32x1) zero2, View.ld_unit_zero (S := S1x1) zero2]
  obtain ⟨-, -, -, -, -, -, e6, e7⟩ := idx17 t
  have ht : t.val < 10 := Nat.lt_of_lt_of_eq t.isLt N_17
  refine funext fun (j : S10000x1.Idx) => ?_
  obtain ⟨p, q, rfl⟩ : ∃ (p : Fin 10000) (q : Fin 1), j = ix2 p q := ⟨j 0, j 1, eq_ix2 j⟩
  have hP : t.val * 10000 + p.val < 100000 := by have := p.isLt; omega
  show k17_pay1 (iblk17 V c 0 t) (iblk17 V c 1 t) (iblk17 V c 2 t) (ix2 p q)
      = Cert.ReferenceIdeal.Fns.denseSigmoid x w b (((cfg17.win 3).blk t).view.emb (ix2 p q))
  have hemb : ((cfg17.win 3).blk t).view.emb (ix2 p q) = ix2 (⟨t.val * 10000 + p.val, hP⟩ : Fin 100000) q :=
    ix2_eq _ _ _ (by show win17_3.index t (0 : Fin 2) * 10000 + 1 * p.val = t.val * 10000 + p.val; omega) (by show win17_3.index t (1 : Fin 2) * 1 + 1 * q.val = q.val; omega)
  rw [hemb]
  have hb' : iblk17 V c 2 t (ix2 (0 : Fin 1) q) = b (ix1 q) :=
    (iblk17_2_apply V c t 0 q).trans (by rw [hb]; exact shapeCast_a_1a_apply b _ 0 q)
  rw [pay17_apply, denseSigmoid_apply, hb']
  refine congrArg (fun s => Ideal.logistic (s + b (ix1 q))) (Finset.sum_congr rfl fun k _ => ?_)
  rw [iblk17_0_apply V c t p k ⟨_, hP⟩ rfl, iblk17_1_apply, hx, hw]

end Cert.KernelIdeal.Val

end
-- ==== Proof.ThreadHead.lean ====
import proofs.«400993_j24043226923663_1_alg».proof.Proof.Gen.KernelIdeal.Frame
import proofs.«400993_j24043226923663_1_alg».proof.Proof.Fns
import proofs.«400993_j24043226923663_1_alg».proof.Proof.Head
import Idealize.ShloMosaic.Lib.StableHlo.Run

/-! From the two stacks' outputs to the result: their sum, then the two dense regions; the result buffer at the last
boundary is the reference's head of the sum of the stacks. -/

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

theorem W41_arg20 (c : Dev nD) : W41 m ρ c (Proc.devRef .tc main_arg20) = (m ((c : Thread nD τ).loc main_arg20)) :=
  calc W41 m ρ c (Proc.devRef .tc main_arg20)
    _ = W42 m ρ c (Proc.devRef .tc main_arg20) :=
        ((W42_arr m ρ c 1).trans (((dat16 (V41 m ρ) c).arrAt_in 1 rfl _).trans (A_eq16 (V41 m ρ) c 1))).symm
    _ = W43 m ρ c (Proc.devRef .tc main_arg20) := (StableHlo.after_of_forall_not_mem _ _ (List.forall_iff_forall_mem.mp (by
      simp only [hostOps17, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W44 m ρ c (Proc.devRef .tc main_arg20) := (W44_of_ne m ρ c main_arg20 (by decide)).symm
    _ = (m ((c : Thread nD τ).loc main_arg20)) := W44_main_arg20 m ρ c

theorem W40_arg21 (c : Dev nD) : W40 m ρ c (Proc.devRef .tc main_arg21) = (m ((c : Thread nD τ).loc main_arg21)) :=
  calc W40 m ρ c (Proc.devRef .tc main_arg21)
    _ = W41 m ρ c (Proc.devRef .tc main_arg21) := (StableHlo.after_of_forall_not_mem _ _ (List.forall_iff_forall_mem.mp (by
      simp only [hostOps16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W42 m ρ c (Proc.devRef .tc main_arg21) := (W42_of_ne m ρ c main_arg21 (by decide)).symm
    _ = W43 m ρ c (Proc.devRef .tc main_arg21) := (StableHlo.after_of_forall_not_mem _ _ (List.forall_iff_forall_mem.mp (by
      simp only [hostOps17, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W44 m ρ c (Proc.devRef .tc main_arg21) := (W44_of_ne m ρ c main_arg21 (by decide)).symm
    _ = (m ((c : Thread nD τ).loc main_arg21)) := W44_main_arg21 m ρ c

theorem W43_arg22 (c : Dev nD) : W43 m ρ c (Proc.devRef .tc main_arg22) = (m ((c : Thread nD τ).loc main_arg22)) :=
  calc W43 m ρ c (Proc.devRef .tc main_arg22)
    _ = W44 m ρ c (Proc.devRef .tc main_arg22) :=
        ((W44_arr m ρ c 1).trans (((dat17 (V43 m ρ) c).arrAt_in 1 rfl _).trans (A_eq17 (V43 m ρ) c 1))).symm
    _ = (m ((c : Thread nD τ).loc main_arg22)) := W44_main_arg22 m ρ c

theorem W42_arg23 (c : Dev nD) : W42 m ρ c (Proc.devRef .tc main_arg23) = (m ((c : Thread nD τ).loc main_arg23)) :=
  calc W42 m ρ c (Proc.devRef .tc main_arg23)
    _ = W43 m ρ c (Proc.devRef .tc main_arg23) := (StableHlo.after_of_forall_not_mem _ _ (List.forall_iff_forall_mem.mp (by
      simp only [hostOps17, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W44 m ρ c (Proc.devRef .tc main_arg23) := (W44_of_ne m ρ c main_arg23 (by decide)).symm
    _ = (m ((c : Thread nD τ).loc main_arg23)) := W44_main_arg23 m ρ c

theorem W41_v104 (c : Dev nD) :
    (W41 m ρ c (Proc.devRef .tc main_v104) : (⟨S100000x64, .f32⟩ : BufTy).Contents (Elt Ideal))
      = addf (F := Ideal) (s := S100000x64) (φ := .f32) (W40 m ρ c (Proc.devRef .tc main_v55) : (⟨S100000x64, .f32⟩ : BufTy).Contents (Elt Ideal)) (W40 m ρ c (Proc.devRef .tc main_v103) : (⟨S100000x64, .f32⟩ : BufTy).Contents (Elt Ideal)) := by
  show StableHlo.after hostOps16 (W40 m ρ c) (Proc.devRef .tc main_v104) = _
  after_results <;> rfl

theorem W41_v105 (c : Dev nD) :
    W41 m ρ c (Proc.devRef .tc main_v105)
      = shapeCast S1x32 (W40 m ρ c (Proc.devRef .tc main_arg21)) shapeCasts_S32_S1x32 := by
  show StableHlo.after hostOps16 (W40 m ρ c) (Proc.devRef .tc main_v105) = _
  after_results <;> rfl

theorem W43_v107 (c : Dev nD) :
    W43 m ρ c (Proc.devRef .tc main_v107)
      = shapeCast S1x1 (W42 m ρ c (Proc.devRef .tc main_arg23)) shapeCasts_S1_S1x1 := by
  show StableHlo.after hostOps17 (W42 m ρ c) (Proc.devRef .tc main_v107) = _
  after_results <;> rfl

theorem W43_v106 (c : Dev nD) : W43 m ρ c (Proc.devRef .tc main_v106) = W42 m ρ c (Proc.devRef .tc main_v106) :=
  StableHlo.after_of_forall_not_mem _ _ (List.forall_iff_forall_mem.mp (by
      simp only [hostOps17, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem out_of_stacks (c : Dev nD) :
    W44 m ρ c (Proc.devRef .tc main_v108)
      = Cert.ReferenceIdeal.Fns.denseSigmoid
          (Cert.ReferenceIdeal.Fns.denseRelu
            (addf (F := Ideal) (s := S100000x64) (φ := .f32) (W40 m ρ c (Proc.devRef .tc main_v55) : (⟨S100000x64, .f32⟩ : BufTy).Contents (Elt Ideal)) (W40 m ρ c (Proc.devRef .tc main_v103) : (⟨S100000x64, .f32⟩ : BufTy).Contents (Elt Ideal)))
            (m ((c : Thread nD τ).loc main_arg20)) (m ((c : Thread nD τ).loc main_arg21)))
          (m ((c : Thread nD τ).loc main_arg22)) (m ((c : Thread nD τ).loc main_arg23)) := by
  have h106 : W42 m ρ c (Proc.devRef .tc main_v106)
      = Cert.ReferenceIdeal.Fns.denseRelu
          (addf (F := Ideal) (s := S100000x64) (φ := .f32) (W40 m ρ c (Proc.devRef .tc main_v55) : (⟨S100000x64, .f32⟩ : BufTy).Contents (Elt Ideal)) (W40 m ρ c (Proc.devRef .tc main_v103) : (⟨S100000x64, .f32⟩ : BufTy).Contents (Elt Ideal)))
          (m ((c : Thread nD τ).loc main_arg20)) (m ((c : Thread nD τ).loc main_arg21)) :=
    (W42_arr m ρ c 3).trans
      (arr16 (V41 m ρ) c _ _ _ (W41_v104 m ρ c) (W41_arg20 m ρ c) ((W41_v105 m ρ c).trans (by rw [W40_arg21])))
  exact (W44_arr m ρ c 3).trans
    (arr17 (V43 m ρ) c _ _ _ ((W43_v106 m ρ c).trans h106) (W43_arg22 m ρ c) ((W43_v107 m ρ c).trans (by rw [W42_arg23])))

end Cert.KernelIdeal.Val

end
-- ==== Proof.lean ====
import proofs.«400993_j24043226923663_1_alg».proof.Defs
import proofs.«400993_j24043226923663_1_alg».proof.Proof.Gen.Kernel
import proofs.«400993_j24043226923663_1_alg».proof.Proof.Gen.Kernel.Frame
import proofs.«400993_j24043226923663_1_alg».proof.Proof.Gen.KernelIdeal
import proofs.«400993_j24043226923663_1_alg».proof.Proof.Gen.KernelIdeal.Frame
import proofs.«400993_j24043226923663_1_alg».proof.Proof.Gen.ReferenceIdeal
import proofs.«400993_j24043226923663_1_alg».proof.Proof.Gen.Pre_finite_inputs
import proofs.«400993_j24043226923663_1_alg».proof.Proof.Fns
import proofs.«400993_j24043226923663_1_alg».proof.Proof.RunK
import proofs.«400993_j24043226923663_1_alg».proof.Proof.RefRun
import proofs.«400993_j24043226923663_1_alg».proof.Proof.Take
import proofs.«400993_j24043226923663_1_alg».proof.Proof.ThreadS
import proofs.«400993_j24043226923663_1_alg».proof.Proof.ThreadT
import proofs.«400993_j24043226923663_1_alg».proof.Proof.ThreadHead
import Idealize.ShloMosaic.Adequacy
import Idealize.ShloMosaic.Init

/-! A two-stack graph attention network against its reference, over the extended reals. Every region's output array is
the reference's own function of the region's input arrays, so the result buffer holds the reference's network of the
arguments. The programs differ only in their gathers, which agree on indices in range, and the precondition keeps every
edge index in `[0, 100000)`. No law used needs finiteness. -/

noncomputable section

namespace Cert.KernelIdeal.Val

open Idealize.ShloMosaic Idealize.ShloMosaic.TcCoe Idealize.SL.Sem
open Cert.KernelIdeal Cert.KernelIdeal.Gen

theorem kernel_out (m : (ℓ : Loc nD τ sig) → Buf (Elt Ideal) ℓ) (ρ : Dev nD → PrngReg) (c : Dev nD)
    (h1 : InRange (Cert.ReferenceIdeal.Fns.row0 (m ((c : Thread nD τ).loc main_arg1)))) (h2 : InRange (Cert.ReferenceIdeal.Fns.row1 (m ((c : Thread nD τ).loc main_arg1))))
    (h3 : InRange (Cert.ReferenceIdeal.Fns.row0 (m ((c : Thread nD τ).loc main_arg3)))) (h4 : InRange (Cert.ReferenceIdeal.Fns.row1 (m ((c : Thread nD τ).loc main_arg3)))) :
    W44 m ρ c (Proc.devRef .tc main_v108)
      = Cert.ReferenceIdeal.Fns.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  rw [out_of_stacks m ρ c, keepS m ρ c, stackS m ρ c h1 h2, stackT m ρ c h3 h4]
  unfold Cert.ReferenceIdeal.Fns.out
  rfl

end Cert.KernelIdeal.Val

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run_out m ρ)

theorem algebraic : Cert.algebraic_KernelIdeal_ReferenceIdeal := by
  intro m ρ m' ρ' hpre hagree
  refine ⟨fun c => Cert.ReferenceIdeal.Fns.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · refine (θ_run Cert.KernelIdeal.defs _ _).mono (fun r h c => ⟨(h c).1.trans ?_, (h c).2⟩) (Cert.KernelIdeal.Val.run_main m ρ)
    obtain ⟨h1, h2, h3, h4⟩ := Cert.KernelIdeal.Val.pre_inRange m hpre c
    exact Cert.KernelIdeal.Val.kernel_out m ρ c h1 h2 h3 h4
  · refine (θ_run Cert.ReferenceIdeal.defs _ _).mono (fun r h c => ⟨(h c).1.trans ?_, (h c).2⟩) (Cert.ReferenceIdeal.Run.run_out m' ρ')
    obtain ⟨e0, e1, e2, e3, e4, e5, e6, e7, e8, e9, e10, e11, e12, e13, e14, e15, e16, e17, e18, e19, e20, e21, e22, e23⟩ := hagree c
    rw [e0, e1, e3, e4, e5, e6, e7, e8, e9, e10, e11, e12, e13, e14, e15, e16, e17, e18, e19, e20, e21, e22, e23]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
